-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1024 : Shape := ⟨2, ![10000, 1024]⟩
abbrev S2x80000 : Shape := ⟨2, ![2, 80000]⟩
abbrev S10000 : Shape := ⟨1, ![10000]⟩
abbrev S32x16x800 : Shape := ⟨3, ![32, 16, 800]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1 : Shape := ⟨1, ![1]⟩
abbrev S80x64 : Shape := ⟨2, ![80, 64]⟩
abbrev S192x1 : Shape := ⟨2, ![192, 1]⟩
abbrev S_ : Shape := ⟨0, ![]⟩

class Facts : Prop where
  bcast_S_S10000x1024 : S_.BroadcastsInDim S10000x1024 (![] : Fin 0 → Fin S10000x1024.rank)
  reducesTo_S10000x1024_S_d0_1 : S10000x1024.ReducesTo [0, 1] S_
  h_S_ : 0 < S_.numel
  bcast_S_S32x16x800 : S_.BroadcastsInDim S32x16x800 (![] : Fin 0 → Fin S32x16x800.rank)
  reducesTo_S32x16x800_S_d0_1_2 : S32x16x800.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S80x64 : S_.BroadcastsInDim S80x64 (![] : Fin 0 → Fin S80x64.rank)
  reducesTo_S80x64_S_d0_1 : S80x64.ReducesTo [0, 1] S_
  bcast_S_S192x1 : S_.BroadcastsInDim S192x1 (![] : Fin 0 → Fin S192x1.rank)
  reducesTo_S192x1_S_d0_1 : S192x1.ReducesTo [0, 1] S_

variable [Facts]

def fn_part9 {F : FTy → Type} [FloatOps F] (main_arg35 : FVec F S1 .f32) (main_v153 : IVec S_ 1) : IVec S_ 1 :=
  let main_v154 : FVec F S1 .f32 := Host.absf main_arg35
  let main_cst_60 : FVec F S_ .f32 := constant S_ .f32 0x7F800000#32
  let main_v155 : FVec F S1 .f32 := broadcastInDim S1 ![] bcast_S_S1 main_cst_60
  let main_v156 : IVec S1 1 := cmpf .olt main_v154 main_v155
  let main_c_61 : IVec S_ 1 := constantI S_ 1 1#1
  let main_v157 : IVec S_ 1 := (fun x v => Host.reduce IntOp.andi x v reducesTo_S1_S_d0 h_S_) main_v156 main_c_61
  let main_v158 : IVec S_ 1 := andi main_v153 main_v157
  main_v158

def fn_part8 {F : FTy → Type} [FloatOps F] (main_arg32 : FVec F S80x64 .f32) (main_arg33 : FVec F S64 .f32) (main_arg34 : FVec F S192x1 .f32) (main_arg35 : FVec F S1 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S80x64 .f32 := Host.absf main_arg32
  let main_cst_54 : FVec F S_ .f32 := constant S_ .f32 0x7F800000#32
  let main_v140 : FVec F S80x64 .f32 := broadcastInDim S80x64 ![] bcast_S_S80x64 main_cst_54
  let main_v141 : IVec S80x64 1 := cmpf .olt main_v139 main_v140
  let main_c_55 : IVec S_ 1 := constantI S_ 1 1#1
  let main_v142 : IVec S_ 1 := (fun x v => Host.reduce IntOp.andi x v reducesTo_S80x64_S_d0_1 h_S_) main_v141 main_c_55
  let main_v143 : IVec S_ 1 := andi main_v138 main_v142
  let main_v144 : FVec F S64 .f32 := Host.absf main_arg33
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S192x1 .f32 := Host.absf main_arg34
  let main_cst_58 : FVec F S_ .f32 := constant S_ .f32 0x7F800000#32
  let main_v150 : FVec F S192x1 .f32 := broadcastInDim S192x1 ![] bcast_S_S192x1 main_cst_58
  let main_v151 : IVec S192x1 1 := cmpf .olt main_v149 main_v150
  let main_c_59 : IVec S_ 1 := constantI S_ 1 1#1
  let main_v152 : IVec S_ 1 := (fun x v => Host.reduce IntOp.andi x v reducesTo_S192x1_S_d0_1 h_S_) main_v151 main_c_59
  let main_v153 : IVec S_ 1 := andi main_v148 main_v152
  fn_part9 (F := F) main_arg35 main_v153

def fn_part7 {F : FTy → Type} [FloatOps F] (main_arg29 : FVec F S1 .f32) (main_arg30 : FVec F S80x64 .f32) (main_arg31 : FVec F S64 .f32) (main_arg32 : FVec F S80x64 .f32) (main_arg33 : FVec F S64 .f32) (main_arg34 : FVec F S192x1 .f32) (main_arg35 : FVec F S1 .f32) (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  let main_v124 : FVec F S1 .f32 := Host.absf main_arg29
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  let main_v129 : FVec F S80x64 .f32 := Host.absf main_arg30
  let main_cst_50 : FVec F S_ .f32 := constant S_ .f32 0x7F800000#32
  let main_v130 : FVec F S80x64 .f32 := broadcastInDim S80x64 ![] bcast_S_S80x64 main_cst_50
  let main_v131 : IVec S80x64 1 := cmpf .olt main_v129 main_v130
  let main_c_51 : IVec S_ 1 := constantI S_ 1 1#1
  let main_v132 : IVec S_ 1 := (fun x v => Host.reduce IntOp.andi x v reducesTo_S80x64_S_d0_1 h_S_) main_v131 main_c_51
  let main_v133 : IVec S_ 1 := andi main_v128 main_v132
  let main_v134 : FVec F S64 .f32 := Host.absf main_arg31
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg32 main_arg33 main_arg34 main_arg35 main_v133 main_v136

def fn_part6 {F : FTy → Type} [FloatOps F] (main_arg25 : FVec F S1 .f32) (main_arg26 : FVec F S1 .f32) (main_arg27 : FVec F S1 .f32) (main_arg28 : FVec F S1 .f32) (main_arg29 : FVec F S1 .f32) (main_arg30 : FVec F S80x64 .f32) (main_arg31 : FVec F S64 .f32) (main_arg32 : FVec F S80x64 .f32) (main_arg33 : FVec F S64 .f32) (main_arg34 : FVec F S192x1 .f32) (main_arg35 : FVec F S1 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_v104 : FVec F S1 .f32 := Host.absf main_arg25
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : FVec F S1 .f32 := Host.absf main_arg26
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_v114 : FVec F S1 .f32 := Host.absf main_arg27
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_v119 : FVec F S1 .f32 := Host.absf main_arg28
  fn_part7 (F := F) main_arg29 main_arg30 main_arg31 main_arg32 main_arg33 main_arg34 main_arg35 main_v118 main_v119

def fn_part5 {F : FTy → Type} [FloatOps F] (main_arg22 : FVec F S1 .f32) (main_arg23 : FVec F S1 .f32) (main_arg24 : FVec F S1 .f32) (main_arg25 : FVec F S1 .f32) (main_arg26 : FVec F S1 .f32) (main_arg27 : FVec F S1 .f32) (main_arg28 : FVec F S1 .f32) (main_arg29 : FVec F S1 .f32) (main_arg30 : FVec F S80x64 .f32) (main_arg31 : FVec F S64 .f32) (main_arg32 : FVec F S80x64 .f32) (main_arg33 : FVec F S64 .f32) (main_arg34 : FVec F S192x1 .f32) (main_arg35 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S1 .f32 := Host.absf main_arg22
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S1 .f32 := Host.absf main_arg23
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S1 .f32 := Host.absf main_arg24
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg25 main_arg26 main_arg27 main_arg28 main_arg29 main_arg30 main_arg31 main_arg32 main_arg33 main_arg34 main_arg35 main_v98 main_v101 main_c_39

def fn_part4 {F : FTy → Type} [FloatOps F] (main_arg18 : FVec F S256x256 .f32) (main_arg19 : FVec F S256 .f32) (main_arg20 : FVec F S256x64 .f32) (main_arg21 : FVec F S64 .f32) (main_arg22 : FVec F S1 .f32) (main_arg23 : FVec F S1 .f32) (main_arg24 : FVec F S1 .f32) (main_arg25 : FVec F S1 .f32) (main_arg26 : FVec F S1 .f32) (main_arg27 : FVec F S1 .f32) (main_arg28 : FVec F S1 .f32) (main_arg29 : FVec F S1 .f32) (main_arg30 : FVec F S80x64 .f32) (main_arg31 : FVec F S64 .f32) (main_arg32 : FVec F S80x64 .f32) (main_arg33 : FVec F S64 .f32) (main_arg34 : FVec F S192x1 .f32) (main_arg35 : FVec F S1 .f32) (main_v63 : IVec S_ 1) (main_v67 : IVec S_ 1) : IVec S_ 1 :=
  let main_v68 : IVec S_ 1 := andi main_v63 main_v67
  let main_v69 : FVec F S256x256 .f32 := Host.absf main_arg18
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg19
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x64 .f32 := Host.absf main_arg20
  let main_cst_30 : FVec F S_ .f32 := constant S_ .f32 0x7F800000#32
  let main_v80 : FVec F S256x64 .f32 := broadcastInDim S256x64 ![] bcast_S_S256x64 main_cst_30
  let main_v81 : IVec S256x64 1 := cmpf .olt main_v79 main_v80
  let main_c_31 : IVec S_ 1 := constantI S_ 1 1#1
  let main_v82 : IVec S_ 1 := (fun x v => Host.reduce IntOp.andi x v reducesTo_S256x64_S_d0_1 h_S_) main_v81 main_c_31
  let main_v83 : IVec S_ 1 := andi main_v78 main_v82
  let main_v84 : FVec F S64 .f32 := Host.absf main_arg21
  let main_cst_32 : FVec F S_ .f32 := constant S_ .f32 0x7F800000#32
  fn_part5 (F := F) main_arg22 main_arg23 main_arg24 main_arg25 main_arg26 main_arg27 main_arg28 main_arg29 main_arg30 main_arg31 main_arg32 main_arg33 main_arg34 main_arg35 main_v83 main_v84 main_cst_32

def fn_part3 {F : FTy → Type} [FloatOps F] (main_arg15 : FVec F S128 .f32) (main_arg16 : FVec F S1024x128 .f32) (main_arg17 : FVec F S128 .f32) (main_arg18 : FVec F S256x256 .f32) (main_arg19 : FVec F S256 .f32) (main_arg20 : FVec F S256x64 .f32) (main_arg21 : FVec F S64 .f32) (main_arg22 : FVec F S1 .f32) (main_arg23 : FVec F S1 .f32) (main_arg24 : FVec F S1 .f32) (main_arg25 : FVec F S1 .f32) (main_arg26 : FVec F S1 .f32) (main_arg27 : FVec F S1 .f32) (main_arg28 : FVec F S1 .f32) (main_arg29 : FVec F S1 .f32) (main_arg30 : FVec F S80x64 .f32) (main_arg31 : FVec F S64 .f32) (main_arg32 : FVec F S80x64 .f32) (main_arg33 : FVec F S64 .f32) (main_arg34 : FVec F S192x1 .f32) (main_arg35 : FVec F S1 .f32) (main_v48 : IVec S_ 1) (main_v49 : FVec F S1024x128 .f32) (main_v50 : FVec F S1024x128 .f32) : IVec S_ 1 :=
  let main_v51 : IVec S1024x128 1 := cmpf .olt main_v49 main_v50
  let main_c_19 : IVec S_ 1 := constantI S_ 1 1#1
  let main_v52 : IVec S_ 1 := (fun x v => Host.reduce IntOp.andi x v reducesTo_S1024x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S1024x128 .f32 := Host.absf main_arg16
  let main_cst_22 : FVec F S_ .f32 := constant S_ .f32 0x7F800000#32
  let main_v60 : FVec F S1024x128 .f32 := broadcastInDim S1024x128 ![] bcast_S_S1024x128 main_cst_22
  let main_v61 : IVec S1024x128 1 := cmpf .olt main_v59 main_v60
  let main_c_23 : IVec S_ 1 := constantI S_ 1 1#1
  let main_v62 : IVec S_ 1 := (fun x v => Host.reduce IntOp.andi x v reducesTo_S1024x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_arg20 main_arg21 main_arg22 main_arg23 main_arg24 main_arg25 main_arg26 main_arg27 main_arg28 main_arg29 main_arg30 main_arg31 main_arg32 main_arg33 main_arg34 main_arg35 main_v63 main_v67

def fn_part2 {F : FTy → Type} [FloatOps F] (main_arg11 : FVec F S1024 .f32) (main_arg12 : FVec F S1024x1024 .f32) (main_arg13 : FVec F S1024 .f32) (main_arg14 : FVec F S1024x128 .f32) (main_arg15 : FVec F S128 .f32) (main_arg16 : FVec F S1024x128 .f32) (main_arg17 : FVec F S128 .f32) (main_arg18 : FVec F S256x256 .f32) (main_arg19 : FVec F S256 .f32) (main_arg20 : FVec F S256x64 .f32) (main_arg21 : FVec F S64 .f32) (main_arg22 : FVec F S1 .f32) (main_arg23 : FVec F S1 .f32) (main_arg24 : FVec F S1 .f32) (main_arg25 : FVec F S1 .f32) (main_arg26 : FVec F S1 .f32) (main_arg27 : FVec F S1 .f32) (main_arg28 : FVec F S1 .f32) (main_arg29 : FVec F S1 .f32) (main_arg30 : FVec F S80x64 .f32) (main_arg31 : FVec F S64 .f32) (main_arg32 : FVec F S80x64 .f32) (main_arg33 : FVec F S64 .f32) (main_arg34 : FVec F S192x1 .f32) (main_arg35 : FVec F S1 .f32) (main_v33 : IVec S_ 1) : IVec S_ 1 :=
  let main_v34 : FVec F S1024 .f32 := Host.absf main_arg11
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg12
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg13
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x128 .f32 := Host.absf main_arg14
  let main_cst_18 : FVec F S_ .f32 := constant S_ .f32 0x7F800000#32
  let main_v50 : FVec F S1024x128 .f32 := broadcastInDim S1024x128 ![] bcast_S_S1024x128 main_cst_18
  fn_part3 (F := F) main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v48 main_v49 main_v50

def fn_part1 {F : FTy → Type} [FloatOps F] (main_arg8 : FVec F S32x16x800 .f32) (main_arg9 : FVec F S32x16x800 .f32) (main_arg10 : FVec F S1024x1024 .f32) (main_arg11 : FVec F S1024 .f32) (main_arg12 : FVec F S1024x1024 .f32) (main_arg13 : FVec F S1024 .f32) (main_arg14 : FVec F S1024x128 .f32) (main_arg15 : FVec F S128 .f32) (main_arg16 : FVec F S1024x128 .f32) (main_arg17 : FVec F S128 .f32) (main_arg18 : FVec F S256x256 .f32) (main_arg19 : FVec F S256 .f32) (main_arg20 : FVec F S256x64 .f32) (main_arg21 : FVec F S64 .f32) (main_arg22 : FVec F S1 .f32) (main_arg23 : FVec F S1 .f32) (main_arg24 : FVec F S1 .f32) (main_arg25 : FVec F S1 .f32) (main_arg26 : FVec F S1 .f32) (main_arg27 : FVec F S1 .f32) (main_arg28 : FVec F S1 .f32) (main_arg29 : FVec F S1 .f32) (main_arg30 : FVec F S80x64 .f32) (main_arg31 : FVec F S64 .f32) (main_arg32 : FVec F S80x64 .f32) (main_arg33 : FVec F S64 .f32) (main_arg34 : FVec F S192x1 .f32) (main_arg35 : FVec F S1 .f32) (main_v13 : IVec S_ 1) (main_v16 : IVec S32x16x800 1) : IVec S_ 1 :=
  let main_c_5 : IVec S_ 1 := constantI S_ 1 1#1
  let main_v17 : IVec S_ 1 := (fun x v => Host.reduce IntOp.andi x v reducesTo_S32x16x800_S_d0_1_2 h_S_) main_v16 main_c_5
  let main_v18 : IVec S_ 1 := andi main_v13 main_v17
  let main_v19 : FVec F S32x16x800 .f32 := Host.absf main_arg8
  let main_cst_6 : FVec F S_ .f32 := constant S_ .f32 0x7F800000#32
  let main_v20 : FVec F S32x16x800 .f32 := broadcastInDim S32x16x800 ![] bcast_S_S32x16x800 main_cst_6
  let main_v21 : IVec S32x16x800 1 := cmpf .olt main_v19 main_v20
  let main_c_7 : IVec S_ 1 := constantI S_ 1 1#1
  let main_v22 : IVec S_ 1 := (fun x v => Host.reduce IntOp.andi x v reducesTo_S32x16x800_S_d0_1_2 h_S_) main_v21 main_c_7
  let main_v23 : IVec S_ 1 := andi main_v18 main_v22
  let main_v24 : FVec F S32x16x800 .f32 := Host.absf main_arg9
  let main_cst_8 : FVec F S_ .f32 := constant S_ .f32 0x7F800000#32
  let main_v25 : FVec F S32x16x800 .f32 := broadcastInDim S32x16x800 ![] bcast_S_S32x16x800 main_cst_8
  let main_v26 : IVec S32x16x800 1 := cmpf .olt main_v24 main_v25
  let main_c_9 : IVec S_ 1 := constantI S_ 1 1#1
  let main_v27 : IVec S_ 1 := (fun x v => Host.reduce IntOp.andi x v reducesTo_S32x16x800_S_d0_1_2 h_S_) main_v26 main_c_9
  let main_v28 : IVec S_ 1 := andi main_v23 main_v27
  let main_v29 : FVec F S1024x1024 .f32 := Host.absf main_arg10
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v33

def fn {F : FTy → Type} [FloatOps F] (main_arg0 : FVec F S10000x1024 .f32) (main_arg1 : IVec S2x80000 32) (main_arg2 : IVec S10000 32) (main_arg3 : FVec F S10000x1024 .f32) (main_arg4 : IVec S2x80000 32) (main_arg5 : IVec S10000 32) (main_arg6 : FVec F S32x16x800 .f32) (main_arg7 : FVec F S32x16x800 .f32) (main_arg8 : FVec F S32x16x800 .f32) (main_arg9 : FVec F S32x16x800 .f32) (main_arg10 : FVec F S1024x1024 .f32) (main_arg11 : FVec F S1024 .f32) (main_arg12 : FVec F S1024x1024 .f32) (main_arg13 : FVec F S1024 .f32) (main_arg14 : FVec F S1024x128 .f32) (main_arg15 : FVec F S128 .f32) (main_arg16 : FVec F S1024x128 .f32) (main_arg17 : FVec F S128 .f32) (main_arg18 : FVec F S256x256 .f32) (main_arg19 : FVec F S256 .f32) (main_arg20 : FVec F S256x64 .f32) (main_arg21 : FVec F S64 .f32) (main_arg22 : FVec F S1 .f32) (main_arg23 : FVec F S1 .f32) (main_arg24 : FVec F S1 .f32) (main_arg25 : FVec F S1 .f32) (main_arg26 : FVec F S1 .f32) (main_arg27 : FVec F S1 .f32) (main_arg28 : FVec F S1 .f32) (main_arg29 : FVec F S1 .f32) (main_arg30 : FVec F S80x64 .f32) (main_arg31 : FVec F S64 .f32) (main_arg32 : FVec F S80x64 .f32) (main_arg33 : FVec F S64 .f32) (main_arg34 : FVec F S192x1 .f32) (main_arg35 : FVec F S1 .f32) : IVec S_ 1 :=
  let main_v0 : FVec F S10000x1024 .f32 := Host.absf main_arg0
  let main_cst : FVec F S_ .f32 := constant S_ .f32 0x7F800000#32
  let main_v1 : FVec F S10000x1024 .f32 := broadcastInDim S10000x1024 ![] bcast_S_S10000x1024 main_cst
  let main_v2 : IVec S10000x1024 1 := cmpf .olt main_v0 main_v1
  let main_c : IVec S_ 1 := constantI S_ 1 1#1
  let main_v3 : IVec S_ 1 := (fun x v => Host.reduce IntOp.andi x v reducesTo_S10000x1024_S_d0_1 h_S_) main_v2 main_c
  let main_v4 : FVec F S10000x1024 .f32 := Host.absf main_arg3
  let main_cst_0 : FVec F S_ .f32 := constant S_ .f32 0x7F800000#32
  let main_v5 : FVec F S10000x1024 .f32 := broadcastInDim S10000x1024 ![] bcast_S_S10000x1024 main_cst_0
  let main_v6 : IVec S10000x1024 1 := cmpf .olt main_v4 main_v5
  let main_c_1 : IVec S_ 1 := constantI S_ 1 1#1
  let main_v7 : IVec S_ 1 := (fun x v => Host.reduce IntOp.andi x v reducesTo_S10000x1024_S_d0_1 h_S_) main_v6 main_c_1
  let main_v8 : IVec S_ 1 := andi main_v3 main_v7
  let main_v9 : FVec F S32x16x800 .f32 := Host.absf main_arg6
  let main_cst_2 : FVec F S_ .f32 := constant S_ .f32 0x7F800000#32
  let main_v10 : FVec F S32x16x800 .f32 := broadcastInDim S32x16x800 ![] bcast_S_S32x16x800 main_cst_2
  let main_v11 : IVec S32x16x800 1 := cmpf .olt main_v9 main_v10
  let main_c_3 : IVec S_ 1 := constantI S_ 1 1#1
  let main_v12 : IVec S_ 1 := (fun x v => Host.reduce IntOp.andi x v reducesTo_S32x16x800_S_d0_1_2 h_S_) main_v11 main_c_3
  let main_v13 : IVec S_ 1 := andi main_v8 main_v12
  let main_v14 : FVec F S32x16x800 .f32 := Host.absf main_arg7
  let main_cst_4 : FVec F S_ .f32 := constant S_ .f32 0x7F800000#32
  let main_v15 : FVec F S32x16x800 .f32 := broadcastInDim S32x16x800 ![] bcast_S_S32x16x800 main_cst_4
  let main_v16 : IVec S32x16x800 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_v13 main_v16
-- ==== Kernel.lean ====
abbrev S10000x1024 : Shape := ⟨2, ![10000, 1024]⟩
abbrev S2x80000 : Shape := ⟨2, ![2, 80000]⟩
abbrev S10000 : Shape := ⟨1, ![10000]⟩
abbrev S32x16x800 : Shape := ⟨3, ![32, 16, 800]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1 : Shape := ⟨1, ![1]⟩
abbrev S80x64 : Shape := ⟨2, ![80, 64]⟩
abbrev S192x1 : Shape := ⟨2, ![192, 1]⟩
abbrev S1000x1024 : Shape := ⟨2, ![1000, 1024]⟩
abbrev S1x80000 : Shape := ⟨2, ![1, 80000]⟩
abbrev S80000 : Shape := ⟨1, ![80000]⟩
abbrev S90000 : Shape := ⟨1, ![90000]⟩
abbrev S_ : Shape := ⟨0, ![]⟩
abbrev S90000x1 : Shape := ⟨2, ![90000, 1]⟩
abbrev S90000x1024 : Shape := ⟨2, ![90000, 1024]⟩
abbrev S32 : Shape := ⟨1, ![32]⟩
abbrev S10000x1 : Shape := ⟨2, ![10000, 1]⟩
abbrev S32x1 : Shape := ⟨2, ![32, 1]⟩
abbrev S1x1024 : Shape := ⟨2, ![1, 1024]⟩
abbrev S2x32x1024 : Shape := ⟨3, ![2, 32, 1024]⟩
abbrev S1000x1 : Shape := ⟨2, ![1000, 1]⟩
abbrev S1x32x1024 : Shape := ⟨3, ![1, 32, 1024]⟩
abbrev S32x1024 : Shape := ⟨2, ![32, 1024]⟩
abbrev S1000x32 : Shape := ⟨2, ![1000, 32]⟩
abbrev S1x128 : Shape := ⟨2, ![1, 128]⟩
abbrev S1x256 : Shape := ⟨2, ![1, 256]⟩
abbrev S1x64 : Shape := ⟨2, ![1, 64]⟩
abbrev S1x1 : Shape := ⟨2, ![1, 1]⟩
abbrev S800 : Shape := ⟨1, ![800]⟩
abbrev S800x1 : Shape := ⟨2, ![800, 1]⟩
abbrev S80 : Shape := ⟨1, ![80]⟩
abbrev S1x80 : Shape := ⟨2, ![1, 80]⟩
abbrev S800x80 : Shape := ⟨2, ![800, 80]⟩
abbrev S32x128 : Shape := ⟨2, ![32, 128]⟩
abbrev S32x256 : Shape := ⟨2, ![32, 256]⟩
abbrev S32x64 : Shape := ⟨2, ![32, 64]⟩
abbrev S32x800 : Shape := ⟨2, ![32, 800]⟩
abbrev S32x80 : Shape := ⟨2, ![32, 80]⟩
abbrev S32x192 : Shape := ⟨2, ![32, 192]⟩

abbrev nBuf : Space → Nat
  | .hbm => 235
  | .vmem => 58
  | .smem => 0
  | _ => 0

abbrev hbmTy0_0 (i : Nat) : BufTy := match i % 128 with
  | 0 => ⟨S10000x1024, .f32⟩
  | 1 => ⟨S2x80000, .i32⟩
  | 2 => ⟨S10000, .i32⟩
  | 3 => ⟨S10000x1024, .f32⟩
  | 4 => ⟨S2x80000, .i32⟩
  | 5 => ⟨S10000, .i32⟩
  | 6 => ⟨S32x16x800, .f32⟩
  | 7 => ⟨S32x16x800, .f32⟩
  | 8 => ⟨S32x16x800, .f32⟩
  | 9 => ⟨S32x16x800, .f32⟩
  | 10 => ⟨S1024x1024, .f32⟩
  | 11 => ⟨S1024, .f32⟩
  | 12 => ⟨S1024x1024, .f32⟩
  | 13 => ⟨S1024, .f32⟩
  | 14 => ⟨S1024x128, .f32⟩
  | 15 => ⟨S128, .f32⟩
  | 16 => ⟨S1024x128, .f32⟩
  | 17 => ⟨S128, .f32⟩
  | 18 => ⟨S256x256, .f32⟩
  | 19 => ⟨S256, .f32⟩
  | 20 => ⟨S256x64, .f32⟩
  | 21 => ⟨S64, .f32⟩
  | 22 => ⟨S1, .f32⟩
  | 23 => ⟨S1, .f32⟩
  | 24 => ⟨S1, .f32⟩
  | 25 => ⟨S1, .f32⟩
  | 26 => ⟨S1, .f32⟩
  | 27 => ⟨S1, .f32⟩
  | 28 => ⟨S1, .f32⟩
  | 29 => ⟨S1, .f32⟩
  | 30 => ⟨S80x64, .f32⟩
  | 31 => ⟨S64, .f32⟩
  | 32 => ⟨S80x64, .f32⟩
  | 33 => ⟨S64, .f32⟩
  | 34 => ⟨S192x1, .f32⟩
  | 35 => ⟨S1, .f32⟩
  | 36 => ⟨S1024x1024, .bf16⟩
  | 37 => ⟨S1024x1024, .bf16⟩
  | 38 => ⟨S10000x1024, .f32⟩
  | 39 => ⟨S10000x1024, .f32⟩
  | 40 => ⟨S10000, .i32⟩
  | 41 => ⟨S1x80000, .i32⟩
  | 42 => ⟨S80000, .i32⟩
  | 43 => ⟨S90000, .i32⟩
  | 44 => ⟨S1x80000, .i32⟩
  | 45 => ⟨S80000, .i32⟩
  | 46 => ⟨S90000, .i32⟩
  | 47 => ⟨S_, .f32⟩
  | 48 => ⟨S90000, .f32⟩
  | 49 => ⟨S_, .f32⟩
  | 50 => ⟨S10000, .f32⟩
  | 51 => ⟨S90000x1, .i32⟩
  | 52 => ⟨S10000, .f32⟩
  | 53 => ⟨S_, .f32⟩
  | 54 => ⟨S10000, .f32⟩
  | 55 => ⟨S10000, .i1⟩
  | 56 => ⟨S_, .f32⟩
  | 57 => ⟨S10000, .f32⟩
  | 58 => ⟨S10000, .f32⟩
  | 59 => ⟨S10000, .f32⟩
  | 60 => ⟨S_, .f32⟩
  | 61 => ⟨S10000, .f32⟩
  | 62 => ⟨S10000, .f32⟩
  | 63 => ⟨S_, .f32⟩
  | 64 => ⟨S_, .f32⟩
  | 65 => ⟨S10000, .f32⟩
  | 66 => ⟨S10000, .f32⟩
  | 67 => ⟨S_, .i32⟩
  | 68 => ⟨S90000, .i32⟩
  | 69 => ⟨S90000, .i1⟩
  | 70 => ⟨S_, .i32⟩
  | 71 => ⟨S90000, .i32⟩
  | 72 => ⟨S90000, .i32⟩
  | 73 => ⟨S90000, .i32⟩
  | 74 => ⟨S90000x1, .i32⟩
  | 75 => ⟨S90000, .f32⟩
  | 76 => ⟨S_, .i32⟩
  | 77 => ⟨S90000, .i32⟩
  | 78 => ⟨S90000, .i1⟩
  | 79 => ⟨S_, .i32⟩
  | 80 => ⟨S90000, .i32⟩
  | 81 => ⟨S90000, .i32⟩
  | 82 => ⟨S90000, .i32⟩
  | 83 => ⟨S90000x1, .i32⟩
  | 84 => ⟨S90000, .f32⟩
  | 85 => ⟨S90000, .f32⟩
  | 86 => ⟨S_, .i32⟩
  | 87 => ⟨S90000, .i32⟩
  | 88 => ⟨S90000, .i1⟩
  | 89 => ⟨S_, .i32⟩
  | 90 => ⟨S90000, .i32⟩
  | 91 => ⟨S90000, .i32⟩
  | 92 => ⟨S90000, .i32⟩
  | 93 => ⟨S90000x1, .i32⟩
  | 94 => ⟨S90000x1024, .f32⟩
  | 95 => ⟨S90000x1, .f32⟩
  | 96 => ⟨S90000x1024, .f32⟩
  | 97 => ⟨S90000x1024, .f32⟩
  | 98 => ⟨S_, .f32⟩
  | 99 => ⟨S10000x1024, .f32⟩
  | 100 => ⟨S90000x1, .i32⟩
  | 101 => ⟨S10000x1024, .f32⟩
  | 102 => ⟨S10000, .i32⟩
  | 103 => ⟨S1x80000, .i32⟩
  | 104 => ⟨S80000, .i32⟩
  | 105 => ⟨S90000, .i32⟩
  | 106 => ⟨S1x80000, .i32⟩
  | 107 => ⟨S80000, .i32⟩
  | 108 => ⟨S90000, .i32⟩
  | 109 => ⟨S_, .f32⟩
  | 110 => ⟨S90000, .f32⟩
  | 111 => ⟨S_, .f32⟩
  | 112 => ⟨S10000, .f32⟩
  | 113 => ⟨S90000x1, .i32⟩
  | 114 => ⟨S10000, .f32⟩
  | 115 => ⟨S_, .f32⟩
  | 116 => ⟨S10000, .f32⟩
  | 117 => ⟨S10000, .i1⟩
  | 118 => ⟨S_, .f32⟩
  | 119 => ⟨S10000, .f32⟩
  | 120 => ⟨S10000, .f32⟩
  | 121 => ⟨S10000, .f32⟩
  | 122 => ⟨S_, .f32⟩
  | 123 => ⟨S10000, .f32⟩
  | 124 => ⟨S10000, .f32⟩
  | 125 => ⟨S_, .f32⟩
  | 126 => ⟨S_, .f32⟩
  | 127 => ⟨S10000, .f32⟩
  | _ => ⟨S10000x1024, .f32⟩

abbrev hbmTy0_1 (i : Nat) : BufTy := match i % 128 with
  | 0 => ⟨S10000, .f32⟩
  | 1 => ⟨S_, .i32⟩
  | 2 => ⟨S90000, .i32⟩
  | 3 => ⟨S90000, .i1⟩
  | 4 => ⟨S_, .i32⟩
  | 5 => ⟨S90000, .i32⟩
  | 6 => ⟨S90000, .i32⟩
  | 7 => ⟨S90000, .i32⟩
  | 8 => ⟨S90000x1, .i32⟩
  | 9 => ⟨S90000, .f32⟩
  | 10 => ⟨S_, .i32⟩
  | 11 => ⟨S90000, .i32⟩
  | 12 => ⟨S90000, .i1⟩
  | 13 => ⟨S_, .i32⟩
  | 14 => ⟨S90000, .i32⟩
  | 15 => ⟨S90000, .i32⟩
  | 16 => ⟨S90000, .i32⟩
  | 17 => ⟨S90000x1, .i32⟩
  | 18 => ⟨S90000, .f32⟩
  | 19 => ⟨S90000, .f32⟩
  | 20 => ⟨S_, .i32⟩
  | 21 => ⟨S90000, .i32⟩
  | 22 => ⟨S90000, .i1⟩
  | 23 => ⟨S_, .i32⟩
  | 24 => ⟨S90000, .i32⟩
  | 25 => ⟨S90000, .i32⟩
  | 26 => ⟨S90000, .i32⟩
  | 27 => ⟨S90000x1, .i32⟩
  | 28 => ⟨S90000x1024, .f32⟩
  | 29 => ⟨S90000x1, .f32⟩
  | 30 => ⟨S90000x1024, .f32⟩
  | 31 => ⟨S90000x1024, .f32⟩
  | 32 => ⟨S_, .f32⟩
  | 33 => ⟨S10000x1024, .f32⟩
  | 34 => ⟨S90000x1, .i32⟩
  | 35 => ⟨S10000x1024, .f32⟩
  | 36 => ⟨S_, .f32⟩
  | 37 => ⟨S10000, .f32⟩
  | 38 => ⟨S_, .f32⟩
  | 39 => ⟨S32, .f32⟩
  | 40 => ⟨S10000x1, .i32⟩
  | 41 => ⟨S32, .f32⟩
  | 42 => ⟨S_, .f32⟩
  | 43 => ⟨S32, .f32⟩
  | 44 => ⟨S32, .f32⟩
  | 45 => ⟨S32x1, .f32⟩
  | 46 => ⟨S_, .f32⟩
  | 47 => ⟨S10000, .f32⟩
  | 48 => ⟨S_, .f32⟩
  | 49 => ⟨S32, .f32⟩
  | 50 => ⟨S10000x1, .i32⟩
  | 51 => ⟨S32, .f32⟩
  | 52 => ⟨S_, .f32⟩
  | 53 => ⟨S32, .f32⟩
  | 54 => ⟨S32, .f32⟩
  | 55 => ⟨S32x1, .f32⟩
  | 56 => ⟨S10000x1, .i32⟩
  | 57 => ⟨S10000x1, .i32⟩
  | 58 => ⟨S1x1024, .f32⟩
  | 59 => ⟨S1x1024, .f32⟩
  | 60 => ⟨S2x32x1024, .f32⟩
  | 61 => ⟨S2x32x1024, .f32⟩
  | 62 => ⟨S1x128, .f32⟩
  | 63 => ⟨S1x128, .f32⟩
  | 64 => ⟨S1x256, .f32⟩
  | 65 => ⟨S1x64, .f32⟩
  | 66 => ⟨S1x64, .f32⟩
  | 67 => ⟨S1x64, .f32⟩
  | 68 => ⟨S1x1, .f32⟩
  | 69 => ⟨S1x1, .f32⟩
  | 70 => ⟨S1x1, .f32⟩
  | 71 => ⟨S1x1, .f32⟩
  | 72 => ⟨S1x1, .f32⟩
  | 73 => ⟨S1x1, .f32⟩
  | 74 => ⟨S1x1, .f32⟩
  | 75 => ⟨S1x1, .f32⟩
  | 76 => ⟨S1x1, .f32⟩
  | 77 => ⟨S800, .i32⟩
  | 78 => ⟨S_, .i32⟩
  | 79 => ⟨S_, .i32⟩
  | 80 => ⟨S800, .i32⟩
  | 81 => ⟨S800, .i32⟩
  | 82 => ⟨S800, .i32⟩
  | 83 => ⟨S_, .i32⟩
  | 84 => ⟨S800, .i32⟩
  | 85 => ⟨S800, .i1⟩
  | 86 => ⟨S800, .i32⟩
  | 87 => ⟨S800, .i32⟩
  | 88 => ⟨S_, .i32⟩
  | 89 => ⟨S800, .i32⟩
  | 90 => ⟨S800, .i1⟩
  | 91 => ⟨S800, .i1⟩
  | 92 => ⟨S_, .i32⟩
  | 93 => ⟨S800, .i32⟩
  | 94 => ⟨S800, .i32⟩
  | 95 => ⟨S800, .i32⟩
  | 96 => ⟨S800x1, .i32⟩
  | 97 => ⟨S80, .i32⟩
  | 98 => ⟨S1x80, .i32⟩
  | 99 => ⟨S800x80, .i32⟩
  | 100 => ⟨S800x80, .i32⟩
  | 101 => ⟨S800x80, .i1⟩
  | 102 => ⟨S800x80, .f32⟩
  | 103 => ⟨S_, .f32⟩
  | 104 => ⟨S800x80, .f32⟩
  | 105 => ⟨S800x80, .f32⟩
  | 106 => ⟨S32x1, .f32⟩
  | _ => ⟨S10000x1024, .f32⟩

abbrev hbmTy (i : Nat) : BufTy := match i / 128 with
  | 0 => hbmTy0_0 i
  | 1 => hbmTy0_1 i
  | _ => ⟨S10000x1024, .f32⟩

abbrev bufTy : (tb : Table) → Fin (tcTables nBuf tb) → BufTy
  | .hbm, ⟨i, _⟩ => hbmTy i
  | .local _ .vmem, ⟨0, _⟩ => ⟨S1000x1024, .f32⟩
  | .local _ .vmem, ⟨1, _⟩ => ⟨S1000x1024, .f32⟩
  | .local _ .vmem, ⟨2, _⟩ => ⟨S1024x1024, .bf16⟩
  | .local _ .vmem, ⟨3, _⟩ => ⟨S1000x1024, .f32⟩
  | .local _ .vmem, ⟨4, _⟩ => ⟨S1000x1024, .f32⟩
  | .local _ .vmem, ⟨5, _⟩ => ⟨S1000x1024, .f32⟩
  | .local _ .vmem, ⟨6, _⟩ => ⟨S1000x1024, .f32⟩
  | .local _ .vmem, ⟨7, _⟩ => ⟨S1024x1024, .bf16⟩
  | .local _ .vmem, ⟨8, _⟩ => ⟨S1000x1024, .f32⟩
  | .local _ .vmem, ⟨9, _⟩ => ⟨S1000x1024, .f32⟩
  | .local _ .vmem, ⟨10, _⟩ => ⟨S1000x1024, .f32⟩
  | .local _ .vmem, ⟨11, _⟩ => ⟨S1000x1024, .f32⟩
  | .local _ .vmem, ⟨12, _⟩ => ⟨S1000x1024, .f32⟩
  | .local _ .vmem, ⟨13, _⟩ => ⟨S1000x1024, .f32⟩
  | .local _ .vmem, ⟨14, _⟩ => ⟨S1000x1, .i32⟩
  | .local _ .vmem, ⟨15, _⟩ => ⟨S1000x1, .i32⟩
  | .local _ .vmem, ⟨16, _⟩ => ⟨S1000x1, .i32⟩
  | .local _ .vmem, ⟨17, _⟩ => ⟨S1000x1, .i32⟩
  | .local _ .vmem, ⟨18, _⟩ => ⟨S1x1024, .f32⟩
  | .local _ .vmem, ⟨19, _⟩ => ⟨S1x1024, .f32⟩
  | .local _ .vmem, ⟨20, _⟩ => ⟨S1x32x1024, .f32⟩
  | .local _ .vmem, ⟨21, _⟩ => ⟨S1x32x1024, .f32⟩
  | .local _ .vmem, ⟨22, _⟩ => ⟨S1x32x1024, .f32⟩
  | .local _ .vmem, ⟨23, _⟩ => ⟨S1x32x1024, .f32⟩
  | .local _ .vmem, ⟨24, _⟩ => ⟨S32x1024, .f32⟩
  | .local _ .vmem, ⟨25, _⟩ => ⟨S32x1024, .f32⟩
  | .local _ .vmem, ⟨26, _⟩ => ⟨S2x32x1024, .f32⟩
  | .local _ .vmem, ⟨27, _⟩ => ⟨S2x32x1024, .f32⟩
  | .local _ .vmem, ⟨28, _⟩ => ⟨S32x1, .f32⟩
  | .local _ .vmem, ⟨29, _⟩ => ⟨S32x1, .f32⟩
  | .local _ .vmem, ⟨30, _⟩ => ⟨S1024x128, .f32⟩
  | .local _ .vmem, ⟨31, _⟩ => ⟨S1x128, .f32⟩
  | .local _ .vmem, ⟨32, _⟩ => ⟨S1024x128, .f32⟩
  | .local _ .vmem, ⟨33, _⟩ => ⟨S1x128, .f32⟩
  | .local _ .vmem, ⟨34, _⟩ => ⟨S256x256, .f32⟩
  | .local _ .vmem, ⟨35, _⟩ => ⟨S1x256, .f32⟩
  | .local _ .vmem, ⟨36, _⟩ => ⟨S256x64, .f32⟩
  | .local _ .vmem, ⟨37, _⟩ => ⟨S1x64, .f32⟩
  | .local _ .vmem, ⟨38, _⟩ => ⟨S32x16x800, .f32⟩
  | .local _ .vmem, ⟨39, _⟩ => ⟨S32x16x800, .f32⟩
  | .local _ .vmem, ⟨40, _⟩ => ⟨S32x16x800, .f32⟩
  | .local _ .vmem, ⟨41, _⟩ => ⟨S32x16x800, .f32⟩
  | .local _ .vmem, ⟨42, _⟩ => ⟨S1x1, .f32⟩
  | .local _ .vmem, ⟨43, _⟩ => ⟨S1x1, .f32⟩
  | .local _ .vmem, ⟨44, _⟩ => ⟨S1x1, .f32⟩
  | .local _ .vmem, ⟨45, _⟩ => ⟨S1x1, .f32⟩
  | .local _ .vmem, ⟨46, _⟩ => ⟨S1x1, .f32⟩
  | .local _ .vmem, ⟨47, _⟩ => ⟨S1x1, .f32⟩
  | .local _ .vmem, ⟨48, _⟩ => ⟨S1x1, .f32⟩
  | .local _ .vmem, ⟨49, _⟩ => ⟨S1x1, .f32⟩
  | .local _ .vmem, ⟨50, _⟩ => ⟨S800x80, .f32⟩
  | .local _ .vmem, ⟨51, _⟩ => ⟨S80x64, .f32⟩
  | .local _ .vmem, ⟨52, _⟩ => ⟨S1x64, .f32⟩
  | .local _ .vmem, ⟨53, _⟩ => ⟨S80x64, .f32⟩
  | .local _ .vmem, ⟨54, _⟩ => ⟨S1x64, .f32⟩
  | .local _ .vmem, ⟨55, _⟩ => ⟨S192x1, .f32⟩
  | .local _ .vmem, ⟨56, _⟩ => ⟨S1x1, .f32⟩
  | .local _ .vmem, ⟨57, _⟩ => ⟨S32x1, .f32⟩
  | _, _ => ⟨S10000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst : Ref sig .tc := ⟨.hbm, 47, rfl⟩
abbrev main_v11 : Ref sig .tc := ⟨.hbm, 48, rfl⟩
abbrev main_cst_0 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_cst_1 : Ref sig .tc := ⟨.hbm, 53, rfl⟩
abbrev main_v15 : Ref sig .tc := ⟨.hbm, 54, rfl⟩
abbrev main_v16 : Ref sig .tc := ⟨.hbm, 55, rfl⟩
abbrev main_cst_2 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_3 : Ref sig .tc := ⟨.hbm, 60, rfl⟩
abbrev main_v20 : Ref sig .tc := ⟨.hbm, 61, rfl⟩
abbrev main_v21 : Ref sig .tc := ⟨.hbm, 62, rfl⟩
abbrev main_cst_4 : Ref sig .tc := ⟨.hbm, 63, rfl⟩
abbrev main_call0_v0 : Ref sig .tc := ⟨.hbm, 64, rfl⟩
abbrev main_call0_v1 : Ref sig .tc := ⟨.hbm, 65, rfl⟩
abbrev main_v22 : Ref sig .tc := ⟨.hbm, 66, rfl⟩
abbrev main_c : Ref sig .tc := ⟨.hbm, 67, rfl⟩
abbrev main_v23 : Ref sig .tc := ⟨.hbm, 68, rfl⟩
abbrev main_v24 : Ref sig .tc := ⟨.hbm, 69, rfl⟩
abbrev main_c_5 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_c_6 : Ref sig .tc := ⟨.hbm, 76, rfl⟩
abbrev main_v30 : Ref sig .tc := ⟨.hbm, 77, rfl⟩
abbrev main_v31 : Ref sig .tc := ⟨.hbm, 78, rfl⟩
abbrev main_c_7 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_c_8 : Ref sig .tc := ⟨.hbm, 86, rfl⟩
abbrev main_v38 : Ref sig .tc := ⟨.hbm, 87, rfl⟩
abbrev main_v39 : Ref sig .tc := ⟨.hbm, 88, rfl⟩
abbrev main_c_9 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_cst_10 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_11 : Ref sig .tc := ⟨.hbm, 109, rfl⟩
abbrev main_v58 : Ref sig .tc := ⟨.hbm, 110, rfl⟩
abbrev main_cst_12 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_cst_13 : Ref sig .tc := ⟨.hbm, 115, rfl⟩
abbrev main_v62 : Ref sig .tc := ⟨.hbm, 116, rfl⟩
abbrev main_v63 : Ref sig .tc := ⟨.hbm, 117, rfl⟩
abbrev main_cst_14 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_cst_15 : Ref sig .tc := ⟨.hbm, 122, rfl⟩
abbrev main_v67 : Ref sig .tc := ⟨.hbm, 123, rfl⟩
abbrev main_v68 : Ref sig .tc := ⟨.hbm, 124, rfl⟩
abbrev main_cst_16 : Ref sig .tc := ⟨.hbm, 125, rfl⟩
abbrev main_call1_v0 : Ref sig .tc := ⟨.hbm, 126, rfl⟩
abbrev main_call1_v1 : Ref sig .tc := ⟨.hbm, 127, rfl⟩
abbrev main_v69 : Ref sig .tc := ⟨.hbm, 128, rfl⟩
abbrev main_c_17 : Ref sig .tc := ⟨.hbm, 129, rfl⟩
abbrev main_v70 : Ref sig .tc := ⟨.hbm, 130, rfl⟩
abbrev main_v71 : Ref sig .tc := ⟨.hbm, 131, rfl⟩
abbrev main_c_18 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_c_19 : Ref sig .tc := ⟨.hbm, 138, rfl⟩
abbrev main_v77 : Ref sig .tc := ⟨.hbm, 139, rfl⟩
abbrev main_v78 : Ref sig .tc := ⟨.hbm, 140, rfl⟩
abbrev main_c_20 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_c_21 : Ref sig .tc := ⟨.hbm, 148, rfl⟩
abbrev main_v85 : Ref sig .tc := ⟨.hbm, 149, rfl⟩
abbrev main_v86 : Ref sig .tc := ⟨.hbm, 150, rfl⟩
abbrev main_c_22 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_cst_23 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_cst_24 : Ref sig .tc := ⟨.hbm, 164, rfl⟩
abbrev main_v98 : Ref sig .tc := ⟨.hbm, 165, rfl⟩
abbrev main_cst_25 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_cst_26 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_cst_27 : Ref sig .tc := ⟨.hbm, 174, rfl⟩
abbrev main_v105 : Ref sig .tc := ⟨.hbm, 175, rfl⟩
abbrev main_cst_28 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_cst_29 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116_0 : Ref sig .tc := ⟨.hbm, 188, rfl⟩
abbrev main_v116_1 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_c_30 : Ref sig .tc := ⟨.hbm, 206, rfl⟩
abbrev main_call2_v0 : Ref sig .tc := ⟨.hbm, 207, rfl⟩
abbrev main_call2_v1 : Ref sig .tc := ⟨.hbm, 208, rfl⟩
abbrev main_call2_v2 : Ref sig .tc := ⟨.hbm, 209, rfl⟩
abbrev main_call2_v3 : Ref sig .tc := ⟨.hbm, 210, rfl⟩
abbrev main_call2_v4 : Ref sig .tc := ⟨.hbm, 211, rfl⟩
abbrev main_call2_v5 : Ref sig .tc := ⟨.hbm, 212, rfl⟩
abbrev main_call2_v6 : Ref sig .tc := ⟨.hbm, 213, rfl⟩
abbrev main_call2_v7 : Ref sig .tc := ⟨.hbm, 214, rfl⟩
abbrev main_call2_v8 : Ref sig .tc := ⟨.hbm, 215, rfl⟩
abbrev main_call2_c : Ref sig .tc := ⟨.hbm, 216, rfl⟩
abbrev main_call2_v9 : Ref sig .tc := ⟨.hbm, 217, rfl⟩
abbrev main_call2_v10 : Ref sig .tc := ⟨.hbm, 218, rfl⟩
abbrev main_call2_v11 : Ref sig .tc := ⟨.hbm, 219, rfl⟩
abbrev main_call2_c_0 : Ref sig .tc := ⟨.hbm, 220, rfl⟩
abbrev main_call2_v12 : Ref sig .tc := ⟨.hbm, 221, rfl⟩
abbrev main_call2_v13 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_cst_31 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg7_1 : Ref sig .tc := ⟨.vmem, 23, rfl⟩
abbrev cc2_scratch0 : Ref sig .tc := ⟨.vmem, 24, rfl⟩
abbrev cc2_scratch1 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg10_0 : Ref sig .tc := ⟨.vmem, 36, rfl⟩
abbrev cc3_stg11_0 : Ref sig .tc := ⟨.vmem, 37, rfl⟩
abbrev cc3_stg12_0 : Ref sig .tc := ⟨.vmem, 38, rfl⟩
abbrev cc3_stg13_0 : Ref sig .tc := ⟨.vmem, 39, rfl⟩
abbrev cc3_stg14_0 : Ref sig .tc := ⟨.vmem, 40, rfl⟩
abbrev cc3_stg15_0 : Ref sig .tc := ⟨.vmem, 41, rfl⟩
abbrev cc3_stg16_0 : Ref sig .tc := ⟨.vmem, 42, rfl⟩
abbrev cc3_stg17_0 : Ref sig .tc := ⟨.vmem, 43, rfl⟩
abbrev cc3_stg18_0 : Ref sig .tc := ⟨.vmem, 44, rfl⟩
abbrev cc3_stg19_0 : Ref sig .tc := ⟨.vmem, 45, rfl⟩
abbrev cc3_stg20_0 : Ref sig .tc := ⟨.vmem, 46, rfl⟩
abbrev cc3_stg21_0 : Ref sig .tc := ⟨.vmem, 47, rfl⟩
abbrev cc3_stg22_0 : Ref sig .tc := ⟨.vmem, 48, rfl⟩
abbrev cc3_stg23_0 : Ref sig .tc := ⟨.vmem, 49, rfl⟩
abbrev cc3_stg24_0 : Ref sig .tc := ⟨.vmem, 50, rfl⟩
abbrev cc3_stg25_0 : Ref sig .tc := ⟨.vmem, 51, rfl⟩
abbrev cc3_stg26_0 : Ref sig .tc := ⟨.vmem, 52, rfl⟩
abbrev cc3_stg27_0 : Ref sig .tc := ⟨.vmem, 53, rfl⟩
abbrev cc3_stg28_0 : Ref sig .tc := ⟨.vmem, 54, rfl⟩
abbrev cc3_stg29_0 : Ref sig .tc := ⟨.vmem, 55, rfl⟩
abbrev cc3_stg30_0 : Ref sig .tc := ⟨.vmem, 56, rfl⟩
abbrev cc3_stg31_0 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem6_0 : DmaSem sig := 20
abbrev cc2_sem6_1 : DmaSem sig := 21
abbrev cc2_sem7_0 : DmaSem sig := 22
abbrev cc2_sem7_1 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem9_0 : DmaSem sig := 33
abbrev cc3_sem10_0 : DmaSem sig := 34
abbrev cc3_sem11_0 : DmaSem sig := 35
abbrev cc3_sem12_0 : DmaSem sig := 36
abbrev cc3_sem13_0 : DmaSem sig := 37
abbrev cc3_sem14_0 : DmaSem sig := 38
abbrev cc3_sem15_0 : DmaSem sig := 39
abbrev cc3_sem16_0 : DmaSem sig := 40
abbrev cc3_sem17_0 : DmaSem sig := 41
abbrev cc3_sem18_0 : DmaSem sig := 42
abbrev cc3_sem19_0 : DmaSem sig := 43
abbrev cc3_sem20_0 : DmaSem sig := 44
abbrev cc3_sem21_0 : DmaSem sig := 45
abbrev cc3_sem22_0 : DmaSem sig := 46
abbrev cc3_sem23_0 : DmaSem sig := 47
abbrev cc3_sem24_0 : DmaSem sig := 48
abbrev cc3_sem25_0 : DmaSem sig := 49
abbrev cc3_sem26_0 : DmaSem sig := 50
abbrev cc3_sem27_0 : DmaSem sig := 51
abbrev cc3_sem28_0 : DmaSem sig := 52
abbrev cc3_sem29_0 : DmaSem sig := 53
abbrev cc3_sem30_0 : DmaSem sig := 54
abbrev cc3_sem31_0 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 5], ![false, false]⟩

def k2_cond2 (i : grid2.Coords) : BitVec 1 :=
  let arg1 : BitVec 32 := BitVec.ofNat 32 (i 1).val
  let c4_i32 : BitVec 32 := 4#32
  let v54 : BitVec 1 := Scalar.cmpi .eq arg1 c4_i32
  let v55 : BitVec 32 := Scalar.extui v54
  let c0_i32_25 : BitVec 32 := 0#32
  let v56 : BitVec 1 := Scalar.cmpi .ne v55 c0_i32_25
  v56

def cc2_transform_0 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1000x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1000x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x32x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x32x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_13 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_14 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_15 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_20 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_21 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_22 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_23 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_24 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_25 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_26 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_27 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_28 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_29 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_30 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_31 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2x32x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S2x32x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S256x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S32x16x800 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S32x16x800 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S32x16x800 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S32x16x800 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S1x1 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

abbrev stage3_17 : Fin 1 → Memref sig .tc .vmem S1x1 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false]

abbrev stage3_18 : Fin 1 → Memref sig .tc .vmem S1x1 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false]

abbrev stage3_19 : Fin 1 → Memref sig .tc .vmem S1x1 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false]

abbrev stage3_20 : Fin 1 → Memref sig .tc .vmem S1x1 .f32 := fun | 0 => Memref.whole cc3_stg20_0 | ⟨_ + 1, h⟩ => absurd h (Nat.not_lt.2 (Nat.le_add_left _ _))
abbrev sem3_20 : Fin 1 → DmaSem sig := fun | 0 => cc3_sem20_0 | ⟨_ + 1, h⟩ => absurd h (Nat.not_lt.2 (Nat.le_add_left _ _))
abbrev reads3_20 : Fin grid3.rank → Bool := ![false]

abbrev stage3_21 : Fin 1 → Memref sig .tc .vmem S1x1 .f32 := fun | 0 => Memref.whole cc3_stg21_0 | ⟨_ + 1, h⟩ => absurd h (Nat.not_lt.2 (Nat.le_add_left _ _))
abbrev sem3_21 : Fin 1 → DmaSem sig := fun | 0 => cc3_sem21_0 | ⟨_ + 1, h⟩ => absurd h (Nat.not_lt.2 (Nat.le_add_left _ _))
abbrev reads3_21 : Fin grid3.rank → Bool := ![false]

abbrev stage3_22 : Fin 1 → Memref sig .tc .vmem S1x1 .f32 := fun | 0 => Memref.whole cc3_stg22_0 | ⟨_ + 1, h⟩ => absurd h (Nat.not_lt.2 (Nat.le_add_left _ _))
abbrev sem3_22 : Fin 1 → DmaSem sig := fun | 0 => cc3_sem22_0 | ⟨_ + 1, h⟩ => absurd h (Nat.not_lt.2 (Nat.le_add_left _ _))
abbrev reads3_22 : Fin grid3.rank → Bool := ![false]

abbrev stage3_23 : Fin 1 → Memref sig .tc .vmem S1x1 .f32 := fun | 0 => Memref.whole cc3_stg23_0 | ⟨_ + 1, h⟩ => absurd h (Nat.not_lt.2 (Nat.le_add_left _ _))
abbrev sem3_23 : Fin 1 → DmaSem sig := fun | 0 => cc3_sem23_0 | ⟨_ + 1, h⟩ => absurd h (Nat.not_lt.2 (Nat.le_add_left _ _))
abbrev reads3_23 : Fin grid3.rank → Bool := ![false]

abbrev stage3_24 : Fin 1 → Memref sig .tc .vmem S800x80 .f32 := fun | 0 => Memref.whole cc3_stg24_0 | ⟨_ + 1, h⟩ => absurd h (Nat.not_lt.2 (Nat.le_add_left _ _))
abbrev sem3_24 : Fin 1 → DmaSem sig := fun | 0 => cc3_sem24_0 | ⟨_ + 1, h⟩ => absurd h (Nat.not_lt.2 (Nat.le_add_left _ _))
abbrev reads3_24 : Fin grid3.rank → Bool := ![false]

abbrev stage3_25 : Fin 1 → Memref sig .tc .vmem S80x64 .f32 := fun | 0 => Memref.whole cc3_stg25_0 | ⟨_ + 1, h⟩ => absurd h (Nat.not_lt.2 (Nat.le_add_left _ _))
abbrev sem3_25 : Fin 1 → DmaSem sig := fun | 0 => cc3_sem25_0 | ⟨_ + 1, h⟩ => absurd h (Nat.not_lt.2 (Nat.le_add_left _ _))
abbrev reads3_25 : Fin grid3.rank → Bool := ![false]

abbrev stage3_26 : Fin 1 → Memref sig .tc .vmem S1x64 .f32 := fun | 0 => Memref.whole cc3_stg26_0 | ⟨_ + 1, h⟩ => absurd h (Nat.not_lt.2 (Nat.le_add_left _ _))
abbrev sem3_26 : Fin 1 → DmaSem sig := fun | 0 => cc3_sem26_0 | ⟨_ + 1, h⟩ => absurd h (Nat.not_lt.2 (Nat.le_add_left _ _))
abbrev reads3_26 : Fin grid3.rank → Bool := ![false]

abbrev stage3_27 : Fin 1 → Memref sig .tc .vmem S80x64 .f32 := fun | 0 => Memref.whole cc3_stg27_0 | ⟨_ + 1, h⟩ => absurd h (Nat.not_lt.2 (Nat.le_add_left _ _))
abbrev sem3_27 : Fin 1 → DmaSem sig := fun | 0 => cc3_sem27_0 | ⟨_ + 1, h⟩ => absurd h (Nat.not_lt.2 (Nat.le_add_left _ _))
abbrev reads3_27 : Fin grid3.rank → Bool := ![false]

abbrev stage3_28 : Fin 1 → Memref sig .tc .vmem S1x64 .f32 := fun | 0 => Memref.whole cc3_stg28_0 | ⟨_ + 1, h⟩ => absurd h (Nat.not_lt.2 (Nat.le_add_left _ _))
abbrev sem3_28 : Fin 1 → DmaSem sig := fun | 0 => cc3_sem28_0 | ⟨_ + 1, h⟩ => absurd h (Nat.not_lt.2 (Nat.le_add_left _ _))
abbrev reads3_28 : Fin grid3.rank → Bool := ![false]

abbrev stage3_29 : Fin 1 → Memref sig .tc .vmem S192x1 .f32 := fun | 0 => Memref.whole cc3_stg29_0 | ⟨_ + 1, h⟩ => absurd h (Nat.not_lt.2 (Nat.le_add_left _ _))
abbrev sem3_29 : Fin 1 → DmaSem sig := fun | 0 => cc3_sem29_0 | ⟨_ + 1, h⟩ => absurd h (Nat.not_lt.2 (Nat.le_add_left _ _))
abbrev reads3_29 : Fin grid3.rank → Bool := ![false]

abbrev stage3_30 : Fin 1 → Memref sig .tc .vmem S1x1 .f32 := fun | 0 => Memref.whole cc3_stg30_0 | ⟨_ + 1, h⟩ => absurd h (Nat.not_lt.2 (Nat.le_add_left _ _))
abbrev sem3_30 : Fin 1 → DmaSem sig := fun | 0 => cc3_sem30_0 | ⟨_ + 1, h⟩ => absurd h (Nat.not_lt.2 (Nat.le_add_left _ _))
abbrev reads3_30 : Fin grid3.rank → Bool := ![false]

abbrev stage3_31 : Fin 1 → Memref sig .tc .vmem S32x1 .f32 := fun | 0 => Memref.whole cc3_stg31_0 | ⟨_ + 1, h⟩ => absurd h (Nat.not_lt.2 (Nat.le_add_left _ _))
abbrev sem3_31 : Fin 1 → DmaSem sig := fun | 0 => cc3_sem31_0 | ⟨_ + 1, h⟩ => absurd h (Nat.not_lt.2 (Nat.le_add_left _ _))
abbrev reads3_31 : Fin grid3.rank → Bool := ![false]

class Facts₀ : Prop where
  bitsLt_bf16_f32 : FTy.bits .bf16 < FTy.bits .f32
  inb_S1000x1024_S1000x1024_0_0 : ∀ a, (![0, 0] : Fin 2 → Nat) a + S1000x1024.size a ≤ S1000x1024.size a
  h_S1000x1024 : 0 < S1000x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S2x80000_S1x80000_0_0 : S2x80000.Slices ![0, 0] S1x80000
  shapeCasts_S1x80000_S80000 : S1x80000.ShapeCasts S80000
  concatenates_S80000_S10000_S90000_d0 : Shape.Concatenates [S80000, S10000] S90000 0
  slices_S2x80000_S1x80000_1_0 : S2x80000.Slices ![1, 0] S1x80000
  bcast_S_S90000 : S_.BroadcastsInDim S90000 (![] : Fin 0 → Fin S90000.rank)
  bcast_S_S10000 : S_.BroadcastsInDim S10000 (![] : Fin 0 → Fin S10000.rank)
  bcast_S90000_S90000x1_0 : S90000.BroadcastsInDim S90000x1 (![0] : Fin 1 → Fin S90000x1.rank)
  bcast_S90000x1_S90000x1024_0_1 : S90000x1.BroadcastsInDim S90000x1024 (![0, 1] : Fin 2 → Fin S90000x1024.rank)
  bcast_S_S10000x1024 : S_.BroadcastsInDim S10000x1024 (![] : Fin 0 → Fin S10000x1024.rank)
  bcast_S_S32 : S_.BroadcastsInDim S32 (![] : Fin 0 → Fin S32.rank)
  bcast_S10000_S10000x1_0 : S10000.BroadcastsInDim S10000x1 (![0] : Fin 1 → Fin S10000x1.rank)
  shapeCasts_S32_S32x1 : S32.ShapeCasts S32x1
  shapeCasts_S10000_S10000x1 : S10000.ShapeCasts S10000x1
  shapeCasts_S1024_S1x1024 : S1024.ShapeCasts S1x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  shapeCasts_S1000x1024_S1000x1024 : S1000x1024.ShapeCasts S1000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  iota_S1000x32_d1_w32 : S1000x32.Iotas .tc 32 [1]
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x32 : S1000x1.Broadcasts S1000x32
  natLt_1_32 : 1 < 32
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  shapeCasts_S32x1024_S1x32x1024 : S32x1024.ShapeCasts S1x32x1024
  shapeCasts_S128_S1x128 : S128.ShapeCasts S1x128
  shapeCasts_S256_S1x256 : S256.ShapeCasts S1x256
  shapeCasts_S64_S1x64 : S64.ShapeCasts S1x64
  shapeCasts_S1_S1x1 : S1.ShapeCasts S1x1
  bcast_S_S800 : S_.BroadcastsInDim S800 (![] : Fin 0 → Fin S800.rank)
  bcast_S800_S800x1_0 : S800.BroadcastsInDim S800x1 (![0] : Fin 1 → Fin S800x1.rank)
  bcast_S80_S1x80_1 : S80.BroadcastsInDim S1x80 (![1] : Fin 1 → Fin S1x80.rank)
  bcast_S800x1_S800x80_0_1 : S800x1.BroadcastsInDim S800x80 (![0, 1] : Fin 2 → Fin S800x80.rank)
  bcast_S1x80_S800x80_0_1 : S1x80.BroadcastsInDim S800x80 (![0, 1] : Fin 2 → Fin S800x80.rank)
  bcast_S_S800x80 : S_.BroadcastsInDim S800x80 (![] : Fin 0 → Fin S800x80.rank)
  inb_S2x32x1024_S1x32x1024_0_0_0 : ∀ a, (![0, 0, 0] : Fin 3 → Nat) a + S1x32x1024.size a ≤ S2x32x1024.size a
  inb_S2x32x1024_S1x32x1024_1_0_0 : ∀ a, (![1, 0, 0] : Fin 3 → Nat) a + S1x32x1024.size a ≤ S2x32x1024.size a
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x1024 : S32x1.Broadcasts S32x1024
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  concatenates_S32x128_S32x128_S32x256_d1 : Shape.Concatenates [S32x128, S32x128] S32x256 1
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S32x64 : S1x64.Broadcasts S32x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x16x800_S32x16x800_0_0_0 : ∀ a, (![0, 0, 0] : Fin 3 → Nat) a + S32x16x800.size a ≤ S32x16x800.size a
  h_S32x16x800 : 0 < S32x16x800.numel
  reduces_S32x16x800_S32x800 : S32x16x800.Reduces [1] S32x800
  inpos_S1x1_p0_0 : ∀ a, (![0, 0] : Fin 2 → Nat) a < S1x1.size a
  inb_S800x80_S800x80_0_0 : ∀ a, (![0, 0] : Fin 2 → Nat) a + S800x80.size a ≤ S800x80.size a
  h_S800x80 : 0 < S800x80.numel
  shapeCasts_S800x80_S800x80 : S800x80.ShapeCasts S800x80
  inb_S80x64_S80x64_0_0 : ∀ a, (![0, 0] : Fin 2 → Nat) a + S80x64.size a ≤ S80x64.size a
  h_S80x64 : 0 < S80x64.numel
  concatenates_S32x64_S32x64_S32x64_S32x192_d1 : Shape.Concatenates [S32x64, S32x64, S32x64] S32x192 1
  inb_S192x1_S192x1_0_0 : ∀ a, (![0, 0] : Fin 2 → Nat) a + S192x1.size a ≤ S192x1.size a
  h_S192x1 : 0 < S192x1.numel
  broadcasts_S1x1_S32x1 : S1x1.Broadcasts S32x1
  dot_S1000x1024_S1024x1024_S1000x1024_1_0_0_1_n_n_wf : DotDims.WF S1000x1024 S1024x1024 S1000x1024 [1] [0] [0] [1] [] []
  scatter_S10000_S90000x1_S90000_n_0_0_1_wf : ScatterDims.WF S10000 S90000x1 S90000 [] [0] [0] 1
  gather_S10000_S90000x1_S90000_n_0_n_n_0_1_1_wf : GatherDims.WF S10000 S90000x1 S90000 [] [0] [] [0] [] 1 ![1]
  gather_S10000x1024_S90000x1_S90000x1024_1_0_n_n_0_1_11024_wf : GatherDims.WF S10000x1024 S90000x1 S90000x1024 [1] [0] [] [0] [] 1 ![1, 1024]
  scatter_S10000x1024_S90000x1_S90000x1024_1_0_0_1_wf : ScatterDims.WF S10000x1024 S90000x1 S90000x1024 [1] [0] [0] 1
  scatter_S32_S10000x1_S10000_n_0_0_1_wf : ScatterDims.WF S32 S10000x1 S10000 [] [0] [0] 1
  dot_S1000x32_S1000x1024_S32x1024_0_0_1_1_n_n_wf : DotDims.WF S1000x32 S1000x1024 S32x1024 [0] [0] [1] [1] [] []
  dot_S32x1024_S1024x128_S32x128_1_0_0_1_n_n_wf : DotDims.WF S32x1024 S1024x128 S32x128 [1] [0] [0] [1] [] []
  dot_S32x256_S256x256_S32x256_1_0_0_1_n_n_wf : DotDims.WF S32x256 S256x256 S32x256 [1] [0] [0] [1] [] []
  dot_S32x256_S256x64_S32x64_1_0_0_1_n_n_wf : DotDims.WF S32x256 S256x64 S32x64 [1] [0] [0] [1] [] []
  dot_S32x800_S800x80_S32x80_1_0_0_1_n_n_wf : DotDims.WF S32x800 S800x80 S32x80 [1] [0] [0] [1] [] []
  dot_S32x80_S80x64_S32x64_1_0_0_1_n_n_wf : DotDims.WF S32x80 S80x64 S32x64 [1] [0] [0] [1] [] []
  dot_S32x192_S192x1_S32x1_1_0_0_1_n_n_wf : DotDims.WF S32x192 S192x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1024.size a ≤ S10000x1024.size a
  hwx0_0 : ∀ i : grid0.Coords, EltTy.bits .f32 = 32 ∨ (Rect.block (s := S10000x1024) S1000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1024.size a ≤ S10000x1024.size a
  hwx0_2 : ∀ i : grid0.Coords, EltTy.bits .f32 = 32 ∨ (Rect.block (s := S10000x1024) S1000x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1024.size a ≤ S10000x1024.size a
  hwx1_0 : ∀ i : grid1.Coords, EltTy.bits .f32 = 32 ∨ (Rect.block (s := S10000x1024) S1000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1024.size a ≤ S10000x1024.size a
  hwx1_2 : ∀ i : grid1.Coords, EltTy.bits .f32 = 32 ∨ (Rect.block (s := S10000x1024) S1000x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x1024.size a ≤ S10000x1024.size a
  hwx2_0 : ∀ i : grid2.Coords, EltTy.bits .f32 = 32 ∨ (Rect.block (s := S10000x1024) S1000x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1024.size a ≤ S10000x1024.size a
  hwx2_1 : ∀ i : grid2.Coords, EltTy.bits .f32 = 32 ∨ (Rect.block (s := S10000x1024) S1000x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S10000x1.size a
  hwx2_2 : ∀ i : grid2.Coords, EltTy.bits .i32 = 32 ∨ (Rect.block (s := S10000x1) S1000x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x1.size a ≤ S10000x1.size a
  hwx2_3 : ∀ i : grid2.Coords, EltTy.bits .i32 = 32 ∨ (Rect.block (s := S10000x1) S1000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x32x1024.size a ≤ S2x32x1024.size a
  hwx2_6 : ∀ i : grid2.Coords, EltTy.bits .f32 = 32 ∨ (Rect.block (s := S2x32x1024) S1x32x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x32x1024.size a ≤ S2x32x1024.size a
  hwx2_7 : ∀ i : grid2.Coords, EltTy.bits .f32 = 32 ∨ (Rect.block (s := S2x32x1024) S1x32x1024.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2x32x1024.size a ≤ S2x32x1024.size a
  hwx3_0 : ∀ i : grid3.Coords, EltTy.bits .f32 = 32 ∨ (Rect.block (s := S2x32x1024) S2x32x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2x32x1024.size a ≤ S2x32x1024.size a
  hwx3_1 : ∀ i : grid3.Coords, EltTy.bits .f32 = 32 ∨ (Rect.block (s := S2x32x1024) S2x32x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x1.size a ≤ S32x1.size a
  hwx3_2 : ∀ i : grid3.Coords, EltTy.bits .f32 = 32 ∨ (Rect.block (s := S32x1) S32x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x1.size a ≤ S32x1.size a
  hwx3_3 : ∀ i : grid3.Coords, EltTy.bits .f32 = 32 ∨ (Rect.block (s := S32x1) S32x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024x128.size a ≤ S1024x128.size a
  hwx3_4 : ∀ i : grid3.Coords, EltTy.bits .f32 = 32 ∨ (Rect.block (s := S1024x128) S1024x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1024x128.size a ≤ S1024x128.size a
  hwx3_6 : ∀ i : grid3.Coords, EltTy.bits .f32 = 32 ∨ (Rect.block (s := S1024x128) S1024x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x256.size a ≤ S256x256.size a
  hwx3_8 : ∀ i : grid3.Coords, EltTy.bits .f32 = 32 ∨ (Rect.block (s := S256x256) S256x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x256.size a ≤ S1x256.size a
  hwx3_9 : ∀ i : grid3.Coords, EltTy.bits .f32 = 32 ∨ (Rect.block (s := S1x256) S1x256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S256x64.size a ≤ S256x64.size a
  hwx3_10 : ∀ i : grid3.Coords, EltTy.bits .f32 = 32 ∨ (Rect.block (s := S256x64) S256x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x64.size a ≤ S1x64.size a
  hwx3_11 : ∀ i : grid3.Coords, EltTy.bits .f32 = 32 ∨ (Rect.block (s := S1x64) S1x64.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S32x16x800.size a ≤ S32x16x800.size a
  hwx3_12 : ∀ i : grid3.Coords, EltTy.bits .f32 = 32 ∨ (Rect.block (s := S32x16x800) S32x16x800.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S32x16x800.size a ≤ S32x16x800.size a
  hwx3_13 : ∀ i : grid3.Coords, EltTy.bits .f32 = 32 ∨ (Rect.block (s := S32x16x800) S32x16x800.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S32x16x800.size a ≤ S32x16x800.size a
  hwx3_14 : ∀ i : grid3.Coords, EltTy.bits .f32 = 32 ∨ (Rect.block (s := S32x16x800) S32x16x800.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S32x16x800.size a ≤ S32x16x800.size a
  hwx3_15 : ∀ i : grid3.Coords, EltTy.bits .f32 = 32 ∨ (Rect.block (s := S32x16x800) S32x16x800.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S1x1.size a ≤ S1x1.size a
  hwx3_16 : ∀ i : grid3.Coords, EltTy.bits .f32 = 32 ∨ (Rect.block (s := S1x1) S1x1.size (cc3_transform_16 i) (hinb3_16 i)).WholeWords (EltTy.packing .f32)
  hstage3_17 : ∀ j, (stage3_17 j).IsWhole
  nbuf3_17 : grid3.bufCount reads3_17 true = 1
  hreads3_17 : ∀ i i' : grid3.Coords, (∀ a, reads3_17 a = true → i a = i' a) → cc3_transform_17 i = cc3_transform_17 i'
  hinb3_17 : ∀ (i : grid3.Coords) a, (cc3_transform_17 i a + 1) * S1x1.size a ≤ S1x1.size a
  hwx3_17 : ∀ i : grid3.Coords, EltTy.bits .f32 = 32 ∨ (Rect.block (s := S1x1) S1x1.size (cc3_transform_17 i) (hinb3_17 i)).WholeWords (EltTy.packing .f32)
  hstage3_18 : ∀ j, (stage3_18 j).IsWhole
  nbuf3_18 : grid3.bufCount reads3_18 true = 1
  hreads3_18 : ∀ i i' : grid3.Coords, (∀ a, reads3_18 a = true → i a = i' a) → cc3_transform_18 i = cc3_transform_18 i'
  hinb3_18 : ∀ (i : grid3.Coords) a, (cc3_transform_18 i a + 1) * S1x1.size a ≤ S1x1.size a
  hwx3_18 : ∀ i : grid3.Coords, EltTy.bits .f32 = 32 ∨ (Rect.block (s := S1x1) S1x1.size (cc3_transform_18 i) (hinb3_18 i)).WholeWords (EltTy.packing .f32)
  hstage3_19 : ∀ j, (stage3_19 j).IsWhole
  nbuf3_19 : grid3.bufCount reads3_19 true = 1
  hreads3_19 : ∀ i i' : grid3.Coords, (∀ a, reads3_19 a = true → i a = i' a) → cc3_transform_19 i = cc3_transform_19 i'
  hinb3_19 : ∀ (i : grid3.Coords) a, (cc3_transform_19 i a + 1) * S1x1.size a ≤ S1x1.size a
  hwx3_19 : ∀ i : grid3.Coords, EltTy.bits .f32 = 32 ∨ (Rect.block (s := S1x1) S1x1.size (cc3_transform_19 i) (hinb3_19 i)).WholeWords (EltTy.packing .f32)
  hstage3_20 : ∀ j, (stage3_20 j).IsWhole
  nbuf3_20 : grid3.bufCount reads3_20 true = 1
  hreads3_20 : ∀ i i' : grid3.Coords, (∀ a, reads3_20 a = true → i a = i' a) → cc3_transform_20 i = cc3_transform_20 i'
  hinb3_20 : ∀ (i : grid3.Coords) a, (cc3_transform_20 i a + 1) * S1x1.size a ≤ S1x1.size a
  hwx3_20 : ∀ i : grid3.Coords, EltTy.bits .f32 = 32 ∨ (Rect.block (s := S1x1) S1x1.size (cc3_transform_20 i) (hinb3_20 i)).WholeWords (EltTy.packing .f32)
  hstage3_21 : ∀ j, (stage3_21 j).IsWhole
  nbuf3_21 : grid3.bufCount reads3_21 true = 1
  hreads3_21 : ∀ i i' : grid3.Coords, (∀ a, reads3_21 a = true → i a = i' a) → cc3_transform_21 i = cc3_transform_21 i'
  hinb3_21 : ∀ (i : grid3.Coords) a, (cc3_transform_21 i a + 1) * S1x1.size a ≤ S1x1.size a
  hwx3_21 : ∀ i : grid3.Coords, EltTy.bits .f32 = 32 ∨ (Rect.block (s := S1x1) S1x1.size (cc3_transform_21 i) (hinb3_21 i)).WholeWords (EltTy.packing .f32)
  hstage3_22 : ∀ j, (stage3_22 j).IsWhole
  nbuf3_22 : grid3.bufCount reads3_22 true = 1
  hreads3_22 : ∀ i i' : grid3.Coords, (∀ a, reads3_22 a = true → i a = i' a) → cc3_transform_22 i = cc3_transform_22 i'
  hinb3_22 : ∀ (i : grid3.Coords) a, (cc3_transform_22 i a + 1) * S1x1.size a ≤ S1x1.size a
  hwx3_22 : ∀ i : grid3.Coords, EltTy.bits .f32 = 32 ∨ (Rect.block (s := S1x1) S1x1.size (cc3_transform_22 i) (hinb3_22 i)).WholeWords (EltTy.packing .f32)
  hstage3_23 : ∀ j, (stage3_23 j).IsWhole
  nbuf3_23 : grid3.bufCount reads3_23 true = 1
  hreads3_23 : ∀ i i' : grid3.Coords, (∀ a, reads3_23 a = true → i a = i' a) → cc3_transform_23 i = cc3_transform_23 i'
  hinb3_23 : ∀ (i : grid3.Coords) a, (cc3_transform_23 i a + 1) * S1x1.size a ≤ S1x1.size a
  hwx3_23 : ∀ i : grid3.Coords, EltTy.bits .f32 = 32 ∨ (Rect.block (s := S1x1) S1x1.size (cc3_transform_23 i) (hinb3_23 i)).WholeWords (EltTy.packing .f32)
  hstage3_24 : ∀ j, (stage3_24 j).IsWhole
  nbuf3_24 : grid3.bufCount reads3_24 true = 1
  hreads3_24 : ∀ i i' : grid3.Coords, (∀ a, reads3_24 a = true → i a = i' a) → cc3_transform_24 i = cc3_transform_24 i'
  hinb3_24 : ∀ (i : grid3.Coords) a, (cc3_transform_24 i a + 1) * S800x80.size a ≤ S800x80.size a
  hwx3_24 : ∀ i : grid3.Coords, EltTy.bits .f32 = 32 ∨ (Rect.block (s := S800x80) S800x80.size (cc3_transform_24 i) (hinb3_24 i)).WholeWords (EltTy.packing .f32)
  hstage3_25 : ∀ j, (stage3_25 j).IsWhole
  nbuf3_25 : grid3.bufCount reads3_25 true = 1
  hreads3_25 : ∀ i i' : grid3.Coords, (∀ a, reads3_25 a = true → i a = i' a) → cc3_transform_25 i = cc3_transform_25 i'
  hinb3_25 : ∀ (i : grid3.Coords) a, (cc3_transform_25 i a + 1) * S80x64.size a ≤ S80x64.size a
  hwx3_25 : ∀ i : grid3.Coords, EltTy.bits .f32 = 32 ∨ (Rect.block (s := S80x64) S80x64.size (cc3_transform_25 i) (hinb3_25 i)).WholeWords (EltTy.packing .f32)
  hstage3_26 : ∀ j, (stage3_26 j).IsWhole
  nbuf3_26 : grid3.bufCount reads3_26 true = 1
  hreads3_26 : ∀ i i' : grid3.Coords, (∀ a, reads3_26 a = true → i a = i' a) → cc3_transform_26 i = cc3_transform_26 i'
  hinb3_26 : ∀ (i : grid3.Coords) a, (cc3_transform_26 i a + 1) * S1x64.size a ≤ S1x64.size a
  hwx3_26 : ∀ i : grid3.Coords, EltTy.bits .f32 = 32 ∨ (Rect.block (s := S1x64) S1x64.size (cc3_transform_26 i) (hinb3_26 i)).WholeWords (EltTy.packing .f32)
  hstage3_27 : ∀ j, (stage3_27 j).IsWhole
  nbuf3_27 : grid3.bufCount reads3_27 true = 1
  hreads3_27 : ∀ i i' : grid3.Coords, (∀ a, reads3_27 a = true → i a = i' a) → cc3_transform_27 i = cc3_transform_27 i'
  hinb3_27 : ∀ (i : grid3.Coords) a, (cc3_transform_27 i a + 1) * S80x64.size a ≤ S80x64.size a
  hwx3_27 : ∀ i : grid3.Coords, EltTy.bits .f32 = 32 ∨ (Rect.block (s := S80x64) S80x64.size (cc3_transform_27 i) (hinb3_27 i)).WholeWords (EltTy.packing .f32)
  hstage3_28 : ∀ j, (stage3_28 j).IsWhole
  nbuf3_28 : grid3.bufCount reads3_28 true = 1
  hreads3_28 : ∀ i i' : grid3.Coords, (∀ a, reads3_28 a = true → i a = i' a) → cc3_transform_28 i = cc3_transform_28 i'
  hinb3_28 : ∀ (i : grid3.Coords) a, (cc3_transform_28 i a + 1) * S1x64.size a ≤ S1x64.size a
  hwx3_28 : ∀ i : grid3.Coords, EltTy.bits .f32 = 32 ∨ (Rect.block (s := S1x64) S1x64.size (cc3_transform_28 i) (hinb3_28 i)).WholeWords (EltTy.packing .f32)
  hstage3_29 : ∀ j, (stage3_29 j).IsWhole
  nbuf3_29 : grid3.bufCount reads3_29 true = 1
  hreads3_29 : ∀ i i' : grid3.Coords, (∀ a, reads3_29 a = true → i a = i' a) → cc3_transform_29 i = cc3_transform_29 i'
  hinb3_29 : ∀ (i : grid3.Coords) a, (cc3_transform_29 i a + 1) * S192x1.size a ≤ S192x1.size a
  hwx3_29 : ∀ i : grid3.Coords, EltTy.bits .f32 = 32 ∨ (Rect.block (s := S192x1) S192x1.size (cc3_transform_29 i) (hinb3_29 i)).WholeWords (EltTy.packing .f32)
  hstage3_30 : ∀ j, (stage3_30 j).IsWhole
  nbuf3_30 : grid3.bufCount reads3_30 true = 1
  hreads3_30 : ∀ i i' : grid3.Coords, (∀ a, reads3_30 a = true → i a = i' a) → cc3_transform_30 i = cc3_transform_30 i'
  hinb3_30 : ∀ (i : grid3.Coords) a, (cc3_transform_30 i a + 1) * S1x1.size a ≤ S1x1.size a
  hwx3_30 : ∀ i : grid3.Coords, EltTy.bits .f32 = 32 ∨ (Rect.block (s := S1x1) S1x1.size (cc3_transform_30 i) (hinb3_30 i)).WholeWords (EltTy.packing .f32)
  hstage3_31 : ∀ j, (stage3_31 j).IsWhole
  nbuf3_31 : grid3.bufCount reads3_31 true = 1
  hreads3_31 : ∀ i i' : grid3.Coords, (∀ a, reads3_31 a = true → i a = i' a) → cc3_transform_31 i = cc3_transform_31 i'
  hinb3_31 : ∀ (i : grid3.Coords) a, (cc3_transform_31 i a + 1) * S32x1.size a ≤ S32x1.size a
  hwx3_31 : ∀ i : grid3.Coords, EltTy.bits .f32 = 32 ∨ (Rect.block (s := S32x1) S32x1.size (cc3_transform_31 i) (hinb3_31 i)).WholeWords (EltTy.packing .f32)

variable [Facts₀]

def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def scatter_S10000_S90000x1_S90000_n_0_0_1 : ScatterDims S10000 S90000x1 S90000 where
  updateWindowDims := []
  insertedWindowDims := [0]
  scatterDimsToOperandDims := [0]
  indexVectorDim := 1
  wf := scatter_S10000_S90000x1_S90000_n_0_0_1_wf
def gather_S10000_S90000x1_S90000_n_0_n_n_0_1_1 : GatherDims S10000 S90000x1 S90000 where
  offsetDims := []
  collapsedSliceDims := [0]
  operandBatchingDims := []
  startIndicesBatchingDims := []
  startIndexMap := [0]
  indexVectorDim := 1
  sliceSizes := ![1]
  wf := gather_S10000_S90000x1_S90000_n_0_n_n_0_1_1_wf
def gather_S10000x1024_S90000x1_S90000x1024_1_0_n_n_0_1_11024 : GatherDims S10000x1024 S90000x1 S90000x1024 where
  offsetDims := [1]
  collapsedSliceDims := [0]
  operandBatchingDims := []
  startIndicesBatchingDims := []
  startIndexMap := [0]
  indexVectorDim := 1
  sliceSizes := ![1, 1024]
  wf := gather_S10000x1024_S90000x1_S90000x1024_1_0_n_n_0_1_11024_wf
def scatter_S10000x1024_S90000x1_S90000x1024_1_0_0_1 : ScatterDims S10000x1024 S90000x1 S90000x1024 where
  updateWindowDims := [1]
  insertedWindowDims := [0]
  scatterDimsToOperandDims := [0]
  indexVectorDim := 1
  wf := scatter_S10000x1024_S90000x1_S90000x1024_1_0_0_1_wf
def scatter_S32_S10000x1_S10000_n_0_0_1 : ScatterDims S32 S10000x1 S10000 where
  updateWindowDims := []
  insertedWindowDims := [0]
  scatterDimsToOperandDims := [0]
  indexVectorDim := 1
  wf := scatter_S32_S10000x1_S10000_n_0_0_1_wf
def dot_S1000x32_S1000x1024_S32x1024_0_0_1_1_n_n : DotDims S1000x32 S1000x1024 S32x1024 where
  lhsContracting := [0]
  rhsContracting := [0]
  lhsNonContracting := [1]
  rhsNonContracting := [1]
  lhsBatch := []
  rhsBatch := []
  wf := dot_S1000x32_S1000x1024_S32x1024_0_0_1_1_n_n_wf
def dot_S32x1024_S1024x128_S32x128_1_0_0_1_n_n : DotDims S32x1024 S1024x128 S32x128 where
  lhsContracting := [1]
  rhsContracting := [0]
  lhsNonContracting := [0]
  rhsNonContracting := [1]
  lhsBatch := []
  rhsBatch := []
  wf := dot_S32x1024_S1024x128_S32x128_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf
def dot_S32x800_S800x80_S32x80_1_0_0_1_n_n : DotDims S32x800 S800x80 S32x80 where
  lhsContracting := [1]
  rhsContracting := [0]
  lhsNonContracting := [0]
  rhsNonContracting := [1]
  lhsBatch := []
  rhsBatch := []
  wf := dot_S32x800_S800x80_S32x80_1_0_0_1_n_n_wf
def dot_S32x80_S80x64_S32x64_1_0_0_1_n_n : DotDims S32x80 S80x64 S32x64 where
  lhsContracting := [1]
  rhsContracting := [0]
  lhsNonContracting := [0]
  rhsNonContracting := [1]
  lhsBatch := []
  rhsBatch := []
  wf := dot_S32x80_S80x64_S32x64_1_0_0_1_n_n_wf
def dot_S32x192_S192x1_S32x1_1_0_0_1_n_n : DotDims S32x192 S192x1 S32x1 where
  lhsContracting := [1]
  rhsContracting := [0]
  lhsNonContracting := [0]
  rhsNonContracting := [1]
  lhsBatch := []
  rhsBatch := []
  wf := dot_S32x192_S192x1_S32x1_1_0_0_1_n_n_wf

abbrev win0_0 : Pipeline.Window sig grid0 :=
  Pipeline.Window.ofSpec (Memref.whole main_arg0) S1000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1000x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1000x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S1000x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v97) S1000x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v112) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v113) S1000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v114) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v115) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v116_0) S1x32x1024.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v116_1) S1x32x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v116_0) S2x32x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v116_1) S2x32x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v104) S32x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v111) S32x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S1024x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v117) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg16) S1024x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v118) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg18) S256x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v119) S1x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg20) S256x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v120) S1x64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_arg6) S32x16x800.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_arg7) S32x16x800.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_arg8) S32x16x800.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_arg9) S32x16x800.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v124) S1x1.size cc3_transform_16 reads3_16 false true 1 stage3_16 sem3_16
    hrank3 hreads3_16 hinb3_16 nbuf3_16 (Memref.isWhole_whole _) hwx3_16 hstage3_16

abbrev win3_17 : Pipeline.Window sig grid3 :=
  Pipeline.Window.ofSpec (Memref.whole main_v125) S1x1.size cc3_transform_17 reads3_17 false true 1 stage3_17 sem3_17
    hrank3 hreads3_17 hinb3_17 nbuf3_17 (Memref.isWhole_whole _) hwx3_17 hstage3_17

abbrev win3_18 : Pipeline.Window sig grid3 :=
  Pipeline.Window.ofSpec (Memref.whole main_v126) S1x1.size cc3_transform_18 reads3_18 false true 1 stage3_18 sem3_18
    hrank3 hreads3_18 hinb3_18 nbuf3_18 (Memref.isWhole_whole _) hwx3_18 hstage3_18

abbrev win3_19 : Pipeline.Window sig grid3 :=
  Pipeline.Window.ofSpec (Memref.whole main_v127) S1x1.size cc3_transform_19 reads3_19 false true 1 stage3_19 sem3_19
    hrank3 hreads3_19 hinb3_19 nbuf3_19 (Memref.isWhole_whole _) hwx3_19 hstage3_19

abbrev win3_20 : Pipeline.Window sig grid3 :=
  Pipeline.Window.ofSpec (Memref.whole main_v128) S1x1.size cc3_transform_20 reads3_20 false true 1 stage3_20 sem3_20
    hrank3 hreads3_20 hinb3_20 nbuf3_20 (Memref.isWhole_whole _) hwx3_20 hstage3_20

abbrev win3_21 : Pipeline.Window sig grid3 :=
  Pipeline.Window.ofSpec (Memref.whole main_v129) S1x1.size cc3_transform_21 reads3_21 false true 1 stage3_21 sem3_21
    hrank3 hreads3_21 hinb3_21 nbuf3_21 (Memref.isWhole_whole _) hwx3_21 hstage3_21

abbrev win3_22 : Pipeline.Window sig grid3 :=
  Pipeline.Window.ofSpec (Memref.whole main_v130) S1x1.size cc3_transform_22 reads3_22 false true 1 stage3_22 sem3_22
    hrank3 hreads3_22 hinb3_22 nbuf3_22 (Memref.isWhole_whole _) hwx3_22 hstage3_22

abbrev win3_23 : Pipeline.Window sig grid3 :=
  Pipeline.Window.ofSpec (Memref.whole main_v131) S1x1.size cc3_transform_23 reads3_23 false true 1 stage3_23 sem3_23
    hrank3 hreads3_23 hinb3_23 nbuf3_23 (Memref.isWhole_whole _) hwx3_23 hstage3_23

abbrev win3_24 : Pipeline.Window sig grid3 :=
  Pipeline.Window.ofSpec (Memref.whole main_v142) S800x80.size cc3_transform_24 reads3_24 false true 1 stage3_24 sem3_24
    hrank3 hreads3_24 hinb3_24 nbuf3_24 (Memref.isWhole_whole _) hwx3_24 hstage3_24

abbrev win3_25 : Pipeline.Window sig grid3 :=
  Pipeline.Window.ofSpec (Memref.whole main_arg30) S80x64.size cc3_transform_25 reads3_25 false true 1 stage3_25 sem3_25
    hrank3 hreads3_25 hinb3_25 nbuf3_25 (Memref.isWhole_whole _) hwx3_25 hstage3_25

abbrev win3_26 : Pipeline.Window sig grid3 :=
  Pipeline.Window.ofSpec (Memref.whole main_v121) S1x64.size cc3_transform_26 reads3_26 false true 1 stage3_26 sem3_26
    hrank3 hreads3_26 hinb3_26 nbuf3_26 (Memref.isWhole_whole _) hwx3_26 hstage3_26

abbrev win3_27 : Pipeline.Window sig grid3 :=
  Pipeline.Window.ofSpec (Memref.whole main_arg32) S80x64.size cc3_transform_27 reads3_27 false true 1 stage3_27 sem3_27
    hrank3 hreads3_27 hinb3_27 nbuf3_27 (Memref.isWhole_whole _) hwx3_27 hstage3_27

abbrev win3_28 : Pipeline.Window sig grid3 :=
  Pipeline.Window.ofSpec (Memref.whole main_v122) S1x64.size cc3_transform_28 reads3_28 false true 1 stage3_28 sem3_28
    hrank3 hreads3_28 hinb3_28 nbuf3_28 (Memref.isWhole_whole _) hwx3_28 hstage3_28

abbrev win3_29 : Pipeline.Window sig grid3 :=
  Pipeline.Window.ofSpec (Memref.whole main_arg34) S192x1.size cc3_transform_29 reads3_29 false true 1 stage3_29 sem3_29
    hrank3 hreads3_29 hinb3_29 nbuf3_29 (Memref.isWhole_whole _) hwx3_29 hstage3_29

abbrev win3_30 : Pipeline.Window sig grid3 :=
  Pipeline.Window.ofSpec (Memref.whole main_v123) S1x1.size cc3_transform_30 reads3_30 false true 1 stage3_30 sem3_30
    hrank3 hreads3_30 hinb3_30 nbuf3_30 (Memref.isWhole_whole _) hwx3_30 hstage3_30

abbrev win3_31 : Pipeline.Window sig grid3 :=
  Pipeline.Window.ofSpec (Memref.whole main_v143) S32x1.size cc3_transform_31 reads3_31 true true 1 stage3_31 sem3_31
    hrank3 hreads3_31 hinb3_31 nbuf3_31 (Memref.isWhole_whole _) hwx3_31 hstage3_31

abbrev win3 : Fin 32 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | 17 => win3_17 | 18 => win3_18 | 19 => win3_19 | 20 => win3_20 | 21 => win3_21 | 22 => win3_22 | 23 => win3_23 | 24 => win3_24 | 25 => win3_25 | 26 => win3_26 | 27 => win3_27 | 28 => win3_28 | 29 => win3_29 | 30 => win3_30 | 31 => win3_31 | ⟨_ + 32, h⟩ => absurd h (Nat.not_lt.2 (Nat.le_add_left _ _))
abbrev spec3 : Fin 32 → Pipeline.WinSpec sig grid3.rank := fun w => (win3 w).toWinSpec

class Facts : Prop extends Facts₀ where

variable [Facts]
-- ==== ReferenceIdeal.lean ====
abbrev S10000x1024 : Shape := ⟨2, ![10000, 1024]⟩
abbrev S2x80000 : Shape := ⟨2, ![2, 80000]⟩
abbrev S10000 : Shape := ⟨1, ![10000]⟩
abbrev S32x16x800 : Shape := ⟨3, ![32, 16, 800]⟩
abbrev S1024x1024 : Shape := ⟨2, ![1024, 1024]⟩
abbrev S1024 : Shape := ⟨1, ![1024]⟩
abbrev S1024x128 : Shape := ⟨2, ![1024, 128]⟩
abbrev S128 : Shape := ⟨1, ![128]⟩
abbrev S256x256 : Shape := ⟨2, ![256, 256]⟩
abbrev S256 : Shape := ⟨1, ![256]⟩
abbrev S256x64 : Shape := ⟨2, ![256, 64]⟩
abbrev S64 : Shape := ⟨1, ![64]⟩
abbrev S1 : Shape := ⟨1, ![1]⟩
abbrev S80x64 : Shape := ⟨2, ![80, 64]⟩
abbrev S192x1 : Shape := ⟨2, ![192, 1]⟩
abbrev S1x80000 : Shape := ⟨2, ![1, 80000]⟩
abbrev S80000 : Shape := ⟨1, ![80000]⟩
abbrev S90000 : Shape := ⟨1, ![90000]⟩
abbrev S_ : Shape := ⟨0, ![]⟩
abbrev S90000x1 : Shape := ⟨2, ![90000, 1]⟩
abbrev S90000x1024 : Shape := ⟨2, ![90000, 1024]⟩
abbrev S1x1024 : Shape := ⟨2, ![1, 1024]⟩
abbrev S32x1024 : Shape := ⟨2, ![32, 1024]⟩
abbrev S10000x1 : Shape := ⟨2, ![10000, 1]⟩
abbrev S32 : Shape := ⟨1, ![32]⟩
abbrev S32x1 : Shape := ⟨2, ![32, 1]⟩
abbrev S32x128 : Shape := ⟨2, ![32, 128]⟩
abbrev S1x128 : Shape := ⟨2, ![1, 128]⟩
abbrev S32x256 : Shape := ⟨2, ![32, 256]⟩
abbrev S1x256 : Shape := ⟨2, ![1, 256]⟩
abbrev S32x64 : Shape := ⟨2, ![32, 64]⟩
abbrev S1x64 : Shape := ⟨2, ![1, 64]⟩
abbrev S32x800 : Shape := ⟨2, ![32, 800]⟩
abbrev S32x1x800 : Shape := ⟨3, ![32, 1, 800]⟩
abbrev S32x2x800 : Shape := ⟨3, ![32, 2, 800]⟩
abbrev S32x2x80x10 : Shape := ⟨4, ![32, 2, 80, 10]⟩
abbrev S32x2x80 : Shape := ⟨3, ![32, 2, 80]⟩
abbrev S32x80 : Shape := ⟨2, ![32, 80]⟩
abbrev S32x192 : Shape := ⟨2, ![32, 192]⟩
abbrev S1x1 : Shape := ⟨2, ![1, 1]⟩

abbrev nBuf : Space → Nat
  | .hbm => 370
  | .vmem => 0
  | .smem => 0
  | _ => 0

abbrev hbmTy0_0 (i : Nat) : BufTy := match i % 128 with
  | 0 => ⟨S10000x1024, .f32⟩
  | 1 => ⟨S2x80000, .i32⟩
  | 2 => ⟨S10000, .i32⟩
  | 3 => ⟨S10000x1024, .f32⟩
  | 4 => ⟨S2x80000, .i32⟩
  | 5 => ⟨S10000, .i32⟩
  | 6 => ⟨S32x16x800, .f32⟩
  | 7 => ⟨S32x16x800, .f32⟩
  | 8 => ⟨S32x16x800, .f32⟩
  | 9 => ⟨S32x16x800, .f32⟩
  | 10 => ⟨S1024x1024, .f32⟩
  | 11 => ⟨S1024, .f32⟩
  | 12 => ⟨S1024x1024, .f32⟩
  | 13 => ⟨S1024, .f32⟩
  | 14 => ⟨S1024x128, .f32⟩
  | 15 => ⟨S128, .f32⟩
  | 16 => ⟨S1024x128, .f32⟩
  | 17 => ⟨S128, .f32⟩
  | 18 => ⟨S256x256, .f32⟩
  | 19 => ⟨S256, .f32⟩
  | 20 => ⟨S256x64, .f32⟩
  | 21 => ⟨S64, .f32⟩
  | 22 => ⟨S1, .f32⟩
  | 23 => ⟨S1, .f32⟩
  | 24 => ⟨S1, .f32⟩
  | 25 => ⟨S1, .f32⟩
  | 26 => ⟨S1, .f32⟩
  | 27 => ⟨S1, .f32⟩
  | 28 => ⟨S1, .f32⟩
  | 29 => ⟨S1, .f32⟩
  | 30 => ⟨S80x64, .f32⟩
  | 31 => ⟨S64, .f32⟩
  | 32 => ⟨S80x64, .f32⟩
  | 33 => ⟨S64, .f32⟩
  | 34 => ⟨S192x1, .f32⟩
  | 35 => ⟨S1, .f32⟩
  | 36 => ⟨S10000, .i32⟩
  | 37 => ⟨S1x80000, .i32⟩
  | 38 => ⟨S80000, .i32⟩
  | 39 => ⟨S90000, .i32⟩
  | 40 => ⟨S1x80000, .i32⟩
  | 41 => ⟨S80000, .i32⟩
  | 42 => ⟨S90000, .i32⟩
  | 43 => ⟨S_, .f32⟩
  | 44 => ⟨S90000, .f32⟩
  | 45 => ⟨S_, .f32⟩
  | 46 => ⟨S10000, .f32⟩
  | 47 => ⟨S90000x1, .i32⟩
  | 48 => ⟨S10000, .f32⟩
  | 49 => ⟨S_, .f32⟩
  | 50 => ⟨S10000, .f32⟩
  | 51 => ⟨S10000, .i1⟩
  | 52 => ⟨S_, .f32⟩
  | 53 => ⟨S10000, .f32⟩
  | 54 => ⟨S10000, .f32⟩
  | 55 => ⟨S10000, .f32⟩
  | 56 => ⟨S_, .f32⟩
  | 57 => ⟨S10000, .f32⟩
  | 58 => ⟨S10000, .f32⟩
  | 59 => ⟨S_, .f32⟩
  | 60 => ⟨S_, .f32⟩
  | 61 => ⟨S10000, .f32⟩
  | 62 => ⟨S10000, .f32⟩
  | 63 => ⟨S_, .i32⟩
  | 64 => ⟨S90000, .i32⟩
  | 65 => ⟨S90000, .i1⟩
  | 66 => ⟨S_, .i32⟩
  | 67 => ⟨S90000, .i32⟩
  | 68 => ⟨S90000, .i32⟩
  | 69 => ⟨S90000, .i32⟩
  | 70 => ⟨S90000x1, .i32⟩
  | 71 => ⟨S90000, .f32⟩
  | 72 => ⟨S_, .i32⟩
  | 73 => ⟨S90000, .i32⟩
  | 74 => ⟨S90000, .i1⟩
  | 75 => ⟨S_, .i32⟩
  | 76 => ⟨S90000, .i32⟩
  | 77 => ⟨S90000, .i32⟩
  | 78 => ⟨S90000, .i32⟩
  | 79 => ⟨S90000x1, .i32⟩
  | 80 => ⟨S90000, .f32⟩
  | 81 => ⟨S90000, .f32⟩
  | 82 => ⟨S10000x1024, .f32⟩
  | 83 => ⟨S_, .i32⟩
  | 84 => ⟨S90000, .i32⟩
  | 85 => ⟨S90000, .i1⟩
  | 86 => ⟨S_, .i32⟩
  | 87 => ⟨S90000, .i32⟩
  | 88 => ⟨S90000, .i32⟩
  | 89 => ⟨S90000, .i32⟩
  | 90 => ⟨S90000x1, .i32⟩
  | 91 => ⟨S90000x1024, .f32⟩
  | 92 => ⟨S90000x1, .f32⟩
  | 93 => ⟨S90000x1024, .f32⟩
  | 94 => ⟨S90000x1024, .f32⟩
  | 95 => ⟨S_, .f32⟩
  | 96 => ⟨S10000x1024, .f32⟩
  | 97 => ⟨S90000x1, .i32⟩
  | 98 => ⟨S10000x1024, .f32⟩
  | 99 => ⟨S1x1024, .f32⟩
  | 100 => ⟨S10000x1024, .f32⟩
  | 101 => ⟨S10000x1024, .f32⟩
  | 102 => ⟨S_, .f32⟩
  | 103 => ⟨S_, .f32⟩
  | 104 => ⟨S10000x1024, .f32⟩
  | 105 => ⟨S10000x1024, .i1⟩
  | 106 => ⟨S_, .f32⟩
  | 107 => ⟨S10000x1024, .f32⟩
  | 108 => ⟨S10000x1024, .f32⟩
  | 109 => ⟨S10000x1024, .f32⟩
  | 110 => ⟨S_, .f32⟩
  | 111 => ⟨S32x1024, .f32⟩
  | 112 => ⟨S10000x1, .i32⟩
  | 113 => ⟨S32x1024, .f32⟩
  | 114 => ⟨S_, .f32⟩
  | 115 => ⟨S10000, .f32⟩
  | 116 => ⟨S_, .f32⟩
  | 117 => ⟨S32, .f32⟩
  | 118 => ⟨S10000x1, .i32⟩
  | 119 => ⟨S32, .f32⟩
  | 120 => ⟨S_, .f32⟩
  | 121 => ⟨S32, .f32⟩
  | 122 => ⟨S32, .f32⟩
  | 123 => ⟨S32x1, .f32⟩
  | 124 => ⟨S32x1024, .f32⟩
  | 125 => ⟨S32x1024, .f32⟩
  | 126 => ⟨S32x128, .f32⟩
  | 127 => ⟨S1x128, .f32⟩
  | _ => ⟨S10000x1024, .f32⟩

abbrev hbmTy0_1 (i : Nat) : BufTy := match i % 128 with
  | 0 => ⟨S32x128, .f32⟩
  | 1 => ⟨S32x128, .f32⟩
  | 2 => ⟨S_, .f32⟩
  | 3 => ⟨S_, .f32⟩
  | 4 => ⟨S32x128, .f32⟩
  | 5 => ⟨S32x128, .i1⟩
  | 6 => ⟨S_, .f32⟩
  | 7 => ⟨S32x128, .f32⟩
  | 8 => ⟨S32x128, .f32⟩
  | 9 => ⟨S32x128, .f32⟩
  | 10 => ⟨S10000, .i32⟩
  | 11 => ⟨S1x80000, .i32⟩
  | 12 => ⟨S80000, .i32⟩
  | 13 => ⟨S90000, .i32⟩
  | 14 => ⟨S1x80000, .i32⟩
  | 15 => ⟨S80000, .i32⟩
  | 16 => ⟨S90000, .i32⟩
  | 17 => ⟨S_, .f32⟩
  | 18 => ⟨S90000, .f32⟩
  | 19 => ⟨S_, .f32⟩
  | 20 => ⟨S10000, .f32⟩
  | 21 => ⟨S90000x1, .i32⟩
  | 22 => ⟨S10000, .f32⟩
  | 23 => ⟨S_, .f32⟩
  | 24 => ⟨S10000, .f32⟩
  | 25 => ⟨S10000, .i1⟩
  | 26 => ⟨S_, .f32⟩
  | 27 => ⟨S10000, .f32⟩
  | 28 => ⟨S10000, .f32⟩
  | 29 => ⟨S10000, .f32⟩
  | 30 => ⟨S_, .f32⟩
  | 31 => ⟨S10000, .f32⟩
  | 32 => ⟨S10000, .f32⟩
  | 33 => ⟨S_, .f32⟩
  | 34 => ⟨S_, .f32⟩
  | 35 => ⟨S10000, .f32⟩
  | 36 => ⟨S10000, .f32⟩
  | 37 => ⟨S_, .i32⟩
  | 38 => ⟨S90000, .i32⟩
  | 39 => ⟨S90000, .i1⟩
  | 40 => ⟨S_, .i32⟩
  | 41 => ⟨S90000, .i32⟩
  | 42 => ⟨S90000, .i32⟩
  | 43 => ⟨S90000, .i32⟩
  | 44 => ⟨S90000x1, .i32⟩
  | 45 => ⟨S90000, .f32⟩
  | 46 => ⟨S_, .i32⟩
  | 47 => ⟨S90000, .i32⟩
  | 48 => ⟨S90000, .i1⟩
  | 49 => ⟨S_, .i32⟩
  | 50 => ⟨S90000, .i32⟩
  | 51 => ⟨S90000, .i32⟩
  | 52 => ⟨S90000, .i32⟩
  | 53 => ⟨S90000x1, .i32⟩
  | 54 => ⟨S90000, .f32⟩
  | 55 => ⟨S90000, .f32⟩
  | 56 => ⟨S10000x1024, .f32⟩
  | 57 => ⟨S_, .i32⟩
  | 58 => ⟨S90000, .i32⟩
  | 59 => ⟨S90000, .i1⟩
  | 60 => ⟨S_, .i32⟩
  | 61 => ⟨S90000, .i32⟩
  | 62 => ⟨S90000, .i32⟩
  | 63 => ⟨S90000, .i32⟩
  | 64 => ⟨S90000x1, .i32⟩
  | 65 => ⟨S90000x1024, .f32⟩
  | 66 => ⟨S90000x1, .f32⟩
  | 67 => ⟨S90000x1024, .f32⟩
  | 68 => ⟨S90000x1024, .f32⟩
  | 69 => ⟨S_, .f32⟩
  | 70 => ⟨S10000x1024, .f32⟩
  | 71 => ⟨S90000x1, .i32⟩
  | 72 => ⟨S10000x1024, .f32⟩
  | 73 => ⟨S1x1024, .f32⟩
  | 74 => ⟨S10000x1024, .f32⟩
  | 75 => ⟨S10000x1024, .f32⟩
  | 76 => ⟨S_, .f32⟩
  | 77 => ⟨S_, .f32⟩
  | 78 => ⟨S10000x1024, .f32⟩
  | 79 => ⟨S10000x1024, .i1⟩
  | 80 => ⟨S_, .f32⟩
  | 81 => ⟨S10000x1024, .f32⟩
  | 82 => ⟨S10000x1024, .f32⟩
  | 83 => ⟨S10000x1024, .f32⟩
  | 84 => ⟨S_, .f32⟩
  | 85 => ⟨S32x1024, .f32⟩
  | 86 => ⟨S10000x1, .i32⟩
  | 87 => ⟨S32x1024, .f32⟩
  | 88 => ⟨S_, .f32⟩
  | 89 => ⟨S10000, .f32⟩
  | 90 => ⟨S_, .f32⟩
  | 91 => ⟨S32, .f32⟩
  | 92 => ⟨S10000x1, .i32⟩
  | 93 => ⟨S32, .f32⟩
  | 94 => ⟨S_, .f32⟩
  | 95 => ⟨S32, .f32⟩
  | 96 => ⟨S32, .f32⟩
  | 97 => ⟨S32x1, .f32⟩
  | 98 => ⟨S32x1024, .f32⟩
  | 99 => ⟨S32x1024, .f32⟩
  | 100 => ⟨S32x128, .f32⟩
  | 101 => ⟨S1x128, .f32⟩
  | 102 => ⟨S32x128, .f32⟩
  | 103 => ⟨S32x128, .f32⟩
  | 104 => ⟨S_, .f32⟩
  | 105 => ⟨S_, .f32⟩
  | 106 => ⟨S32x128, .f32⟩
  | 107 => ⟨S32x128, .i1⟩
  | 108 => ⟨S_, .f32⟩
  | 109 => ⟨S32x128, .f32⟩
  | 110 => ⟨S32x128, .f32⟩
  | 111 => ⟨S32x128, .f32⟩
  | 112 => ⟨S32x256, .f32⟩
  | 113 => ⟨S32x256, .f32⟩
  | 114 => ⟨S1x256, .f32⟩
  | 115 => ⟨S32x256, .f32⟩
  | 116 => ⟨S32x256, .f32⟩
  | 117 => ⟨S_, .f32⟩
  | 118 => ⟨S_, .f32⟩
  | 119 => ⟨S32x256, .f32⟩
  | 120 => ⟨S32x256, .i1⟩
  | 121 => ⟨S_, .f32⟩
  | 122 => ⟨S32x256, .f32⟩
  | 123 => ⟨S32x256, .f32⟩
  | 124 => ⟨S32x256, .f32⟩
  | 125 => ⟨S32x64, .f32⟩
  | 126 => ⟨S1x64, .f32⟩
  | 127 => ⟨S32x64, .f32⟩
  | _ => ⟨S10000x1024, .f32⟩

abbrev hbmTy0_2 (i : Nat) : BufTy := match i % 128 with
  | 0 => ⟨S32x64, .f32⟩
  | 1 => ⟨S_, .f32⟩
  | 2 => ⟨S_, .f32⟩
  | 3 => ⟨S32x64, .f32⟩
  | 4 => ⟨S32x64, .i1⟩
  | 5 => ⟨S_, .f32⟩
  | 6 => ⟨S32x64, .f32⟩
  | 7 => ⟨S32x64, .f32⟩
  | 8 => ⟨S32x64, .f32⟩
  | 9 => ⟨S_, .f32⟩
  | 10 => ⟨S32x800, .f32⟩
  | 11 => ⟨S_, .f32⟩
  | 12 => ⟨S32x800, .f32⟩
  | 13 => ⟨S32x800, .f32⟩
  | 14 => ⟨S_, .f32⟩
  | 15 => ⟨S32x800, .f32⟩
  | 16 => ⟨S32x800, .f32⟩
  | 17 => ⟨S_, .f32⟩
  | 18 => ⟨S32x800, .f32⟩
  | 19 => ⟨S32x800, .f32⟩
  | 20 => ⟨S_, .f32⟩
  | 21 => ⟨S32x800, .f32⟩
  | 22 => ⟨S32x800, .f32⟩
  | 23 => ⟨S_, .f32⟩
  | 24 => ⟨S32x800, .f32⟩
  | 25 => ⟨S_, .f32⟩
  | 26 => ⟨S32x800, .f32⟩
  | 27 => ⟨S32x800, .f32⟩
  | 28 => ⟨S_, .f32⟩
  | 29 => ⟨S32x800, .f32⟩
  | 30 => ⟨S32x800, .f32⟩
  | 31 => ⟨S_, .f32⟩
  | 32 => ⟨S32x800, .f32⟩
  | 33 => ⟨S32x800, .f32⟩
  | 34 => ⟨S_, .f32⟩
  | 35 => ⟨S32x800, .f32⟩
  | 36 => ⟨S32x800, .f32⟩
  | 37 => ⟨S32x1x800, .f32⟩
  | 38 => ⟨S32x1x800, .f32⟩
  | 39 => ⟨S32x2x800, .f32⟩
  | 40 => ⟨S32x2x80x10, .f32⟩
  | 41 => ⟨S_, .f32⟩
  | 42 => ⟨S32x2x80, .f32⟩
  | 43 => ⟨S_, .f32⟩
  | 44 => ⟨S32x2x80, .f32⟩
  | 45 => ⟨S32x2x80, .f32⟩
  | 46 => ⟨S_, .f32⟩
  | 47 => ⟨S32x80, .f32⟩
  | 48 => ⟨S_, .f32⟩
  | 49 => ⟨S32x80, .f32⟩
  | 50 => ⟨S32x80, .f32⟩
  | 51 => ⟨S32x64, .f32⟩
  | 52 => ⟨S1x64, .f32⟩
  | 53 => ⟨S32x64, .f32⟩
  | 54 => ⟨S32x64, .f32⟩
  | 55 => ⟨S_, .f32⟩
  | 56 => ⟨S32x800, .f32⟩
  | 57 => ⟨S_, .f32⟩
  | 58 => ⟨S32x800, .f32⟩
  | 59 => ⟨S32x800, .f32⟩
  | 60 => ⟨S_, .f32⟩
  | 61 => ⟨S32x800, .f32⟩
  | 62 => ⟨S32x800, .f32⟩
  | 63 => ⟨S_, .f32⟩
  | 64 => ⟨S32x800, .f32⟩
  | 65 => ⟨S32x800, .f32⟩
  | 66 => ⟨S_, .f32⟩
  | 67 => ⟨S32x800, .f32⟩
  | 68 => ⟨S32x800, .f32⟩
  | 69 => ⟨S_, .f32⟩
  | 70 => ⟨S32x800, .f32⟩
  | 71 => ⟨S_, .f32⟩
  | 72 => ⟨S32x800, .f32⟩
  | 73 => ⟨S32x800, .f32⟩
  | 74 => ⟨S_, .f32⟩
  | 75 => ⟨S32x800, .f32⟩
  | 76 => ⟨S32x800, .f32⟩
  | 77 => ⟨S_, .f32⟩
  | 78 => ⟨S32x800, .f32⟩
  | 79 => ⟨S32x800, .f32⟩
  | 80 => ⟨S_, .f32⟩
  | 81 => ⟨S32x800, .f32⟩
  | 82 => ⟨S32x800, .f32⟩
  | 83 => ⟨S32x1x800, .f32⟩
  | 84 => ⟨S32x1x800, .f32⟩
  | 85 => ⟨S32x2x800, .f32⟩
  | 86 => ⟨S32x2x80x10, .f32⟩
  | 87 => ⟨S_, .f32⟩
  | 88 => ⟨S32x2x80, .f32⟩
  | 89 => ⟨S_, .f32⟩
  | 90 => ⟨S32x2x80, .f32⟩
  | 91 => ⟨S32x2x80, .f32⟩
  | 92 => ⟨S_, .f32⟩
  | 93 => ⟨S32x80, .f32⟩
  | 94 => ⟨S_, .f32⟩
  | 95 => ⟨S32x80, .f32⟩
  | 96 => ⟨S32x80, .f32⟩
  | 97 => ⟨S32x64, .f32⟩
  | 98 => ⟨S1x64, .f32⟩
  | 99 => ⟨S32x64, .f32⟩
  | 100 => ⟨S32x64, .f32⟩
  | 101 => ⟨S32x192, .f32⟩
  | 102 => ⟨S32x1, .f32⟩
  | 103 => ⟨S1x1, .f32⟩
  | 104 => ⟨S32x1, .f32⟩
  | 105 => ⟨S32x1, .f32⟩
  | 106 => ⟨S32x1, .f32⟩
  | 107 => ⟨S32x1, .f32⟩
  | 108 => ⟨S_, .f32⟩
  | 109 => ⟨S32x1, .f32⟩
  | 110 => ⟨S32x1, .f32⟩
  | 111 => ⟨S_, .f32⟩
  | 112 => ⟨S32x1, .f32⟩
  | 113 => ⟨S32x1, .f32⟩
  | _ => ⟨S10000x1024, .f32⟩

abbrev hbmTy (i : Nat) : BufTy := match i / 128 with
  | 0 => hbmTy0_0 i
  | 1 => hbmTy0_1 i
  | 2 => hbmTy0_2 i
  | _ => ⟨S10000x1024, .f32⟩

abbrev bufTy : (tb : Table) → Fin (tcTables nBuf tb) → BufTy
  | .hbm, ⟨i, _⟩ => hbmTy i
  | _, _ => ⟨S10000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst : Ref sig .tc := ⟨.hbm, 43, rfl⟩
abbrev main_v7 : Ref sig .tc := ⟨.hbm, 44, rfl⟩
abbrev main_cst_0 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst_1 : Ref sig .tc := ⟨.hbm, 49, rfl⟩
abbrev main_v11 : Ref sig .tc := ⟨.hbm, 50, rfl⟩
abbrev main_v12 : Ref sig .tc := ⟨.hbm, 51, rfl⟩
abbrev main_cst_2 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_cst_3 : Ref sig .tc := ⟨.hbm, 56, rfl⟩
abbrev main_v16 : Ref sig .tc := ⟨.hbm, 57, rfl⟩
abbrev main_v17 : Ref sig .tc := ⟨.hbm, 58, rfl⟩
abbrev main_cst_4 : Ref sig .tc := ⟨.hbm, 59, rfl⟩
abbrev main_call0_v0 : Ref sig .tc := ⟨.hbm, 60, rfl⟩
abbrev main_call0_v1 : Ref sig .tc := ⟨.hbm, 61, rfl⟩
abbrev main_v18 : Ref sig .tc := ⟨.hbm, 62, rfl⟩
abbrev main_c : Ref sig .tc := ⟨.hbm, 63, rfl⟩
abbrev main_v19 : Ref sig .tc := ⟨.hbm, 64, rfl⟩
abbrev main_v20 : Ref sig .tc := ⟨.hbm, 65, rfl⟩
abbrev main_c_5 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_c_6 : Ref sig .tc := ⟨.hbm, 72, rfl⟩
abbrev main_v26 : Ref sig .tc := ⟨.hbm, 73, rfl⟩
abbrev main_v27 : Ref sig .tc := ⟨.hbm, 74, rfl⟩
abbrev main_c_7 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_c_8 : Ref sig .tc := ⟨.hbm, 83, rfl⟩
abbrev main_v35 : Ref sig .tc := ⟨.hbm, 84, rfl⟩
abbrev main_v36 : Ref sig .tc := ⟨.hbm, 85, rfl⟩
abbrev main_c_9 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_10 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_11 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_v51 : Ref sig .tc := ⟨.hbm, 109, rfl⟩
abbrev main_cst_12 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_cst_13 : Ref sig .tc := ⟨.hbm, 114, rfl⟩
abbrev main_v55 : Ref sig .tc := ⟨.hbm, 115, rfl⟩
abbrev main_cst_14 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst_15 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_cst_16 : Ref sig .tc := ⟨.hbm, 130, rfl⟩
abbrev main_call2_cst : Ref sig .tc := ⟨.hbm, 131, rfl⟩
abbrev main_call2_v0 : Ref sig .tc := ⟨.hbm, 132, rfl⟩
abbrev main_call2_v1 : Ref sig .tc := ⟨.hbm, 133, rfl⟩
abbrev main_call2_v2 : Ref sig .tc := ⟨.hbm, 134, rfl⟩
abbrev main_call2_v3 : Ref sig .tc := ⟨.hbm, 135, rfl⟩
abbrev main_call2_v4 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_cst_17 : Ref sig .tc := ⟨.hbm, 145, rfl⟩
abbrev main_v76 : Ref sig .tc := ⟨.hbm, 146, rfl⟩
abbrev main_cst_18 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_cst_19 : Ref sig .tc := ⟨.hbm, 151, rfl⟩
abbrev main_v80 : Ref sig .tc := ⟨.hbm, 152, rfl⟩
abbrev main_v81 : Ref sig .tc := ⟨.hbm, 153, rfl⟩
abbrev main_cst_20 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_cst_21 : Ref sig .tc := ⟨.hbm, 158, rfl⟩
abbrev main_v85 : Ref sig .tc := ⟨.hbm, 159, rfl⟩
abbrev main_v86 : Ref sig .tc := ⟨.hbm, 160, rfl⟩
abbrev main_cst_22 : Ref sig .tc := ⟨.hbm, 161, rfl⟩
abbrev main_call3_v0 : Ref sig .tc := ⟨.hbm, 162, rfl⟩
abbrev main_call3_v1 : Ref sig .tc := ⟨.hbm, 163, rfl⟩
abbrev main_v87 : Ref sig .tc := ⟨.hbm, 164, rfl⟩
abbrev main_c_23 : Ref sig .tc := ⟨.hbm, 165, rfl⟩
abbrev main_v88 : Ref sig .tc := ⟨.hbm, 166, rfl⟩
abbrev main_v89 : Ref sig .tc := ⟨.hbm, 167, rfl⟩
abbrev main_c_24 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_c_25 : Ref sig .tc := ⟨.hbm, 174, rfl⟩
abbrev main_v95 : Ref sig .tc := ⟨.hbm, 175, rfl⟩
abbrev main_v96 : Ref sig .tc := ⟨.hbm, 176, rfl⟩
abbrev main_c_26 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_c_27 : Ref sig .tc := ⟨.hbm, 185, rfl⟩
abbrev main_v104 : Ref sig .tc := ⟨.hbm, 186, rfl⟩
abbrev main_v105 : Ref sig .tc := ⟨.hbm, 187, rfl⟩
abbrev main_c_28 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_cst_29 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_cst_30 : Ref sig .tc := ⟨.hbm, 204, rfl⟩
abbrev main_call4_cst : Ref sig .tc := ⟨.hbm, 205, rfl⟩
abbrev main_call4_v0 : Ref sig .tc := ⟨.hbm, 206, rfl⟩
abbrev main_call4_v1 : Ref sig .tc := ⟨.hbm, 207, rfl⟩
abbrev main_call4_v2 : Ref sig .tc := ⟨.hbm, 208, rfl⟩
abbrev main_call4_v3 : Ref sig .tc := ⟨.hbm, 209, rfl⟩
abbrev main_call4_v4 : Ref sig .tc := ⟨.hbm, 210, rfl⟩
abbrev main_v120 : Ref sig .tc := ⟨.hbm, 211, rfl⟩
abbrev main_cst_31 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_cst_32 : Ref sig .tc := ⟨.hbm, 216, rfl⟩
abbrev main_v124 : Ref sig .tc := ⟨.hbm, 217, rfl⟩
abbrev main_cst_33 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_cst_34 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_cst_35 : Ref sig .tc := ⟨.hbm, 232, rfl⟩
abbrev main_call5_cst : Ref sig .tc := ⟨.hbm, 233, rfl⟩
abbrev main_call5_v0 : Ref sig .tc := ⟨.hbm, 234, rfl⟩
abbrev main_call5_v1 : Ref sig .tc := ⟨.hbm, 235, rfl⟩
abbrev main_call5_v2 : Ref sig .tc := ⟨.hbm, 236, rfl⟩
abbrev main_call5_v3 : Ref sig .tc := ⟨.hbm, 237, rfl⟩
abbrev main_call5_v4 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_cst_36 : Ref sig .tc := ⟨.hbm, 245, rfl⟩
abbrev main_call6_cst : Ref sig .tc := ⟨.hbm, 246, rfl⟩
abbrev main_call6_v0 : Ref sig .tc := ⟨.hbm, 247, rfl⟩
abbrev main_call6_v1 : Ref sig .tc := ⟨.hbm, 248, rfl⟩
abbrev main_call6_v2 : Ref sig .tc := ⟨.hbm, 249, rfl⟩
abbrev main_call6_v3 : Ref sig .tc := ⟨.hbm, 250, rfl⟩
abbrev main_call6_v4 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_cst_37 : Ref sig .tc := ⟨.hbm, 257, rfl⟩
abbrev main_call7_cst : Ref sig .tc := ⟨.hbm, 258, rfl⟩
abbrev main_call7_v0 : Ref sig .tc := ⟨.hbm, 259, rfl⟩
abbrev main_call7_v1 : Ref sig .tc := ⟨.hbm, 260, rfl⟩
abbrev main_call7_v2 : Ref sig .tc := ⟨.hbm, 261, rfl⟩
abbrev main_call7_v3 : Ref sig .tc := ⟨.hbm, 262, rfl⟩
abbrev main_call7_v4 : Ref sig .tc := ⟨.hbm, 263, rfl⟩
abbrev main_v148 : Ref sig .tc := ⟨.hbm, 264, rfl⟩
abbrev main_cst_38 : Ref sig .tc := ⟨.hbm, 265, rfl⟩
abbrev main_v149 : Ref sig .tc := ⟨.hbm, 266, rfl⟩
abbrev main_cst_39 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_call8_cst : Ref sig .tc := ⟨.hbm, 276, rfl⟩
abbrev main_call8_v0 : Ref sig .tc := ⟨.hbm, 277, rfl⟩
abbrev main_v158 : Ref sig .tc := ⟨.hbm, 278, rfl⟩
abbrev main_cst_40 : Ref sig .tc := ⟨.hbm, 279, rfl⟩
abbrev main_v159 : Ref sig .tc := ⟨.hbm, 280, rfl⟩
abbrev main_cst_41 : Ref sig .tc := ⟨.hbm, 281, rfl⟩
abbrev main_v160 : Ref sig .tc := ⟨.hbm, 282, rfl⟩
abbrev main_v161 : Ref sig .tc := ⟨.hbm, 283, rfl⟩
abbrev main_v162 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_v166 : Ref sig .tc := ⟨.hbm, 288, rfl⟩
abbrev main_v167 : Ref sig .tc := ⟨.hbm, 289, rfl⟩
abbrev main_call9_cst : Ref sig .tc := ⟨.hbm, 290, rfl⟩
abbrev main_call9_v0 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_v172 : Ref sig .tc := ⟨.hbm, 296, rfl⟩
abbrev main_cst_42 : Ref sig .tc := ⟨.hbm, 297, rfl⟩
abbrev main_v173 : Ref sig .tc := ⟨.hbm, 298, rfl⟩
abbrev main_cst_43 : Ref sig .tc := ⟨.hbm, 299, rfl⟩
abbrev main_v174 : Ref sig .tc := ⟨.hbm, 300, rfl⟩
abbrev main_v175 : Ref sig .tc := ⟨.hbm, 301, rfl⟩
abbrev main_cst_44 : Ref sig .tc := ⟨.hbm, 302, rfl⟩
abbrev main_v176 : Ref sig .tc := ⟨.hbm, 303, rfl⟩
abbrev main_cst_45 : Ref sig .tc := ⟨.hbm, 304, rfl⟩
abbrev main_v177 : Ref sig .tc := ⟨.hbm, 305, rfl⟩
abbrev main_v178 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩
abbrev main_v182 : Ref sig .tc := ⟨.hbm, 310, rfl⟩
abbrev main_cst_46 : Ref sig .tc := ⟨.hbm, 311, rfl⟩
abbrev main_v183 : Ref sig .tc := ⟨.hbm, 312, rfl⟩
abbrev main_cst_47 : Ref sig .tc := ⟨.hbm, 313, rfl⟩
abbrev main_v184 : Ref sig .tc := ⟨.hbm, 314, rfl⟩
abbrev main_v185 : Ref sig .tc := ⟨.hbm, 315, rfl⟩
abbrev main_v186 : Ref sig .tc := ⟨.hbm, 316, rfl⟩
abbrev main_v187 : Ref sig .tc := ⟨.hbm, 317, rfl⟩
abbrev main_v188 : Ref sig .tc := ⟨.hbm, 318, rfl⟩
abbrev main_v189 : Ref sig .tc := ⟨.hbm, 319, rfl⟩
abbrev main_v190 : Ref sig .tc := ⟨.hbm, 320, rfl⟩
abbrev main_v191 : Ref sig .tc := ⟨.hbm, 321, rfl⟩
abbrev main_call10_cst : Ref sig .tc := ⟨.hbm, 322, rfl⟩
abbrev main_call10_v0 : Ref sig .tc := ⟨.hbm, 323, rfl⟩
abbrev main_v192 : Ref sig .tc := ⟨.hbm, 324, rfl⟩
abbrev main_cst_48 : Ref sig .tc := ⟨.hbm, 325, rfl⟩
abbrev main_v193 : Ref sig .tc := ⟨.hbm, 326, rfl⟩
abbrev main_cst_49 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_v201 : Ref sig .tc := ⟨.hbm, 335, rfl⟩
abbrev main_call11_cst : Ref sig .tc := ⟨.hbm, 336, rfl⟩
abbrev main_call11_v0 : Ref sig .tc := ⟨.hbm, 337, rfl⟩
abbrev main_v202 : Ref sig .tc := ⟨.hbm, 338, rfl⟩
abbrev main_v203 : Ref sig .tc := ⟨.hbm, 339, rfl⟩
abbrev main_v204 : Ref sig .tc := ⟨.hbm, 340, rfl⟩
abbrev main_v205 : Ref sig .tc := ⟨.hbm, 341, rfl⟩
abbrev main_v206 : Ref sig .tc := ⟨.hbm, 342, rfl⟩
abbrev main_cst_50 : Ref sig .tc := ⟨.hbm, 343, rfl⟩
abbrev main_v207 : Ref sig .tc := ⟨.hbm, 344, rfl⟩
abbrev main_cst_51 : Ref sig .tc := ⟨.hbm, 345, rfl⟩
abbrev main_v208 : Ref sig .tc := ⟨.hbm, 346, rfl⟩
abbrev main_v209 : Ref sig .tc := ⟨.hbm, 347, rfl⟩
abbrev main_cst_52 : Ref sig .tc := ⟨.hbm, 348, rfl⟩
abbrev main_v210 : Ref sig .tc := ⟨.hbm, 349, rfl⟩
abbrev main_cst_53 : Ref sig .tc := ⟨.hbm, 350, rfl⟩
abbrev main_v211 : Ref sig .tc := ⟨.hbm, 351, rfl⟩
abbrev main_v212 : Ref sig .tc := ⟨.hbm, 352, rfl⟩
abbrev main_v213 : Ref sig .tc := ⟨.hbm, 353, rfl⟩
abbrev main_v214 : Ref sig .tc := ⟨.hbm, 354, rfl⟩
abbrev main_v215 : Ref sig .tc := ⟨.hbm, 355, rfl⟩
abbrev main_v216 : Ref sig .tc := ⟨.hbm, 356, rfl⟩
abbrev main_v217 : Ref sig .tc := ⟨.hbm, 357, rfl⟩
abbrev main_v218 : Ref sig .tc := ⟨.hbm, 358, rfl⟩
abbrev main_v219 : Ref sig .tc := ⟨.hbm, 359, rfl⟩
abbrev main_v220 : Ref sig .tc := ⟨.hbm, 360, rfl⟩
abbrev main_v221 : Ref sig .tc := ⟨.hbm, 361, rfl⟩
abbrev main_v222 : Ref sig .tc := ⟨.hbm, 362, rfl⟩
abbrev main_v223 : Ref sig .tc := ⟨.hbm, 363, rfl⟩
abbrev main_cst_54 : Ref sig .tc := ⟨.hbm, 364, rfl⟩
abbrev main_v224 : Ref sig .tc := ⟨.hbm, 365, rfl⟩
abbrev main_v225 : Ref sig .tc := ⟨.hbm, 366, rfl⟩
abbrev main_cst_55 : Ref sig .tc := ⟨.hbm, 367, rfl⟩
abbrev main_v226 : Ref sig .tc := ⟨.hbm, 368, rfl⟩
abbrev main_v227 : Ref sig .tc := ⟨.hbm, 369, rfl⟩

abbrev nD : Nat := 1
abbrev τ : Topo := Topo.v7x

variable {F : FTy → Type} [FloatOps F]

class Facts₀ : Prop where
  slices_S2x80000_S1x80000_0_0 : S2x80000.Slices ![0, 0] S1x80000
  shapeCasts_S1x80000_S80000 : S1x80000.ShapeCasts S80000
  concatenates_S80000_S10000_S90000_d0 : Shape.Concatenates [S80000, S10000] S90000 0
  slices_S2x80000_S1x80000_1_0 : S2x80000.Slices ![1, 0] S1x80000
  bcast_S_S90000 : S_.BroadcastsInDim S90000 (![] : Fin 0 → Fin S90000.rank)
  bcast_S_S10000 : S_.BroadcastsInDim S10000 (![] : Fin 0 → Fin S10000.rank)
  bcast_S90000_S90000x1_0 : S90000.BroadcastsInDim S90000x1 (![0] : Fin 1 → Fin S90000x1.rank)
  bcast_S90000x1_S90000x1024_0_1 : S90000x1.BroadcastsInDim S90000x1024 (![0, 1] : Fin 2 → Fin S90000x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S_S32x1024 : S_.BroadcastsInDim S32x1024 (![] : Fin 0 → Fin S32x1024.rank)
  bcast_S10000_S10000x1_0 : S10000.BroadcastsInDim S10000x1 (![0] : Fin 1 → Fin S10000x1.rank)
  bcast_S_S32 : S_.BroadcastsInDim S32 (![] : Fin 0 → Fin S32.rank)
  bcast_S32_S32x1_0 : S32.BroadcastsInDim S32x1 (![0] : Fin 1 → Fin S32x1.rank)
  bcast_S32x1_S32x1024_0_1 : S32x1.BroadcastsInDim S32x1024 (![0, 1] : Fin 2 → Fin S32x1024.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  concatenates_S32x128_S32x128_S32x256_d1 : Shape.Concatenates [S32x128, S32x128] S32x256 1
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S_S32x64 : S_.BroadcastsInDim S32x64 (![] : Fin 0 → Fin S32x64.rank)
  reducesTo_S32x16x800_S32x800_d1 : S32x16x800.ReducesTo [1] S32x800
  h_S_ : 0 < S_.numel
  bcast_S_S32x800 : S_.BroadcastsInDim S32x800 (![] : Fin 0 → Fin S32x800.rank)
  shapeCasts_S1_S_ : S1.ShapeCasts S_
  bcast_S32x800_S32x1x800_0_2 : S32x800.BroadcastsInDim S32x1x800 (![0, 2] : Fin 2 → Fin S32x1x800.rank)
  concatenates_S32x1x800_S32x1x800_S32x2x800_d1 : Shape.Concatenates [S32x1x800, S32x1x800] S32x2x800 1
  shapeCasts_S32x2x800_S32x2x80x10 : S32x2x800.ShapeCasts S32x2x80x10
  reducesTo_S32x2x80x10_S32x2x80_d3 : S32x2x80x10.ReducesTo [3] S32x2x80
  bcast_S_S32x2x80 : S_.BroadcastsInDim S32x2x80 (![] : Fin 0 → Fin S32x2x80.rank)
  reducesTo_S32x2x80_S32x80_d1 : S32x2x80.ReducesTo [1] S32x80
  bcast_S_S32x80 : S_.BroadcastsInDim S32x80 (![] : Fin 0 → Fin S32x80.rank)
  concatenates_S32x64_S32x64_S32x64_S32x192_d1 : Shape.Concatenates [S32x64, S32x64, S32x64] S32x192 1
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  bcast_S_S32x1 : S_.BroadcastsInDim S32x1 (![] : Fin 0 → Fin S32x1.rank)
  scatter_S10000_S90000x1_S90000_n_0_0_1_wf : ScatterDims.WF S10000 S90000x1 S90000 [] [0] [0] 1
  gather_S10000_S90000x1_S90000_n_0_n_n_0_1_1_wf : GatherDims.WF S10000 S90000x1 S90000 [] [0] [] [0] [] 1 ![1]
  dot_S10000x1024_S1024x1024_S10000x1024_1_0_0_1_n_n_wf : DotDims.WF S10000x1024 S1024x1024 S10000x1024 [1] [0] [0] [1] [] []
  gather_S10000x1024_S90000x1_S90000x1024_1_0_n_n_0_1_11024_wf : GatherDims.WF S10000x1024 S90000x1 S90000x1024 [1] [0] [] [0] [] 1 ![1, 1024]
  scatter_S10000x1024_S90000x1_S90000x1024_1_0_0_1_wf : ScatterDims.WF S10000x1024 S90000x1 S90000x1024 [1] [0] [0] 1
  scatter_S32x1024_S10000x1_S10000x1024_1_0_0_1_wf : ScatterDims.WF S32x1024 S10000x1 S10000x1024 [1] [0] [0] 1
  scatter_S32_S10000x1_S10000_n_0_0_1_wf : ScatterDims.WF S32 S10000x1 S10000 [] [0] [0] 1
  dot_S32x1024_S1024x128_S32x128_1_0_0_1_n_n_wf : DotDims.WF S32x1024 S1024x128 S32x128 [1] [0] [0] [1] [] []
  dot_S32x256_S256x256_S32x256_1_0_0_1_n_n_wf : DotDims.WF S32x256 S256x256 S32x256 [1] [0] [0] [1] [] []
  dot_S32x256_S256x64_S32x64_1_0_0_1_n_n_wf : DotDims.WF S32x256 S256x64 S32x64 [1] [0] [0] [1] [] []
  dot_S32x80_S80x64_S32x64_1_0_0_1_n_n_wf : DotDims.WF S32x80 S80x64 S32x64 [1] [0] [0] [1] [] []
  dot_S32x192_S192x1_S32x1_1_0_0_1_n_n_wf : DotDims.WF S32x192 S192x1 S32x1 [1] [0] [0] [1] [] []

variable [Facts₀]

def scatter_S10000_S90000x1_S90000_n_0_0_1 : ScatterDims S10000 S90000x1 S90000 where
  updateWindowDims := []
  insertedWindowDims := [0]
  scatterDimsToOperandDims := [0]
  indexVectorDim := 1
  wf := scatter_S10000_S90000x1_S90000_n_0_0_1_wf
def gather_S10000_S90000x1_S90000_n_0_n_n_0_1_1 : GatherDims S10000 S90000x1 S90000 where
  offsetDims := []
  collapsedSliceDims := [0]
  operandBatchingDims := []
  startIndicesBatchingDims := []
  startIndexMap := [0]
  indexVectorDim := 1
  sliceSizes := ![1]
  wf := gather_S10000_S90000x1_S90000_n_0_n_n_0_1_1_wf
def dot_S10000x1024_S1024x1024_S10000x1024_1_0_0_1_n_n : DotDims S10000x1024 S1024x1024 S10000x1024 where
  lhsContracting := [1]
  rhsContracting := [0]
  lhsNonContracting := [0]
  rhsNonContracting := [1]
  lhsBatch := []
  rhsBatch := []
  wf := dot_S10000x1024_S1024x1024_S10000x1024_1_0_0_1_n_n_wf
def gather_S10000x1024_S90000x1_S90000x1024_1_0_n_n_0_1_11024 : GatherDims S10000x1024 S90000x1 S90000x1024 where
  offsetDims := [1]
  collapsedSliceDims := [0]
  operandBatchingDims := []
  startIndicesBatchingDims := []
  startIndexMap := [0]
  indexVectorDim := 1
  sliceSizes := ![1, 1024]
  wf := gather_S10000x1024_S90000x1_S90000x1024_1_0_n_n_0_1_11024_wf
def scatter_S10000x1024_S90000x1_S90000x1024_1_0_0_1 : ScatterDims S10000x1024 S90000x1 S90000x1024 where
  updateWindowDims := [1]
  insertedWindowDims := [0]
  scatterDimsToOperandDims := [0]
  indexVectorDim := 1
  wf := scatter_S10000x1024_S90000x1_S90000x1024_1_0_0_1_wf
def scatter_S32x1024_S10000x1_S10000x1024_1_0_0_1 : ScatterDims S32x1024 S10000x1 S10000x1024 where
  updateWindowDims := [1]
  insertedWindowDims := [0]
  scatterDimsToOperandDims := [0]
  indexVectorDim := 1
  wf := scatter_S32x1024_S10000x1_S10000x1024_1_0_0_1_wf
def scatter_S32_S10000x1_S10000_n_0_0_1 : ScatterDims S32 S10000x1 S10000 where
  updateWindowDims := []
  insertedWindowDims := [0]
  scatterDimsToOperandDims := [0]
  indexVectorDim := 1
  wf := scatter_S32_S10000x1_S10000_n_0_0_1_wf
def dot_S32x1024_S1024x128_S32x128_1_0_0_1_n_n : DotDims S32x1024 S1024x128 S32x128 where
  lhsContracting := [1]
  rhsContracting := [0]
  lhsNonContracting := [0]
  rhsNonContracting := [1]
  lhsBatch := []
  rhsBatch := []
  wf := dot_S32x1024_S1024x128_S32x128_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x256_S256x64_S32x64_1_0_0_1_n_n : DotDims S32x256 S256x64 S32x64 where
  lhsContracting := [1]
  rhsContracting := [0]
  lhsNonContracting := [0]
  rhsNonContracting := [1]
  lhsBatch := []
  rhsBatch := []
  wf := dot_S32x256_S256x64_S32x64_1_0_0_1_n_n_wf
def dot_S32x80_S80x64_S32x64_1_0_0_1_n_n : DotDims S32x80 S80x64 S32x64 where
  lhsContracting := [1]
  rhsContracting := [0]
  lhsNonContracting := [0]
  rhsNonContracting := [1]
  lhsBatch := []
  rhsBatch := []
  wf := dot_S32x80_S80x64_S32x64_1_0_0_1_n_n_wf
def dot_S32x192_S192x1_S32x1_1_0_0_1_n_n : DotDims S32x192 S192x1 S32x1 where
  lhsContracting := [1]
  rhsContracting := [0]
  lhsNonContracting := [0]
  rhsNonContracting := [1]
  lhsBatch := []
  rhsBatch := []
  wf := dot_S32x192_S192x1_S32x1_1_0_0_1_n_n_wf

class Facts : Prop extends Facts₀ where

variable [Facts]
-- ==== Proof.K_R0.lean ====
import proofs.«416856_j87668872446200_2_alg».proof.Proof.Gen.Kernel.Launch
import proofs.«416856_j87668872446200_2_alg».proof.Proof.Gen.Kernel.Skeleton
import proofs.«416856_j87668872446200_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX : Rect S1000x1024 := Rect.unit (s := S1000x1024) ![0, 0] S1000x1024.size inb_S1000x1024_S1000x1024_0_0
abbrev rW : Rect S1024x1024 := Rect.unit (s := S1024x1024) ![0, 0] S1024x1024.size inb_S1024x1024_S1024x1024_0_0

def out0_2 (x0 : Vec F S1000x1024 .f32) (x1 : Vec F S1024x1024 .bf16) : Vec F S1000x1024 .f32 :=
  View.canon [⟨rX, k0_pay1 (View.ld x0 rX) (View.ld x1 rW)⟩]

def out1_2 (x0 : Vec F S1000x1024 .f32) (x1 : Vec F S1024x1024 .bf16) : Vec F S1000x1024 .f32 :=
  View.canon [⟨rX, k1_pay1 (View.ld x0 rX) (View.ld x1 rW)⟩]

-- The one body both regions run: from operands `x0`, `x1` it leaves `out0_2 x0 x1` as the result, whatever was there before.
theorem sound_xw (c : Dev nD) (i : grid0.Coords)
    {arg1 arg3 : Memref sig .tc .vmem S1000x1024 .f32} {arg2 : Memref sig .tc .vmem S1024x1024 .bf16}
    (harg1 : arg1.IsWhole) (harg2 : arg2.IsWhole) (harg3 : arg3.IsWhole)
    {D0 D1 D2 : Type} {b0 : D0 → Vec F S1000x1024 .f32} {b1 : D1 → Vec F S1024x1024 .bf16} {b2 : D2 → Vec F S1000x1024 .f32}
    {x0 y : Vec F S1000x1024 .f32} {x1 : Vec F S1024x1024 .bf16} (h0 : ∀ d, b0 d = x0) (h1 : ∀ d, b1 d = x1)
    (hy : y = out0_2 x0 x1) {Φ O : sProp 𝕄} :
    iprop(Φ ∗ O ∗ (∃ d, owns (c : Thread nD τ) arg1 fullShare (b0 d)) ∗ (∃ d, owns (c : Thread nD τ) arg2 fullShare (b1 d))
        ∗ (∃ d, owns (c : Thread nD τ) arg3 fullShare (b2 d)))
      ⊢ wp frame (wpE (defs₀ (F := F)) Variants.none c none) Set.univ (cc0__xw_matmul_kernel i arg1 harg1 arg2 harg2 arg3 harg3)
        fun _ => iprop(Φ ∗ O ∗ owns (c : Thread nD τ) arg1 fullShare x0 ∗ owns (c : Thread nD τ) arg2 fullShare x1
          ∗ owns (c : Thread nD τ) arg3 fullShare y) := by
  subst hy
  simp only [h0, h1, cc0__xw_matmul_kernel_eq_skeleton]; unfold cc0__xw_matmul_kernel_skel
  conv_lhs => unfold owns
  iintro ⟨HΦ, Ho, ⟨%_, %f0, %hf0, H0⟩, ⟨%_, %f1, %hf1, H1⟩, ⟨%_, %f2, -, H2⟩⟩
  subst hf0 hf1
  sl_exec
  sl_step
  iframe HΦ Ho
  isplitl [H0]; · iapply owns_intro; iexact H0
  isplitl [H1]; · iapply owns_intro; iexact H1
  unfold owns; iexists _; isplitr
  swap; · iexact H2
  ipureintro
  exact View.read_writes_eq_canon _ _ _ (View.cover_of_tiled _ S1000x1024.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq0 (c : Dev nD) (w : Fin cfg0.W) : (dat0 V c).A w = V c (Pipeline.arrRef spec0 w) := rfl
theorem Phi0 (c : Dev nD) (t : Fin (cfg0.N + 1)) : (dat0 V c).Φ t = Pipeline.ΦA spec0 c := rfl
theorem q0 (c : Dev nD) (w : Fin cfg0.W) : (dat0 V c).q w = fullShare := rfl
theorem owed0 (c : Dev nD) (t : Fin (cfg0.N + 1)) : (dat0 V c).owed t = 0 := rfl
theorem recorded0 (c : Dev nD) : (dat0 V c).recorded 0 = Set.univ := rfl
theorem after0_2 (c : Dev nD) (t : Fin cfg0.N) :
    (dat0 V c).after 2 t = out0_2 (iblk0 V c 0 t) (iblk0 V c 1 t) := by dsimp only [dat0]

theorem A_eq1 (c : Dev nD) (w : Fin cfg1.W) : (dat1 V c).A w = V c (Pipeline.arrRef spec1 w) := rfl
theorem Phi1 (c : Dev nD) (t : Fin (cfg1.N + 1)) : (dat1 V c).Φ t = Pipeline.ΦA spec1 c := rfl
theorem q1 (c : Dev nD) (w : Fin cfg1.W) : (dat1 V c).q w = fullShare := rfl
theorem owed1 (c : Dev nD) (t : Fin (cfg1.N + 1)) : (dat1 V c).owed t = 0 := rfl
theorem recorded1 (c : Dev nD) : (dat1 V c).recorded 0 = Set.univ := rfl
theorem after1_2 (c : Dev nD) (t : Fin cfg1.N) :
    (dat1 V c).after 2 t = out1_2 (iblk1 V c 0 t) (iblk1 V c 1 t) := by dsimp only [dat1]

-- At each grid point the body takes the two operand blocks to `out0_2` of them.
theorem body_obligation0 (c : Dev nD) : BodyObligation (dat0 (F := F) V c) (defs₀ (F := F)) Variants.none () Set.univ := fun t => by
  rw [bigSep_W0, bigSep_W0]
  refine sound_xw c (grid0.coords t) (stage_whole0 0 _) (stage_whole0 1 _) (stage_whole0 2 _) ?_ ?_ (by dsimp only [dat0]) <;>
    exact fun d => ((dat0 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  refine sound_xw c (grid1.coords t) (stage_whole1 0 _) (stage_whole1 1 _) (stage_whole1 2 _) ?_ ?_ (by dsimp only [dat1]; rfl) <;>
    exact fun d => ((dat1 V c).before_in_eq_fetched _ rfl (fun _ => rfl) (fun _ _ _ => rfl) (fun _ => rfl) t d).trans rfl

end Cert.Kernel.Hand

end
-- ==== Proof.K_R2Runs.lean ====
import proofs.«416856_j87668872446200_2_alg».proof.Proof.Gen.Kernel.Launch
import proofs.«416856_j87668872446200_2_alg».proof.Proof.Gen.Kernel.Skeleton
import proofs.«416856_j87668872446200_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 5 = 0 :=
  (by decide +kernel : ∀ t : Fin grid2.N, cond2_0 (grid2.coords t) ↔ t.val % 5 = 0)

abbrev cond2_1 (i : grid2.Coords) : Prop := k2_cond2 i = 1#1

theorem hcond2_1 : ∀ t : Fin cfg2.N, cond2_1 (grid2.coords t) ↔ t.val % 5 = 4 :=
  (by decide +kernel : ∀ t : Fin grid2.N, cond2_1 (grid2.coords t) ↔ t.val % 5 = 4)

def sstep2_0 (x0 : Vec F S1000x1024 .f32) (x2 : Vec F S1000x1 .i32) (x4 : Vec F S1x1024 .f32) (a : Vec F S32x1024 .f32) : Vec F S32x1024 .f32 :=
  k2_pay1 (k2_pay7 x0 x4) (k2_pay9 x2) a

def sstep2_1 (x1 : Vec F S1000x1024 .f32) (x3 : Vec F S1000x1 .i32) (x5 : Vec F S1x1024 .f32) (a : Vec F S32x1024 .f32) : Vec F S32x1024 .f32 :=
  k2_pay2 (k2_pay8 x1 x5) (k2_pay10 x3) a

def sout2_A_0 (x0 : Vec F S1000x1024 .f32) (x2 : Vec F S1000x1 .i32) (x4 : Vec F S1x1024 .f32) : Vec F S32x1024 .f32 :=
  sstep2_0 x0 x2 x4 k2_pay5
def sout2_A_1 (x1 : Vec F S1000x1024 .f32) (x3 : Vec F S1000x1 .i32) (x5 : Vec F S1x1024 .f32) : Vec F S32x1024 .f32 :=
  sstep2_1 x1 x3 x5 k2_pay6

def sout2_B_0 (x0 : Vec F S1000x1024 .f32) (x2 : Vec F S1000x1 .i32) (x4 : Vec F S1x1024 .f32) (xs0 : Vec F S32x1024 .f32) : Vec F S32x1024 .f32 :=
  sstep2_0 x0 x2 x4 xs0
def sout2_B_1 (x1 : Vec F S1000x1024 .f32) (x3 : Vec F S1000x1 .i32) (x5 : Vec F S1x1024 .f32) (xs1 : Vec F S32x1024 .f32) : Vec F S32x1024 .f32 :=
  sstep2_1 x1 x3 x5 xs1

def sout2_C_0 (x0 : Vec F S1000x1024 .f32) (x2 : Vec F S1000x1 .i32) (x4 : Vec F S1x1024 .f32) (xs0 : Vec F S32x1024 .f32) : Vec F S32x1024 .f32 :=
  sstep2_0 x0 x2 x4 xs0
def sout2_C_1 (x1 : Vec F S1000x1024 .f32) (x3 : Vec F S1000x1 .i32) (x5 : Vec F S1x1024 .f32) (xs1 : Vec F S32x1024 .f32) : Vec F S32x1024 .f32 :=
  sstep2_1 x1 x3 x5 xs1

def out2_C_6 (x0 : Vec F S1000x1024 .f32) (x2 : Vec F S1000x1 .i32) (x4 : Vec F S1x1024 .f32) (xs0 : Vec F S32x1024 .f32) : Vec F S1x32x1024 .f32 :=
  k2_pay3 (sout2_C_0 x0 x2 x4 xs0)
def out2_C_7 (x1 : Vec F S1000x1024 .f32) (x3 : Vec F S1000x1 .i32) (x5 : Vec F S1x1024 .f32) (xs1 : Vec F S32x1024 .f32) : Vec F S1x32x1024 .f32 :=
  k2_pay4 (sout2_C_1 x1 x3 x5 xs1)

def out2_idle : Vec F S1x32x1024 .f32 := View.canon []

def outsAt2 (c : Dev nD) : (n : ℕ) → n < cfg2.N → (Vec F S1x32x1024 .f32 × Vec F S1x32x1024 .f32) × (Vec F S32x1024 .f32 × Vec F S32x1024 .f32)
  | 0, hn => ((out2_idle, out2_idle),
      (sout2_A_0 (iblk2 V c 0 ⟨0, hn⟩) (iblk2 V c 2 ⟨0, hn⟩) (iblk2 V c 4 ⟨0, hn⟩),
       sout2_A_1 (iblk2 V c 1 ⟨0, hn⟩) (iblk2 V c 3 ⟨0, hn⟩) (iblk2 V c 5 ⟨0, hn⟩)))
  | n + 1, hn =>
    if h0 : (n + 1) % 5 = 0 then
      ((out2_idle, out2_idle),
        (sout2_A_0 (iblk2 V c 0 ⟨n + 1, hn⟩) (iblk2 V c 2 ⟨n + 1, hn⟩) (iblk2 V c 4 ⟨n + 1, hn⟩),
         sout2_A_1 (iblk2 V c 1 ⟨n + 1, hn⟩) (iblk2 V c 3 ⟨n + 1, hn⟩) (iblk2 V c 5 ⟨n + 1, hn⟩)))
    else if h1 : (n + 1) % 5 = 4 then
      ((out2_C_6 (iblk2 V c 0 ⟨n + 1, hn⟩) (iblk2 V c 2 ⟨n + 1, hn⟩) (iblk2 V c 4 ⟨n + 1, hn⟩) (outsAt2 c n (Nat.lt_of_succ_lt hn)).2.1,
        out2_C_7 (iblk2 V c 1 ⟨n + 1, hn⟩) (iblk2 V c 3 ⟨n + 1, hn⟩) (iblk2 V c 5 ⟨n + 1, hn⟩) (outsAt2 c n (Nat.lt_of_succ_lt hn)).2.2),
       (sout2_C_0 (iblk2 V c 0 ⟨n + 1, hn⟩) (iblk2 V c 2 ⟨n + 1, hn⟩) (iblk2 V c 4 ⟨n + 1, hn⟩) (outsAt2 c n (Nat.lt_of_succ_lt hn)).2.1,
        sout2_C_1 (iblk2 V c 1 ⟨n + 1, hn⟩) (iblk2 V c 3 ⟨n + 1, hn⟩) (iblk2 V c 5 ⟨n + 1, hn⟩) (outsAt2 c n (Nat.lt_of_succ_lt hn)).2.2))
    else
      ((out2_idle, out2_idle),
       (sout2_B_0 (iblk2 V c 0 ⟨n + 1, hn⟩) (iblk2 V c 2 ⟨n + 1, hn⟩) (iblk2 V c 4 ⟨n + 1, hn⟩) (outsAt2 c n (Nat.lt_of_succ_lt hn)).2.1,
        sout2_B_1 (iblk2 V c 1 ⟨n + 1, hn⟩) (iblk2 V c 3 ⟨n + 1, hn⟩) (iblk2 V c 5 ⟨n + 1, hn⟩) (outsAt2 c n (Nat.lt_of_succ_lt hn)).2.2))

theorem outsAt2_A (c : Dev nD) (t : Fin cfg2.N) (h0 : t.val % 5 = 0) :
    outsAt2 V c t.val t.isLt = ((out2_idle, out2_idle),
      (sout2_A_0 (iblk2 V c 0 t) (iblk2 V c 2 t) (iblk2 V c 4 t),
       sout2_A_1 (iblk2 V c 1 t) (iblk2 V c 3 t) (iblk2 V c 5 t))) := by
  obtain ⟨n, hn⟩ := t
  cases n with
  | zero => exact rfl
  | succ n => exact (dif_pos h0).trans rfl

theorem outsAt2_B (c : Dev nD) (t : Fin cfg2.N) (h0 : ¬t.val % 5 = 0) (h1 : ¬t.val % 5 = 4) :
    outsAt2 V c t.val t.isLt = ((out2_idle, out2_idle),
      (sout2_B_0 (iblk2 V c 0 t) (iblk2 V c 2 t) (iblk2 V c 4 t) (outsAt2 V c (t.val - 1) (Nat.lt_of_le_of_lt (Nat.sub_le _ _) t.isLt)).2.1,
       sout2_B_1 (iblk2 V c 1 t) (iblk2 V c 3 t) (iblk2 V c 5 t) (outsAt2 V c (t.val - 1) (Nat.lt_of_le_of_lt (Nat.sub_le _ _) t.isLt)).2.2)) := by
  obtain ⟨n, hn⟩ := t
  cases n with
  | zero => exact absurd (Nat.zero_mod 5) h0
  | succ n => exact (dif_neg h0).trans ((dif_neg h1).trans rfl)

theorem outsAt2_C (c : Dev nD) (t : Fin cfg2.N) (h0 : ¬t.val % 5 = 0) (h1 : t.val % 5 = 4) :
    outsAt2 V c t.val t.isLt =
      ((out2_C_6 (iblk2 V c 0 t) (iblk2 V c 2 t) (iblk2 V c 4 t) (outsAt2 V c (t.val - 1) (Nat.lt_of_le_of_lt (Nat.sub_le _ _) t.isLt)).2.1,
        out2_C_7 (iblk2 V c 1 t) (iblk2 V c 3 t) (iblk2 V c 5 t) (outsAt2 V c (t.val - 1) (Nat.lt_of_le_of_lt (Nat.sub_le _ _) t.isLt)).2.2),
       (sout2_C_0 (iblk2 V c 0 t) (iblk2 V c 2 t) (iblk2 V c 4 t) (outsAt2 V c (t.val - 1) (Nat.lt_of_le_of_lt (Nat.sub_le _ _) t.isLt)).2.1,
        sout2_C_1 (iblk2 V c 1 t) (iblk2 V c 3 t) (iblk2 V c 5 t) (outsAt2 V c (t.val - 1) (Nat.lt_of_le_of_lt (Nat.sub_le _ _) t.isLt)).2.2)) := by
  obtain ⟨n, hn⟩ := t
  cases n with
  | zero => exact absurd (Nat.zero_mod 5) h0
  | succ n => exact (dif_neg h0).trans ((dif_pos h1).trans rfl)

abbrev scM2_0 : Memref sig .tc .vmem S32x1024 .f32 := Memref.whole cc2_scratch0
abbrev scM2_1 : Memref sig .tc .vmem S32x1024 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 (F := F) c) ∗ (∃ r, prngReg c r)) := by
  unfold Pipeline.ΦA; rw [scopedRest2_split]; simp only [scM2_0, scM2_1, owns_whole]; try rfl

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2)) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2)) ∗ rest2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2)) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1.1
    | ⟨7, _⟩ => (outsAt2 V c t.val t.isLt).1.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q2 (c : Dev nD) (w : Fin cfg2.W) : (dat2 V c).q w = fullShare := rfl
theorem owed2 (c : Dev nD) (t : Fin (cfg2.N + 1)) : (dat2 V c).owed t = 0 := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_6 (c : Dev nD) (t : Fin cfg2.N) : (dat2 V c).after 6 t = (outsAt2 V c t.val t.isLt).1.1 := by dsimp only [dat2]
theorem after2_7 (c : Dev nD) (t : Fin cfg2.N) : (dat2 V c).after 7 t = (outsAt2 V c t.val t.isLt).1.2 := by dsimp only [dat2]

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  iframe
  isplitl [HS0]; · iexists _; iexact HS0
  iexists _; iexact HS1

theorem hout2 (c : Dev nD) : (dat2 V c).Φ (Fin.last cfg2.N) ⊢ Pipeline.ΦA spec2 c :=
  Phi_out2 V c _ (by rw [Fin.val_last]; have : cfg2.N = 10 := N_2; omega)

theorem recorded2 (c : Dev nD) : (dat2 V c).recorded 0 = Set.univ := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

theorem hz2 : (![0, 0] : Fin 2 → ℕ) = fun _ => 0 := by funext a; fin_cases a <;> rfl
theorem hz3 : (![0, 0, 0] : Fin 3 → ℕ) = fun _ => 0 := by funext a; fin_cases a <;> rfl

end Cert.Kernel.Hand

end
-- ==== Proof.K_R2RunA.lean ====
import proofs.«416856_j87668872446200_2_alg».proof.Proof.K_R2Runs
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Reading a whole memref is a bijection, so owning it at X fixes its raw contents. -/
theorem owns_unread {S : Shape} {e : EltTy} (c : Dev nD) (M : Memref sig .tc .vmem S e) (h : M.IsWhole) (X : S.Idx → Elt F e) :
    (owns (c : Thread nD τ) M fullShare X : sProp 𝕄) = (M.view.loc (c : Thread nD τ) ↦[M.view.set]{fullShare} h.unread X) := by
  unfold owns
  refine Entails.antisymm (show (_ : sProp 𝕄) ⊢ _ from ?_) (show (_ : sProp 𝕄) ⊢ _ from ?_)
  · iintro ⟨%f, %hf, H⟩; obtain rfl := h.eq_unread hf; iexact H
  · iintro H; iexists _; isplitr; · ipureintro; exact h.read_unread X
    iexact H

/-- The six inputs at their contents: every case of the body reads them and hands them back unchanged. -/
abbrev ins2 (c : Dev nD) (a2 a3 : Memref sig .tc .vmem S1000x1024 .f32) (a4 a5 : Memref sig .tc .vmem S1000x1 .i32) (a6 a7 : Memref sig .tc .vmem S1x1024 .f32)
    (x0 x1 : Vec F S1000x1024 .f32) (x2 x3 : Vec F S1000x1 .i32) (x4 x5 : Vec F S1x1024 .f32) : sProp 𝕄 :=
  iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5)

theorem readAt_unread2 {S : Shape} {e : EltTy} (M : Memref sig .tc .vmem S e) (h : M.IsWhole) (X : S.Idx → Elt F e)
    {off : Fin S.rank → ℕ} (hoff : off = fun _ => 0) (inb : ∀ a, off a + S.size a ≤ S.size a) :
    View.readAt (Elt F) M.view (Rect.unit off S.size inb).toLoadRect (h.unread X) = X := by
  rw [View.readAt_eq_ld, h.read_unread, View.ld_unit_zero hoff]

theorem read_writes_unit_zero {S : Shape} {e : EltTy} (v : View sig .tc .vmem S e) (f : v.ty.Contents (Elt F))
    {off : Fin S.rank → ℕ} (hoff : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  have hcov : ∀ y, ∃ p ∈ ((⟨Rect.unit off S.size inb, w⟩ : View.Piece (Elt F) S e) :: L), y ∈ p.1.set :=
    fun y => ⟨⟨Rect.unit off S.size inb, w⟩, List.mem_cons_self, View.mem_set_unit_zero hoff inb y⟩
  rw [View.read_writes_eq_canon _ _ _ hcov]
  exact View.canon_cons_unit_zero hoff inb w L

set_option maxHeartbeats 4000000 in

theorem sound_kernel2_A (c : Dev nD) (E : Set ℕ) (i : grid2.Coords) (arg2 arg3 : Memref sig .tc .vmem S1000x1024 .f32) (arg4 arg5 : Memref sig .tc .vmem S1000x1 .i32) (arg6 arg7 : Memref sig .tc .vmem S1x1024 .f32) (arg8 arg9 : Memref sig .tc .vmem S1x32x1024 .f32) (arg10 arg11 : Memref sig .tc .vmem S32x1024 .f32)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole)
    (hc0 : cond2_0 i) (hc1 : ¬cond2_1 i) (x0 x1 : Vec F S1000x1024 .f32) (x2 x3 : Vec F S1000x1 .i32) (x4 x5 : Vec F S1x1024 .f32) (K : PUnit → sProp 𝕄) :
    iprop(ins2 c arg2 arg3 arg4 arg5 arg6 arg7 x0 x1 x2 x3 x4 x5
        ∗ (∃ d, owns (c : Thread nD τ) arg10 fullShare d) ∗ (∃ d, owns (c : Thread nD τ) arg11 fullShare d)
        ∗ (iprop(ins2 c arg2 arg3 arg4 arg5 arg6 arg7 x0 x1 x2 x3 x4 x5
            ∗ owns (c : Thread nD τ) arg10 fullShare (sout2_A_0 x0 x2 x4) ∗ owns (c : Thread nD τ) arg11 fullShare (sout2_A_1 x1 x3 x5)) -∗ K ⟨⟩))
      ⊢ wp frame (wpE (defs₀ (F := F)) Variants.none c none) E (cc2__reduce_kernel i arg2 harg2 arg3 harg3 arg4 harg4 arg5 harg5 arg6 harg6 arg7 harg7 arg8 harg8 arg9 harg9 arg10 harg10 arg11 harg11) K := by
  simp only [cc2__reduce_kernel_eq_skeleton]; unfold cc2__reduce_kernel_skel
  simp only [k2_part1_eq_skeleton]
  unfold ins2
  rw [owns_unread c arg2 harg2 x0, owns_unread c arg3 harg3 x1, owns_unread c arg4 harg4 x2, owns_unread c arg5 harg5 x3, owns_unread c arg6 harg6 x4, owns_unread c arg7 harg7 x5]
  unfold owns
  iintro ⟨⟨H0, H1, H2, H3, H4, H5⟩, ⟨%ds0, %fs0, -, HS0⟩, ⟨%ds1, %fs1, -, HS1⟩, Hk⟩
  sl_exec (disch := first | exact hc0 | exact hc1)
  sl_step
  iapply Hk
  iframe
  isplitl [HS0] <;>
  · iexists _; iframe; ipureintro
    refine (read_writes_unit_zero (S := S32x1024) _ _ hz2 _ _ _).trans ?_
    sl_unfold_words
    rw [readAt_unread2 (S := S1000x1024) _ _ _ hz2, readAt_unread2 (S := S1x1024) _ _ _ hz2, readAt_unread2 (S := S1000x1) _ _ _ hz2, View.readCov_unit_zero (S := S32x1024) _ hz2]
    rfl

end Cert.Kernel.Hand

end
-- ==== Proof.K_R2RunB.lean ====
import proofs.«416856_j87668872446200_2_alg».proof.Proof.K_R2RunA

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

theorem sound_kernel2_B (c : Dev nD) (E : Set ℕ) (i : grid2.Coords) (arg2 arg3 : Memref sig .tc .vmem S1000x1024 .f32) (arg4 arg5 : Memref sig .tc .vmem S1000x1 .i32) (arg6 arg7 : Memref sig .tc .vmem S1x1024 .f32) (arg8 arg9 : Memref sig .tc .vmem S1x32x1024 .f32) (arg10 arg11 : Memref sig .tc .vmem S32x1024 .f32)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole)
    (hc0 : ¬cond2_0 i) (hc1 : ¬cond2_1 i) (x0 x1 : Vec F S1000x1024 .f32) (x2 x3 : Vec F S1000x1 .i32) (x4 x5 : Vec F S1x1024 .f32) (xs0 xs1 : Vec F S32x1024 .f32) (K : PUnit → sProp 𝕄) :
    iprop(ins2 c arg2 arg3 arg4 arg5 arg6 arg7 x0 x1 x2 x3 x4 x5
        ∗ owns (c : Thread nD τ) arg10 fullShare xs0 ∗ owns (c : Thread nD τ) arg11 fullShare xs1
        ∗ (iprop(ins2 c arg2 arg3 arg4 arg5 arg6 arg7 x0 x1 x2 x3 x4 x5
            ∗ owns (c : Thread nD τ) arg10 fullShare (sout2_B_0 x0 x2 x4 xs0) ∗ owns (c : Thread nD τ) arg11 fullShare (sout2_B_1 x1 x3 x5 xs1)) -∗ K ⟨⟩))
      ⊢ wp frame (wpE (defs₀ (F := F)) Variants.none c none) E (cc2__reduce_kernel i arg2 harg2 arg3 harg3 arg4 harg4 arg5 harg5 arg6 harg6 arg7 harg7 arg8 harg8 arg9 harg9 arg10 harg10 arg11 harg11) K := by
  simp only [cc2__reduce_kernel_eq_skeleton]; unfold cc2__reduce_kernel_skel
  simp only [k2_part1_eq_skeleton]
  unfold ins2
  rw [owns_unread c arg2 harg2 x0, owns_unread c arg3 harg3 x1, owns_unread c arg4 harg4 x2, owns_unread c arg5 harg5 x3, owns_unread c arg6 harg6 x4, owns_unread c arg7 harg7 x5, owns_unread c arg10 harg10 xs0, owns_unread c arg11 harg11 xs1]
  unfold owns
  iintro ⟨⟨H0, H1, H2, H3, H4, H5⟩, HS0, HS1, Hk⟩
  sl_exec (disch := first | exact hc0 | exact hc1)
  sl_step
  iapply Hk
  iframe
  isplitl [HS0] <;>
  · iexists _; iframe; ipureintro
    refine (read_writes_unit_zero (S := S32x1024) _ _ hz2 _ _ _).trans ?_
    sl_unfold_words
    rw [readAt_unread2 (S := S1000x1024) _ _ _ hz2, readAt_unread2 (S := S1x1024) _ _ _ hz2, readAt_unread2 (S := S1000x1) _ _ _ hz2, readAt_unread2 (S := S32x1024) _ _ _ hz2]
    rfl

end Cert.Kernel.Hand

end
-- ==== Proof.K_R2RunC.lean ====
import proofs.«416856_j87668872446200_2_alg».proof.Proof.K_R2RunB

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

theorem sound_kernel2_C (c : Dev nD) (E : Set ℕ) (i : grid2.Coords) (arg2 arg3 : Memref sig .tc .vmem S1000x1024 .f32) (arg4 arg5 : Memref sig .tc .vmem S1000x1 .i32) (arg6 arg7 : Memref sig .tc .vmem S1x1024 .f32) (arg8 arg9 : Memref sig .tc .vmem S1x32x1024 .f32) (arg10 arg11 : Memref sig .tc .vmem S32x1024 .f32)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole)
    (hc0 : ¬cond2_0 i) (hc1 : cond2_1 i) (x0 x1 : Vec F S1000x1024 .f32) (x2 x3 : Vec F S1000x1 .i32) (x4 x5 : Vec F S1x1024 .f32) (xs0 xs1 : Vec F S32x1024 .f32) (K : PUnit → sProp 𝕄) :
    iprop(ins2 c arg2 arg3 arg4 arg5 arg6 arg7 x0 x1 x2 x3 x4 x5
        ∗ (∃ d, owns (c : Thread nD τ) arg8 fullShare d) ∗ (∃ d, owns (c : Thread nD τ) arg9 fullShare d) ∗ owns (c : Thread nD τ) arg10 fullShare xs0 ∗ owns (c : Thread nD τ) arg11 fullShare xs1
        ∗ (iprop(ins2 c arg2 arg3 arg4 arg5 arg6 arg7 x0 x1 x2 x3 x4 x5
            ∗ owns (c : Thread nD τ) arg8 fullShare (out2_C_6 x0 x2 x4 xs0) ∗ owns (c : Thread nD τ) arg9 fullShare (out2_C_7 x1 x3 x5 xs1)
            ∗ owns (c : Thread nD τ) arg10 fullShare (sout2_C_0 x0 x2 x4 xs0) ∗ owns (c : Thread nD τ) arg11 fullShare (sout2_C_1 x1 x3 x5 xs1)) -∗ K ⟨⟩))
      ⊢ wp frame (wpE (defs₀ (F := F)) Variants.none c none) E (cc2__reduce_kernel i arg2 harg2 arg3 harg3 arg4 harg4 arg5 harg5 arg6 harg6 arg7 harg7 arg8 harg8 arg9 harg9 arg10 harg10 arg11 harg11) K := by
  simp only [cc2__reduce_kernel_eq_skeleton]; unfold cc2__reduce_kernel_skel
  simp only [k2_part1_eq_skeleton]
  unfold ins2
  rw [owns_unread c arg2 harg2 x0, owns_unread c arg3 harg3 x1, owns_unread c arg4 harg4 x2, owns_unread c arg5 harg5 x3, owns_unread c arg6 harg6 x4, owns_unread c arg7 harg7 x5, owns_unread c arg10 harg10 xs0, owns_unread c arg11 harg11 xs1]
  unfold owns
  iintro ⟨⟨H0, H1, H2, H3, H4, H5⟩, ⟨%d6, %f6, -, H6⟩, ⟨%d7, %f7, -, H7⟩, HS0, HS1, Hk⟩
  sl_exec (disch := first | exact hc0 | exact hc1)
  sl_step
  iapply Hk
  iframe
  isplitl [H6]; rotate_left
  isplitl [H7]; rotate_left
  isplitl [HS0]
  all_goals
    iexists _; iframe; ipureintro
    first | refine (read_writes_unit_zero (S := S32x1024) _ _ hz2 _ _ _).trans ?_ | refine (read_writes_unit_zero (S := S1x32x1024) _ _ hz3 _ _ _).trans ?_
    sl_unfold_words
    rw [readAt_unread2 (S := S1000x1024) _ _ _ hz2, readAt_unread2 (S := S1x1024) _ _ _ hz2, readAt_unread2 (S := S1000x1) _ _ _ hz2, readAt_unread2 (S := S32x1024) _ _ _ hz2]
    try rw [View.readCov_unit_zero (S := S32x1024) _ hz2]
    rfl

end Cert.Kernel.Hand

end
-- ==== Proof.K_R2.lean ====
import proofs.«416856_j87668872446200_2_alg».proof.Proof.K_R2RunC

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_any2 (c : Dev nD) (t : Fin cfg2.N) :
    (dat2 V c).Φ t.castSucc ⊢ iprop(iprop(iprop((∃ d, owns (c : Thread nD τ) scM2_0 fullShare d) ∗ (∃ d, owns (c : Thread nD τ) scM2_1 fullShare d)) ∗ rest2 (F := F) c) ∗ (∃ r, prngReg c r)) := by
  rw [← PhiA2_eq]
  by_cases hz : t.val = 0
  · rw [PhiS2_castSucc V c t, PhiS2_zero V c _ _ hz]
    try exact Idealize.SL.BI.Entails.refl _
  · exact Phi_out2 V c t.castSucc (by rw [Fin.coe_castSucc]; exact hz)

theorem live2 (c : Dev nD) (w : Fin cfg2.W) (t : Fin cfg2.N) (X) (h : cfg2.idle w (cfg2.grid.coords t) = false) (hX : (dat2 V c).after w t = X) :
    (dat2 V c).leavesExact w t = owns (c : Thread nD τ) ((cfg2.win w).stage (cfg2.slots t w)) fullShare X := by
  unfold Dat.leavesExact; rw [h, hX]

theorem sound_body2 (c : Dev nD) (t : Fin cfg2.N) :
    iprop((dat2 V c).Φ t.castSucc ∗ (dat2 V c).owesAt () t.castSucc
        ∗ bigSep Finset.univ fun w : Fin cfg2.W => iprop(∃ d, owns (c : Thread nD τ) ((cfg2.win w).stage (cfg2.slots t w)) fullShare ((dat2 V c).before w t d)))
      ⊢ wp frame (wpE (defs₀ (F := F)) Variants.none c none) Set.univ (bodyAt2 t) fun _ =>
        iprop((dat2 V c).Φ t.succ ∗ (dat2 V c).owesAt () t.succ ∗ bigSep Finset.univ fun w : Fin cfg2.W => (dat2 V c).leavesExact w t) := by
  rw [bigSep_W2, bigSep_W2]
  unfold bodyAt2
  simp only [before2_0, before2_1, before2_2, before2_3, before2_4, before2_5]
  rw [show (dat2 V c).owesAt () t.succ = (dat2 V c).owesAt () t.castSucc from rfl,
    show (dat2 V c).Φ t.succ = PhiS2 V c (t.val + 1) t.isLt from rfl, PhiS2_succ,
    live2 V c 0 t (iblk2 V c 0 t) rfl rfl, live2 V c 1 t (iblk2 V c 1 t) rfl rfl, live2 V c 2 t (iblk2 V c 2 t) rfl rfl,
    live2 V c 3 t (iblk2 V c 3 t) rfl rfl, live2 V c 4 t (iblk2 V c 4 t) rfl rfl, live2 V c 5 t (iblk2 V c 5 t) rfl rfl]
  by_cases h1 : t.val % 5 = 4
  · have h0 : ¬t.val % 5 = 0 := by omega
    have hc1 := (hcond2_1 t).mpr h1
    rw [PhiS2_castSucc V c t, PhiS2_pos V c _ _ (fun e => h0 (by rw [e])), live2 V c 6 t _ (liveAt2_6 t hc1) (after2_6 V c t),
      live2 V c 7 t _ (liveAt2_7 t hc1) (after2_7 V c t), outsAt2_C V c t h0 h1]
    dsimp only
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply sound_kernel2_C (hc0 := fun h => h0 ((hcond2_0 t).mp h)) (hc1 := hc1)
    dsimp only [ins2]
    iframe
    isplitl [H6]; · iexists _; iexact H6
    isplitl [H7]; · iexists _; iexact H7
    iintro ⟨⟨H0, H1, H2, H3, H4, H5⟩, H6, H7, HS0, HS1⟩
    iframe
  have hc1 : ¬cond2_1 (grid2.coords t) := fun h => h1 ((hcond2_1 t).mp h)
  rw [Dat.leavesExact_idle (dat2 V c) 6 t (idleAt2_6 t hc1) (noFlush2_6 t hc1),
    Dat.leavesExact_idle (dat2 V c) 7 t (idleAt2_7 t hc1) (noFlush2_7 t hc1)]
  by_cases h0 : t.val % 5 = 0
  · rw [outsAt2_A V c t h0]
    dsimp only
    iintro ⟨HΦ, Ho, ⟨%d0, H0⟩, ⟨%d1, H1⟩, ⟨%d2, H2⟩, ⟨%d3, H3⟩, ⟨%d4, H4⟩, ⟨%d5, H5⟩, H6, H7⟩
    ihave HΦ' := (Phi_any2 V c t) $$ HΦ
    icases HΦ' with ⟨⟨⟨HS0, HS1⟩, Hr⟩, Hg⟩
    iapply sound_kernel2_A (hc0 := (hcond2_0 t).mpr h0) (hc1 := hc1)
    dsimp only [ins2]
    iframe
    iintro ⟨⟨H0, H1, H2, H3, H4, H5⟩, HS0, HS1⟩
    iframe
  · rw [PhiS2_castSucc V c t, PhiS2_pos V c _ _ (fun e => h0 (by rw [e])), outsAt2_B V c t h0 h1]
    dsimp only
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, H6, H7⟩
    iapply sound_kernel2_B (hc0 := fun h => h0 ((hcond2_0 t).mp h)) (hc1 := hc1)
    dsimp only [ins2]
    iframe
    iintro ⟨⟨H0, H1, H2, H3, H4, H5⟩, HS0, HS1⟩
    iframe

theorem body_obligation2 (c : Dev nD) : BodyObligation (dat2 (F := F) V c) (defs₀ (F := F)) Variants.none () Set.univ := sound_body2 V c

end Cert.Kernel.Hand

end
-- ==== Proof.K_R3Defs.lean ====
import proofs.«416856_j87668872446200_2_alg».proof.Proof.Gen.Kernel.Launch
import proofs.«416856_j87668872446200_2_alg».proof.Proof.Gen.Kernel.Skeleton
import proofs.«416856_j87668872446200_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_S32x1 : Rect S32x1 := Rect.unit (s := S32x1) ![0, 0] S32x1.size inb_S32x1_S32x1_0_0
abbrev r3_S1024x128 : Rect S1024x128 := Rect.unit (s := S1024x128) ![0, 0] S1024x128.size inb_S1024x128_S1024x128_0_0
abbrev r3_S1x128 : Rect S1x128 := Rect.unit (s := S1x128) ![0, 0] S1x128.size inb_S1x128_S1x128_0_0
abbrev r3_S1x64 : Rect S1x64 := Rect.unit (s := S1x64) ![0, 0] S1x64.size inb_S1x64_S1x64_0_0
abbrev r3_S32x16x800 : Rect S32x16x800 := Rect.unit (s := S32x16x800) ![0, 0, 0] S32x16x800.size inb_S32x16x800_S32x16x800_0_0_0
abbrev r3_S1x1 : Rect S1x1 := Rect.unit (s := S1x1) ![0, 0] S1x1.size inb_S1x1_S1x1_0_0
abbrev r3_S800x80 : Rect S800x80 := Rect.unit (s := S800x80) ![0, 0] S800x80.size inb_S800x80_S800x80_0_0
abbrev r3_S80x64 : Rect S80x64 := Rect.unit (s := S80x64) ![0, 0] S80x64.size inb_S80x64_S80x64_0_0
abbrev r3_slab0 : Rect S2x32x1024 := Rect.unit (s := S2x32x1024) ![0, 0, 0] S1x32x1024.size inb_S2x32x1024_S1x32x1024_0_0_0
abbrev r3_slab1 : Rect S2x32x1024 := Rect.unit (s := S2x32x1024) ![1, 0, 0] S1x32x1024.size inb_S2x32x1024_S1x32x1024_1_0_0

def val3_30 (x0 : Vec F S2x32x1024 .f32) (x2 : Vec F S32x1 .f32) (x4 : Vec F S1024x128 .f32) (x5 : Vec F S1x128 .f32) : FVec F S32x128 .f32 :=
  k3_pay2 (View.ld x0 r3_slab0) (View.ld x0 r3_slab1) (View.ld x2 r3_S32x1) (View.ld x4 r3_S1024x128) (View.ld x5 r3_S1x128)

def val3_31 (x1 : Vec F S2x32x1024 .f32) (x3 : Vec F S32x1 .f32) : FVec F S32x1024 .bf16 :=
  k3_pay3 (View.ld x1 r3_slab0) (View.ld x1 r3_slab1) (View.ld x3 r3_S32x1)

def val3_33 (x6 : Vec F S1024x128 .f32) : FVec F S1024x128 .bf16 :=
  k3_pay4 (View.ld x6 r3_S1024x128)

def val3_70 (x0 : Vec F S2x32x1024 .f32) (x1 : Vec F S2x32x1024 .f32) (x2 : Vec F S32x1 .f32) (x3 : Vec F S32x1 .f32) (x4 : Vec F S1024x128 .f32) (x5 : Vec F S1x128 .f32) (x6 : Vec F S1024x128 .f32) (x7 : Vec F S1x128 .f32) (x8 : Vec F S256x256 .f32) (x9 : Vec F S1x256 .f32) (x10 : Vec F S256x64 .f32) (x11 : Vec F S1x64 .f32) : FVec F S32x64 .f32 :=
  k3_pay5 (val3_30 x0 x2 x4 x5) (val3_31 x1 x3) (val3_33 x6) (View.ld x7 r3_S1x128) (View.ld x8 (Rect.unit (s := S256x256) ![0, 0] S256x256.size inb_S256x256_S256x256_0_0)) (View.ld x9 (Rect.unit (s := S1x256) ![0, 0] S1x256.size inb_S1x256_S1x256_0_0)) (View.ld x10 (Rect.unit (s := S256x64) ![0, 0] S256x64.size inb_S256x64_S256x64_0_0)) (View.ld x11 r3_S1x64)

def val3_72 (x16 : Vec F S1x1 .f32) : FVec F S1x1 .f32 :=
  k3_pay6 (View.ld x16 r3_S1x1)

def val3_110 (x12 : Vec F S32x16x800 .f32) (x13 : Vec F S32x16x800 .f32) (x16 : Vec F S1x1 .f32) (x17 : Vec F S1x1 .f32) (x18 : Vec F S1x1 .f32) (x19 : Vec F S1x1 .f32) (x24 : Vec F S800x80 .f32) : FVec F S32x80 .f32 :=
  k3_pay7 (val3_72 x16) (View.ld x17 r3_S1x1) (View.ld x18 r3_S1x1) (View.ld x19 r3_S1x1) (View.ld x12 r3_S32x16x800) (View.ld x13 r3_S32x16x800) (View.ld x24 r3_S800x80)

def val3_120 (x12 : Vec F S32x16x800 .f32) (x13 : Vec F S32x16x800 .f32) (x16 : Vec F S1x1 .f32) (x17 : Vec F S1x1 .f32) (x18 : Vec F S1x1 .f32) (x19 : Vec F S1x1 .f32) (x24 : Vec F S800x80 .f32) (x25 : Vec F S80x64 .f32) (x26 : Vec F S1x64 .f32) : FVec F S32x64 .f32 :=
  k3_pay8 (val3_110 x12 x13 x16 x17 x18 x19 x24) (View.ld x25 r3_S80x64) (View.ld x26 r3_S1x64)

def val3_128 (x23 : Vec F S1x1 .f32) : FVec F S1x1 .f32 :=
  k3_pay9 (View.ld x23 r3_S1x1)

def val3_140 (x14 : Vec F S32x16x800 .f32) (x20 : Vec F S1x1 .f32) (x21 : Vec F S1x1 .f32) : FVec F S32x800 .f32 :=
  k3_pay10 (View.ld x20 r3_S1x1) (View.ld x21 r3_S1x1) (View.ld x14 r3_S32x16x800)

def val3_144 (x15 : Vec F S32x16x800 .f32) : FVec F S32x800 .f32 :=
  k3_pay11 (View.ld x15 r3_S32x16x800)

def val3_145 (x22 : Vec F S1x1 .f32) : F .f32 :=
  k3_pay12 (View.ld x22 r3_S1x1)

def out3_31 (x0 : Vec F S2x32x1024 .f32) (x1 : Vec F S2x32x1024 .f32) (x2 : Vec F S32x1 .f32) (x3 : Vec F S32x1 .f32) (x4 : Vec F S1024x128 .f32) (x5 : Vec F S1x128 .f32) (x6 : Vec F S1024x128 .f32) (x7 : Vec F S1x128 .f32) (x8 : Vec F S256x256 .f32) (x9 : Vec F S1x256 .f32) (x10 : Vec F S256x64 .f32) (x11 : Vec F S1x64 .f32) (x12 : Vec F S32x16x800 .f32) (x13 : Vec F S32x16x800 .f32) (x14 : Vec F S32x16x800 .f32) (x15 : Vec F S32x16x800 .f32) (x16 : Vec F S1x1 .f32) (x17 : Vec F S1x1 .f32) (x18 : Vec F S1x1 .f32) (x19 : Vec F S1x1 .f32) (x20 : Vec F S1x1 .f32) (x21 : Vec F S1x1 .f32) (x22 : Vec F S1x1 .f32) (x23 : Vec F S1x1 .f32) (x24 : Vec F S800x80 .f32) (x25 : Vec F S80x64 .f32) (x26 : Vec F S1x64 .f32) (x27 : Vec F S80x64 .f32) (x28 : Vec F S1x64 .f32) (x29 : Vec F S192x1 .f32) (x30 : Vec F S1x1 .f32) : Vec F S32x1 .f32 :=
  View.canon [⟨r3_S32x1, k3_pay1 (val3_70 x0 x1 x2 x3 x4 x5 x6 x7 x8 x9 x10 x11) (val3_120 x12 x13 x16 x17 x18 x19 x24 x25 x26)
    (val3_128 x23) (val3_140 x14 x20 x21) (val3_144 x15) (val3_145 x22) (View.ld x24 r3_S800x80) (View.ld x27 r3_S80x64) (View.ld x28 r3_S1x64) (View.ld x29 (Rect.unit (s := S192x1) ![0, 0] S192x1.size inb_S192x1_S192x1_0_0)) (View.ld x30 r3_S1x1)⟩]

theorem cover3_31 (p0 : Vec F S32x1 .f32) (y : S32x1.Idx) :
    ∃ pc ∈ ([⟨r3_S32x1, p0⟩] : List (View.Piece (Elt F) S32x1 .f32)), y ∈ pc.1.set :=
  View.cover_of_tiled [⟨r3_S32x1, p0⟩] S32x1.size (by rfl) y

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => iblk3 V c 19 t
    | ⟨20, _⟩ => iblk3 V c 20 t
    | ⟨21, _⟩ => iblk3 V c 21 t
    | ⟨22, _⟩ => iblk3 V c 22 t
    | ⟨23, _⟩ => iblk3 V c 23 t
    | ⟨24, _⟩ => iblk3 V c 24 t
    | ⟨25, _⟩ => iblk3 V c 25 t
    | ⟨26, _⟩ => iblk3 V c 26 t
    | ⟨27, _⟩ => iblk3 V c 27 t
    | ⟨28, _⟩ => iblk3 V c 28 t
    | ⟨29, _⟩ => iblk3 V c 29 t
    | ⟨30, _⟩ => iblk3 V c 30 t
    | ⟨31, _⟩ => out3_31 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) (iblk3 V c 24 t) (iblk3 V c 25 t) (iblk3 V c 26 t) (iblk3 V c 27 t) (iblk3 V c 28 t) (iblk3 V c 29 t) (iblk3 V c 30 t)
    | ⟨_ + 32, h⟩ => absurd h (Nat.not_lt.2 (Nat.le_add_left _ _))
  Φ _ := Pipeline.ΦA spec3 c
  q _ := fullShare
  owed _ := 0

theorem A_eq3 (c : Dev nD) (w : Fin cfg3.W) : (dat3 V c).A w = V c (Pipeline.arrRef spec3 w) := rfl

theorem Phi3 (c : Dev nD) (t : Fin (cfg3.N + 1)) : (dat3 V c).Φ t = Pipeline.ΦA spec3 c := rfl
theorem q3 (c : Dev nD) (w : Fin cfg3.W) : (dat3 V c).q w = fullShare := rfl
theorem owed3 (c : Dev nD) (t : Fin (cfg3.N + 1)) : (dat3 V c).owed t = 0 := rfl

theorem recorded3 (c : Dev nD) : (dat3 V c).recorded 0 = Set.univ := rfl

theorem after3_31 (c : Dev nD) (t : Fin cfg3.N) : (dat3 V c).after 31 t = out3_31 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) (iblk3 V c 24 t) (iblk3 V c 25 t) (iblk3 V c 26 t) (iblk3 V c 27 t) (iblk3 V c 28 t) (iblk3 V c 29 t) (iblk3 V c 30 t) := rfl

end Cert.Kernel.Hand

end
-- ==== Proof.K_R3.lean ====
import proofs.«416856_j87668872446200_2_alg».proof.Proof.K_R3Defs
import proofs.«416856_j87668872446200_2_alg».proof.Proof.Gen.Kernel.Launch
import proofs.«416856_j87668872446200_2_alg».proof.Proof.Gen.Kernel.Skeleton
import proofs.«416856_j87668872446200_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_kernel3 (c : Dev nD) (E : Set ℕ) {i : grid3.Coords} {a1 a2 : Memref sig .tc .vmem S2x32x1024 .f32} {a3 a4 a32 : Memref sig .tc .vmem S32x1 .f32} {a5 a7 : Memref sig .tc .vmem S1024x128 .f32} {a6 a8 : Memref sig .tc .vmem S1x128 .f32} {a9 : Memref sig .tc .vmem S256x256 .f32} {a10 : Memref sig .tc .vmem S1x256 .f32} {a11 : Memref sig .tc .vmem S256x64 .f32} {a12 a27 a29 : Memref sig .tc .vmem S1x64 .f32} {a13 a14 a15 a16 : Memref sig .tc .vmem S32x16x800 .f32} {a17 a18 a19 a20 a21 a22 a23 a24 a31 : Memref sig .tc .vmem S1x1 .f32} {a25 : Memref sig .tc .vmem S800x80 .f32} {a26 a28 : Memref sig .tc .vmem S80x64 .f32} {a30 : Memref sig .tc .vmem S192x1 .f32}
    {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {h13 : a13.IsWhole} {h14 : a14.IsWhole} {h15 : a15.IsWhole} {h16 : a16.IsWhole} {h17 : a17.IsWhole} {h18 : a18.IsWhole} {h19 : a19.IsWhole} {h20 : a20.IsWhole} {h21 : a21.IsWhole} {h22 : a22.IsWhole} {h23 : a23.IsWhole} {h24 : a24.IsWhole} {h25 : a25.IsWhole} {h26 : a26.IsWhole} {h27 : a27.IsWhole} {h28 : a28.IsWhole} {h29 : a29.IsWhole} {h30 : a30.IsWhole} {h31 : a31.IsWhole} {h32 : a32.IsWhole}
    {x0 x1 : Vec F S2x32x1024 .f32} {x2 x3 d : Vec F S32x1 .f32} {x4 x6 : Vec F S1024x128 .f32} {x5 x7 : Vec F S1x128 .f32} {x8 : Vec F S256x256 .f32} {x9 : Vec F S1x256 .f32} {x10 : Vec F S256x64 .f32} {x11 x26 x28 : Vec F S1x64 .f32} {x12 x13 x14 x15 : Vec F S32x16x800 .f32} {x16 x17 x18 x19 x20 x21 x22 x23 x30 : Vec F S1x1 .f32} {x24 : Vec F S800x80 .f32} {x25 x27 : Vec F S80x64 .f32} {x29 : Vec F S192x1 .f32} (K : PUnit → sProp 𝕄) :
    ⊢ iprop(owns c a1 fullShare x0 -∗ owns c a2 fullShare x1 -∗ owns c a3 fullShare x2 -∗ owns c a4 fullShare x3 -∗ owns c a5 fullShare x4 -∗ owns c a6 fullShare x5 -∗ owns c a7 fullShare x6 -∗ owns c a8 fullShare x7 -∗ owns c a9 fullShare x8 -∗ owns c a10 fullShare x9 -∗ owns c a11 fullShare x10 -∗ owns c a12 fullShare x11 -∗ owns c a13 fullShare x12 -∗ owns c a14 fullShare x13 -∗ owns c a15 fullShare x14 -∗ owns c a16 fullShare x15 -∗ owns c a17 fullShare x16 -∗ owns c a18 fullShare x17 -∗ owns c a19 fullShare x18 -∗ owns c a20 fullShare x19 -∗ owns c a21 fullShare x20 -∗ owns c a22 fullShare x21 -∗ owns c a23 fullShare x22 -∗ owns c a24 fullShare x23 -∗ owns c a25 fullShare x24 -∗ owns c a26 fullShare x25 -∗ owns c a27 fullShare x26 -∗ owns c a28 fullShare x27 -∗ owns c a29 fullShare x28 -∗ owns c a30 fullShare x29 -∗ owns c a31 fullShare x30 -∗ owns c a32 fullShare d
      -∗ ((owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare x7 ∗ owns c a9 fullShare x8 ∗ owns c a10 fullShare x9 ∗ owns c a11 fullShare x10 ∗ owns c a12 fullShare x11 ∗ owns c a13 fullShare x12 ∗ owns c a14 fullShare x13 ∗ owns c a15 fullShare x14 ∗ owns c a16 fullShare x15 ∗ owns c a17 fullShare x16 ∗ owns c a18 fullShare x17 ∗ owns c a19 fullShare x18 ∗ owns c a20 fullShare x19 ∗ owns c a21 fullShare x20 ∗ owns c a22 fullShare x21 ∗ owns c a23 fullShare x22 ∗ owns c a24 fullShare x23 ∗ owns c a25 fullShare x24 ∗ owns c a26 fullShare x25 ∗ owns c a27 fullShare x26 ∗ owns c a28 fullShare x27 ∗ owns c a29 fullShare x28 ∗ owns c a30 fullShare x29 ∗ owns c a31 fullShare x30 ∗ owns c a32 fullShare (out3_31 x0 x1 x2 x3 x4 x5 x6 x7 x8 x9 x10 x11 x12 x13 x14 x15 x16 x17 x18 x19 x20 x21 x22 x23 x24 x25 x26 x27 x28 x29 x30)) -∗ K ⟨⟩)
      -∗ wp frame (wpE (defs₀ (F := F)) Variants.none c none) E (cc3__pool_finalize_kernel i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32) K) := by
  simp only [cc3__pool_finalize_kernel_eq_skeleton]; unfold cc3__pool_finalize_kernel_skel
  simp only [k3_part1_eq_skeleton, k3_part2_eq_skeleton, k3_part3_eq_skeleton, k3_part4_eq_skeleton]
  unfold k3_part1_skel k3_part2_skel k3_part3_skel k3_part4_skel
  unfold owns
  iintro ⟨%f0, %hf0, H0⟩ ⟨%f1, %hf1, H1⟩ ⟨%f2, %hf2, H2⟩ ⟨%f3, %hf3, H3⟩ ⟨%f4, %hf4, H4⟩ ⟨%f5, %hf5, H5⟩ ⟨%f6, %hf6, H6⟩ ⟨%f7, %hf7, H7⟩ ⟨%f8, %hf8, H8⟩ ⟨%f9, %hf9, H9⟩ ⟨%f10, %hf10, H10⟩ ⟨%f11, %hf11, H11⟩ ⟨%f12, %hf12, H12⟩ ⟨%f13, %hf13, H13⟩ ⟨%f14, %hf14, H14⟩ ⟨%f15, %hf15, H15⟩ ⟨%f16, %hf16, H16⟩ ⟨%f17, %hf17, H17⟩ ⟨%f18, %hf18, H18⟩ ⟨%f19, %hf19, H19⟩ ⟨%f20, %hf20, H20⟩ ⟨%f21, %hf21, H21⟩ ⟨%f22, %hf22, H22⟩ ⟨%f23, %hf23, H23⟩ ⟨%f24, %hf24, H24⟩ ⟨%f25, %hf25, H25⟩ ⟨%f26, %hf26, H26⟩ ⟨%f27, %hf27, H27⟩ ⟨%f28, %hf28, H28⟩ ⟨%f29, %hf29, H29⟩ ⟨%f30, %hf30, H30⟩ ⟨%f31, -, H31⟩ Hk
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30
  sl_exec
  sl_step
  iapply Hk
  isplitl [H0]; · istop; exact owns_intro _ _ _ _
  isplitl [H1]; · istop; exact owns_intro _ _ _ _
  isplitl [H2]; · istop; exact owns_intro _ _ _ _
  isplitl [H3]; · istop; exact owns_intro _ _ _ _
  isplitl [H4]; · istop; exact owns_intro _ _ _ _
  isplitl [H5]; · istop; exact owns_intro _ _ _ _
  isplitl [H6]; · istop; exact owns_intro _ _ _ _
  isplitl [H7]; · istop; exact owns_intro _ _ _ _
  isplitl [H8]; · istop; exact owns_intro _ _ _ _
  isplitl [H9]; · istop; exact owns_intro _ _ _ _
  isplitl [H10]; · istop; exact owns_intro _ _ _ _
  isplitl [H11]; · istop; exact owns_intro _ _ _ _
  isplitl [H12]; · istop; exact owns_intro _ _ _ _
  isplitl [H13]; · istop; exact owns_intro _ _ _ _
  isplitl [H14]; · istop; exact owns_intro _ _ _ _
  isplitl [H15]; · istop; exact owns_intro _ _ _ _
  isplitl [H16]; · istop; exact owns_intro _ _ _ _
  isplitl [H17]; · istop; exact owns_intro _ _ _ _
  isplitl [H18]; · istop; exact owns_intro _ _ _ _
  isplitl [H19]; · istop; exact owns_intro _ _ _ _
  isplitl [H20]; · istop; exact owns_intro _ _ _ _
  isplitl [H21]; · istop; exact owns_intro _ _ _ _
  isplitl [H22]; · istop; exact owns_intro _ _ _ _
  isplitl [H23]; · istop; exact owns_intro _ _ _ _
  isplitl [H24]; · istop; exact owns_intro _ _ _ _
  isplitl [H25]; · istop; exact owns_intro _ _ _ _
  isplitl [H26]; · istop; exact owns_intro _ _ _ _
  isplitl [H27]; · istop; exact owns_intro _ _ _ _
  isplitl [H28]; · istop; exact owns_intro _ _ _ _
  isplitl [H29]; · istop; exact owns_intro _ _ _ _
  isplitl [H30]; · istop; exact owns_intro _ _ _ _
  iexists _; isplitr
  swap; · iexact H31
  ipureintro
  exact View.read_writes_eq_canon _ _ _ (cover3_31 _)

theorem body_obligation3 (c : Dev nD) : BodyObligation (dat3 (F := F) V c) (defs₀ (F := F)) Variants.none () Set.univ := fun t => by
  obtain rfl := fin_N3 t
  rw [bigSep_W3, bigSep_W3]
  show _ ⊢ wp _ _ _ (bodyAt3 t3_0) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (sound_kernel3 c Set.univ) $$ H0 H1 H2 H3 H4 H5 H6 H7 H8 H9 H10 H11 H12 H13 H14 H15 H16 H17 H18 H19 H20 H21 H22 H23 H24 H25 H26 H27 H28 H29 H30 H31
  iintro H
  istop
  exact sep_assoc.1.trans (Entails.of_eq (by sl_kernel_rfl))

end Cert.Kernel.Hand

end
-- ==== Proof.K_Run.lean ====
import proofs.«416856_j87668872446200_2_alg».proof.Proof.K_R0
import proofs.«416856_j87668872446200_2_alg».proof.Proof.K_R2
import proofs.«416856_j87668872446200_2_alg».proof.Proof.K_R3
import proofs.«416856_j87668872446200_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

def o2 : Gen.Outs (F := F) := fun _ r c =>
  Pipeline.withArrays spec0 c (Gen.V1 m c) (fun w => (dat0 (fun c b => Gen.V1 m c b) c).arrAt w cfg0.N) (Proc.devRef .tc r)

def o3 : Gen.Outs (F := F) := fun J r c => if J ≤ 2 then o2 m J r c else
  Pipeline.withArrays spec1 c (Gen.V2 m (o2 m) c) (fun w => (dat1 (fun c b => Gen.V2 m (o2 m) c b) c).arrAt w cfg1.N) (Proc.devRef .tc r)

def o9 : Gen.Outs (F := F) := fun J r c => if J ≤ 3 then o3 m J r c else
  Pipeline.withArrays spec2 c (Gen.V8 m (o3 m) c) (fun w => (dat2 (fun c b => Gen.V8 m (o3 m) c b) c).arrAt w cfg2.N) (Proc.devRef .tc r)

def o13 : Gen.Outs (F := F) := fun J r c => if J ≤ 9 then o9 m J r c else
  Pipeline.withArrays spec3 c (Gen.V12 m (o9 m) c) (fun w => (dat3 (fun c b => Gen.V12 m (o9 m) c b) c).arrAt w cfg3.N) (Proc.devRef .tc r)

def outs : Gen.Outs (F := F) := o13 m

theorem outs_eq_o9 (J : ℕ) (h : J ≤ 9) : outs m J = o9 m J := by
  funext r c; exact if_pos h
theorem outs_eq_o3 (J : ℕ) (h : J ≤ 3) : outs m J = o3 m J := by
  funext r c; exact (if_pos (by omega)).trans (if_pos h)
theorem outs_eq_o2 (J : ℕ) (h : J ≤ 2) : outs m J = o2 m J := by
  funext r c; exact (if_pos (by omega)).trans ((if_pos (by omega)).trans (if_pos h))

abbrev VK0 : (c : Dev nD) → (b : Ref sig .tc) → Buf (Elt F) ((c : Thread nD τ).loc b) := fun c b => Gen.V1 m c b

abbrev VK1 : (c : Dev nD) → (b : Ref sig .tc) → Buf (Elt F) ((c : Thread nD τ).loc b) := fun c b => Gen.V2 m (outs m) c b

abbrev VK2 : (c : Dev nD) → (b : Ref sig .tc) → Buf (Elt F) ((c : Thread nD τ).loc b) := fun c b => Gen.V8 m (outs m) c b

abbrev VK3 : (c : Dev nD) → (b : Ref sig .tc) → Buf (Elt F) ((c : Thread nD τ).loc b) := fun c b => Gen.V12 m (outs m) c b

theorem outs2_arr (c : Dev nD) (w : Fin cfg0.W) : outs m 2 (Pipeline.arrRef spec0 w) c = (dat0 (VK0 m) c).arrAt w cfg0.N := by
  rw [outs_eq_o2 m 2 le_rfl]
  exact Pipeline.withArrays_arr spec0 launch0.win.arr_inj c _ _ w
theorem outs3_arr (c : Dev nD) (w : Fin cfg1.W) : outs m 3 (Pipeline.arrRef spec1 w) c = (dat1 (VK1 m) c).arrAt w cfg1.N := by
  unfold VK1 Gen.V2; rw [outs_eq_o3 m 3 le_rfl, outs_eq_o2 m 2 le_rfl]
  exact (if_neg (by decide : ¬ (3 ≤ 2))).trans (Pipeline.withArrays_arr spec1 launch1.win.arr_inj c _ _ w)
theorem outs9_arr (c : Dev nD) (w : Fin cfg2.W) : outs m 9 (Pipeline.arrRef spec2 w) c = (dat2 (VK2 m) c).arrAt w cfg2.N := by
  unfold VK2 Gen.V8 Gen.V7 Gen.V6 Gen.V5 Gen.V4 Gen.V3 Gen.V2
  rw [outs_eq_o9 m 9 le_rfl, outs_eq_o3 m 3 le_rfl, outs_eq_o3 m 2 (by omega)]
  exact (if_neg (by decide : ¬ (9 ≤ 3))).trans (Pipeline.withArrays_arr spec2 launch2.win.arr_inj c _ _ w)
theorem outs13_arr (c : Dev nD) (w : Fin cfg3.W) : outs m 13 (Pipeline.arrRef spec3 w) c = (dat3 (VK3 m) c).arrAt w cfg3.N := by
  unfold VK3 Gen.V12 Gen.V11 Gen.V10 Gen.V9 Gen.V8 Gen.V7 Gen.V6 Gen.V5 Gen.V4 Gen.V3 Gen.V2
  rw [outs_eq_o9 m 9 le_rfl, outs_eq_o9 m 3 (by omega), outs_eq_o9 m 2 (by omega)]
  show o13 m 13 (Pipeline.arrRef spec3 w) c = _
  exact (if_neg (by decide : ¬ (13 ≤ 9))).trans (Pipeline.withArrays_arr spec3 launch3.win.arr_inj c _ _ w)

def pdats : (p : Fin 4) → (c : Dev nD) → Dat τ (Elt F) Unit ℕ (UR sig nD τ) ℕ (Pipeline.pin (pcfgs (F := F)) Gen.adm p) c
  | ⟨0, _⟩ => fun c => dat0 (VK0 m) c
  | ⟨1, _⟩ => fun c => dat1 (VK1 m) c
  | ⟨2, _⟩ => fun c => dat2 (VK2 m) c
  | ⟨3, _⟩ => fun c => dat3 (VK3 m) c

abbrev runL : GSem nD τ sig → Finset Unit := fun _ => ∅
abbrev runLv : GSem nD τ sig → Unit → ℕ := fun _ _ => 0

abbrev runRest (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section
set_option backward.isDefEq.respectTransparency.types false

/-- A region's record from its launch facts: entered with the buffers at `Vi`, left with them at `Vo` (which holds `O` on `lst` and `Vi` elsewhere), owing nothing. -/
def regOf (p : Fin 4) (K : Pipeline.LaunchFacts (nD := nD) (τ := τ) cfgs p)
    (Vi Vo : Dev nD → Valuation τ sig (Elt F)) (lst : List (Ref sig .tc))
    (O : (r : Ref sig .tc) → (c : Dev nD) → Buf (Elt F) ((c : Thread nD τ).loc r))
    (hb : ∀ c, BodyObligation (pdats m p c) defs₀ Variants.none () Set.univ)
    (h0 : ∀ c t, (pdats m p c).owed t = 0) (hq : ∀ c w, (pdats m p c).q w = fullShare)
    (hA : ∀ c w, (pdats m p c).A w = Vi c (Pipeline.arrRef (cfgs p).spec w))
    (hr : ∀ c, (pdats m p c).recorded 0 = Set.univ)
    (hi : ∀ c, Pipeline.ΦA (cfgs p).spec c ⊢ (pdats m p c).Φ 0)
    (ho : ∀ c, (pdats m p c).Φ (Fin.last _) ⊢ Pipeline.ΦA (cfgs p).spec c)
    (hO : ∀ c w, O (Pipeline.arrRef (cfgs p).spec w) c = (pdats m p c).arrAt w (cfgs p).N) (hs : ∀ c, ∀ r ∈ lst, Vo c r = O r c)
    (hof : ∀ c (r : Ref sig .tc), r ∉ lst → Vo c r = Vi c r)
    (h1 : ∀ w, ((cfgs p).win w).isOut = false → Pipeline.arrRef (cfgs p).spec w ∉ lst)
    (h3 : ∀ w, ((cfgs p).win w).isOut = true → Pipeline.arrRef (cfgs p).spec w ∈ lst)
    (h2 : ∀ r ∈ lst, ∃ w, Pipeline.arrRef (cfgs p).spec w = r) :
    Pipeline.RegionSeg (pcfgs (F := F)) Gen.adm (pdats m) () defs₀ Variants.none runL runLv p where
  win := K.win.to₀
  block_pos := K.block_pos
  stage_whole := K.stage_whole
  K := PEmpty
  osem k := k.elim
  ho := Pipeline.OwnSemFacts.none _
  hbody c := (hb c).loose
  hwaits := Pipeline.hwaits_of_owed_zero _ _ _ _ runL runLv p h0
  pre c := iprop(StableHlo.held (c : Thread nD τ) (Pipeline.ucRefs τ sig) (Vi c) ∗ runRest c)
  post c := iprop(StableHlo.held (c : Thread nD τ) (Pipeline.ucRefs τ sig) (Vo c) ∗ runRest c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) Gen.adm (pdats m) K.win K.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0 c 0, hr c]
      icases HO with ⟨%W, HO⟩; iexists W; isplitr; · ipureintro; exact fun _ _ => Or.inl trivial
      iexact HO
    isplitl [Hp]; · iexact Hp
    iexact Hrest
  hin c := by
    refine .trans ?_ (hi c); unfold Pipeline.ΦA
    iintro ⟨Hp, -, Hr⟩
    isplitl [Hr]; · iexact Hr
    iexact Hp
  hout c := by
    rw [Pipeline.ownSems0_none]; refine (ho c).trans ?_; unfold Pipeline.ΦA
    iintro ⟨Hr, Hp⟩
    isplitl [Hp]; · iexact Hp
    isplitr; · iempintro
    iexact Hr
  hexit c := by
    have hF w : (pdats m p c).arrAt w (cfgs p).N = Vo c (Pipeline.arrRef (cfgs p).spec w) := by
      by_cases hw : ((cfgs p).win w).isOut = true
      · exact ((hs c _ (h3 w hw)).trans (hO c w)).symm
      · have hin : ((cfgs p).win w).isOut = false := by simpa using hw
        rw [(pdats m p c).arrAt_in w hin _, hA]; exact (hof c _ (h1 w hin)).symm
    have hjoin := Pipeline.unscopedBufs_of_arrays (p := p) (pcfgs (F := F)) Gen.adm (Ix := Unit) (Name := ℕ) (U := UR sig nD τ) (Lvl := ℕ)
      K.win K.arr_whole c (pdats m) ((pdats m p c).share_full (hq c))
      (fun b => Vi c b) (fun b => Vo c b) ((pdats m p c).arrAt · (cfgs p).N) hF fun b hb => hof c b fun hm =>
        let ⟨w, e⟩ := h2 b hm; hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c (Fin.last _)]
    icases HO with ⟨%W, -, HO⟩; iexists W
    iexact HO

def reg0 := regOf m 0 launch0 (Gen.V1 m) (Gen.V2 m (outs m)) [main_v2] (outs m 2) (body_obligation0 _) (owed0 _) (q0 _) (A_eq0 _) (recorded0 _)
  (fun c => .of_eq (Phi0 _ c 0).symm) (fun c => .of_eq (Phi0 _ c _)) (outs2_arr m)
  (fun c r hr => by
    obtain rfl := List.mem_singleton.mp hr; unfold Gen.V2; exact Function.update_self _ _ _)
  (Gen.V2_of m (outs m)) (by decide) (by decide) (by decide)
def reg1 := regOf m 1 launch1 (Gen.V2 m (outs m)) (Gen.V3 m (outs m)) [main_v3] (outs m 3) (body_obligation1 _) (owed1 _) (q1 _) (A_eq1 _) (recorded1 _)
  (fun c => .of_eq (Phi1 _ c 0).symm) (fun c => .of_eq (Phi1 _ c _)) (outs3_arr m)
  (fun c r hr => by
    obtain rfl := List.mem_singleton.mp hr; unfold Gen.V3; exact Function.update_self _ _ _)
  (Gen.V3_of m (outs m)) (by decide) (by decide) (by decide)
def reg2 := regOf m 2 launch2 (Gen.V8 m (outs m)) (Gen.V9 m (outs m)) [main_v116_0, main_v116_1] (outs m 9) (body_obligation2 _) (owed2 _) (q2 _) (A_eq2 _) (recorded2 _)
  (hin2 _) (hout2 _) (outs9_arr m)
  (fun c r hr => by
    unfold Gen.V9; rcases List.mem_cons.mp hr with rfl | hr
    · exact (Function.update_of_ne (StableHlo.devRef_ne_of_ne (by decide)) _ _).trans (Function.update_self _ _ _)
    · obtain rfl := List.mem_singleton.mp hr; exact Function.update_self _ _ _)
  (Gen.V9_of m (outs m)) (by decide) (by decide) (by decide)
def reg3 := regOf m 3 launch3 (Gen.V12 m (outs m)) (Gen.V13 m (outs m)) [main_v143] (outs m 13) (body_obligation3 _) (owed3 _) (q3 _) (A_eq3 _) (recorded3 _)
  (fun c => .of_eq (Phi3 _ c 0).symm) (fun c => .of_eq (Phi3 _ c _)) (outs13_arr m)
  (fun c r hr => by
    obtain rfl := List.mem_singleton.mp hr; unfold Gen.V13; exact Function.update_self _ _ _)
  (Gen.V13_of m (outs m)) (by decide) (by decide) (by decide)

theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V13 m (outs m) c b) :=
  Pipeline.θ_run_regions_kit_dev (pcfgs (F := F)) Gen.adm (pdats m) () cellOf_inj emb₁ defs₀ Variants.none runL runLv m ρ main
    (Gen.segs m (outs m) Variants.none runL runLv (fun _ c => runRest c) () (pdats m) (reg0 m) (reg1 m) (reg2 m) (reg3 m))
    (fun c Q => by
      rewrite [main_chain c, Pipeline.Seg.run_eq_chain,
        show ((Gen.segs m (outs m) Variants.none runL runLv (fun _ c => runRest c) () (pdats m) (reg0 m) (reg1 m) (reg2 m) (reg3 m)) c).map Pipeline.Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ runRest c))
    (Tₙ := fun c => iprop(StableHlo.held (c : Thread nD τ) (Pipeline.ucRefs τ sig) (Gen.V13 m (outs m) c) ∗ ∃ r, prngReg c r))
    (hch := fun c => ⟨.rfl, .rfl, .rfl, .rfl, .rfl, .rfl, .rfl, .rfl, .rfl, .rfl, .rfl, .rfl, .rfl, sep_assoc.2⟩)
    (hinit := by
      refine Pipeline.initEach runL runLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V13 m (outs m) c b)
    (hfin := fun c s' => by
      iintro ⟨⟨Hh, -⟩, HSI⟩
      unfold StableHlo.held
      imodintro
      iapply (pointsTo_read_all (Pipeline.ucRefs τ sig) (fun b => ((c : Thread nD τ).1, b)) (Gen.V13 m (outs m) c) s')
      isplitl [Hh] <;> iassumption)
    (hQ := fun s h => h)

end

theorem run_value (ρ : Dev nD → PrngReg) : θ_run defs (onTc (τ := τ) (main (F := F))) ⟨m, fun _ => 0, ρ⟩ (fun r => ∀ c : Dev nD,
      r.2.mem ((c.tc : Thread nD τ).loc main_v143) = Gen.V13 m (outs m) c main_v143
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
by
  refine (θ_run defs _ _).mono (fun r h c => ?_) (run_all m ρ)
  have a {b : Ref sig .tc} (e : ∀ (m : (ℓ : Loc nD τ sig) → Buf (Elt F) ℓ) o (c : Dev nD), Gen.V13 m o c b = m ((c.tc : Thread nD τ).loc b))
      (hb : ¬ (Proc.devRef .tc b : DevRef τ sig).isScoped := by decide) :
      r.2.mem ((c.tc : Thread nD τ).loc b) = m ((c.tc : Thread nD τ).loc b) := (h c _ (mem_uc b hb)).trans (e m (outs m) c)
  exact ⟨h c _ (mem_uc main_v143 (by decide)),
    a Gen.V13_main_arg0, a Gen.V13_main_arg1, a Gen.V13_main_arg2, a Gen.V13_main_arg3, a Gen.V13_main_arg4, a Gen.V13_main_arg5,
    a Gen.V13_main_arg6, a Gen.V13_main_arg7, a Gen.V13_main_arg8, a Gen.V13_main_arg9, a Gen.V13_main_arg10, a Gen.V13_main_arg11,
    a Gen.V13_main_arg12, a Gen.V13_main_arg13, a Gen.V13_main_arg14, a Gen.V13_main_arg15, a Gen.V13_main_arg16, a Gen.V13_main_arg17,
    a Gen.V13_main_arg18, a Gen.V13_main_arg19, a Gen.V13_main_arg20, a Gen.V13_main_arg21, a Gen.V13_main_arg22, a Gen.V13_main_arg23,
    a Gen.V13_main_arg24, a Gen.V13_main_arg25, a Gen.V13_main_arg26, a Gen.V13_main_arg27, a Gen.V13_main_arg28, a Gen.V13_main_arg29,
    a Gen.V13_main_arg30, a Gen.V13_main_arg31, a Gen.V13_main_arg32, a Gen.V13_main_arg33, a Gen.V13_main_arg34, a Gen.V13_main_arg35⟩

end Cert.Kernel.Hand

end
-- ==== Proof.RF_Stages.lean ====
import proofs.«416856_j87668872446200_2_alg».proof.ReferenceIdeal
import Idealize.ShloMosaic.PureOps.Ideal

noncomputable section

namespace Cert.RefStages

open Idealize.ShloMosaic Idealize.SL.Sem
open Cert.ReferenceIdeal
open Cert.ReferenceIdeal.Facts₀ Cert.ReferenceIdeal.Facts

variable [Facts]

abbrev splat (s : Shape) (h : S_.BroadcastsInDim s (![] : Fin 0 → Fin s.rank)) (w : BitVec 32) : FVec Ideal s .f32 :=
  broadcastInDim s ![] h (constant (F := Ideal) S_ .f32 w)

abbrev leaky (s : Shape) (h : S_.BroadcastsInDim s (![] : Fin 0 → Fin s.rank)) (x : FVec Ideal s .f32) :
    FVec Ideal s .f32 :=
  select (cmpf .oge x (splat s h 0x00000000#32)) x (mulf (splat s h 0x3C23D70A#32) x)

def ends0 (ei : IVec S2x80000 32) : IVec S90000 32 :=
  concatenate S90000 0
    [⟨S80000, shapeCast S80000 (extractStridedSlice S1x80000 ![0, 0] ei slices_S2x80000_S1x80000_0_0)
        shapeCasts_S1x80000_S80000⟩,
     ⟨S10000, iotaInDim S10000 32 0⟩] concatenates_S80000_S10000_S90000_d0

def ends1 (ei : IVec S2x80000 32) : IVec S90000 32 :=
  concatenate S90000 0
    [⟨S80000, shapeCast S80000 (extractStridedSlice S1x80000 ![1, 0] ei slices_S2x80000_S1x80000_1_0)
        shapeCasts_S1x80000_S80000⟩,
     ⟨S10000, iotaInDim S10000 32 0⟩] concatenates_S80000_S10000_S90000_d0

def wrapCol (v : IVec S90000 32) : IVec S90000x1 32 :=
  broadcastInDim S90000x1 ![0] bcast_S90000_S90000x1_0
    (select (cmpi .slt v (broadcastInDim S90000 ![] bcast_S_S90000 (constantI S_ 32 0#32)))
      (addi v (broadcastInDim S90000 ![] bcast_S_S90000 (constantI S_ 32 10000#32))) v)

def deg (ei : IVec S2x80000 32) : FVec Ideal S10000 .f32 :=
  Host.scatterAdd (F := Ideal) scatter_S10000_S90000x1_S90000_n_0_0_1
    (splat S10000 bcast_S_S10000 0x00000000#32)
    (broadcastInDim S90000x1 ![0] bcast_S90000_S90000x1_0 (ends1 ei))
    (splat S90000 bcast_S_S90000 0x3F800000#32)

def dinv (ei : IVec S2x80000 32) : FVec Ideal S10000 .f32 :=
  select (cmpf .ogt (deg ei) (splat S10000 bcast_S_S10000 0x00000000#32))
    (Host.divf (F := Ideal) (splat S10000 bcast_S_S10000 0x3F800000#32)
      (Host.sqrt (F := Ideal) (maximumf (deg ei) (splat S10000 bcast_S_S10000 0x2B8CBCCC#32))))
    (splat S10000 bcast_S_S10000 0x00000000#32)

def norm (ei : IVec S2x80000 32) : FVec Ideal S90000 .f32 :=
  mulf
    (Host.gather gather_S10000_S90000x1_S90000_n_0_n_n_0_1_1 (dinv ei) (wrapCol (ends0 ei)))
    (Host.gather gather_S10000_S90000x1_S90000_n_0_n_n_0_1_1 (dinv ei) (wrapCol (ends1 ei)))

def xw (x : FVec Ideal S10000x1024 .f32) (W : FVec Ideal S1024x1024 .f32) : FVec Ideal S10000x1024 .f32 :=
  Host.dotGeneral (F := Ideal) dot_S10000x1024_S1024x1024_S10000x1024_1_0_0_1_n_n none x W

def agg (y : FVec Ideal S10000x1024 .f32) (ei : IVec S2x80000 32) : FVec Ideal S10000x1024 .f32 :=
  Host.scatterAdd (F := Ideal) scatter_S10000x1024_S90000x1_S90000x1024_1_0_0_1
    (splat S10000x1024 bcast_S_S10000x1024 0x00000000#32)
    (broadcastInDim S90000x1 ![0] bcast_S90000_S90000x1_0 (ends1 ei))
    (mulf
      (Host.gather gather_S10000x1024_S90000x1_S90000x1024_1_0_n_n_0_1_11024 y (wrapCol (ends0 ei)))
      (broadcastInDim S90000x1024 ![0, 1] bcast_S90000x1_S90000x1024_0_1
        (broadcastInDim S90000x1 ![0] bcast_S90000_S90000x1_0 (norm ei))))

def hrel (a : FVec Ideal S10000x1024 .f32) (b : FVec Ideal S1024 .f32) : FVec Ideal S10000x1024 .f32 :=
  leaky S10000x1024 bcast_S_S10000x1024
    (addf a (broadcastInDim S10000x1024 ![0, 1] bcast_S1x1024_S10000x1024_0_1
      (broadcastInDim S1x1024 ![1] bcast_S1024_S1x1024_1 b)))

def pool (h : FVec Ideal S10000x1024 .f32) (batch : IVec S10000 32) : FVec Ideal S32x1024 .f32 :=
  Host.divf (F := Ideal)
    (Host.scatterAdd (F := Ideal) scatter_S32x1024_S10000x1_S10000x1024_1_0_0_1
      (splat S32x1024 bcast_S_S32x1024 0x00000000#32)
      (broadcastInDim S10000x1 ![0] bcast_S10000_S10000x1_0 batch) h)
    (broadcastInDim S32x1024 ![0, 1] bcast_S32x1_S32x1024_0_1
      (broadcastInDim S32x1 ![0] bcast_S32_S32x1_0
        (maximumf
          (Host.scatterAdd (F := Ideal) scatter_S32_S10000x1_S10000_n_0_0_1
            (splat S32 bcast_S_S32 0x00000000#32)
            (broadcastInDim S10000x1 ![0] bcast_S10000_S10000x1_0 batch)
            (splat S10000 bcast_S_S10000 0x3F800000#32))
          (splat S32 bcast_S_S32 0x3F800000#32))))

def head (p : FVec Ideal S32x1024 .f32) (W : FVec Ideal S1024x128 .f32) (b : FVec Ideal S128 .f32) :
    FVec Ideal S32x128 .f32 :=
  leaky S32x128 bcast_S_S32x128
    (addf (Host.dotGeneral (F := Ideal) dot_S32x1024_S1024x128_S32x128_1_0_0_1_n_n none p W)
      (broadcastInDim S32x128 ![0, 1] bcast_S1x128_S32x128_0_1
        (broadcastInDim S1x128 ![1] bcast_S128_S1x128_1 b)))

def trunk (x1 x2 : FVec Ideal S32x128 .f32) (W1 : FVec Ideal S256x256 .f32) (b1 : FVec Ideal S256 .f32)
    (W2 : FVec Ideal S256x64 .f32) (b2 : FVec Ideal S64 .f32) : FVec Ideal S32x64 .f32 :=
  leaky S32x64 bcast_S_S32x64
    (addf
      (Host.dotGeneral (F := Ideal) dot_S32x256_S256x64_S32x64_1_0_0_1_n_n none
        (leaky S32x256 bcast_S_S32x256
          (addf
            (Host.dotGeneral (F := Ideal) dot_S32x256_S256x256_S32x256_1_0_0_1_n_n none
              (concatenate S32x256 1 [⟨S32x128, x1⟩, ⟨S32x128, x2⟩] concatenates_S32x128_S32x128_S32x256_d1) W1)
            (broadcastInDim S32x256 ![0, 1] bcast_S1x256_S32x256_0_1
              (broadcastInDim S1x256 ![1] bcast_S256_S1x256_1 b1))))
        W2)
      (broadcastInDim S32x64 ![0, 1] bcast_S1x64_S32x64_0_1
        (broadcastInDim S1x64 ![1] bcast_S64_S1x64_1 b2)))

def side (m : FVec Ideal S32x16x800 .f32) (w b : FVec Ideal S1 .f32) : FVec Ideal S32x800 .f32 :=
  maximumf
    (addf
      (mulf
        (Host.divf (F := Ideal)
          (Host.reduceAdd (F := Ideal) m (constant (F := Ideal) S_ .f32 0x00000000#32)
            reducesTo_S32x16x800_S32x800_d1 h_S_)
          (splat S32x800 bcast_S_S32x800 0x41800000#32))
        (broadcastInDim S32x800 ![] bcast_S_S32x800 (shapeCast S_ w shapeCasts_S1_S_)))
      (broadcastInDim S32x800 ![] bcast_S_S32x800 (shapeCast S_ b shapeCasts_S1_S_)))
    (splat S32x800 bcast_S_S32x800 0x00000000#32)

def masif (ms mf : FVec Ideal S32x16x800 .f32) (sw sb fw fb : FVec Ideal S1 .f32)
    (Wm : FVec Ideal S80x64 .f32) (bm : FVec Ideal S64 .f32) : FVec Ideal S32x64 .f32 :=
  addf
    (Host.dotGeneral (F := Ideal) dot_S32x80_S80x64_S32x64_1_0_0_1_n_n none
      (Host.divf (F := Ideal)
        (Host.reduceAdd (F := Ideal)
          (Host.divf (F := Ideal)
            (Host.reduceAdd (F := Ideal)
              (shapeCast S32x2x80x10
                (concatenate S32x2x800 1
                  [⟨S32x1x800, broadcastInDim S32x1x800 ![0, 2] bcast_S32x800_S32x1x800_0_2 (side ms sw sb)⟩,
                   ⟨S32x1x800, broadcastInDim S32x1x800 ![0, 2] bcast_S32x800_S32x1x800_0_2 (side mf fw fb)⟩]
                  concatenates_S32x1x800_S32x1x800_S32x2x800_d1)
                shapeCasts_S32x2x800_S32x2x80x10)
              (constant (F := Ideal) S_ .f32 0x00000000#32) reducesTo_S32x2x80x10_S32x2x80_d3 h_S_)
            (splat S32x2x80 bcast_S_S32x2x80 0x41200000#32))
          (constant (F := Ideal) S_ .f32 0x00000000#32) reducesTo_S32x2x80_S32x80_d1 h_S_)
        (splat S32x80 bcast_S_S32x80 0x40000000#32))
      Wm)
    (broadcastInDim S32x64 ![0, 1] bcast_S1x64_S32x64_0_1
      (broadcastInDim S1x64 ![1] bcast_S64_S1x64_1 bm))

def final (xc m1 m2 : FVec Ideal S32x64 .f32) (Wout : FVec Ideal S192x1 .f32) (bout : FVec Ideal S1 .f32) :
    FVec Ideal S32x1 .f32 :=
  Host.divf (F := Ideal) (splat S32x1 bcast_S_S32x1 0x3F800000#32)
    (addf (splat S32x1 bcast_S_S32x1 0x3F800000#32)
      (Host.exp (F := Ideal)
        (Host.negf (F := Ideal)
          (addf
            (Host.dotGeneral (F := Ideal) dot_S32x192_S192x1_S32x1_1_0_0_1_n_n none
              (concatenate S32x192 1 [⟨S32x64, xc⟩, ⟨S32x64, m1⟩, ⟨S32x64, m2⟩]
                concatenates_S32x64_S32x64_S32x64_S32x192_d1) Wout)
            (broadcastInDim S32x1 ![0, 1] bcast_S1x1_S32x1_0_1
              (broadcastInDim S1x1 ![1] bcast_S1_S1x1_1 bout))))))

end Cert.RefStages

end
-- ==== Proof.RF_Result.lean ====
import proofs.«416856_j87668872446200_2_alg».proof.Proof.RF_Stages

noncomputable section

namespace Cert.RefStages

open Idealize.ShloMosaic Cert.ReferenceIdeal

variable [Facts]

def branch (x : FVec Ideal S10000x1024 .f32) (ei : IVec S2x80000 32) (batch : IVec S10000 32)
    (Wg : FVec Ideal S1024x1024 .f32) (bg : FVec Ideal S1024 .f32) : FVec Ideal S32x1024 .f32 :=
  pool (hrel (agg (xw x Wg) ei) bg) batch

def result (a0 : FVec Ideal S10000x1024 .f32) (a1 : IVec S2x80000 32) (a2 : IVec S10000 32)
    (a3 : FVec Ideal S10000x1024 .f32) (a4 : IVec S2x80000 32) (a5 : IVec S10000 32)
    (a6 a7 a8 a9 : FVec Ideal S32x16x800 .f32)
    (a10 : FVec Ideal S1024x1024 .f32) (a11 : FVec Ideal S1024 .f32) (a12 : FVec Ideal S1024x1024 .f32) (a13 : FVec Ideal S1024 .f32)
    (a14 : FVec Ideal S1024x128 .f32) (a15 : FVec Ideal S128 .f32) (a16 : FVec Ideal S1024x128 .f32) (a17 : FVec Ideal S128 .f32)
    (a18 : FVec Ideal S256x256 .f32) (a19 : FVec Ideal S256 .f32) (a20 : FVec Ideal S256x64 .f32) (a21 : FVec Ideal S64 .f32)
    (a22 a23 a24 a25 a26 a27 a28 a29 : FVec Ideal S1 .f32)
    (a30 : FVec Ideal S80x64 .f32) (a31 : FVec Ideal S64 .f32) (a32 : FVec Ideal S80x64 .f32) (a33 : FVec Ideal S64 .f32)
    (a34 : FVec Ideal S192x1 .f32) (a35 : FVec Ideal S1 .f32) : FVec Ideal S32x1 .f32 :=
  final
    (trunk (head (branch a0 a1 a2 a10 a11) a14 a15) (head (branch a3 a4 a5 a12 a13) a16 a17) a18 a19 a20 a21)
    (masif a6 a7 a22 a23 a24 a25 a30 a31)
    (masif a8 a9 a26 a27 a28 a29 a32 a33)
    a34 a35

end Cert.RefStages

end
-- ==== Proof.Seams.lean ====
import Idealize.ShloMosaic.PureOps.Ideal
import Mathlib.Algebra.BigOperators.Fin

noncomputable section

namespace Cert.Seams

open Idealize.ShloMosaic

def lrelu (x : EReal) : EReal := if 0 ≤ x then x else Ideal.ofBits .f32 0x3C23D70A#32 * x

def hot (w : BitVec 32) (b : Fin 32) : EReal := if w = BitVec.ofNat 32 b.val then 1 else 0

def row (cc : Fin 2) (n : Fin 5000) : Fin 10000 := ⟨5000 * cc.val + n.val, by have := cc.isLt; have := n.isLt; omega⟩

def part (agg : Fin 10000 → Fin 1024 → EReal) (bias : Fin 1024 → EReal) (batch : Fin 10000 → BitVec 32)
    (cc : Fin 2) (b : Fin 32) (f : Fin 1024) : EReal :=
  ∑ n : Fin 5000, hot (batch (row cc n)) b * lrelu (agg (row cc n) f + bias f)

def cnt (batch : Fin 10000 → BitVec 32) (b : Fin 32) : EReal :=
  max (∑ n : Fin 10000, if (batch n).toInt = (b.val : ℤ) then (1 : EReal) else 0) 1

def pooled (agg : Fin 10000 → Fin 1024 → EReal) (bias : Fin 1024 → EReal) (batch : Fin 10000 → BitVec 32)
    (b : Fin 32) (f : Fin 1024) : EReal :=
  Ideal.div (part agg bias batch 0 b f + part agg bias batch 1 b f) (cnt batch b)

end Cert.Seams

end
-- ==== Proof.LibScatterAddRows.lean ====
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.LibDenseLayer.lean ====
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

section Product
variable {m k n : ℕ}

abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

section Bias
variable {α : Type} {a b : ℕ}

theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

end Idealize.ShloMosaic.DenseLayer

end
-- ==== Proof.LibHostReads.lean ====
import Idealize.ShloMosaic.PureOps.Reduce
import Idealize.ShloMosaic.Lib.ValueIdx

namespace Idealize.ShloMosaic.HostReads

open Idealize.ShloMosaic Idealize.ShloMosaic.ValueIdx

variable {α : Type}

theorem broadcastInDim_vec_col_apply {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) := by
  unfold broadcastInDim
  congr 1
  funext a
  match a with
  | ⟨0, _⟩ =>
    apply Fin.ext
    dsimp only
    split
    · rename_i h1
      have h1' : n = 1 := h1
      have := p.isLt
      show (0 : ℕ) = p.val
      omega
    · rfl

theorem foldl_andi_one {ι : Type} (f : ι → BitVec 1) (hf : ∀ i, f i = 1#1) :
    ∀ (l : List ι) (r : BitVec 1), r = 1#1 → l.foldl (fun r n => IntOp.andi r (f n)) r = 1#1
  | [], r, hr => hr
  | a :: l, r, hr => by
    rw [List.foldl_cons]
    exact foldl_andi_one f hf l _ (by rw [hr, hf a]; decide)

end Idealize.ShloMosaic.HostReads
-- ==== Proof.LibHostIdx.lean ====
import Idealize.ShloMosaic.PureOps.Ideal.Laws
import Idealize.ShloMosaic.Lib.ValueIdx
import Idealize.ShloMosaic.Lib.Pipeline.Value
import Idealize.ShloMosaic.Lib.IdealHost
import Idealize.ShloMosaic.Lib.DynamicIndex
import Mathlib.Algebra.BigOperators.Fin
import proofs.«416856_j87668872446200_2_alg».proof.Proof.LibScatterAddRows

open scoped BigOperators

namespace Idealize.ShloMosaic.HostIdx

open Idealize.ShloMosaic Idealize.ShloMosaic.ValueIdx

theorem sum_fin_split {M : Type*} [AddCommMonoid M] {a b c : ℕ} (hc : c = a + b) (f : Fin c → M) :
    ∑ q : Fin c, f q
      = (∑ p : Fin a, f ⟨p.val, by have := p.isLt; omega⟩) + ∑ p : Fin b, f ⟨a + p.val, by have := p.isLt; omega⟩ := by
  subst hc
  rw [Fin.sum_univ_add]
  rfl

end Idealize.ShloMosaic.HostIdx
-- ==== Proof.KI_VPool.lean ====
import proofs.«416856_j87668872446200_2_alg».proof.Proof.RF_Stages
import proofs.«416856_j87668872446200_2_alg».proof.Proof.Seams
import proofs.«416856_j87668872446200_2_alg».proof.Proof.LibScatterAddRows
import proofs.«416856_j87668872446200_2_alg».proof.Proof.LibDenseLayer
import proofs.«416856_j87668872446200_2_alg».proof.Proof.LibHostReads
import proofs.«416856_j87668872446200_2_alg».proof.Proof.LibHostIdx
import Idealize.ShloMosaic.Lib.IdealHost
import Idealize.ShloMosaic.Lib.ValueIdx
import Idealize.ShloMosaic.Lib.DynamicIndex
import Idealize.ShloMosaic.Lib.Pipeline.Value

noncomputable section

open scoped BigOperators

namespace Cert.KernelIdeal.Val

open Idealize.ShloMosaic Idealize.ShloMosaic.ValueIdx
open Cert.ReferenceIdeal
open Cert.ReferenceIdeal.Facts₀ Cert.ReferenceIdeal.Facts

theorem lrelu_scalar (x : EReal) :
    Scalar.select (Ideal.cmp .oge x (Ideal.ofBits .f32 0x00000000#32)) x (Ideal.ofBits .f32 0x3C23D70A#32 * x)
      = Cert.Seams.lrelu x := by
  unfold Cert.Seams.lrelu
  rw [Ideal.ofBits_zero_f32]
  by_cases h : (0 : EReal) ≤ x
  · rw [if_pos h, show Ideal.cmp .oge x 0 = 1#1 by unfold Ideal.cmp; simp [h], select_one]
  · rw [if_neg h, show Ideal.cmp .oge x 0 = 0#1 by unfold Ideal.cmp; simp [h], select_zero]

theorem hot_mul (w : BitVec 32) (b : Fin 32) (x : EReal) :
    Cert.Seams.hot w b * x = if w.toInt = (b.val : ℤ) then x else 0 := by
  unfold Cert.Seams.hot
  rw [ite_mul, one_mul, zero_mul]
  exact if_congr (by rw [← BitVec.toInt_inj, toInt_ofNat_of_lt (by have := b.isLt; omega)]) rfl rfl

theorem sum_rows_halves (g : Fin 10000 → EReal) :
    ∑ n : Fin 10000, g n
      = (∑ n : Fin 5000, g (Cert.Seams.row 0 n)) + ∑ n : Fin 5000, g (Cert.Seams.row 1 n) := by
  refine (HostIdx.sum_fin_split (a := 5000) (b := 5000) (c := 10000) (by norm_num) g).trans ?_
  have h0 : ∀ n : Fin 5000, (⟨n.val, by have := n.isLt; omega⟩ : Fin 10000) = Cert.Seams.row 0 n := fun n =>
    Fin.ext (by show n.val = 5000 * 0 + n.val; omega)
  have h1 : ∀ n : Fin 5000, (⟨5000 + n.val, by have := n.isLt; omega⟩ : Fin 10000) = Cert.Seams.row 1 n := fun n =>
    Fin.ext (by show 5000 + n.val = 5000 * 1 + n.val; omega)
  exact congrArg₂ (· + ·) (Finset.sum_congr rfl fun n _ => congrArg g (h0 n))
    (Finset.sum_congr rfl fun n _ => congrArg g (h1 n))

theorem filtered_sum_eq_parts (agg : Fin 10000 → Fin 1024 → EReal) (bias : Fin 1024 → EReal)
    (batch : Fin 10000 → BitVec 32) (b : Fin 32) (f : Fin 1024) :
    (∑ n : Fin 10000, if (batch n).toInt = (b.val : ℤ) then Cert.Seams.lrelu (agg n f + bias f) else 0)
      = Cert.Seams.part agg bias batch 0 b f + Cert.Seams.part agg bias batch 1 b f := by
  rw [sum_rows_halves]
  unfold Cert.Seams.part
  congr 1
  · exact Finset.sum_congr rfl fun n _ => (hot_mul _ b _).symm
  · exact Finset.sum_congr rfl fun n _ => (hot_mul _ b _).symm

theorem col_inDim_apply {α : Type} {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (v : (⟨1, ![a]⟩ : Shape).Idx → α) (p : Fin a) (c : Fin b) :
    broadcastInDim ⟨2, ![a, b]⟩ ![0, 1] h2 (broadcastInDim ⟨2, ![a, 1]⟩ ![0] h1 v) (ix2 p c) = v (ix1 p) := by
  refine (broadcastInDim_apply ![0, 1] h2 _ (ix2 p c) (ix2 p (0 : Fin 1)) fun ax => ?_).trans
    (HostReads.broadcastInDim_vec_col_apply h1 v p 0)
  match ax with
  | ⟨0, _⟩ =>
    show p.val = if a = 1 then 0 else p.val
    split
    · have := p.isLt; omega
    · rfl
  | ⟨1, _⟩ => rfl

theorem cnt_apply
    (wf : ScatterDims.WF ⟨1, ![32]⟩ ⟨2, ![10000, 1]⟩ ⟨1, ![10000]⟩ [] [0] [0] 1)
    (h32 : (⟨0, ![]⟩ : Shape).BroadcastsInDim ⟨1, ![32]⟩ (![] : Fin 0 → Fin 1))
    (h10000 : (⟨0, ![]⟩ : Shape).BroadcastsInDim ⟨1, ![10000]⟩ (![] : Fin 0 → Fin 1))
    (hcol : (⟨1, ![10000]⟩ : Shape).BroadcastsInDim ⟨2, ![10000, 1]⟩ ![0])
    (batch : IVec ⟨1, ![10000]⟩ 32) (b : Fin 32) :
    maximumf
        (Host.scatterAdd (F := Ideal)
          (⟨[], [0], [0], 1, wf⟩ : ScatterDims ⟨1, ![32]⟩ ⟨2, ![10000, 1]⟩ ⟨1, ![10000]⟩)
          (broadcastInDim ⟨1, ![32]⟩ ![] h32 (constant (F := Ideal) ⟨0, ![]⟩ .f32 0x00000000#32))
          (broadcastInDim ⟨2, ![10000, 1]⟩ ![0] hcol batch)
          (broadcastInDim ⟨1, ![10000]⟩ ![] h10000 (constant (F := Ideal) ⟨0, ![]⟩ .f32 0x3F800000#32)))
        (broadcastInDim ⟨1, ![32]⟩ ![] h32 (constant (F := Ideal) ⟨0, ![]⟩ .f32 0x3F800000#32)) (ix1 b)
      = Cert.Seams.cnt (fun n => batch (ix1 n)) b := by
  unfold Cert.Seams.cnt
  refine (maximumf_apply _ _ (ix1 b)).trans ?_
  congr 1
  · refine (ScatterAddRows.scatterAdd_vec_apply wf _ _ _ b).trans ?_
    rw [broadcastInDim_scalar_apply, constant_apply, Ideal.ofBits_zero_f32, zero_add]
    refine Finset.sum_congr rfl fun n _ => ?_
    rw [HostReads.broadcastInDim_vec_col_apply hcol batch n 0, broadcastInDim_scalar_apply, constant_apply,
      Ideal.ofBits_one_f32]
  · rw [broadcastInDim_scalar_apply, constant_apply, Ideal.ofBits_one_f32]

variable [Facts]

theorem hrel_apply (a : FVec Ideal S10000x1024 .f32) (bias : FVec Ideal S1024 .f32) (n : Fin 10000) (f : Fin 1024) :
    Cert.RefStages.hrel a bias (ix2 n f) = Cert.Seams.lrelu (a (ix2 n f) + bias (ix1 f)) := by
  rw [← DenseLayer.bias_inDim_apply bcast_S1024_S1x1024_1 bcast_S1x1024_S10000x1024_0_1 bias n f]
  exact lrelu_scalar _

theorem pool_apply (a : FVec Ideal S10000x1024 .f32) (bias : FVec Ideal S1024 .f32) (batch : IVec S10000 32)
    (b : Fin 32) (f : Fin 1024) :
    Cert.RefStages.pool (Cert.RefStages.hrel a bias) batch (ix2 b f)
      = Cert.Seams.pooled (fun n f => a (ix2 n f)) (fun f => bias (ix1 f)) (fun n => batch (ix1 n)) b f := by
  unfold Cert.RefStages.pool Cert.Seams.pooled Cert.RefStages.splat
  refine (hostDivf_apply _ _ (ix2 b f)).trans ?_
  congr 1
  · refine ((ScatterAddRows.scatterAdd_rows_apply scatter_S32x1024_S10000x1_S10000x1024_1_0_0_1_wf _ _ _ b f).trans
      ?_).trans (filtered_sum_eq_parts (fun n f => a (ix2 n f)) (fun f => bias (ix1 f)) (fun n => batch (ix1 n)) b f)
    rw [broadcastInDim_scalar_apply, constant_apply, Ideal.ofBits_zero_f32, zero_add]
    exact Finset.sum_congr rfl fun n _ => by
      rw [HostReads.broadcastInDim_vec_col_apply bcast_S10000_S10000x1_0 batch n 0, hrel_apply]
  · exact (col_inDim_apply bcast_S32_S32x1_0 bcast_S32x1_S32x1024_0_1 _ b f).trans
      (cnt_apply scatter_S32_S10000x1_S10000_n_0_0_1_wf bcast_S_S32 bcast_S_S10000 bcast_S10000_S10000x1_0 batch b)

theorem pool_eq (a : FVec Ideal S10000x1024 .f32) (bias : FVec Ideal S1024 .f32) (batch : IVec S10000 32) :
    Cert.RefStages.pool (Cert.RefStages.hrel a bias) batch
      = fun i => Cert.Seams.pooled (fun n f => a (ix2 n f)) (fun f => bias (ix1 f)) (fun n => batch (ix1 n))
          (i 0) (i 1) := by
  funext i
  exact (congrArg _ (eq_ix2 i)).trans (pool_apply a bias batch (i 0) (i 1))

end Cert.KernelIdeal.Val

end
-- ==== Proof.KI_R0.lean ====
import proofs.«416856_j87668872446200_2_alg».proof.Proof.Gen.KernelIdeal.Launch
import proofs.«416856_j87668872446200_2_alg».proof.Proof.Gen.KernelIdeal.Skeleton
import proofs.«416856_j87668872446200_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX : Rect S1000x1024 := Rect.unit (s := S1000x1024) ![0, 0] S1000x1024.size inb_S1000x1024_S1000x1024_0_0
abbrev rW : Rect S1024x1024 := Rect.unit (s := S1024x1024) ![0, 0] S1024x1024.size inb_S1024x1024_S1024x1024_0_0

def out0_2 (x0 : Vec F S1000x1024 .f32) (x1 : Vec F S1024x1024 .bf16) : Vec F S1000x1024 .f32 :=
  View.canon [⟨rX, k0_pay1 (View.ld x0 rX) (View.ld x1 rW)⟩]

def out1_2 (x0 : Vec F S1000x1024 .f32) (x1 : Vec F S1024x1024 .bf16) : Vec F S1000x1024 .f32 :=
  View.canon [⟨rX, k1_pay1 (View.ld x0 rX) (View.ld x1 rW)⟩]

-- The one body both regions run: from operands `x0`, `x1` it leaves `out0_2 x0 x1` as the result, whatever was there before.
theorem sound_xw (c : Dev nD) (i : grid0.Coords)
    {arg1 arg3 : Memref sig .tc .vmem S1000x1024 .f32} {arg2 : Memref sig .tc .vmem S1024x1024 .bf16}
    (harg1 : arg1.IsWhole) (harg2 : arg2.IsWhole) (harg3 : arg3.IsWhole)
    {D0 D1 D2 : Type} {b0 : D0 → Vec F S1000x1024 .f32} {b1 : D1 → Vec F S1024x1024 .bf16} {b2 : D2 → Vec F S1000x1024 .f32}
    {x0 y : Vec F S1000x1024 .f32} {x1 : Vec F S1024x1024 .bf16} (h0 : ∀ d, b0 d = x0) (h1 : ∀ d, b1 d = x1)
    (hy : y = out0_2 x0 x1) {Φ O : sProp 𝕄} :
    iprop(Φ ∗ O ∗ (∃ d, owns (c : Thread nD τ) arg1 fullShare (b0 d)) ∗ (∃ d, owns (c : Thread nD τ) arg2 fullShare (b1 d))
        ∗ (∃ d, owns (c : Thread nD τ) arg3 fullShare (b2 d)))
      ⊢ wp frame (wpE (defs₀ (F := F)) Variants.none c none) Set.univ (cc0__xw_matmul_kernel i arg1 harg1 arg2 harg2 arg3 harg3)
        fun _ => iprop(Φ ∗ O ∗ owns (c : Thread nD τ) arg1 fullShare x0 ∗ owns (c : Thread nD τ) arg2 fullShare x1
          ∗ owns (c : Thread nD τ) arg3 fullShare y) := by
  subst hy
  simp only [h0, h1, cc0__xw_matmul_kernel_eq_skeleton]; unfold cc0__xw_matmul_kernel_skel
  conv_lhs => unfold owns
  iintro ⟨HΦ, Ho, ⟨%_, %f0, %hf0, H0⟩, ⟨%_, %f1, %hf1, H1⟩, ⟨%_, %f2, -, H2⟩⟩
  subst hf0 hf1
  sl_exec
  sl_step
  iframe HΦ Ho
  isplitl [H0]; · iapply owns_intro; iexact H0
  isplitl [H1]; · iapply owns_intro; iexact H1
  unfold owns; iexists _; isplitr
  swap; · iexact H2
  ipureintro
  exact View.read_writes_eq_canon _ _ _ (View.cover_of_tiled _ S1000x1024.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq0 (c : Dev nD) (w : Fin cfg0.W) : (dat0 V c).A w = V c (Pipeline.arrRef spec0 w) := rfl
theorem Phi0 (c : Dev nD) (t : Fin (cfg0.N + 1)) : (dat0 V c).Φ t = Pipeline.ΦA spec0 c := rfl
theorem q0 (c : Dev nD) (w : Fin cfg0.W) : (dat0 V c).q w = fullShare := rfl
theorem owed0 (c : Dev nD) (t : Fin (cfg0.N + 1)) : (dat0 V c).owed t = 0 := rfl
theorem recorded0 (c : Dev nD) : (dat0 V c).recorded 0 = Set.univ := rfl
theorem after0_2 (c : Dev nD) (t : Fin cfg0.N) :
    (dat0 V c).after 2 t = out0_2 (iblk0 V c 0 t) (iblk0 V c 1 t) := by dsimp only [dat0]

theorem A_eq1 (c : Dev nD) (w : Fin cfg1.W) : (dat1 V c).A w = V c (Pipeline.arrRef spec1 w) := rfl
theorem Phi1 (c : Dev nD) (t : Fin (cfg1.N + 1)) : (dat1 V c).Φ t = Pipeline.ΦA spec1 c := rfl
theorem q1 (c : Dev nD) (w : Fin cfg1.W) : (dat1 V c).q w = fullShare := rfl
theorem owed1 (c : Dev nD) (t : Fin (cfg1.N + 1)) : (dat1 V c).owed t = 0 := rfl
theorem recorded1 (c : Dev nD) : (dat1 V c).recorded 0 = Set.univ := rfl
theorem after1_2 (c : Dev nD) (t : Fin cfg1.N) :
    (dat1 V c).after 2 t = out1_2 (iblk1 V c 0 t) (iblk1 V c 1 t) := by dsimp only [dat1]

-- At each grid point the body takes the two operand blocks to `out0_2` of them.
theorem body_obligation0 (c : Dev nD) : BodyObligation (dat0 (F := F) V c) (defs₀ (F := F)) Variants.none () Set.univ := fun t => by
  rw [bigSep_W0, bigSep_W0]
  refine sound_xw c (grid0.coords t) (stage_whole0 0 _) (stage_whole0 1 _) (stage_whole0 2 _) ?_ ?_ (by dsimp only [dat0]) <;>
    exact fun d => ((dat0 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  refine sound_xw c (grid1.coords t) (stage_whole1 0 _) (stage_whole1 1 _) (stage_whole1 2 _) ?_ ?_ (by dsimp only [dat1]; rfl) <;>
    exact fun d => ((dat1 V c).before_in_eq_fetched _ rfl (fun _ => rfl) (fun _ _ _ => rfl) (fun _ => rfl) t d).trans rfl

end Cert.KernelIdeal.Hand

end
-- ==== Proof.KI_V0.lean ====
import proofs.«416856_j87668872446200_2_alg».proof.Proof.KI_R0
import proofs.«416856_j87668872446200_2_alg».proof.Proof.LibDenseLayer
import proofs.«416856_j87668872446200_2_alg».proof.Proof.RF_Stages
import proofs.«416856_j87668872446200_2_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand

private theorem hz : (![0, 0] : Fin 2 → Nat) = fun _ => 0 := funext fun a => by fin_cases a <;> rfl

def xwProd (x : S10000x1024.Idx → EReal) (W : S1024x1024.Idx → EReal) : S10000x1024.Idx → EReal :=
  fun i => ∑ k : Fin 1024, x (ix2 (i 0 : Fin 10000) k) * W (ix2 k (i 1 : Fin 1024))

theorem xw_eq_prod (x : S10000x1024.Idx → EReal) (W : S1024x1024.Idx → EReal) :
    Cert.RefStages.xw x W = xwProd x W := by
  funext i
  obtain ⟨r, h, rfl⟩ : ∃ (r : Fin 10000) (h : Fin 1024), i = ix2 r h := ⟨i 0, i 1, eq_ix2 i⟩
  unfold Cert.RefStages.xw
  exact DenseLayer.dotGeneral_rows_apply _ none _ x W r h

theorem xwPay0_apply (x : Vec Ideal S1000x1024 .f32) (w : Vec Ideal S1024x1024 .bf16) (r : Fin 1000) (h : Fin 1024) :
    k0_pay1 x w (ix2 r h) = ∑ k : Fin 1024, (x (ix2 r k) : EReal) * (w (ix2 k h) : EReal) := by
  unfold k0_pay1
  refine (DenseLayer.matmul_rows_apply dot_S1000x1024_S1024x1024_S1000x1024_1_0_0_1_n_n_wf none _ _ r h).trans ?_
  rw [shapeCast_self]
  rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- Both regions have one grid, one family of index maps and one body: what is stated here at region 0, over any arrays, holds at region 1.
theorem blk_x (X : S10000x1024.Idx → EReal) (t : Fin cfg0.N) (r : Fin 1000) (k : Fin 1024) (i : Fin 10000)
    (hi : i.val = t.val * 1000 + r.val) :
    (((cfg0.win 0).blk t).view.read (Elt Ideal) X : Vec Ideal S1000x1024 .f32) (ix2 r k) = X (ix2 i k) := by
  obtain ⟨e0, e1, -⟩ := idx_facts0 t
  show X (((cfg0.win 0).blk t).view.emb (ix2 r k)) = X (ix2 i k)
  refine congrArg X ?_
  funext a; apply Fin.ext
  match a with
  | ⟨0, _⟩ => show win0_0.index t (0 : Fin 2) * 1000 + 1 * r.val = i.val; omega
  | ⟨1, _⟩ => show win0_0.index t (1 : Fin 2) * 1024 + 1 * k.val = k.val; omega

theorem blk_w (W : S1024x1024.Idx → EReal) (t : Fin cfg0.N) (k : Fin 1024) (h : Fin 1024) :
    (((cfg0.win 1).blk t).view.read (Elt Ideal) W : Vec Ideal S1024x1024 .bf16) (ix2 k h) = W (ix2 k h) := by
  obtain ⟨-, -, e2, e3, -⟩ := idx_facts0 t
  show W (((cfg0.win 1).blk t).view.emb (ix2 k h)) = W (ix2 k h)
  refine congrArg W ?_
  funext a; apply Fin.ext
  match a with
  | ⟨0, _⟩ => show win0_1.index t (0 : Fin 2) * 1024 + 1 * k.val = k.val; omega
  | ⟨1, _⟩ => show win0_1.index t (1 : Fin 2) * 1024 + 1 * h.val = h.val; omega

theorem flushed_xw (X : S10000x1024.Idx → EReal) (W : S1024x1024.Idx → EReal) (t : Fin cfg0.N) :
    (cfg0.win 2).cut (grid0.coords t)
        (out0_2 (F := Ideal) (((cfg0.win 0).blk t).view.read (Elt Ideal) X) (((cfg0.win 1).blk t).view.read (Elt Ideal) W))
      = ((cfg0.win 2).blk t).view.read (Elt Ideal) (xwProd X W) := by
  unfold out0_2
  rw [View.canon_unit_zero hz]
  simp only [View.ld_unit_zero (S := S1000x1024) hz, View.ld_unit_zero (S := S1024x1024) hz]
  obtain ⟨-, -, -, -, e4, e5⟩ := idx_facts0 t
  funext j
  obtain ⟨r, h, rfl⟩ : ∃ (r : Fin 1000) (h : Fin 1024), j = ix2 r h := ⟨j 0, j 1, eq_ix2 j⟩
  show k0_pay1 (((cfg0.win 0).blk t).view.read (Elt Ideal) X) (((cfg0.win 1).blk t).view.read (Elt Ideal) W) (ix2 r h)
    = xwProd X W (((cfg0.win 2).blk t).view.emb (ix2 r h))
  refine (xwPay0_apply _ _ r h).trans ?_
  unfold xwProd
  refine Finset.sum_congr rfl fun k _ => ?_
  have hr : ((((cfg0.win 2).blk t).view.emb (ix2 r h)) 0 : Fin 10000).val = t.val * 1000 + r.val := by
    show win0_2.index t (0 : Fin 2) * 1000 + 1 * r.val = _; omega
  have hh : ((((cfg0.win 2).blk t).view.emb (ix2 r h)) 1 : Fin 1024) = h := by
    apply Fin.ext; show win0_2.index t (1 : Fin 2) * 1024 + 1 * h.val = _; omega
  rw [blk_x X t r k _ hr, blk_w W t k h, hh]

theorem cover0 (i : S10000x1024.Idx) :
    ∃ t : Fin cfg0.N, (cfg0.win 2).flush t = true ∧ i ∈ ((cfg0.win 2).blk t).view.set := by
  have hi0 : (i 0).val < 10000 := (i 0).isLt
  have hi1 : (i 1).val < 1024 := (i 1).isLt
  have hN : cfg0.N = 10 := N_0
  let t : Fin cfg0.N := ⟨(i 0).val / 1000, by rw [hN]; omega⟩
  obtain ⟨-, -, -, -, e4, e5⟩ := idx_facts0 t
  have ht : t.val = (i 0).val / 1000 := rfl
  refine ⟨t, flush0_2 t, ?_⟩
  show i ∈ ((View.whole main_v2).slice (win0_2.rect t)).set
  rw [View.set_slice_whole, Rect.mem_set_unit]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 1024 ≤ (i 1).val ∧ (i 1).val < win0_2.index t (1 : Fin 2) * 1024 + 1024
    omega

variable (V : (c : Dev nD) → (b : Ref sig .tc) → Buf (Elt Ideal) ((c : Thread nD τ).loc b))

theorem final0 (c : Dev nD) :
    (dat0 V c).arrAt 2 cfg0.N = Cert.RefStages.xw (V c main_arg0) (V c main_v0) :=
  ((dat0 V c).arrAt_eq_of_cover 2 (xwProd (V c main_arg0) (V c main_v0)) (fun t _ =>
    (congrArg ((cfg0.win 2).cut (grid0.coords t)) (after0_2 V c t)).trans (flushed_xw (V c main_arg0) (V c main_v0) t))
    cover0).trans (xw_eq_prod _ _).symm

theorem final1 (c : Dev nD) :
    (dat1 V c).arrAt 2 cfg1.N = Cert.RefStages.xw (V c main_arg3) (V c main_v1) :=
  ((dat1 V c).arrAt_eq_of_cover 2 (xwProd (V c main_arg3) (V c main_v1)) (fun t _ =>
    (congrArg ((cfg1.win 2).cut (grid1.coords t)) (after1_2 V c t)).trans (flushed_xw (V c main_arg3) (V c main_v1) t))
    cover0).trans (xw_eq_prod _ _).symm

end Cert.KernelIdeal.Val

end
-- ==== Proof.KI_R2Runs.lean ====
import proofs.«416856_j87668872446200_2_alg».proof.Proof.Gen.KernelIdeal.Launch
import proofs.«416856_j87668872446200_2_alg».proof.Proof.Gen.KernelIdeal.Skeleton
import proofs.«416856_j87668872446200_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 5 = 0 :=
  (by decide +kernel : ∀ t : Fin grid2.N, cond2_0 (grid2.coords t) ↔ t.val % 5 = 0)

abbrev cond2_1 (i : grid2.Coords) : Prop := k2_cond2 i = 1#1

theorem hcond2_1 : ∀ t : Fin cfg2.N, cond2_1 (grid2.coords t) ↔ t.val % 5 = 4 :=
  (by decide +kernel : ∀ t : Fin grid2.N, cond2_1 (grid2.coords t) ↔ t.val % 5 = 4)

def sstep2_0 (x0 : Vec F S1000x1024 .f32) (x2 : Vec F S1000x1 .i32) (x4 : Vec F S1x1024 .f32) (a : Vec F S32x1024 .f32) : Vec F S32x1024 .f32 :=
  k2_pay1 (k2_pay7 x0 x4) (k2_pay9 x2) a

def sstep2_1 (x1 : Vec F S1000x1024 .f32) (x3 : Vec F S1000x1 .i32) (x5 : Vec F S1x1024 .f32) (a : Vec F S32x1024 .f32) : Vec F S32x1024 .f32 :=
  k2_pay2 (k2_pay8 x1 x5) (k2_pay10 x3) a

def sout2_A_0 (x0 : Vec F S1000x1024 .f32) (x2 : Vec F S1000x1 .i32) (x4 : Vec F S1x1024 .f32) : Vec F S32x1024 .f32 :=
  sstep2_0 x0 x2 x4 k2_pay5
def sout2_A_1 (x1 : Vec F S1000x1024 .f32) (x3 : Vec F S1000x1 .i32) (x5 : Vec F S1x1024 .f32) : Vec F S32x1024 .f32 :=
  sstep2_1 x1 x3 x5 k2_pay6

def sout2_B_0 (x0 : Vec F S1000x1024 .f32) (x2 : Vec F S1000x1 .i32) (x4 : Vec F S1x1024 .f32) (xs0 : Vec F S32x1024 .f32) : Vec F S32x1024 .f32 :=
  sstep2_0 x0 x2 x4 xs0
def sout2_B_1 (x1 : Vec F S1000x1024 .f32) (x3 : Vec F S1000x1 .i32) (x5 : Vec F S1x1024 .f32) (xs1 : Vec F S32x1024 .f32) : Vec F S32x1024 .f32 :=
  sstep2_1 x1 x3 x5 xs1

def sout2_C_0 (x0 : Vec F S1000x1024 .f32) (x2 : Vec F S1000x1 .i32) (x4 : Vec F S1x1024 .f32) (xs0 : Vec F S32x1024 .f32) : Vec F S32x1024 .f32 :=
  sstep2_0 x0 x2 x4 xs0
def sout2_C_1 (x1 : Vec F S1000x1024 .f32) (x3 : Vec F S1000x1 .i32) (x5 : Vec F S1x1024 .f32) (xs1 : Vec F S32x1024 .f32) : Vec F S32x1024 .f32 :=
  sstep2_1 x1 x3 x5 xs1

def out2_C_6 (x0 : Vec F S1000x1024 .f32) (x2 : Vec F S1000x1 .i32) (x4 : Vec F S1x1024 .f32) (xs0 : Vec F S32x1024 .f32) : Vec F S1x32x1024 .f32 :=
  k2_pay3 (sout2_C_0 x0 x2 x4 xs0)
def out2_C_7 (x1 : Vec F S1000x1024 .f32) (x3 : Vec F S1000x1 .i32) (x5 : Vec F S1x1024 .f32) (xs1 : Vec F S32x1024 .f32) : Vec F S1x32x1024 .f32 :=
  k2_pay4 (sout2_C_1 x1 x3 x5 xs1)

def out2_idle : Vec F S1x32x1024 .f32 := View.canon []

def outsAt2 (c : Dev nD) : (n : ℕ) → n < cfg2.N → (Vec F S1x32x1024 .f32 × Vec F S1x32x1024 .f32) × (Vec F S32x1024 .f32 × Vec F S32x1024 .f32)
  | 0, hn => ((out2_idle, out2_idle),
      (sout2_A_0 (iblk2 V c 0 ⟨0, hn⟩) (iblk2 V c 2 ⟨0, hn⟩) (iblk2 V c 4 ⟨0, hn⟩),
       sout2_A_1 (iblk2 V c 1 ⟨0, hn⟩) (iblk2 V c 3 ⟨0, hn⟩) (iblk2 V c 5 ⟨0, hn⟩)))
  | n + 1, hn =>
    if h0 : (n + 1) % 5 = 0 then
      ((out2_idle, out2_idle),
        (sout2_A_0 (iblk2 V c 0 ⟨n + 1, hn⟩) (iblk2 V c 2 ⟨n + 1, hn⟩) (iblk2 V c 4 ⟨n + 1, hn⟩),
         sout2_A_1 (iblk2 V c 1 ⟨n + 1, hn⟩) (iblk2 V c 3 ⟨n + 1, hn⟩) (iblk2 V c 5 ⟨n + 1, hn⟩)))
    else if h1 : (n + 1) % 5 = 4 then
      ((out2_C_6 (iblk2 V c 0 ⟨n + 1, hn⟩) (iblk2 V c 2 ⟨n + 1, hn⟩) (iblk2 V c 4 ⟨n + 1, hn⟩) (outsAt2 c n (Nat.lt_of_succ_lt hn)).2.1,
        out2_C_7 (iblk2 V c 1 ⟨n + 1, hn⟩) (iblk2 V c 3 ⟨n + 1, hn⟩) (iblk2 V c 5 ⟨n + 1, hn⟩) (outsAt2 c n (Nat.lt_of_succ_lt hn)).2.2),
       (sout2_C_0 (iblk2 V c 0 ⟨n + 1, hn⟩) (iblk2 V c 2 ⟨n + 1, hn⟩) (iblk2 V c 4 ⟨n + 1, hn⟩) (outsAt2 c n (Nat.lt_of_succ_lt hn)).2.1,
        sout2_C_1 (iblk2 V c 1 ⟨n + 1, hn⟩) (iblk2 V c 3 ⟨n + 1, hn⟩) (iblk2 V c 5 ⟨n + 1, hn⟩) (outsAt2 c n (Nat.lt_of_succ_lt hn)).2.2))
    else
      ((out2_idle, out2_idle),
       (sout2_B_0 (iblk2 V c 0 ⟨n + 1, hn⟩) (iblk2 V c 2 ⟨n + 1, hn⟩) (iblk2 V c 4 ⟨n + 1, hn⟩) (outsAt2 c n (Nat.lt_of_succ_lt hn)).2.1,
        sout2_B_1 (iblk2 V c 1 ⟨n + 1, hn⟩) (iblk2 V c 3 ⟨n + 1, hn⟩) (iblk2 V c 5 ⟨n + 1, hn⟩) (outsAt2 c n (Nat.lt_of_succ_lt hn)).2.2))

theorem outsAt2_A (c : Dev nD) (t : Fin cfg2.N) (h0 : t.val % 5 = 0) :
    outsAt2 V c t.val t.isLt = ((out2_idle, out2_idle),
      (sout2_A_0 (iblk2 V c 0 t) (iblk2 V c 2 t) (iblk2 V c 4 t),
       sout2_A_1 (iblk2 V c 1 t) (iblk2 V c 3 t) (iblk2 V c 5 t))) := by
  obtain ⟨n, hn⟩ := t
  cases n with
  | zero => exact rfl
  | succ n => exact (dif_pos h0).trans rfl

theorem outsAt2_B (c : Dev nD) (t : Fin cfg2.N) (h0 : ¬t.val % 5 = 0) (h1 : ¬t.val % 5 = 4) :
    outsAt2 V c t.val t.isLt = ((out2_idle, out2_idle),
      (sout2_B_0 (iblk2 V c 0 t) (iblk2 V c 2 t) (iblk2 V c 4 t) (outsAt2 V c (t.val - 1) (Nat.lt_of_le_of_lt (Nat.sub_le _ _) t.isLt)).2.1,
       sout2_B_1 (iblk2 V c 1 t) (iblk2 V c 3 t) (iblk2 V c 5 t) (outsAt2 V c (t.val - 1) (Nat.lt_of_le_of_lt (Nat.sub_le _ _) t.isLt)).2.2)) := by
  obtain ⟨n, hn⟩ := t
  cases n with
  | zero => exact absurd (Nat.zero_mod 5) h0
  | succ n => exact (dif_neg h0).trans ((dif_neg h1).trans rfl)

theorem outsAt2_C (c : Dev nD) (t : Fin cfg2.N) (h0 : ¬t.val % 5 = 0) (h1 : t.val % 5 = 4) :
    outsAt2 V c t.val t.isLt =
      ((out2_C_6 (iblk2 V c 0 t) (iblk2 V c 2 t) (iblk2 V c 4 t) (outsAt2 V c (t.val - 1) (Nat.lt_of_le_of_lt (Nat.sub_le _ _) t.isLt)).2.1,
        out2_C_7 (iblk2 V c 1 t) (iblk2 V c 3 t) (iblk2 V c 5 t) (outsAt2 V c (t.val - 1) (Nat.lt_of_le_of_lt (Nat.sub_le _ _) t.isLt)).2.2),
       (sout2_C_0 (iblk2 V c 0 t) (iblk2 V c 2 t) (iblk2 V c 4 t) (outsAt2 V c (t.val - 1) (Nat.lt_of_le_of_lt (Nat.sub_le _ _) t.isLt)).2.1,
        sout2_C_1 (iblk2 V c 1 t) (iblk2 V c 3 t) (iblk2 V c 5 t) (outsAt2 V c (t.val - 1) (Nat.lt_of_le_of_lt (Nat.sub_le _ _) t.isLt)).2.2)) := by
  obtain ⟨n, hn⟩ := t
  cases n with
  | zero => exact absurd (Nat.zero_mod 5) h0
  | succ n => exact (dif_neg h0).trans ((dif_pos h1).trans rfl)

abbrev scM2_0 : Memref sig .tc .vmem S32x1024 .f32 := Memref.whole cc2_scratch0
abbrev scM2_1 : Memref sig .tc .vmem S32x1024 .f32 := Memref.whole cc2_scratch1

abbrev rest2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 (F := F) c) ∗ (∃ r, prngReg c r)) := by
  unfold Pipeline.ΦA; rw [scopedRest2_split]; simp only [scM2_0, scM2_1, owns_whole]; try rfl

def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2)) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2)) ∗ rest2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2)) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1.1
    | ⟨7, _⟩ => (outsAt2 V c t.val t.isLt).1.2
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q2 (c : Dev nD) (w : Fin cfg2.W) : (dat2 V c).q w = fullShare := rfl
theorem owed2 (c : Dev nD) (t : Fin (cfg2.N + 1)) : (dat2 V c).owed t = 0 := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_6 (c : Dev nD) (t : Fin cfg2.N) : (dat2 V c).after 6 t = (outsAt2 V c t.val t.isLt).1.1 := by dsimp only [dat2]
theorem after2_7 (c : Dev nD) (t : Fin cfg2.N) : (dat2 V c).after 7 t = (outsAt2 V c t.val t.isLt).1.2 := by dsimp only [dat2]

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  iframe
  isplitl [HS0]; · iexists _; iexact HS0
  iexists _; iexact HS1

theorem hout2 (c : Dev nD) : (dat2 V c).Φ (Fin.last cfg2.N) ⊢ Pipeline.ΦA spec2 c :=
  Phi_out2 V c _ (by rw [Fin.val_last]; have : cfg2.N = 10 := N_2; omega)

theorem recorded2 (c : Dev nD) : (dat2 V c).recorded 0 = Set.univ := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

theorem hz2 : (![0, 0] : Fin 2 → ℕ) = fun _ => 0 := by funext a; fin_cases a <;> rfl
theorem hz3 : (![0, 0, 0] : Fin 3 → ℕ) = fun _ => 0 := by funext a; fin_cases a <;> rfl

end Cert.KernelIdeal.Hand

end
-- ==== Proof.LibMatmulColsByCols.lean ====
import Idealize.ShloMosaic.PureOps.Ideal.Laws
import Idealize.ShloMosaic.Lib.ValueIdx

noncomputable section

namespace Idealize.ShloMosaic.MatmulColsByCols

open Idealize.ShloMosaic Idealize.ShloMosaic.ValueIdx

variable {m k n : ℕ}

abbrev dims (w : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ := ⟨[0], [0], [1], [1], [], [], w⟩

theorem lhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 0).val = (q ⟨0, Nat.one_pos⟩).val :=
  (dims w).lhsIdx_val_of_single rfl j q

theorem lhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).lhsIdx j q 1).val = (j 0).val := by
  unfold DotDims.lhsIdx
  rw [dif_neg (show ¬(1 : Fin 2) ∈ (dims w).lhsBatch from List.not_mem_nil),
    dif_pos (show (1 : Fin 2) ∈ (dims w).lhsNonContracting from List.mem_singleton.mpr rfl)]
  rfl

theorem rhs_0 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 0).val = (q ⟨0, Nat.one_pos⟩).val :=
  (dims w).rhsIdx_val_of_single rfl j q

theorem rhs_1 (w : DotDims.WF ⟨2, ![k, m]⟩ ⟨2, ![k, n]⟩ ⟨2, ![m, n]⟩ [0] [0] [1] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

theorem matmul_cols_apply {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (r : Fin m) (h : Fin n) :
    FloatOps.matmul (⟨[0], [0], [1], [1], [], [], w⟩ : DotDims _ _ _) prec A B
        (constant ⟨2, ![m, n]⟩ .f32 0x00000000#32) (ix2 r h)
      = ∑ l : Fin k, A (ix2 l r) * B (ix2 l h) := by
  rw [Ideal.matmul_constant_zero_apply, ← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 l r := by
    funext ax; apply Fin.ext
    match ax with
    | ⟨0, _⟩ => exact (lhs_0 w _ _).trans c2
    | ⟨1, _⟩ => exact lhs_1 w _ _
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

end Idealize.ShloMosaic.MatmulColsByCols

end
-- ==== Proof.LibRowOps.lean ====
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.RowOps

end
-- ==== Proof.LibBlockSums.lean ====
import Mathlib.Algebra.BigOperators.Group.Finset.Basic
import Mathlib.Algebra.BigOperators.Fin
import Mathlib.Data.Fintype.BigOperators

namespace Idealize.ShloMosaic.BlockSums

open Finset

variable {M : Type*} [AddCommMonoid M]

theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

end Idealize.ShloMosaic.BlockSums
-- ==== Proof.KI_V2.lean ====
import proofs.«416856_j87668872446200_2_alg».proof.Proof.Gen.KernelIdeal.Skeleton
import proofs.«416856_j87668872446200_2_alg».proof.Proof.Seams
import proofs.«416856_j87668872446200_2_alg».proof.Proof.KI_R2Runs
import proofs.«416856_j87668872446200_2_alg».proof.Proof.LibMatmulColsByCols
import proofs.«416856_j87668872446200_2_alg».proof.Proof.LibRowOps
import proofs.«416856_j87668872446200_2_alg».proof.Proof.LibBlockSums
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.Val

open Idealize.ShloMosaic Idealize.ShloMosaic.ValueIdx
open Cert.KernelIdeal Cert.KernelIdeal.Gen
open Cert.Seams

theorem lrelu_word (y : EReal) :
    Scalar.select (Ideal.cmp .oge y (Ideal.ofBits .f32 0x00000000#32)) y (Ideal.ofBits .f32 0x3C23D70A#32 * y) = lrelu y := by
  unfold lrelu Scalar.select Ideal.cmp
  rw [Ideal.ofBits_zero_f32]
  by_cases h : (0 : EReal) ≤ y <;> simp [h]

theorem biased_apply (x : FVec Ideal S1000x1024 .f32) (bias : FVec Ideal S1x1024 .f32) (r : Fin 1000) (f : Fin 1024) :
    (addf (shapeCast S1000x1024 x shapeCasts_S1000x1024_S1000x1024)
      (broadcastTo S1000x1024 (shapeCast S1x1024 bias shapeCasts_S1x1024_S1x1024) broadcasts_S1x1024_S1000x1024) : FVec Ideal S1000x1024 .f32) (ix2 r f)
      = x (ix2 r f) + bias (ix2 (0 : Fin 1) f) := by
  rw [shapeCast_self, shapeCast_self]
  exact congrArg (x (ix2 r f) + ·) (broadcastTo_1b_ab_apply bias broadcasts_S1x1024_S1000x1024 r f)

theorem pay7_apply (x : FVec Ideal S1000x1024 .f32) (bias : FVec Ideal S1x1024 .f32) (r : Fin 1000) (f : Fin 1024) :
    k2_pay7 (F := Ideal) x bias (ix2 r f) = lrelu (x (ix2 r f) + bias (ix2 (0 : Fin 1) f)) := by
  unfold k2_pay7
  refine Eq.trans ?_ (lrelu_word (x (ix2 r f) + bias (ix2 (0 : Fin 1) f)))
  rw [← biased_apply x bias r f]
  rfl

theorem hot_word (w : BitVec 32) (b : Fin 32) :
    (FloatOps.sitofp (F := Ideal) .f32 ((IntOp.cmpi .eq w (BitVec.ofNat 32 b.val)).setWidth 32) : EReal) = hot w b := by
  show ((((IntOp.cmpi .eq w (BitVec.ofNat 32 b.val)).setWidth 32).toInt : ℝ) : EReal) = _
  rw [toInt_setWidth_bit]
  unfold hot IntOp.cmpi
  by_cases h : w = BitVec.ofNat 32 b.val <;> simp [h]

theorem bit_apply (col : IVec S1000x1 32) (r : Fin 1000) (b : Fin 32) :
    (cmpi .eq (broadcastTo S1000x32 (shapeCast S1000x1 col shapeCasts_S1000x1_S1000x1) broadcasts_S1000x1_S1000x32)
        (iota .tc S1000x32 32 [1] iota_S1000x32_d1_w32) : IVec S1000x32 1) (ix2 r b)
      = IntOp.cmpi .eq (col (ix2 r (0 : Fin 1))) (BitVec.ofNat 32 b.val) := by
  rw [shapeCast_self]
  show IntOp.cmpi .eq (broadcastTo S1000x32 col broadcasts_S1000x1_S1000x32 (ix2 r b))
    (iota .tc S1000x32 32 [1] iota_S1000x32_d1_w32 (ix2 r b)) = _
  rw [RowOps.broadcastTo_a1_ab_apply, iota_single_apply]

theorem pay9_apply (col : IVec S1000x1 32) (r : Fin 1000) (b : Fin 32) :
    k2_pay9 (F := Ideal) col (ix2 r b) = hot (col (ix2 r (0 : Fin 1))) b := by
  unfold k2_pay9
  refine Eq.trans ?_ (hot_word (col (ix2 r (0 : Fin 1))) b)
  rw [← bit_apply col r b]
  rfl

theorem pay1_apply (h : FVec Ideal S1000x1024 .bf16) (oh : FVec Ideal S1000x32 .bf16) (acc : FVec Ideal S32x1024 .f32)
    (b : Fin 32) (f : Fin 1024) :
    k2_pay1 (F := Ideal) h oh acc (ix2 b f) = acc (ix2 b f) + ∑ r : Fin 1000, oh (ix2 r b) * h (ix2 r f) := by
  unfold k2_pay1
  rw [shapeCast_self]
  exact congrArg (acc (ix2 b f) + ·)
    (MatmulColsByCols.matmul_cols_apply dot_S1000x32_S1000x1024_S32x1024_0_0_1_1_n_n_wf none oh h b f)

theorem pay3_apply (acc : FVec Ideal S32x1024 .f32) (u : Fin 1) (b : Fin 32) (f : Fin 1024) :
    k2_pay3 (F := Ideal) acc (ix3 u b f) = acc (ix2 b f) := by
  unfold k2_pay3
  exact shapeCast_ab_1ab_apply acc shapeCasts_S32x1024_S1x32x1024 u b f

theorem pay5_apply (b : Fin 32) (f : Fin 1024) : (k2_pay5 (F := Ideal)) (ix2 b f) = 0 := by
  unfold k2_pay5
  rw [shapeCast_self]
  exact Ideal.ofBits_zero_f32

def term (agg : Fin 10000 → Fin 1024 → EReal) (bias : Fin 1024 → EReal) (batch : Fin 10000 → BitVec 32)
    (cc : Fin 2) (b : Fin 32) (f : Fin 1024) (n : ℕ) : EReal :=
  if h : n < 5000 then hot (batch (row cc ⟨n, h⟩)) b * lrelu (agg (row cc ⟨n, h⟩) f + bias f) else 0

def blkSum (agg : Fin 10000 → Fin 1024 → EReal) (bias : Fin 1024 → EReal) (batch : Fin 10000 → BitVec 32)
    (cc : Fin 2) (b : Fin 32) (f : Fin 1024) (j : ℕ) : EReal :=
  ∑ r : Fin 1000, term agg bias batch cc b f (1000 * j + r.val)

theorem sum_blkSum_eq_part (agg : Fin 10000 → Fin 1024 → EReal) (bias : Fin 1024 → EReal) (batch : Fin 10000 → BitVec 32)
    (cc : Fin 2) (b : Fin 32) (f : Fin 1024) :
    ∑ j ∈ Finset.range 5, blkSum agg bias batch cc b f j = part agg bias batch cc b f := by
  unfold blkSum part
  rw [BlockSums.sum_blocks (term agg bias batch cc b f) 1000 5,
    ← Fin.sum_univ_eq_sum_range (term agg bias batch cc b f) (5 * 1000)]
  exact Finset.sum_congr rfl fun n _ => by unfold term; rw [dif_pos n.isLt]

section Arrays

open Cert.KernelIdeal.Hand
open Idealize.ShloMosaic.Pipeline (Dat)
open Idealize.ShloMosaic.TcCoe Idealize.SL.Sem

variable (V : (c : Dev nD) → (b : Ref sig .tc) → Buf (Elt Ideal) ((c : Thread nD τ).loc b))

theorem idx_facts : ∀ t : Fin cfg2.N,
    win2_0.index t (0 : Fin 2) = t.val ∧ win2_0.index t (1 : Fin 2) = 0
    ∧ win2_2.index t (0 : Fin 2) = t.val ∧ win2_2.index t (1 : Fin 2) = 0
    ∧ win2_4.index t (0 : Fin 2) = 0 ∧ win2_4.index t (1 : Fin 2) = 0
    ∧ win2_6.index t (0 : Fin 3) = t.val / 5 ∧ win2_6.index t (1 : Fin 3) = 0 ∧ win2_6.index t (2 : Fin 3) = 0 :=
  (by decide +kernel : ∀ t : Fin grid2.N, _)

theorem cc_lt (t : Fin cfg2.N) : t.val / 5 < 2 := by
  have := t.isLt
  have : cfg2.N = 10 := N_2
  omega

-- Windows 1, 3, 5, 7 have the index maps of windows 0, 2, 4, 6, hence the same blocks.
theorem rows_apply (X : FVec Ideal S10000x1024 .f32) (t : Fin cfg2.N) (r : Fin 1000) (f : Fin 1024)
    (hlt : 1000 * t.val + r.val < 10000) :
    (((cfg2.win 0).blk t).view.read (Elt Ideal) X : FVec Ideal S1000x1024 .f32) (ix2 r f)
      = X (ix2 ⟨1000 * t.val + r.val, hlt⟩ f) := by
  obtain ⟨e0, e1, -⟩ := idx_facts t
  rw [View.read_apply]
  show X (((cfg2.win 0).blk t).view.emb (ix2 r f)) = _
  refine congrArg X (funext fun a => Fin.ext ?_)
  match a with
  | ⟨0, _⟩ => show win2_0.index t (0 : Fin 2) * 1000 + 1 * r.val = 1000 * t.val + r.val; rw [e0]; omega
  | ⟨1, _⟩ => show win2_0.index t (1 : Fin 2) * 1024 + 1 * f.val = f.val; rw [e1]; omega

theorem col_apply (X : IVec S10000x1 32) (t : Fin cfg2.N) (r : Fin 1000) (hlt : 1000 * t.val + r.val < 10000) :
    (((cfg2.win 2).blk t).view.read (Elt Ideal) X : IVec S1000x1 32) (ix2 r (0 : Fin 1))
      = X (ix2 ⟨1000 * t.val + r.val, hlt⟩ (0 : Fin 1)) := by
  obtain ⟨-, -, e0, e1, -⟩ := idx_facts t
  rw [View.read_apply]
  show X (((cfg2.win 2).blk t).view.emb (ix2 r (0 : Fin 1))) = _
  refine congrArg X (funext fun a => Fin.ext ?_)
  match a with
  | ⟨0, _⟩ => show win2_2.index t (0 : Fin 2) * 1000 + 1 * r.val = 1000 * t.val + r.val; rw [e0]; omega
  | ⟨1, _⟩ => show win2_2.index t (1 : Fin 2) * 1 + 1 * 0 = 0; rw [e1]

theorem bias_apply (X : FVec Ideal S1x1024 .f32) (t : Fin cfg2.N) (f : Fin 1024) :
    (((cfg2.win 4).blk t).view.read (Elt Ideal) X : FVec Ideal S1x1024 .f32) (ix2 (0 : Fin 1) f) = X (ix2 (0 : Fin 1) f) := by
  obtain ⟨-, -, -, -, e0, e1, -⟩ := idx_facts t
  rw [View.read_apply]
  show X (((cfg2.win 4).blk t).view.emb (ix2 (0 : Fin 1) f)) = _
  refine congrArg X (funext fun a => Fin.ext ?_)
  match a with
  | ⟨0, _⟩ => show win2_4.index t (0 : Fin 2) * 1 + 1 * 0 = 0; rw [e0]
  | ⟨1, _⟩ => show win2_4.index t (1 : Fin 2) * 1024 + 1 * f.val = f.val; rw [e1]; omega

theorem sstep_apply (X0 : FVec Ideal S10000x1024 .f32) (X2 : IVec S10000x1 32) (X4 : FVec Ideal S1x1024 .f32)
    (n : ℕ) (hn : n < cfg2.N) (a : FVec Ideal S32x1024 .f32) (b : Fin 32) (f : Fin 1024) :
    sstep2_0 (F := Ideal) (((cfg2.win 0).blk ⟨n, hn⟩).view.read (Elt Ideal) X0) (((cfg2.win 2).blk ⟨n, hn⟩).view.read (Elt Ideal) X2)
        (((cfg2.win 4).blk ⟨n, hn⟩).view.read (Elt Ideal) X4) a (ix2 b f)
      = a (ix2 b f) + blkSum (fun n f => X0 (ix2 n f)) (fun f => X4 (ix2 (0 : Fin 1) f)) (fun n => X2 (ix2 n (0 : Fin 1)))
          ⟨n / 5, cc_lt ⟨n, hn⟩⟩ b f (n % 5) := by
  unfold sstep2_0
  rw [pay1_apply]
  refine congrArg (a (ix2 b f) + ·) (Finset.sum_congr rfl fun r _ => ?_)
  have hr : 1000 * (n % 5) + r.val < 5000 := by have := r.isLt; omega
  have hlt : 1000 * n + r.val < 10000 := by have := r.isLt; have : n / 5 < 2 := cc_lt ⟨n, hn⟩; omega
  have e : (⟨1000 * n + r.val, hlt⟩ : Fin 10000) = row ⟨n / 5, cc_lt ⟨n, hn⟩⟩ ⟨1000 * (n % 5) + r.val, hr⟩ :=
    Fin.ext (by show 1000 * n + r.val = 5000 * (n / 5) + (1000 * (n % 5) + r.val); omega)
  rw [pay9_apply, pay7_apply, rows_apply X0 ⟨n, hn⟩ r f hlt, col_apply X2 ⟨n, hn⟩ r hlt, bias_apply, e]
  unfold term
  rw [dif_pos hr]

abbrev agg0 (c : Dev nD) : Fin 10000 → Fin 1024 → EReal := fun n f => (V c main_v50 : FVec Ideal S10000x1024 .f32) (ix2 n f)
abbrev bias0 (c : Dev nD) : Fin 1024 → EReal := fun f => (V c main_v114 : FVec Ideal S1x1024 .f32) (ix2 (0 : Fin 1) f)
abbrev bat0 (c : Dev nD) : Fin 10000 → BitVec 32 := fun n => (V c main_v112 : IVec S10000x1 32) (ix2 n (0 : Fin 1))

abbrev agg1 (c : Dev nD) : Fin 10000 → Fin 1024 → EReal := fun n f => (V c main_v97 : FVec Ideal S10000x1024 .f32) (ix2 n f)
abbrev bias1 (c : Dev nD) : Fin 1024 → EReal := fun f => (V c main_v115 : FVec Ideal S1x1024 .f32) (ix2 (0 : Fin 1) f)
abbrev bat1 (c : Dev nD) : Fin 10000 → BitVec 32 := fun n => (V c main_v113 : IVec S10000x1 32) (ix2 n (0 : Fin 1))

theorem acc_eq (c : Dev nD) : ∀ (n : ℕ) (hn : n < cfg2.N) (cc : Fin 2) (hcc : cc.val = n / 5) (b : Fin 32) (f : Fin 1024),
    ((outsAt2 V c n hn).2.1 : FVec Ideal S32x1024 .f32) (ix2 b f)
        = ∑ j ∈ Finset.range (n % 5 + 1), blkSum (agg0 V c) (bias0 V c) (bat0 V c) cc b f j
    ∧ ((outsAt2 V c n hn).2.2 : FVec Ideal S32x1024 .f32) (ix2 b f)
        = ∑ j ∈ Finset.range (n % 5 + 1), blkSum (agg1 V c) (bias1 V c) (bat1 V c) cc b f j := by
  intro n
  induction n using Nat.strong_induction_on with
  | _ n ih =>
    intro hn cc hcc b f
    obtain rfl : cc = ⟨n / 5, cc_lt ⟨n, hn⟩⟩ := Fin.ext hcc
    have hs0 := fun a => sstep_apply (V c main_v50) (V c main_v112) (V c main_v114) n hn a b f
    have hs1 := fun a => sstep_apply (V c main_v97) (V c main_v113) (V c main_v115) n hn a b f
    by_cases h0 : n % 5 = 0
    · have z : ∀ g : EReal, (k2_pay5 (F := Ideal)) (ix2 b f) + g = g := fun g => by rw [pay5_apply, zero_add]
      rw [h0] at hs0 hs1
      rw [outsAt2_A V c ⟨n, hn⟩ h0, h0, Finset.sum_range_one, Finset.sum_range_one]
      exact ⟨(hs0 _).trans (z _), (hs1 _).trans (z _)⟩
    · obtain ⟨p0, p1⟩ := ih (n - 1) (by omega) (by omega) ⟨n / 5, cc_lt ⟨n, hn⟩⟩ (by show n / 5 = (n - 1) / 5; omega) b f
      rw [show (n - 1) % 5 + 1 = n % 5 by omega] at p0 p1
      rw [Finset.sum_range_succ, Finset.sum_range_succ, ← p0, ← p1]
      by_cases h1 : n % 5 = 4
      · rw [outsAt2_C V c ⟨n, hn⟩ h0 h1]
        exact ⟨hs0 _, hs1 _⟩
      · rw [outsAt2_B V c ⟨n, hn⟩ h0 h1]
        exact ⟨hs0 _, hs1 _⟩

theorem out_eq (c : Dev nD) (t : Fin cfg2.N) (h4 : t.val % 5 = 4) (u : Fin 1) (b : Fin 32) (f : Fin 1024) :
    ((outsAt2 V c t.val t.isLt).1.1 : FVec Ideal S1x32x1024 .f32) (ix3 u b f)
        = part (agg0 V c) (bias0 V c) (bat0 V c) ⟨t.val / 5, cc_lt t⟩ b f
    ∧ ((outsAt2 V c t.val t.isLt).1.2 : FVec Ideal S1x32x1024 .f32) (ix3 u b f)
        = part (agg1 V c) (bias1 V c) (bat1 V c) ⟨t.val / 5, cc_lt t⟩ b f := by
  obtain ⟨a0, a1⟩ := acc_eq V c t.val t.isLt ⟨t.val / 5, cc_lt t⟩ rfl b f
  rw [outsAt2_C V c t (by omega) h4, h4] at a0 a1
  rw [outsAt2_C V c t (by omega) h4]
  exact ⟨(pay3_apply _ u b f).trans (a0.trans (sum_blkSum_eq_part _ _ _ _ b f)),
    (pay3_apply _ u b f).trans (a1.trans (sum_blkSum_eq_part _ _ _ _ b f))⟩

theorem flushed_eq (W : FVec Ideal S1x32x1024 .f32) (G : Fin 2 → Fin 32 → Fin 1024 → EReal) (t : Fin cfg2.N)
    (hW : ∀ (u : Fin 1) (b : Fin 32) (f : Fin 1024), W (ix3 u b f) = G ⟨t.val / 5, cc_lt t⟩ b f) :
    (cfg2.win 6).cut (grid2.coords t) W
      = ((cfg2.win 6).blk t).view.read (Elt Ideal) (fun i => G (i 0) (i 1) (i 2) : FVec Ideal S2x32x1024 .f32) := by
  obtain ⟨-, -, -, -, -, -, e0, e1, e2⟩ := idx_facts t
  funext j
  have hj0 : (j 0).val < 1 := (j 0).isLt
  have hj1 : (j 1).val < 32 := (j 1).isLt
  have hj2 : (j 2).val < 1024 := (j 2).isLt
  have hx : ((cfg2.win 6).xinj (grid2.coords t) j : S1x32x1024.Idx) = ix3 (⟨(j 0).val, hj0⟩ : Fin 1) (⟨(j 1).val, hj1⟩ : Fin 32) (⟨(j 2).val, hj2⟩ : Fin 1024) :=
    funext fun a => Fin.ext (match a with | ⟨0, _⟩ => rfl | ⟨1, _⟩ => rfl | ⟨2, _⟩ => rfl)
  have he : (((cfg2.win 6).blk t).view.emb j : S2x32x1024.Idx) = ix3 (⟨t.val / 5, cc_lt t⟩ : Fin 2) (⟨(j 1).val, hj1⟩ : Fin 32) (⟨(j 2).val, hj2⟩ : Fin 1024) :=
    funext fun a => Fin.ext (match a with
      | ⟨0, _⟩ => by show win2_6.index t (0 : Fin 3) * 1 + 1 * (j 0).val = t.val / 5; rw [e0]; omega
      | ⟨1, _⟩ => by show win2_6.index t (1 : Fin 3) * 32 + 1 * (j 1).val = (j 1).val; rw [e1]; omega
      | ⟨2, _⟩ => by show win2_6.index t (2 : Fin 3) * 1024 + 1 * (j 2).val = (j 2).val; rw [e2]; omega)
  rw [View.read_apply]
  show W ((cfg2.win 6).xinj (grid2.coords t) j) = (fun i => G (i 0) (i 1) (i 2) : FVec Ideal S2x32x1024 .f32) (((cfg2.win 6).blk t).view.emb j)
  rw [hx, he]
  exact hW _ _ _

theorem cover6 (i : S2x32x1024.Idx) :
    ∃ t : Fin cfg2.N, (cfg2.win 6).flush t = true ∧ i ∈ ((cfg2.win 6).blk t).view.set := by
  have hN : cfg2.N = 10 := N_2
  have hi0 : (i 0).val < 2 := (i 0).isLt
  have hi1 : (i 1).val < 32 := (i 1).isLt
  have hi2 : (i 2).val < 1024 := (i 2).isLt
  obtain ⟨t, ht⟩ : ∃ t : Fin cfg2.N, t.val = 5 * (i 0).val + 4 := ⟨⟨5 * (i 0).val + 4, by omega⟩, rfl⟩
  obtain ⟨-, -, -, -, -, -, e0, e1, e2⟩ := idx_facts t
  refine ⟨t, (flush2_6 t).mpr (by omega), ?_⟩
  show i ∈ ((View.whole main_v116_0).slice (win2_6.rect t)).set
  rw [View.set_slice_whole, Rect.mem_set_unit]
  intro a
  match a with
  | ⟨0, _⟩ => show win2_6.index t (0 : Fin 3) * 1 ≤ (i 0).val ∧ (i 0).val < win2_6.index t (0 : Fin 3) * 1 + 1; rw [e0]; omega
  | ⟨1, _⟩ => show win2_6.index t (1 : Fin 3) * 32 ≤ (i 1).val ∧ (i 1).val < win2_6.index t (1 : Fin 3) * 32 + 32; rw [e1]; omega
  | ⟨2, _⟩ => show win2_6.index t (2 : Fin 3) * 1024 ≤ (i 2).val ∧ (i 2).val < win2_6.index t (2 : Fin 3) * 1024 + 1024; rw [e2]; omega

theorem final2_6 (c : Dev nD) :
    (dat2 V c).arrAt 6 cfg2.N = fun i => part (fun n f => (V c main_v50 : FVec Ideal S10000x1024 .f32) (ix2 n f))
      (fun f => (V c main_v114 : FVec Ideal S1x1024 .f32) (ix2 (0 : Fin 1) f))
      (fun n => (V c main_v112 : IVec S10000x1 32) (ix2 n (0 : Fin 1))) (i 0) (i 1) (i 2) :=
  (dat2 V c).arrAt_eq_of_cover 6 _ (fun t hf => flushed_eq (outsAt2 V c t.val t.isLt).1.1
    (part (agg0 V c) (bias0 V c) (bat0 V c)) t fun u b f => (out_eq V c t ((flush2_6 t).mp hf) u b f).1) cover6

theorem final2_7 (c : Dev nD) :
    (dat2 V c).arrAt 7 cfg2.N = fun i => part (fun n f => (V c main_v97 : FVec Ideal S10000x1024 .f32) (ix2 n f))
      (fun f => (V c main_v115 : FVec Ideal S1x1024 .f32) (ix2 (0 : Fin 1) f))
      (fun n => (V c main_v113 : IVec S10000x1 32) (ix2 n (0 : Fin 1))) (i 0) (i 1) (i 2) :=
  (dat2 V c).arrAt_eq_of_cover 7 _ (fun t hf => flushed_eq (outsAt2 V c t.val t.isLt).1.2
    (part (agg1 V c) (bias1 V c) (bat1 V c)) t fun u b f => (out_eq V c t ((flush2_7 t).mp hf) u b f).2) cover6

end Arrays

end Cert.KernelIdeal.Val

end
-- ==== Proof.KI_VHost2.lean ====
import proofs.«416856_j87668872446200_2_alg».proof.Proof.Gen.KernelIdeal.Regions
import Idealize.ShloMosaic.Lib.StableHlo.Run
import Idealize.ShloMosaic.Lib.ValueIdx
import Idealize.ShloMosaic.Lib.ValueLayout

noncomputable section

namespace Cert.KernelIdeal.Val

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ) (outs : Gen.Outs (F := Ideal)) (c : Dev nD)

theorem V12_V10 (r : Ref sig .tc) (h : r ∉ hostOps3_1_W ∧ r ∉ hostOps3_2_W) :
    Gen.V12 m outs c r = StableHlo.after hostOps3 (Gen.V9 m outs c) (Proc.devRef .tc r) :=
  (V12_of m outs c r h.2).trans (V11_of m outs c r h.1)

theorem V12_V9 (r : Ref sig .tc) (h : r ∉ hostOps3_W ∧ r ∉ hostOps3_1_W ∧ r ∉ hostOps3_2_W) :
    Gen.V12 m outs c r = Gen.V9 m outs c r :=
  (V12_V10 m outs c r h.2).trans (V10_of m outs c r h.1)

theorem V12_v116_0 : Gen.V12 m outs c main_v116_0 = outs 9 main_v116_0 c :=
  (V12_V9 m outs c main_v116_0 (by decide)).trans <|
    (Function.update_of_ne (StableHlo.devRef_ne_of_ne (by decide)) _ _).trans (Function.update_self ..)

theorem V12_v116_1 : Gen.V12 m outs c main_v116_1 = outs 9 main_v116_1 c :=
  (V12_V9 m outs c main_v116_1 (by decide)).trans (Function.update_self ..)

theorem V12_v104 : Gen.V12 m outs c main_v104 = Gen.V8 m outs c main_v104 :=
  (V12_V9 m outs c main_v104 (by decide)).trans (V9_of m outs c main_v104 (by decide))

theorem V12_v111 : Gen.V12 m outs c main_v111 = Gen.V8 m outs c main_v111 :=
  (V12_V9 m outs c main_v111 (by decide)).trans (V9_of m outs c main_v111 (by decide))

theorem V12_arg6 : Gen.V12 m outs c main_arg6 = m ((c : Thread nD τ).loc main_arg6) :=
  (V13_of m outs c main_arg6 (by decide)).symm.trans (V13_main_arg6 m outs c)

theorem V12_arg7 : Gen.V12 m outs c main_arg7 = m ((c : Thread nD τ).loc main_arg7) :=
  (V13_of m outs c main_arg7 (by decide)).symm.trans (V13_main_arg7 m outs c)

theorem V12_arg8 : Gen.V12 m outs c main_arg8 = m ((c : Thread nD τ).loc main_arg8) :=
  (V13_of m outs c main_arg8 (by decide)).symm.trans (V13_main_arg8 m outs c)

theorem V12_arg9 : Gen.V12 m outs c main_arg9 = m ((c : Thread nD τ).loc main_arg9) :=
  (V13_of m outs c main_arg9 (by decide)).symm.trans (V13_main_arg9 m outs c)

theorem V12_arg14 : Gen.V12 m outs c main_arg14 = m ((c : Thread nD τ).loc main_arg14) :=
  (V13_of m outs c main_arg14 (by decide)).symm.trans (V13_main_arg14 m outs c)

theorem V12_arg16 : Gen.V12 m outs c main_arg16 = m ((c : Thread nD τ).loc main_arg16) :=
  (V13_of m outs c main_arg16 (by decide)).symm.trans (V13_main_arg16 m outs c)

theorem V12_arg18 : Gen.V12 m outs c main_arg18 = m ((c : Thread nD τ).loc main_arg18) :=
  (V13_of m outs c main_arg18 (by decide)).symm.trans (V13_main_arg18 m outs c)

theorem V12_arg20 : Gen.V12 m outs c main_arg20 = m ((c : Thread nD τ).loc main_arg20) :=
  (V13_of m outs c main_arg20 (by decide)).symm.trans (V13_main_arg20 m outs c)

theorem V12_arg30 : Gen.V12 m outs c main_arg30 = m ((c : Thread nD τ).loc main_arg30) :=
  (V13_of m outs c main_arg30 (by decide)).symm.trans (V13_main_arg30 m outs c)

theorem V12_arg32 : Gen.V12 m outs c main_arg32 = m ((c : Thread nD τ).loc main_arg32) :=
  (V13_of m outs c main_arg32 (by decide)).symm.trans (V13_main_arg32 m outs c)

theorem V12_arg34 : Gen.V12 m outs c main_arg34 = m ((c : Thread nD τ).loc main_arg34) :=
  (V13_of m outs c main_arg34 (by decide)).symm.trans (V13_main_arg34 m outs c)

-- A buffer that none of the last four steps writes holds at `V9` what it holds at `V13`.
theorem V9_of_V13 {r : Ref sig .tc} (h : r ∉ [main_v143] ∧ r ∉ hostOps3_W ∧ r ∉ hostOps3_1_W ∧ r ∉ hostOps3_2_W)
    {x : Buf (Elt Ideal) ((c : Thread nD τ).loc r)} (e : Gen.V13 m outs c r = x) : Gen.V9 m outs c r = x :=
  ((V13_of m outs c r h.1).trans (V12_V9 m outs c r h.2)).symm.trans e

-- A row with a leading unit axis added reads, at `(0, j)`, the operand at `j`.
theorem row_read {a : ℕ} (j : Fin a) {x y : (⟨1, ![a]⟩ : Shape).Idx → EReal} (e : x = y)
    (hc : (⟨1, ![a]⟩ : Shape).ShapeCasts ⟨2, ![1, a]⟩) : shapeCast ⟨2, ![1, a]⟩ x hc (ix2 0 j) = y (ix1 j) :=
  e ▸ shapeCast_a_1a_apply x hc 0 j

theorem V12_v117 (j : Fin 128) : (Gen.V12 m outs c main_v117 : S1x128.Idx → EReal) (ix2 0 j)
    = (m ((c : Thread nD τ).loc main_arg15) : S128.Idx → EReal) (ix1 j) := by
  rw [V12_V10 m outs c main_v117 (by decide)]
  after_results
  exact row_read j (V9_of_V13 m outs c (by decide) (V13_main_arg15 m outs c)) _

theorem V12_v118 (j : Fin 128) : (Gen.V12 m outs c main_v118 : S1x128.Idx → EReal) (ix2 0 j)
    = (m ((c : Thread nD τ).loc main_arg17) : S128.Idx → EReal) (ix1 j) := by
  rw [V12_V10 m outs c main_v118 (by decide)]
  after_results
  exact row_read j (V9_of_V13 m outs c (by decide) (V13_main_arg17 m outs c)) _

theorem V12_v119 (j : Fin 256) : (Gen.V12 m outs c main_v119 : S1x256.Idx → EReal) (ix2 0 j)
    = (m ((c : Thread nD τ).loc main_arg19) : S256.Idx → EReal) (ix1 j) := by
  rw [V12_V10 m outs c main_v119 (by decide)]
  after_results
  exact row_read j (V9_of_V13 m outs c (by decide) (V13_main_arg19 m outs c)) _

theorem V12_v120 (j : Fin 64) : (Gen.V12 m outs c main_v120 : S1x64.Idx → EReal) (ix2 0 j)
    = (m ((c : Thread nD τ).loc main_arg21) : S64.Idx → EReal) (ix1 j) := by
  rw [V12_V10 m outs c main_v120 (by decide)]
  after_results
  exact row_read j (V9_of_V13 m outs c (by decide) (V13_main_arg21 m outs c)) _

theorem V12_v121 (j : Fin 64) : (Gen.V12 m outs c main_v121 : S1x64.Idx → EReal) (ix2 0 j)
    = (m ((c : Thread nD τ).loc main_arg31) : S64.Idx → EReal) (ix1 j) := by
  rw [V12_V10 m outs c main_v121 (by decide)]
  after_results
  exact row_read j (V9_of_V13 m outs c (by decide) (V13_main_arg31 m outs c)) _

theorem V12_v122 (j : Fin 64) : (Gen.V12 m outs c main_v122 : S1x64.Idx → EReal) (ix2 0 j)
    = (m ((c : Thread nD τ).loc main_arg33) : S64.Idx → EReal) (ix1 j) := by
  rw [V12_V10 m outs c main_v122 (by decide)]
  after_results
  exact row_read j (V9_of_V13 m outs c (by decide) (V13_main_arg33 m outs c)) _

theorem V12_v123 (j : Fin 1) : (Gen.V12 m outs c main_v123 : S1x1.Idx → EReal) (ix2 0 j)
    = (m ((c : Thread nD τ).loc main_arg35) : S1.Idx → EReal) (ix1 j) := by
  rw [V12_V10 m outs c main_v123 (by decide)]
  after_results
  exact row_read j (V9_of_V13 m outs c (by decide) (V13_main_arg35 m outs c)) _

theorem V12_v124 (j : Fin 1) : (Gen.V12 m outs c main_v124 : S1x1.Idx → EReal) (ix2 0 j)
    = (m ((c : Thread nD τ).loc main_arg22) : S1.Idx → EReal) (ix1 j) := by
  rw [V12_V10 m outs c main_v124 (by decide)]
  after_results
  exact row_read j (V9_of_V13 m outs c (by decide) (V13_main_arg22 m outs c)) _

theorem V12_v125 (j : Fin 1) : (Gen.V12 m outs c main_v125 : S1x1.Idx → EReal) (ix2 0 j)
    = (m ((c : Thread nD τ).loc main_arg23) : S1.Idx → EReal) (ix1 j) := by
  rw [V12_V10 m outs c main_v125 (by decide)]
  after_results
  exact row_read j (V9_of_V13 m outs c (by decide) (V13_main_arg23 m outs c)) _

theorem V12_v126 (j : Fin 1) : (Gen.V12 m outs c main_v126 : S1x1.Idx → EReal) (ix2 0 j)
    = (m ((c : Thread nD τ).loc main_arg24) : S1.Idx → EReal) (ix1 j) := by
  rw [V12_V10 m outs c main_v126 (by decide)]
  after_results
  exact row_read j (V9_of_V13 m outs c (by decide) (V13_main_arg24 m outs c)) _

theorem V12_v127 (j : Fin 1) : (Gen.V12 m outs c main_v127 : S1x1.Idx → EReal) (ix2 0 j)
    = (m ((c : Thread nD τ).loc main_arg25) : S1.Idx → EReal) (ix1 j) := by
  rw [V12_V10 m outs c main_v127 (by decide)]
  after_results
  exact row_read j (V9_of_V13 m outs c (by decide) (V13_main_arg25 m outs c)) _

theorem V12_v128 (j : Fin 1) : (Gen.V12 m outs c main_v128 : S1x1.Idx → EReal) (ix2 0 j)
    = (m ((c : Thread nD τ).loc main_arg26) : S1.Idx → EReal) (ix1 j) := by
  rw [V12_V10 m outs c main_v128 (by decide)]
  after_results
  exact row_read j (V9_of_V13 m outs c (by decide) (V13_main_arg26 m outs c)) _

theorem V12_v129 (j : Fin 1) : (Gen.V12 m outs c main_v129 : S1x1.Idx → EReal) (ix2 0 j)
    = (m ((c : Thread nD τ).loc main_arg27) : S1.Idx → EReal) (ix1 j) := by
  rw [V12_V10 m outs c main_v129 (by decide)]
  after_results
  exact row_read j (V9_of_V13 m outs c (by decide) (V13_main_arg27 m outs c)) _

theorem V12_v130 (j : Fin 1) : (Gen.V12 m outs c main_v130 : S1x1.Idx → EReal) (ix2 0 j)
    = (m ((c : Thread nD τ).loc main_arg28) : S1.Idx → EReal) (ix1 j) := by
  rw [V12_V10 m outs c main_v130 (by decide)]
  after_results
  exact row_read j (V9_of_V13 m outs c (by decide) (V13_main_arg28 m outs c)) _

theorem V12_v131 (j : Fin 1) : (Gen.V12 m outs c main_v131 : S1x1.Idx → EReal) (ix2 0 j)
    = (m ((c : Thread nD τ).loc main_arg29) : S1.Idx → EReal) (ix1 j) := by
  rw [V12_V10 m outs c main_v131 (by decide)]
  after_results
  exact row_read j (V9_of_V13 m outs c (by decide) (V13_main_arg29 m outs c)) _

end Cert.KernelIdeal.Val

end
-- ==== Proof.KI_V3a.lean ====
import proofs.«416856_j87668872446200_2_alg».proof.Proof.Gen.KernelIdeal.Skeleton
import proofs.«416856_j87668872446200_2_alg».proof.Proof.Gen.ReferenceIdeal
import proofs.«416856_j87668872446200_2_alg».proof.Proof.RF_Stages
import proofs.«416856_j87668872446200_2_alg».proof.Proof.LibDenseLayer
import proofs.«416856_j87668872446200_2_alg».proof.Proof.LibRowOps
import Idealize.ShloMosaic.Lib.KernelVsHost
import Idealize.ShloMosaic.Lib.ValueIdx
import Idealize.ShloMosaic.Lib.ValueLayout

noncomputable section

namespace Cert.KernelIdeal.Val

open Idealize.ShloMosaic Idealize.ShloMosaic.ValueIdx
open Cert.KernelIdeal Cert.KernelIdeal.Gen

def leakyK (s : Shape) (Y : FVec Ideal s .f32) : FVec Ideal s .f32 :=
  select (cmpf .oge Y (broadcast s (Scalar.ofBits (F := Ideal) .f32 0x00000000#32))) Y
    (mulf (broadcast s (Scalar.ofBits (F := Ideal) .f32 0x3C23D70A#32)) Y)

def denseK {sl sr so : Shape} (d : DotDims sl sr so) (A : FVec Ideal sl .f32) (B : FVec Ideal sr .f32)
    (bias : FVec Ideal so .f32) : FVec Ideal so .f32 :=
  addf (matmul d none (truncf .bf16 A bitsLt_bf16_f32) (truncf .bf16 B bitsLt_bf16_f32) (constant so .f32 0x00000000#32)) bias

theorem bias_eq {a b : ℕ} (row : FVec Ideal ⟨2, ![1, b]⟩ .f32) (v : FVec Ideal ⟨1, ![b]⟩ .f32)
    (hrow : ∀ j : Fin b, row (ix2 (0 : Fin 1) j) = v (ix1 j))
    (hsc : (⟨2, ![1, b]⟩ : Shape).ShapeCasts ⟨2, ![1, b]⟩) (hb : (⟨2, ![1, b]⟩ : Shape).Broadcasts ⟨2, ![a, b]⟩)
    (h1 : (⟨1, ![b]⟩ : Shape).BroadcastsInDim ⟨2, ![1, b]⟩ ![1])
    (h2 : (⟨2, ![1, b]⟩ : Shape).BroadcastsInDim ⟨2, ![a, b]⟩ ![0, 1]) :
    broadcastTo ⟨2, ![a, b]⟩ (shapeCast ⟨2, ![1, b]⟩ row hsc) hb
      = broadcastInDim ⟨2, ![a, b]⟩ ![0, 1] h2 (broadcastInDim ⟨2, ![1, b]⟩ ![1] h1 v) := by
  funext i
  obtain ⟨p, c, rfl⟩ : ∃ (p : Fin a) (c : Fin b), i = ix2 p c := ⟨i 0, i 1, eq_ix2 i⟩
  rw [shapeCast_self, broadcastTo_1b_ab_apply, DenseLayer.bias_inDim_apply]
  exact hrow c

theorem layer_eq {a k b : ℕ} (d : DotDims ⟨2, ![a, k]⟩ ⟨2, ![k, b]⟩ ⟨2, ![a, b]⟩)
    (A : FVec Ideal ⟨2, ![a, k]⟩ .f32) (B : FVec Ideal ⟨2, ![k, b]⟩ .f32)
    (row : FVec Ideal ⟨2, ![1, b]⟩ .f32) (v : FVec Ideal ⟨1, ![b]⟩ .f32)
    (hrow : ∀ j : Fin b, row (ix2 (0 : Fin 1) j) = v (ix1 j))
    (hsc : (⟨2, ![1, b]⟩ : Shape).ShapeCasts ⟨2, ![1, b]⟩) (hb : (⟨2, ![1, b]⟩ : Shape).Broadcasts ⟨2, ![a, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (h0 : Cert.ReferenceIdeal.S_.BroadcastsInDim ⟨2, ![a, b]⟩ (![] : Fin 0 → Fin 2)) :
    leakyK ⟨2, ![a, b]⟩ (denseK d A B (broadcastTo ⟨2, ![a, b]⟩ (shapeCast ⟨2, ![1, b]⟩ row hsc) hb))
      = Cert.RefStages.leaky ⟨2, ![a, b]⟩ h0
          (addf (Host.dotGeneral (F := Ideal) d none A B)
            (broadcastInDim ⟨2, ![a, b]⟩ ![0, 1] h2 (broadcastInDim ⟨2, ![1, b]⟩ ![1] h1 v))) := by
  unfold denseK
  rw [matmul_zero_eq_dotGeneral, bias_eq row v hrow hsc hb h1 h2]
  rfl

def pooledOf (Pa Pb : FVec Ideal S1x32x1024 .f32) (C : FVec Ideal S32x1 .f32) : FVec Ideal S32x1024 .f32 :=
  fun i => Ideal.div (Pa (ix3 (0 : Fin 1) (i 0 : Fin 32) (i 1 : Fin 1024)) + Pb (ix3 (0 : Fin 1) (i 0 : Fin 32) (i 1 : Fin 1024)))
    (C (ix2 (i 0 : Fin 32) (0 : Fin 1)))

theorem pooled_eq (Pa Pb : FVec Ideal S1x32x1024 .f32) (C : FVec Ideal S32x1 .f32) :
    divf (addf (shapeCast S32x1024 Pa shapeCasts_S1x32x1024_S32x1024) (shapeCast S32x1024 Pb shapeCasts_S1x32x1024_S32x1024))
        (broadcastTo S32x1024 (shapeCast S32x1 C shapeCasts_S32x1_S32x1) broadcasts_S32x1_S32x1024)
      = pooledOf Pa Pb C := by
  funext i
  obtain ⟨r, f, rfl⟩ : ∃ (r : Fin 32) (f : Fin 1024), i = ix2 r f := ⟨i 0, i 1, eq_ix2 i⟩
  rw [shapeCast_self]
  show Ideal.div (shapeCast S32x1024 Pa shapeCasts_S1x32x1024_S32x1024 (ix2 r f)
        + shapeCast S32x1024 Pb shapeCasts_S1x32x1024_S32x1024 (ix2 r f))
      (broadcastTo S32x1024 C broadcasts_S32x1_S32x1024 (ix2 r f)) = _
  rw [shapeCast_1ab_ab_apply, shapeCast_1ab_ab_apply, RowOps.broadcastTo_a1_ab_apply]
  rfl

theorem head_eq (Pa Pb : FVec Ideal S1x32x1024 .f32) (C : FVec Ideal S32x1 .f32) (W : FVec Ideal S1024x128 .f32)
    (brow : FVec Ideal S1x128 .f32) (b : FVec Ideal Cert.ReferenceIdeal.S128 .f32)
    (hb : ∀ j : Fin 128, brow (ix2 (0 : Fin 1) j) = b (ix1 j)) :
    k3_pay2 Pa Pb C W brow = Cert.RefStages.head (pooledOf Pa Pb C) W b := by
  show leakyK S32x128 (denseK dot_S32x1024_S1024x128_S32x128_1_0_0_1_n_n
      (divf (addf (shapeCast S32x1024 Pa shapeCasts_S1x32x1024_S32x1024) (shapeCast S32x1024 Pb shapeCasts_S1x32x1024_S32x1024))
        (broadcastTo S32x1024 (shapeCast S32x1 C shapeCasts_S32x1_S32x1) broadcasts_S32x1_S32x1024))
      W (broadcastTo S32x128 (shapeCast S1x128 brow shapeCasts_S1x128_S1x128) broadcasts_S1x128_S32x128)) = _
  rw [pooled_eq]
  exact layer_eq _ _ _ brow b hb _ _ _ _ _

theorem pay5_eq (x1 : FVec Ideal S32x128 .f32) (Qa Qb : FVec Ideal S1x32x1024 .f32) (C2 : FVec Ideal S32x1 .f32)
    (Wpf2 : FVec Ideal S1024x128 .f32) (bp2 : FVec Ideal S1x128 .f32) (Wfc1 : FVec Ideal S256x256 .f32)
    (bf1 : FVec Ideal S1x256 .f32) (Wfc2 : FVec Ideal S256x64 .f32) (bf2 : FVec Ideal S1x64 .f32)
    (bfc1 : FVec Ideal Cert.ReferenceIdeal.S256 .f32) (bfc2 : FVec Ideal Cert.ReferenceIdeal.S64 .f32)
    (hf1 : ∀ j : Fin 256, bf1 (ix2 (0 : Fin 1) j) = bfc1 (ix1 j))
    (hf2 : ∀ j : Fin 64, bf2 (ix2 (0 : Fin 1) j) = bfc2 (ix1 j)) :
    k3_pay5 x1 (k3_pay3 Qa Qb C2) (k3_pay4 Wpf2) bp2 Wfc1 bf1 Wfc2 bf2
      = Cert.RefStages.trunk x1 (k3_pay2 Qa Qb C2 Wpf2 bp2) Wfc1 bfc1 Wfc2 bfc2 := by
  show leakyK S32x64 (denseK dot_S32x256_S256x64_S32x64_1_0_0_1_n_n
    (leakyK S32x256 (denseK dot_S32x256_S256x256_S32x256_1_0_0_1_n_n
      (concatenate S32x256 1 [⟨S32x128, x1⟩, ⟨S32x128, k3_pay2 Qa Qb C2 Wpf2 bp2⟩] concatenates_S32x128_S32x128_S32x256_d1) Wfc1
      (broadcastTo S32x256 (shapeCast S1x256 bf1 shapeCasts_S1x256_S1x256) broadcasts_S1x256_S32x256)))
    Wfc2 (broadcastTo S32x64 (shapeCast S1x64 bf2 shapeCasts_S1x64_S1x64) broadcasts_S1x64_S32x64)) = _
  unfold Cert.RefStages.trunk
  rw [layer_eq dot_S32x256_S256x256_S32x256_1_0_0_1_n_n _ Wfc1 bf1 bfc1 hf1 shapeCasts_S1x256_S1x256
    broadcasts_S1x256_S32x256 Cert.ReferenceIdeal.Facts₀.bcast_S256_S1x256_1
    Cert.ReferenceIdeal.Facts₀.bcast_S1x256_S32x256_0_1 Cert.ReferenceIdeal.Facts₀.bcast_S_S32x256]
  exact layer_eq dot_S32x256_S256x64_S32x64_1_0_0_1_n_n _ Wfc2 bf2 bfc2 hf2 _ _ _ _ _

end Cert.KernelIdeal.Val

end
-- ==== Proof.KI_R3Defs.lean ====
import proofs.«416856_j87668872446200_2_alg».proof.Proof.Gen.KernelIdeal.Launch
import proofs.«416856_j87668872446200_2_alg».proof.Proof.Gen.KernelIdeal.Skeleton
import proofs.«416856_j87668872446200_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_S32x1 : Rect S32x1 := Rect.unit (s := S32x1) ![0, 0] S32x1.size inb_S32x1_S32x1_0_0
abbrev r3_S1024x128 : Rect S1024x128 := Rect.unit (s := S1024x128) ![0, 0] S1024x128.size inb_S1024x128_S1024x128_0_0
abbrev r3_S1x128 : Rect S1x128 := Rect.unit (s := S1x128) ![0, 0] S1x128.size inb_S1x128_S1x128_0_0
abbrev r3_S1x64 : Rect S1x64 := Rect.unit (s := S1x64) ![0, 0] S1x64.size inb_S1x64_S1x64_0_0
abbrev r3_S32x16x800 : Rect S32x16x800 := Rect.unit (s := S32x16x800) ![0, 0, 0] S32x16x800.size inb_S32x16x800_S32x16x800_0_0_0
abbrev r3_S1x1 : Rect S1x1 := Rect.unit (s := S1x1) ![0, 0] S1x1.size inb_S1x1_S1x1_0_0
abbrev r3_S800x80 : Rect S800x80 := Rect.unit (s := S800x80) ![0, 0] S800x80.size inb_S800x80_S800x80_0_0
abbrev r3_S80x64 : Rect S80x64 := Rect.unit (s := S80x64) ![0, 0] S80x64.size inb_S80x64_S80x64_0_0
abbrev r3_slab0 : Rect S2x32x1024 := Rect.unit (s := S2x32x1024) ![0, 0, 0] S1x32x1024.size inb_S2x32x1024_S1x32x1024_0_0_0
abbrev r3_slab1 : Rect S2x32x1024 := Rect.unit (s := S2x32x1024) ![1, 0, 0] S1x32x1024.size inb_S2x32x1024_S1x32x1024_1_0_0

def val3_30 (x0 : Vec F S2x32x1024 .f32) (x2 : Vec F S32x1 .f32) (x4 : Vec F S1024x128 .f32) (x5 : Vec F S1x128 .f32) : FVec F S32x128 .f32 :=
  k3_pay2 (View.ld x0 r3_slab0) (View.ld x0 r3_slab1) (View.ld x2 r3_S32x1) (View.ld x4 r3_S1024x128) (View.ld x5 r3_S1x128)

def val3_31 (x1 : Vec F S2x32x1024 .f32) (x3 : Vec F S32x1 .f32) : FVec F S32x1024 .bf16 :=
  k3_pay3 (View.ld x1 r3_slab0) (View.ld x1 r3_slab1) (View.ld x3 r3_S32x1)

def val3_33 (x6 : Vec F S1024x128 .f32) : FVec F S1024x128 .bf16 :=
  k3_pay4 (View.ld x6 r3_S1024x128)

def val3_70 (x0 : Vec F S2x32x1024 .f32) (x1 : Vec F S2x32x1024 .f32) (x2 : Vec F S32x1 .f32) (x3 : Vec F S32x1 .f32) (x4 : Vec F S1024x128 .f32) (x5 : Vec F S1x128 .f32) (x6 : Vec F S1024x128 .f32) (x7 : Vec F S1x128 .f32) (x8 : Vec F S256x256 .f32) (x9 : Vec F S1x256 .f32) (x10 : Vec F S256x64 .f32) (x11 : Vec F S1x64 .f32) : FVec F S32x64 .f32 :=
  k3_pay5 (val3_30 x0 x2 x4 x5) (val3_31 x1 x3) (val3_33 x6) (View.ld x7 r3_S1x128) (View.ld x8 (Rect.unit (s := S256x256) ![0, 0] S256x256.size inb_S256x256_S256x256_0_0)) (View.ld x9 (Rect.unit (s := S1x256) ![0, 0] S1x256.size inb_S1x256_S1x256_0_0)) (View.ld x10 (Rect.unit (s := S256x64) ![0, 0] S256x64.size inb_S256x64_S256x64_0_0)) (View.ld x11 r3_S1x64)

def val3_72 (x16 : Vec F S1x1 .f32) : FVec F S1x1 .f32 :=
  k3_pay6 (View.ld x16 r3_S1x1)

def val3_110 (x12 : Vec F S32x16x800 .f32) (x13 : Vec F S32x16x800 .f32) (x16 : Vec F S1x1 .f32) (x17 : Vec F S1x1 .f32) (x18 : Vec F S1x1 .f32) (x19 : Vec F S1x1 .f32) (x24 : Vec F S800x80 .f32) : FVec F S32x80 .f32 :=
  k3_pay7 (val3_72 x16) (View.ld x17 r3_S1x1) (View.ld x18 r3_S1x1) (View.ld x19 r3_S1x1) (View.ld x12 r3_S32x16x800) (View.ld x13 r3_S32x16x800) (View.ld x24 r3_S800x80)

def val3_120 (x12 : Vec F S32x16x800 .f32) (x13 : Vec F S32x16x800 .f32) (x16 : Vec F S1x1 .f32) (x17 : Vec F S1x1 .f32) (x18 : Vec F S1x1 .f32) (x19 : Vec F S1x1 .f32) (x24 : Vec F S800x80 .f32) (x25 : Vec F S80x64 .f32) (x26 : Vec F S1x64 .f32) : FVec F S32x64 .f32 :=
  k3_pay8 (val3_110 x12 x13 x16 x17 x18 x19 x24) (View.ld x25 r3_S80x64) (View.ld x26 r3_S1x64)

def val3_128 (x23 : Vec F S1x1 .f32) : FVec F S1x1 .f32 :=
  k3_pay9 (View.ld x23 r3_S1x1)

def val3_140 (x14 : Vec F S32x16x800 .f32) (x20 : Vec F S1x1 .f32) (x21 : Vec F S1x1 .f32) : FVec F S32x800 .f32 :=
  k3_pay10 (View.ld x20 r3_S1x1) (View.ld x21 r3_S1x1) (View.ld x14 r3_S32x16x800)

def val3_144 (x15 : Vec F S32x16x800 .f32) : FVec F S32x800 .f32 :=
  k3_pay11 (View.ld x15 r3_S32x16x800)

def val3_145 (x22 : Vec F S1x1 .f32) : F .f32 :=
  k3_pay12 (View.ld x22 r3_S1x1)

def out3_31 (x0 : Vec F S2x32x1024 .f32) (x1 : Vec F S2x32x1024 .f32) (x2 : Vec F S32x1 .f32) (x3 : Vec F S32x1 .f32) (x4 : Vec F S1024x128 .f32) (x5 : Vec F S1x128 .f32) (x6 : Vec F S1024x128 .f32) (x7 : Vec F S1x128 .f32) (x8 : Vec F S256x256 .f32) (x9 : Vec F S1x256 .f32) (x10 : Vec F S256x64 .f32) (x11 : Vec F S1x64 .f32) (x12 : Vec F S32x16x800 .f32) (x13 : Vec F S32x16x800 .f32) (x14 : Vec F S32x16x800 .f32) (x15 : Vec F S32x16x800 .f32) (x16 : Vec F S1x1 .f32) (x17 : Vec F S1x1 .f32) (x18 : Vec F S1x1 .f32) (x19 : Vec F S1x1 .f32) (x20 : Vec F S1x1 .f32) (x21 : Vec F S1x1 .f32) (x22 : Vec F S1x1 .f32) (x23 : Vec F S1x1 .f32) (x24 : Vec F S800x80 .f32) (x25 : Vec F S80x64 .f32) (x26 : Vec F S1x64 .f32) (x27 : Vec F S80x64 .f32) (x28 : Vec F S1x64 .f32) (x29 : Vec F S192x1 .f32) (x30 : Vec F S1x1 .f32) : Vec F S32x1 .f32 :=
  View.canon [⟨r3_S32x1, k3_pay1 (val3_70 x0 x1 x2 x3 x4 x5 x6 x7 x8 x9 x10 x11) (val3_120 x12 x13 x16 x17 x18 x19 x24 x25 x26)
    (val3_128 x23) (val3_140 x14 x20 x21) (val3_144 x15) (val3_145 x22) (View.ld x24 r3_S800x80) (View.ld x27 r3_S80x64) (View.ld x28 r3_S1x64) (View.ld x29 (Rect.unit (s := S192x1) ![0, 0] S192x1.size inb_S192x1_S192x1_0_0)) (View.ld x30 r3_S1x1)⟩]

theorem cover3_31 (p0 : Vec F S32x1 .f32) (y : S32x1.Idx) :
    ∃ pc ∈ ([⟨r3_S32x1, p0⟩] : List (View.Piece (Elt F) S32x1 .f32)), y ∈ pc.1.set :=
  View.cover_of_tiled [⟨r3_S32x1, p0⟩] S32x1.size (by rfl) y

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => iblk3 V c 19 t
    | ⟨20, _⟩ => iblk3 V c 20 t
    | ⟨21, _⟩ => iblk3 V c 21 t
    | ⟨22, _⟩ => iblk3 V c 22 t
    | ⟨23, _⟩ => iblk3 V c 23 t
    | ⟨24, _⟩ => iblk3 V c 24 t
    | ⟨25, _⟩ => iblk3 V c 25 t
    | ⟨26, _⟩ => iblk3 V c 26 t
    | ⟨27, _⟩ => iblk3 V c 27 t
    | ⟨28, _⟩ => iblk3 V c 28 t
    | ⟨29, _⟩ => iblk3 V c 29 t
    | ⟨30, _⟩ => iblk3 V c 30 t
    | ⟨31, _⟩ => out3_31 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) (iblk3 V c 24 t) (iblk3 V c 25 t) (iblk3 V c 26 t) (iblk3 V c 27 t) (iblk3 V c 28 t) (iblk3 V c 29 t) (iblk3 V c 30 t)
    | ⟨_ + 32, h⟩ => absurd h (Nat.not_lt.2 (Nat.le_add_left _ _))
  Φ _ := Pipeline.ΦA spec3 c
  q _ := fullShare
  owed _ := 0

theorem A_eq3 (c : Dev nD) (w : Fin cfg3.W) : (dat3 V c).A w = V c (Pipeline.arrRef spec3 w) := rfl

theorem Phi3 (c : Dev nD) (t : Fin (cfg3.N + 1)) : (dat3 V c).Φ t = Pipeline.ΦA spec3 c := rfl
theorem q3 (c : Dev nD) (w : Fin cfg3.W) : (dat3 V c).q w = fullShare := rfl
theorem owed3 (c : Dev nD) (t : Fin (cfg3.N + 1)) : (dat3 V c).owed t = 0 := rfl

theorem recorded3 (c : Dev nD) : (dat3 V c).recorded 0 = Set.univ := rfl

theorem after3_31 (c : Dev nD) (t : Fin cfg3.N) : (dat3 V c).after 31 t = out3_31 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) (iblk3 V c 24 t) (iblk3 V c 25 t) (iblk3 V c 26 t) (iblk3 V c 27 t) (iblk3 V c 28 t) (iblk3 V c 29 t) (iblk3 V c 30 t) := rfl

end Cert.KernelIdeal.Hand

end
-- ==== Proof.KI_V3aBlocks.lean ====
import proofs.«416856_j87668872446200_2_alg».proof.Proof.KI_V3a
import proofs.«416856_j87668872446200_2_alg».proof.Proof.KI_R3Defs

noncomputable section

namespace Cert.KernelIdeal.Val

open Idealize.ShloMosaic Idealize.ShloMosaic.ValueIdx
open Cert.KernelIdeal Cert.KernelIdeal.Gen

def pooledAt (x : Vec Ideal S2x32x1024 .f32) (c : Vec Ideal S32x1 .f32) : FVec Ideal S32x1024 .f32 :=
  fun i => Ideal.div (x (ix3 (0 : Fin 2) (i 0 : Fin 32) (i 1 : Fin 1024)) + x (ix3 (1 : Fin 2) (i 0 : Fin 32) (i 1 : Fin 1024)))
    (c (ix2 (i 0 : Fin 32) (0 : Fin 1)))

theorem ld_slab0 (x : Vec Ideal S2x32x1024 .f32) (r : Fin 32) (f : Fin 1024) :
    View.ld x Hand.r3_slab0 (ix3 (0 : Fin 1) r f) = x (ix3 (0 : Fin 2) r f) := by
  refine congrArg x (funext fun a => Fin.ext ?_)
  match a with
  | ⟨0, _⟩ => rfl
  | ⟨1, _⟩ => show 0 + 1 * r.val = r.val; omega
  | ⟨2, _⟩ => show 0 + 1 * f.val = f.val; omega

theorem ld_slab1 (x : Vec Ideal S2x32x1024 .f32) (r : Fin 32) (f : Fin 1024) :
    View.ld x Hand.r3_slab1 (ix3 (0 : Fin 1) r f) = x (ix3 (1 : Fin 2) r f) := by
  refine congrArg x (funext fun a => Fin.ext ?_)
  match a with
  | ⟨0, _⟩ => rfl
  | ⟨1, _⟩ => show 0 + 1 * r.val = r.val; omega
  | ⟨2, _⟩ => show 0 + 1 * f.val = f.val; omega

theorem zeros2 : (![0, 0] : Fin 2 → ℕ) = fun _ => 0 := funext fun a => by fin_cases a <;> rfl

theorem pooledOf_ld (x : Vec Ideal S2x32x1024 .f32) (c : Vec Ideal S32x1 .f32) :
    pooledOf (View.ld x Hand.r3_slab0) (View.ld x Hand.r3_slab1) c = pooledAt x c := by
  funext i
  obtain ⟨r, f, rfl⟩ : ∃ (r : Fin 32) (f : Fin 1024), i = ix2 r f := ⟨i 0, i 1, eq_ix2 i⟩
  show Ideal.div (View.ld x Hand.r3_slab0 (ix3 (0 : Fin 1) r f) + View.ld x Hand.r3_slab1 (ix3 (0 : Fin 1) r f)) _ = _
  rw [ld_slab0, ld_slab1]
  rfl

theorem val3_70_eq (x0 x1 : Vec Ideal S2x32x1024 .f32) (x2 x3 : Vec Ideal S32x1 .f32)
    (x4 : Vec Ideal S1024x128 .f32) (x5 : Vec Ideal S1x128 .f32) (x6 : Vec Ideal S1024x128 .f32)
    (x7 : Vec Ideal S1x128 .f32) (x8 : Vec Ideal S256x256 .f32) (x9 : Vec Ideal S1x256 .f32)
    (x10 : Vec Ideal S256x64 .f32) (x11 : Vec Ideal S1x64 .f32)
    (b1 b2 : FVec Ideal Cert.ReferenceIdeal.S128 .f32) (bfc1 : FVec Ideal Cert.ReferenceIdeal.S256 .f32)
    (bfc2 : FVec Ideal Cert.ReferenceIdeal.S64 .f32)
    (hb1 : ∀ j : Fin 128, x5 (ix2 (0 : Fin 1) j) = b1 (ix1 j))
    (hb2 : ∀ j : Fin 128, x7 (ix2 (0 : Fin 1) j) = b2 (ix1 j))
    (hf1 : ∀ j : Fin 256, x9 (ix2 (0 : Fin 1) j) = bfc1 (ix1 j))
    (hf2 : ∀ j : Fin 64, x11 (ix2 (0 : Fin 1) j) = bfc2 (ix1 j)) :
    Hand.val3_70 x0 x1 x2 x3 x4 x5 x6 x7 x8 x9 x10 x11
      = Cert.RefStages.trunk (Cert.RefStages.head (pooledAt x0 x2) x4 b1)
          (Cert.RefStages.head (pooledAt x1 x3) x6 b2) x8 bfc1 x10 bfc2 := by
  unfold Hand.val3_70 Hand.val3_30 Hand.val3_31 Hand.val3_33
  simp only [View.ld_unit_zero (S := ⟨2, _⟩) zeros2]
  rw [pay5_eq _ _ _ _ _ _ _ _ _ _ bfc1 bfc2 hf1 hf2, head_eq _ _ _ _ _ b1 hb1, head_eq _ _ _ _ _ b2 hb2, pooledOf_ld, pooledOf_ld]

end Cert.KernelIdeal.Val

end
-- ==== Proof.KI_VHost1.lean ====
import proofs.«416856_j87668872446200_2_alg».proof.Proof.Gen.KernelIdeal.Regions
import proofs.«416856_j87668872446200_2_alg».proof.Proof.RF_Stages
import proofs.«416856_j87668872446200_2_alg».proof.Proof.Seams
import proofs.«416856_j87668872446200_2_alg».proof.Proof.LibRowOps
import proofs.«416856_j87668872446200_2_alg».proof.Proof.KI_VPool
import Idealize.ShloMosaic.Lib.ValueIdx
import Idealize.ShloMosaic.Lib.Pipeline.Value

noncomputable section

namespace Cert.VHost1

open Idealize.ShloMosaic Idealize.SL.Sem
open Cert.ReferenceIdeal
open Cert.ReferenceIdeal.Facts₀ Cert.ReferenceIdeal.Facts

variable [Facts]

def degPos (dg : FVec Ideal S10000 .f32) : IVec S10000 1 :=
  cmpf .ogt dg (Cert.RefStages.splat S10000 bcast_S_S10000 0x00000000#32)

def degInv (dg : FVec Ideal S10000 .f32) : FVec Ideal S10000 .f32 :=
  Host.divf (F := Ideal) (Cert.RefStages.splat S10000 bcast_S_S10000 0x3F800000#32)
    (Host.sqrt (F := Ideal) (maximumf dg (Cert.RefStages.splat S10000 bcast_S_S10000 0x2B8CBCCC#32)))

def zeroS : FVec Ideal S_ .f32 := constant (F := Ideal) S_ .f32 0x00000000#32

def whereOf (p : IVec S10000 1) (a : FVec Ideal S10000 .f32) (z : FVec Ideal S_ .f32) : FVec Ideal S10000 .f32 :=
  select p a (broadcastInDim S10000 ![] bcast_S_S10000 z)

def aggOf (y : FVec Ideal S10000x1024 .f32) (e0 e1 : IVec S90000 32) (dv : FVec Ideal S10000 .f32) :
    FVec Ideal S10000x1024 .f32 :=
  Host.scatterAdd (F := Ideal) scatter_S10000x1024_S90000x1_S90000x1024_1_0_0_1
    (Cert.RefStages.splat S10000x1024 bcast_S_S10000x1024 0x00000000#32)
    (broadcastInDim S90000x1 ![0] bcast_S90000_S90000x1_0 e1)
    (mulf
      (Host.gather gather_S10000x1024_S90000x1_S90000x1024_1_0_n_n_0_1_11024 y (Cert.RefStages.wrapCol e0))
      (broadcastInDim S90000x1024 ![0, 1] bcast_S90000x1_S90000x1024_0_1
        (broadcastInDim S90000x1 ![0] bcast_S90000_S90000x1_0
          (mulf
            (Host.gather gather_S10000_S90000x1_S90000_n_0_n_n_0_1_1 dv (Cert.RefStages.wrapCol e0))
            (Host.gather gather_S10000_S90000x1_S90000_n_0_n_n_0_1_1 dv (Cert.RefStages.wrapCol e1))))))

end Cert.VHost1

namespace Cert.KernelIdeal.Val

open Idealize.ShloMosaic Idealize.ShloMosaic.TcCoe Idealize.SL.Sem
open Idealize.ShloMosaic.ValueIdx
open Cert.KernelIdeal Cert.KernelIdeal.Gen

namespace Host1

variable [Cert.ReferenceIdeal.Facts]
variable (W : Valuation τ sig (Elt Ideal))

variable {x : IVec S2x80000 32} {e0 e1 : IVec S90000 32} {p : IVec S10000 1} {a dv : FVec Ideal S10000 .f32}
  {z : FVec Ideal S_ .f32} {y : FVec Ideal S10000x1024 .f32}

-- What one branch derives from its edge list `x`: both endpoint lists, the degree mask, the inverse root degrees, zero.
def Branch (x : IVec S2x80000 32) (e0 e1 : IVec S90000 32) (p : IVec S10000 1) (a : FVec Ideal S10000 .f32)
    (z : FVec Ideal S_ .f32) : Prop :=
  e0 = Cert.RefStages.ends0 x ∧ e1 = Cert.RefStages.ends1 x ∧ p = Cert.VHost1.degPos (Cert.RefStages.deg x)
    ∧ a = Cert.VHost1.degInv (Cert.RefStages.deg x) ∧ z = Cert.VHost1.zeroS

-- Aggregating over those arrays is the reference's aggregation over `x`.
theorem Branch.agg (hb : Branch x e0 e1 p a z) :
    Cert.VHost1.aggOf y e0 e1 (Cert.VHost1.whereOf p a z) = Cert.RefStages.agg y x := by
  obtain ⟨rfl, rfl, rfl, rfl, rfl⟩ := hb; rfl

theorem s2 (h : W (Proc.devRef .tc main_arg1) = x) :
    Branch x (StableHlo.after Gen.hostOps2 W (Proc.devRef .tc main_v7))
      (StableHlo.after Gen.hostOps2 W (Proc.devRef .tc main_v10))
      (StableHlo.after Gen.hostOps2 W (Proc.devRef .tc main_v16)) (StableHlo.after Gen.hostOps2 W (Proc.devRef .tc main_v21))
      (StableHlo.after Gen.hostOps2 W (Proc.devRef .tc main_cst_4)) := by
  subst h; refine ⟨?_, ?_, ?_, ?_, ?_⟩ <;> (after_results_simp; rfl)

theorem s21_v22 : (StableHlo.after Gen.hostOps2_1 W (Proc.devRef .tc main_v22) : S10000.Idx → EReal)
    = Cert.VHost1.whereOf (W (Proc.devRef .tc main_v16)) (W (Proc.devRef .tc main_v21))
        (W (Proc.devRef .tc main_cst_4)) := by
  after_results; rfl

theorem s22_v50 (h0 : W (Proc.devRef .tc main_v2) = y) (h1 : W (Proc.devRef .tc main_v7) = e0)
    (h2 : W (Proc.devRef .tc main_v10) = e1) (h3 : W (Proc.devRef .tc main_v22) = dv) :
    (StableHlo.after Gen.hostOps2_2 W (Proc.devRef .tc main_v50) : S10000x1024.Idx → EReal) = Cert.VHost1.aggOf y e0 e1 dv := by
  subst h0 h1 h2 h3; after_results_simp; rfl

theorem s22 (h : W (Proc.devRef .tc main_arg4) = x) :
    Branch x (StableHlo.after Gen.hostOps2_2 W (Proc.devRef .tc main_v54))
      (StableHlo.after Gen.hostOps2_2 W (Proc.devRef .tc main_v57))
      (StableHlo.after Gen.hostOps2_2 W (Proc.devRef .tc main_v63)) (StableHlo.after Gen.hostOps2_2 W (Proc.devRef .tc main_v68))
      (StableHlo.after Gen.hostOps2_2 W (Proc.devRef .tc main_cst_16)) := by
  subst h; refine ⟨?_, ?_, ?_, ?_, ?_⟩ <;> (after_results_simp; rfl)

theorem s23_v69 : (StableHlo.after Gen.hostOps2_3 W (Proc.devRef .tc main_v69) : S10000.Idx → EReal)
    = Cert.VHost1.whereOf (W (Proc.devRef .tc main_v63)) (W (Proc.devRef .tc main_v68))
        (W (Proc.devRef .tc main_cst_16)) := by
  after_results; rfl

theorem s24_v97 (h0 : W (Proc.devRef .tc main_v3) = y) (h1 : W (Proc.devRef .tc main_v54) = e0)
    (h2 : W (Proc.devRef .tc main_v57) = e1) (h3 : W (Proc.devRef .tc main_v69) = dv) :
    (StableHlo.after Gen.hostOps2_4 W (Proc.devRef .tc main_v97) : S10000x1024.Idx → EReal) = Cert.VHost1.aggOf y e0 e1 dv := by
  subst h0 h1 h2 h3; after_results_simp; rfl

def cntCol (batch : IVec S10000 32) : FVec Ideal S32x1 .f32 :=
  shapeCast S32x1
    (maximumf
      (Host.scatterAdd (F := Ideal) scatter_S32_S10000x1_S10000_n_0_0_1
        (broadcastInDim S32 ![] bcast_S_S32 (constant (F := Ideal) S_ .f32 0x00000000#32))
        (broadcastInDim S10000x1 ![0] bcast_S10000_S10000x1_0 batch)
        (broadcastInDim S10000 ![] bcast_S_S10000 (constant (F := Ideal) S_ .f32 0x3F800000#32)))
      (broadcastInDim S32 ![] bcast_S_S32 (constant (F := Ideal) S_ .f32 0x3F800000#32)))
    shapeCasts_S32_S32x1

theorem cntCol_apply (batch : IVec S10000 32) (b : Fin 32) :
    cntCol batch (ix2 b (0 : Fin 1)) = Cert.Seams.cnt (fun n => batch (ix1 n)) b := by
  unfold cntCol
  refine (RowOps.shapeCast_a_a1_apply _ shapeCasts_S32_S32x1 b 0).trans ?_
  exact cnt_apply Cert.KernelIdeal.Facts₀.scatter_S32_S10000x1_S10000_n_0_0_1_wf bcast_S_S32 bcast_S_S10000
    bcast_S10000_S10000x1_0 batch b

end Host1

end Cert.KernelIdeal.Val

namespace Cert.KernelIdeal.Val

open Idealize.ShloMosaic Idealize.ShloMosaic.TcCoe Idealize.SL.Sem
open Idealize.ShloMosaic.ValueIdx
open Cert.KernelIdeal Cert.KernelIdeal.Gen

variable [Cert.ReferenceIdeal.Facts]
variable (m : (ℓ : Loc nD τ sig) → Buf (Elt Ideal) ℓ) (outs : Gen.Outs (F := Ideal)) (c : Dev nD)

theorem V1_v0 : (Gen.V1 m c main_v0 : S1024x1024.Idx → EReal) = m (c, main_arg10) := by
  after_results
  rfl

theorem V1_v1 : (Gen.V1 m c main_v1 : S1024x1024.Idx → EReal) = m (c, main_arg12) := by
  after_results
  rfl

theorem V3_v2 : Gen.V3 m outs c main_v2 = outs 2 main_v2 c :=
  (Gen.V3_of m outs c main_v2 (by decide)).trans (Function.update_self ..)

theorem V3_v3 : Gen.V3 m outs c main_v3 = outs 3 main_v3 c :=
  Function.update_self ..

theorem V2_arg3 : Gen.V2 m outs c main_arg3 = m (c, main_arg3) := by
  rw [Gen.V2_of m outs c main_arg3 (by decide), Gen.V1_of m c main_arg3 (by decide)]

theorem V2_v1 : Gen.V2 m outs c main_v1 = Gen.V1 m c main_v1 :=
  Gen.V2_of m outs c main_v1 (by decide)

theorem V3_launch (r : Ref sig .tc) (h : r ∉ hostOps0_W ∧ r ∉ [main_v2] ∧ r ∉ [main_v3]) :
    Gen.V3 m outs c r = m (c, r) := by
  rw [Gen.V3_of m outs c r h.2.2, Gen.V2_of m outs c r h.2.1, Gen.V1_of m c r h.1]

theorem V5_launch (r : Ref sig .tc)
    (h : (r ∉ hostOps0_W ∧ r ∉ [main_v2] ∧ r ∉ [main_v3]) ∧ r ∉ hostOps2_W ∧ r ∉ hostOps2_1_W) :
    Gen.V5 m outs c r = m (c, r) := by
  rw [Gen.V5_of m outs c r h.2.2, Gen.V4_of m outs c r h.2.1, V3_launch m outs c r h.1]

theorem V7_launch (r : Ref sig .tc)
    (h : ((r ∉ hostOps0_W ∧ r ∉ [main_v2] ∧ r ∉ [main_v3]) ∧ r ∉ hostOps2_W ∧ r ∉ hostOps2_1_W)
      ∧ r ∉ hostOps2_2_W ∧ r ∉ hostOps2_3_W) : Gen.V7 m outs c r = m (c, r) := by
  rw [Gen.V7_of m outs c r h.2.2, Gen.V6_of m outs c r h.2.1, V5_launch m outs c r h.1]

theorem V8_v50 : (Gen.V8 m outs c main_v50 : S10000x1024.Idx → EReal)
    = Cert.RefStages.agg (Gen.V3 m outs c main_v2) (m (c, main_arg1)) := by
  rw [Gen.V8_of m outs c main_v50 (by decide), Gen.V7_of m outs c main_v50 (by decide)]
  exact (Host1.s22_v50 (Gen.V5 m outs c)
    ((Gen.V5_of m outs c main_v2 (by decide)).trans (Gen.V4_of m outs c main_v2 (by decide)))
    (Gen.V5_of m outs c main_v7 (by decide)) (Gen.V5_of m outs c main_v10 (by decide))
    (Host1.s21_v22 (Gen.V4 m outs c))).trans
    (Host1.s2 (Gen.V3 m outs c) (V3_launch m outs c main_arg1 (by decide))).agg

theorem V8_v97 : (Gen.V8 m outs c main_v97 : S10000x1024.Idx → EReal)
    = Cert.RefStages.agg (Gen.V3 m outs c main_v3) (m (c, main_arg4)) :=
  (Host1.s24_v97 (Gen.V7 m outs c)
    ((Gen.V7_of m outs c main_v3 (by decide)).trans <| (Gen.V6_of m outs c main_v3 (by decide)).trans <|
      (Gen.V5_of m outs c main_v3 (by decide)).trans (Gen.V4_of m outs c main_v3 (by decide)))
    (Gen.V7_of m outs c main_v54 (by decide)) (Gen.V7_of m outs c main_v57 (by decide))
    (Host1.s23_v69 (Gen.V6 m outs c))).trans
    (Host1.s22 (Gen.V5 m outs c) (V5_launch m outs c main_arg4 (by decide))).agg

theorem V8_v104 (b : Fin 32) : (Gen.V8 m outs c main_v104 : S32x1.Idx → EReal) (ix2 b (0 : Fin 1))
    = Cert.Seams.cnt (fun n => (m (c, main_arg2) : S10000.Idx → BitVec 32) (ix1 n)) b := by
  rw [← V7_launch m outs c main_arg2 (by decide)]; after_results_simp; exact Host1.cntCol_apply _ b

theorem V8_v111 (b : Fin 32) : (Gen.V8 m outs c main_v111 : S32x1.Idx → EReal) (ix2 b (0 : Fin 1))
    = Cert.Seams.cnt (fun n => (m (c, main_arg5) : S10000.Idx → BitVec 32) (ix1 n)) b := by
  rw [← V7_launch m outs c main_arg5 (by decide)]; after_results_simp; exact Host1.cntCol_apply _ b

theorem V8_v112 (n : Fin 10000) : (Gen.V8 m outs c main_v112 : S10000x1.Idx → BitVec 32) (ix2 n (0 : Fin 1))
    = (m (c, main_arg2) : S10000.Idx → BitVec 32) (ix1 n) := by
  rw [← V7_launch m outs c main_arg2 (by decide)]; after_results_simp; exact RowOps.shapeCast_a_a1_apply _ _ n 0

theorem V8_v113 (n : Fin 10000) : (Gen.V8 m outs c main_v113 : S10000x1.Idx → BitVec 32) (ix2 n (0 : Fin 1))
    = (m (c, main_arg5) : S10000.Idx → BitVec 32) (ix1 n) := by
  rw [← V7_launch m outs c main_arg5 (by decide)]; after_results_simp; exact RowOps.shapeCast_a_a1_apply _ _ n 0

theorem V8_v114 (f : Fin 1024) : (Gen.V8 m outs c main_v114 : S1x1024.Idx → EReal) (ix2 (0 : Fin 1) f)
    = (m (c, main_arg11) : S1024.Idx → EReal) (ix1 f) := by
  rw [← V7_launch m outs c main_arg11 (by decide)]; after_results_simp; exact shapeCast_a_1a_apply _ _ 0 f

theorem V8_v115 (f : Fin 1024) : (Gen.V8 m outs c main_v115 : S1x1024.Idx → EReal) (ix2 (0 : Fin 1) f)
    = (m (c, main_arg13) : S1024.Idx → EReal) (ix1 f) := by
  rw [← V7_launch m outs c main_arg13 (by decide)]; after_results_simp; exact shapeCast_a_1a_apply _ _ 0 f

end Cert.KernelIdeal.Val

end
-- ==== Proof.KI_VPoolMat.lean ====
import proofs.«416856_j87668872446200_2_alg».proof.Proof.Gen.KernelIdeal.Regions
import proofs.«416856_j87668872446200_2_alg».proof.Proof.LibDenseLayer
import proofs.«416856_j87668872446200_2_alg».proof.Proof.LibHostIdx
import proofs.«416856_j87668872446200_2_alg».proof.Proof.LibHostReads
import proofs.«416856_j87668872446200_2_alg».proof.Proof.KI_VPool
import Idealize.ShloMosaic.Lib.StableHlo.Run
import Idealize.ShloMosaic.Lib.StableHlo.Predicate
import Idealize.ShloMosaic.PureOps.Ideal.Laws
import Idealize.ShloMosaic.Lib.ValueIdx
import Idealize.ShloMosaic.Lib.IdealHost
import Idealize.ShloMosaic.Lib.Pipeline.Value

noncomputable section

namespace Cert.KernelIdeal.Val

open Idealize.ShloMosaic Idealize.ShloMosaic.TcCoe Idealize.ShloMosaic.ValueIdx Idealize.ShloMosaic.StableHlo
open Cert.KernelIdeal Cert.KernelIdeal.Gen

namespace PoolMat

def sgn (x : BitVec 32) : BitVec 32 := if x = 0 then 0 else if x.msb then -1 else 1

def floorDiv (x y : BitVec 32) : BitVec 32 :=
  Scalar.select (IntOp.andi (IntOp.cmpi .ne (sgn x) (sgn y)) (IntOp.cmpi .ne (IntOp.remsi .host x y) 0#32))
    (IntOp.subi (IntOp.divsi .host x y) 1#32) (IntOp.divsi .host x y)

theorem floorDiv_ten : ∀ l : Fin 800, floorDiv (BitVec.ofNat 32 l.val) 10#32 = BitVec.ofNat 32 (l.val / 10) := by
  decide +kernel

def floorDivVec (x : IVec S800 32) (k : IVec S_ 32) : IVec S800 32 :=
  select
    (andi (cmpi .ne (signi x) (broadcastInDim S800 ![] bcast_S_S800 (signi (id k))))
      (cmpi .ne (Host.remsi x (broadcastInDim S800 ![] bcast_S_S800 (id k)))
        (broadcastInDim S800 ![] bcast_S_S800 (constantI S_ 32 0#32))))
    (subi (Host.divsi x (broadcastInDim S800 ![] bcast_S_S800 (id k)))
      (broadcastInDim S800 ![] bcast_S_S800 (constantI S_ 32 1#32)))
    (Host.divsi x (broadcastInDim S800 ![] bcast_S_S800 (id k)))

def matOf (q : IVec S800 32) : FVec Ideal S800x80 .f32 :=
  Host.divf (F := Ideal)
    (uitofp (F := Ideal) .f32 (cmpi .eq
      (broadcastInDim S800x80 ![0, 1] bcast_S800x1_S800x80_0_1 (broadcastInDim S800x1 ![0] bcast_S800_S800x1_0 q))
      (broadcastInDim S800x80 ![0, 1] bcast_S1x80_S800x80_0_1
        (broadcastInDim S1x80 ![1] bcast_S80_S1x80_1 (iotaInDim S80 32 0)))))
    (broadcastInDim S800x80 ![] bcast_S_S800x80 (constant (F := Ideal) S_ .f32 0x41200000#32))

end PoolMat

variable (m : (ℓ : Loc nD τ sig) → Buf (Elt Ideal) ℓ) (outs : Gen.Outs (F := Ideal)) (c : Dev nD)

namespace PoolMat

theorem ofNat_tenth_eq_iff (l : Fin 800) (a : Fin 80) :
    BitVec.ofNat 32 (l.val / 10) = BitVec.ofNat 32 a.val ↔ l.val / 10 = a.val := by
  rw [← BitVec.toNat_inj, BitVec.toNat_ofNat, BitVec.toNat_ofNat, Nat.mod_eq_of_lt (by have := l.isLt; omega),
    Nat.mod_eq_of_lt (by have := a.isLt; omega)]

theorem matOf_apply (q : IVec S800 32) (l : Fin 800) (a : Fin 80) (hq : q (ix1 l) = BitVec.ofNat 32 (l.val / 10)) :
    matOf q (ix2 l a)
      = if l.val / 10 = a.val then Ideal.div 1 (Ideal.ofBits .f32 0x41200000#32)
        else Ideal.div 0 (Ideal.ofBits .f32 0x41200000#32) := by
  have hR : _ = BitVec.ofNat 32 a.val :=
    DenseLayer.bias_inDim_apply bcast_S80_S1x80_1 bcast_S1x80_S800x80_0_1 (iotaInDim S80 32 0) l a
  show Ideal.div (((IntOp.cmpi .eq _ _).toNat : ℝ) : EReal) _ = _
  rw [col_inDim_apply bcast_S800_S800x1_0 bcast_S800x1_S800x80_0_1 q l a, hR, broadcastInDim_scalar_apply,
    constant_apply, hq]
  by_cases h : l.val / 10 = a.val
  · rw [if_pos h, Predicate.cmpi_eq_iff.2 (by rw [h])]
    simp
  · rw [if_neg h, eq_zero_of_ne_one (fun hc => h ((ofNat_tenth_eq_iff l a).1 (Predicate.cmpi_eq_iff.1 hc)))]
    simp

end PoolMat

theorem V12_v142 (l : Fin 800) (a : Fin 80) :
    Gen.V12 m outs c main_v142 (ix2 l a)
      = if l.val / 10 = a.val then Ideal.div 1 (Ideal.ofBits .f32 0x41200000#32)
        else Ideal.div 0 (Ideal.ofBits .f32 0x41200000#32) := by
  have e : (Gen.V12 m outs c main_v142 : S800x80.Idx → EReal)
      = PoolMat.matOf (PoolMat.floorDivVec (iotaInDim S800 32 0) (constantI S_ 32 10#32)) := by
    after_results; rfl
  exact (congrFun e _).trans (PoolMat.matOf_apply _ l a (PoolMat.floorDiv_ten l))

end Cert.KernelIdeal.Val

end
-- ==== Proof.KI_V3c.lean ====
import proofs.«416856_j87668872446200_2_alg».proof.Proof.KI_R3Defs
import Idealize.ShloMosaic.Lib.ValueIdx
import Idealize.ShloMosaic.Lib.Pipeline.Value

noncomputable section

namespace Cert.KernelIdeal.Val

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Gen Cert.KernelIdeal.Hand

namespace Fin3

variable {F : FTy → Type} [FloatOps F]
variable (V : (c : Dev nD) → (b : Ref sig .tc) → Buf (Elt F) ((c : Thread nD τ).loc b))

def res3 (c : Dev nD) : Vec F S32x1 .f32 :=
  out3_31 (V c main_v116_0) (V c main_v116_1) (V c main_v104) (V c main_v111) (V c main_arg14) (V c main_v117)
    (V c main_arg16) (V c main_v118) (V c main_arg18) (V c main_v119) (V c main_arg20) (V c main_v120)
    (V c main_arg6) (V c main_arg7) (V c main_arg8) (V c main_arg9) (V c main_v124) (V c main_v125)
    (V c main_v126) (V c main_v127) (V c main_v128) (V c main_v129) (V c main_v130) (V c main_v131)
    (V c main_v142) (V c main_arg30) (V c main_v121) (V c main_arg32) (V c main_v122) (V c main_arg34) (V c main_v123)

-- Every window of the one grid point is its whole array: offsets zero, sizes the array's own.
theorem arr3_31 (c : Dev nD) : (dat3 V c).arrAt 31 cfg3.N = res3 V c := by
  have hz : (fun a => win3_31.index t3_0 a * main_v143.ty.shape.size a) = fun _ => 0 :=
    funext fun a => by fin_cases a <;> decide
  refine (dat3 V c).arrAt_eq_of_cover 31 (res3 V c) (fun t _ => ?_) fun i => ⟨t3_0, flush3_31 t3_0, ?_⟩
  · obtain rfl := fin_N3 t
    have e : (dat3 V c).after 31 t3_0 = res3 V c := by
      rw [after3_31]
      unfold res3
      congr 1 <;>
        exact Memref.read_access_unit_zero (Elt F) _ (funext fun a => by fin_cases a <;> decide)
          (fun a => by fin_cases a <;> decide) _
    show (cfg3.win 31).cut (grid3.coords t3_0) ((dat3 V c).after 31 t3_0) = _
    rw [e]
    exact (Memref.read_access_unit_zero (Elt F) main_v143 hz (fun a => by rw [congrFun hz a]; simp) (res3 V c)).symm
  · show i ∈ ((View.whole main_v143).slice (win3_31.rect t3_0)).set
    rw [View.set_slice_whole]
    exact View.mem_set_unit_zero (S := S32x1) hz _ i

end Fin3

end Cert.KernelIdeal.Val

end
-- ==== Proof.KI_V3bLaw.lean ====
import Idealize.ShloMosaic.PureOps.Ideal.Laws
import Idealize.ShloMosaic.Lib.IdealHost
import Mathlib.Data.EReal.Operations
import Mathlib.Data.EReal.Inv
import Mathlib.Algebra.BigOperators.Fin

open scoped BigOperators

noncomputable section

namespace Cert.KernelIdeal.Val.Law

open Idealize.ShloMosaic

theorem ofBits_ten : Ideal.ofBits .f32 0x41200000#32 = ((10 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = (((1 : ℝ) / 2 : ℝ) : EReal) := by
  simp [Ideal.ofBits, Ideal.ieee, -EReal.coe_mul]; norm_num

def pos (a : Fin 80) (t : Fin 10) : Fin 800 := ⟨10 * a.val + t.val, by have := a.isLt; have := t.isLt; omega⟩

theorem sum_blocks10 {M : Type*} [AddCommMonoid M] (g : Fin 800 → M) :
    ∑ l, g l = ∑ a : Fin 80, ∑ t : Fin 10, g (pos a t) := by
  rw [← Fintype.sum_prod_type', ← Equiv.sum_comp (finProdFinEquiv (m := 80) (n := 10)) g]
  refine Finset.sum_congr rfl fun x _ => congrArg g (Fin.ext ?_)
  show x.2.val + 10 * x.1.val = 10 * x.1.val + x.2.val
  omega

theorem sum_mul_of_nonneg {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

theorem pool_sum (s pm : Fin 800 → EReal) (a : Fin 80)
    (hpm : ∀ l : Fin 800, pm l = if l.val / 10 = a.val then Ideal.div 1 (Ideal.ofBits .f32 0x41200000#32)
      else Ideal.div 0 (Ideal.ofBits .f32 0x41200000#32)) :
    ∑ l, s l * pm l = Ideal.div (∑ t : Fin 10, s (pos a t)) (Ideal.ofBits .f32 0x41200000#32) := by
  have h10 : (10 : ℝ) ≠ 0 := by norm_num
  simp only [ofBits_ten, Ideal.div_coe h10] at hpm ⊢
  have hc0 : (0 : EReal) ≤ (((1 : ℝ) / 10 : ℝ) : EReal) := EReal.coe_nonneg.mpr (by norm_num)
  have hct : (((1 : ℝ) / 10 : ℝ) : EReal) ≠ ⊤ := EReal.coe_ne_top _
  rw [sum_blocks10, Finset.sum_eq_single a]
  · rw [sum_mul_of_nonneg _ _ hc0 hct]
    refine Finset.sum_congr rfl fun t _ => ?_
    rw [hpm, if_pos (by show (10 * a.val + t.val) / 10 = a.val; have := t.isLt; omega), one_mul]
  · intro a' _ hne
    refine Finset.sum_eq_zero fun t _ => ?_
    rw [hpm, if_neg (by
      show ¬(10 * a'.val + t.val) / 10 = a.val
      have := Fin.val_ne_of_ne hne; have := t.isLt; omega), zero_mul, mul_zero]
  · intro h; exact absurd (Finset.mem_univ a) h

theorem half_sum (x y : EReal) :
    (x + y) * Ideal.ofBits .f32 0x3F000000#32 = Ideal.div (0 + (x + y)) (Ideal.ofBits .f32 0x40000000#32) := by
  rw [ofBits_half, ofBits_two, zero_add, Ideal.div_coe (by norm_num : (2 : ℝ) ≠ 0)]

end Cert.KernelIdeal.Val.Law

end
-- ==== Proof.KI_V3b.lean ====
import proofs.«416856_j87668872446200_2_alg».proof.Proof.Gen.KernelIdeal.Skeleton
import proofs.«416856_j87668872446200_2_alg».proof.Proof.Gen.ReferenceIdeal
import proofs.«416856_j87668872446200_2_alg».proof.Proof.RF_Stages
import proofs.«416856_j87668872446200_2_alg».proof.Proof.LibDenseLayer
import proofs.«416856_j87668872446200_2_alg».proof.Proof.KI_V3a
import proofs.«416856_j87668872446200_2_alg».proof.Proof.KI_V3bLaw
import Idealize.ShloMosaic.Lib.KernelVsHost
import Idealize.ShloMosaic.Lib.IdealHost
import Idealize.ShloMosaic.Lib.ValueIdx
import Idealize.ShloMosaic.Lib.ValueLayout
import Idealize.ShloMosaic.Lib.Pipeline.Value

open scoped BigOperators

noncomputable section

namespace Cert.KernelIdeal.Val

open Idealize.ShloMosaic Idealize.ShloMosaic.ValueIdx
open Cert.KernelIdeal.Val.Law

section General
variable {α : Type}

theorem hostReduceAdd_mid {n0 n1 n2 : ℕ} (h' : (⟨3, ![n0, n1, n2]⟩ : Shape).ReducesTo [1] ⟨2, ![n0, n2]⟩)
    (x : (⟨3, ![n0, n1, n2]⟩ : Shape).Idx → EReal) (init : EReal) (b : Fin n0) (a : Fin n2) :
    Ideal.hostReduceAdd h' x init (ix2 b a) = init + ∑ p : Fin n1, x (ix3 b p a) :=
  (Ideal.hostReduceAdd_single h' ⟨h'.1, Nat.succ_pos _, h'.2⟩ x init (ix2 b a)).trans
    (congrArg (init + ·) (Finset.sum_congr rfl fun p _ => congrArg x (by funext ax; fin_cases ax <;> rfl)))

theorem hostReduceAdd_last {n0 n1 n2 n3 : ℕ} (h' : (⟨4, ![n0, n1, n2, n3]⟩ : Shape).ReducesTo [3] ⟨3, ![n0, n1, n2]⟩)
    (x : (⟨4, ![n0, n1, n2, n3]⟩ : Shape).Idx → EReal) (init : EReal) (b : Fin n0) (p : Fin n1) (a : Fin n2) :
    Ideal.hostReduceAdd h' x init (ix3 b p a) = init + ∑ t : Fin n3, x (ix4 b p a t) :=
  (Ideal.hostReduceAdd_single h' ⟨h'.1, Nat.succ_pos _, h'.2⟩ x init (ix3 b p a)).trans
    (congrArg (init + ·) (Finset.sum_congr rfl fun t _ => congrArg x (by funext ax; fin_cases ax <;> rfl)))

theorem shapeCast_blocks10_apply {n0 n1 : ℕ} (x : (⟨3, ![n0, n1, 800]⟩ : Shape).Idx → α)
    (h : (⟨3, ![n0, n1, 800]⟩ : Shape).ShapeCasts ⟨4, ![n0, n1, 80, 10]⟩) (b : Fin n0) (p : Fin n1) (a : Fin 80) (t : Fin 10) :
    shapeCast ⟨4, ![n0, n1, 80, 10]⟩ x h (ix4 b p a t) = x (ix3 b p (pos a t)) :=
  shapeCast_apply x h _ _ (by
    rw [Shape.rowMajor_val_three, Shape.rowMajor_val_four]
    show (b.val * n1 + p.val) * 800 + (10 * a.val + t.val) = ((b.val * n1 + p.val) * 80 + a.val) * 10 + t.val
    generalize b.val * n1 + p.val = X
    omega)

theorem concat_mid_zero {n0 n2 : ℕ}
    (h : Shape.Concatenates [(⟨3, ![n0, 1, n2]⟩ : Shape), ⟨3, ![n0, 1, n2]⟩] ⟨3, ![n0, 2, n2]⟩ 1)
    (x y : (⟨3, ![n0, 1, n2]⟩ : Shape).Idx → α) (b : Fin n0) (l : Fin n2) :
    concatenate ⟨3, ![n0, 2, n2]⟩ 1 [⟨⟨3, ![n0, 1, n2]⟩, x⟩, ⟨⟨3, ![n0, 1, n2]⟩, y⟩] h (ix3 b (0 : Fin 2) l)
      = x (ix3 b (0 : Fin 1) l) :=
  concatenate_pair_apply_left (t := ⟨3, ![n0, 2, n2]⟩) (s₁ := ⟨3, ![n0, 1, n2]⟩) (s₂ := ⟨3, ![n0, 1, n2]⟩) 1 x y h
    (ix3 b (0 : Fin 2) l) rfl (ix3 b (0 : Fin 1) l)
    (fun e => by fin_cases e <;> rfl)

theorem concat_mid_one {n0 n2 : ℕ}
    (h : Shape.Concatenates [(⟨3, ![n0, 1, n2]⟩ : Shape), ⟨3, ![n0, 1, n2]⟩] ⟨3, ![n0, 2, n2]⟩ 1)
    (x y : (⟨3, ![n0, 1, n2]⟩ : Shape).Idx → α) (b : Fin n0) (l : Fin n2) :
    concatenate ⟨3, ![n0, 2, n2]⟩ 1 [⟨⟨3, ![n0, 1, n2]⟩, x⟩, ⟨⟨3, ![n0, 1, n2]⟩, y⟩] h (ix3 b (1 : Fin 2) l)
      = y (ix3 b (0 : Fin 1) l) :=
  concatenate_pair_apply_right (t := ⟨3, ![n0, 2, n2]⟩) (s₁ := ⟨3, ![n0, 1, n2]⟩) (s₂ := ⟨3, ![n0, 1, n2]⟩) 1 x y h
    (ix3 b (1 : Fin 2) l) rfl rfl (ix3 b (0 : Fin 1) l)
    (fun e he => by fin_cases e <;> first | rfl | exact absurd rfl he) rfl

theorem broadcastInDim_mid_apply {n0 n2 : ℕ} (h : (⟨2, ![n0, n2]⟩ : Shape).BroadcastsInDim ⟨3, ![n0, 1, n2]⟩ ![0, 2])
    (x : (⟨2, ![n0, n2]⟩ : Shape).Idx → α) (b : Fin n0) (u : Fin 1) (l : Fin n2) :
    broadcastInDim ⟨3, ![n0, 1, n2]⟩ ![0, 2] h x (ix3 b u l) = x (ix2 b l) := by
  refine broadcastInDim_apply ![0, 2] h x (ix3 b u l) (ix2 b l) fun ax => ?_
  have := b.isLt; have := l.isLt
  fin_cases ax
  · show b.val = if n0 = 1 then 0 else b.val; split <;> omega
  · show l.val = if n2 = 1 then 0 else l.val; split <;> omega

end General

section RefSide
open Cert.ReferenceIdeal Cert.ReferenceIdeal.Facts₀ Cert.ReferenceIdeal.Facts

def pooledR (S Fv : FVec Ideal S32x800 .f32) : FVec Ideal S32x80 .f32 :=
  Host.divf (F := Ideal)
    (Host.reduceAdd (F := Ideal)
      (Host.divf (F := Ideal)
        (Host.reduceAdd (F := Ideal)
          (shapeCast S32x2x80x10
            (concatenate S32x2x800 1
              [⟨S32x1x800, broadcastInDim S32x1x800 ![0, 2] bcast_S32x800_S32x1x800_0_2 S⟩,
               ⟨S32x1x800, broadcastInDim S32x1x800 ![0, 2] bcast_S32x800_S32x1x800_0_2 Fv⟩]
              concatenates_S32x1x800_S32x1x800_S32x2x800_d1)
            shapeCasts_S32x2x800_S32x2x80x10)
          (constant (F := Ideal) S_ .f32 0x00000000#32) reducesTo_S32x2x80x10_S32x2x80_d3 h_S_)
        (Cert.RefStages.splat S32x2x80 bcast_S_S32x2x80 0x41200000#32))
      (constant (F := Ideal) S_ .f32 0x00000000#32) reducesTo_S32x2x80_S32x80_d1 h_S_)
    (Cert.RefStages.splat S32x80 bcast_S_S32x80 0x40000000#32)

-- A pooled entry is half the sum, over the two branches, of a tenth of a block of ten consecutive entries.
theorem blockMeans_apply (S Fv : FVec Ideal S32x800 .f32) (b : Fin 32) (a : Fin 80) :
    pooledR S Fv (ix2 b a)
      = Ideal.div (0 + (Ideal.div (0 + ∑ t : Fin 10, S (ix2 b (pos a t))) (Ideal.ofBits .f32 0x41200000#32)
          + Ideal.div (0 + ∑ t : Fin 10, Fv (ix2 b (pos a t))) (Ideal.ofBits .f32 0x41200000#32)))
        (Ideal.ofBits .f32 0x40000000#32) := by
  have hmid : ∀ (X : FVec Ideal S32x800 .f32) (l : Fin 800),
      broadcastInDim S32x1x800 ![0, 2] bcast_S32x800_S32x1x800_0_2 X (ix3 b (0 : Fin 1) l) = X (ix2 b l) :=
    fun X l => broadcastInDim_mid_apply _ X b 0 l
  unfold pooledR
  rw [hostDivf_apply, hostReduceAdd_apply, hostReduceAdd_mid, Fin.sum_univ_two]
  simp only [hostDivf_apply, hostReduceAdd_apply, hostReduceAdd_last, shapeCast_blocks10_apply, concat_mid_zero,
    concat_mid_one, hmid, broadcastInDim_scalar_apply, constant_apply, Ideal.ofBits_zero_f32]

end RefSide

section KernelSide
open Cert.KernelIdeal Cert.KernelIdeal.Gen

def sideK (m : FVec Ideal S32x16x800 .f32) (w b : FVec Ideal S1x1 .f32) : FVec Ideal S32x800 .f32 :=
  maximumf
    (addf
      (mulf
        (divf (multiReduction (F := Ideal) .add [1] S32x800 m 0x00000000#32 reduces_S32x16x800_S32x800 (.inl rfl) rfl)
          (broadcast S32x800 (Scalar.ofBits (F := Ideal) .f32 0x41800000#32)))
        (broadcast S32x800 (extractAt ![0, 0] w inpos_S1x1_p0_0)))
      (broadcast S32x800 (extractAt ![0, 0] b inpos_S1x1_p0_0)))
    (broadcast S32x800 (Scalar.ofBits (F := Ideal) .f32 0x00000000#32))

theorem extract_eq_cast (v : FVec Ideal S1x1 .f32) (v' : FVec Ideal Cert.ReferenceIdeal.S1 .f32)
    (h : Cert.ReferenceIdeal.S1.ShapeCasts Cert.ReferenceIdeal.S_) (hv : v (ix2 0 0) = v' (ix1 0)) :
    extractAt ![0, 0] v inpos_S1x1_p0_0 = shapeCast Cert.ReferenceIdeal.S_ v' h ix0 := by
  have e : shapeCast Cert.ReferenceIdeal.S_ v' h ix0 = v' (ix1 0) :=
    shapeCast_apply v' h ix0 (ix1 0) (by rw [Shape.rowMajor_val_one]; exact (Shape.rowMajorPi_zero _ _).symm)
  rw [e, ← hv]
  unfold extractAt
  exact congrArg v (funext fun a => Fin.ext (by
    match a with
    | ⟨0, _⟩ => rfl
    | ⟨1, _⟩ => rfl))

theorem sideK_eq (m : FVec Ideal S32x16x800 .f32) (w b : FVec Ideal S1x1 .f32)
    (w' b' : FVec Ideal Cert.ReferenceIdeal.S1 .f32) (hw : w (ix2 0 0) = w' (ix1 0)) (hb : b (ix2 0 0) = b' (ix1 0)) :
    sideK m w b = Cert.RefStages.side m w' b' := by
  funext j
  exact congrArg₂ max (congrArg₂ (· + ·) (congrArg₂ (· * ·)
    (congrArg (Ideal.div · _) (congrFun (multiReduction_add_eq_hostReduceAdd m _ _ _ _ _ _ _ Ideal.ofBits_zero_f32) j))
    (extract_eq_cast w w' _ hw)) (extract_eq_cast b b' _ hb)) rfl

end KernelSide

section KernelHead
open Cert.KernelIdeal Cert.KernelIdeal.Gen

def poolK (S : FVec Ideal S32x800 .f32) (PM : FVec Ideal S800x80 .f32) : FVec Ideal S32x80 .f32 :=
  matmul dot_S32x800_S800x80_S32x80_1_0_0_1_n_n none (truncf .bf16 S bitsLt_bf16_f32) (truncf .bf16 PM bitsLt_bf16_f32)
    (constant S32x80 .f32 0x00000000#32)

theorem poolK_apply (S : FVec Ideal S32x800 .f32) (PM : FVec Ideal S800x80 .f32) (b : Fin 32) (a : Fin 80) :
    poolK S PM (ix2 b a) = ∑ l : Fin 800, S (ix2 b l) * PM (ix2 l a) :=
  DenseLayer.matmul_rows_apply dot_S32x800_S800x80_S32x80_1_0_0_1_n_n_wf none
    (truncf .bf16 S bitsLt_bf16_f32) (truncf .bf16 PM bitsLt_bf16_f32) b a

end KernelHead

section Main
open Cert.KernelIdeal Cert.KernelIdeal.Gen

-- Multiplying by the 0 / one-tenth block matrix sums each block of ten, so the kernel's pooling is the reference's.
theorem masifK_eq (ms mf : Vec Ideal S32x16x800 .f32) (sw sb fw fb : Vec Ideal S1x1 .f32) (PM : Vec Ideal S800x80 .f32)
    (Wm : Vec Ideal S80x64 .f32) (bm : Vec Ideal S1x64 .f32)
    (sw' sb' fw' fb' : FVec Ideal Cert.ReferenceIdeal.S1 .f32) (bm' : FVec Ideal Cert.ReferenceIdeal.S64 .f32)
    (hPM : ∀ (l : Fin 800) (a : Fin 80), PM (ix2 l a)
      = if l.val / 10 = a.val then Ideal.div 1 (Ideal.ofBits .f32 0x41200000#32)
        else Ideal.div 0 (Ideal.ofBits .f32 0x41200000#32))
    (hsw : sw (ix2 0 0) = sw' (ix1 0)) (hsb : sb (ix2 0 0) = sb' (ix1 0))
    (hfw : fw (ix2 0 0) = fw' (ix1 0)) (hfb : fb (ix2 0 0) = fb' (ix1 0))
    (hbm : ∀ j : Fin 64, bm (ix2 (0 : Fin 1) j) = bm' (ix1 j)) :
    k3_pay8 (k3_pay7 (k3_pay6 sw) sb fw fb ms mf PM) Wm bm = Cert.RefStages.masif ms mf sw' sb' fw' fb' Wm bm' := by
  have e7 : k3_pay7 (k3_pay6 sw) sb fw fb ms mf PM = addf (poolK (sideK ms sw sb) PM) (poolK (sideK mf fw fb) PM) := by
    unfold k3_pay7 k3_pay6
    simp only [shapeCast_self]
    rfl
  have key : mulf (k3_pay7 (k3_pay6 sw) sb fw fb ms mf PM) (broadcast S32x80 (Scalar.ofBits (F := Ideal) .f32 0x3F000000#32))
      = pooledR (Cert.RefStages.side ms sw' sb') (Cert.RefStages.side mf fw' fb') := by
    funext i
    obtain ⟨b, a, rfl⟩ : ∃ (b : Fin 32) (a : Fin 80), i = ix2 b a := ⟨i 0, i 1, eq_ix2 i⟩
    rw [blockMeans_apply, e7, sideK_eq _ _ _ _ _ hsw hsb, sideK_eq _ _ _ _ _ hfw hfb]
    show (poolK (Cert.RefStages.side ms sw' sb') PM (ix2 b a) + poolK (Cert.RefStages.side mf fw' fb') PM (ix2 b a))
        * Ideal.ofBits .f32 0x3F000000#32 = _
    rw [poolK_apply, poolK_apply, pool_sum _ _ a fun l => hPM l a, pool_sum _ _ a fun l => hPM l a, half_sum]
    simp only [zero_add]
  exact congrArg₂ addf ((matmul_zero_eq_dotGeneral _ none _ _).trans (congrArg (Host.dotGeneral (F := Ideal) _ none · Wm) key))
    (bias_eq bm bm' hbm _ _ _ _)

end Main

end Cert.KernelIdeal.Val

end
-- ==== Proof.KI_V3cTop.lean ====
import proofs.«416856_j87668872446200_2_alg».proof.Proof.KI_V3c
import proofs.«416856_j87668872446200_2_alg».proof.Proof.KI_V3aBlocks
import proofs.«416856_j87668872446200_2_alg».proof.Proof.KI_V3b

noncomputable section

namespace Cert.KernelIdeal.Val

open Idealize.ShloMosaic Idealize.ShloMosaic.ValueIdx Idealize.ShloMosaic.TcCoe
open Idealize.SL Idealize.SL.Sem
open Cert.KernelIdeal Cert.KernelIdeal.Gen Cert.KernelIdeal.Hand

-- The output layer entry by entry: both sides are the logistic of one 192-term dot product plus the bias.
theorem final_k (xc m1 ms mf sw sb fw fb PM Wm bm Wout) (bo : Vec Ideal S1x1 .f32)
    (bout : FVec Ideal Cert.ReferenceIdeal.S1 .f32) (hb : bo (ix2 0 0) = bout (ix1 0)) :
    k3_pay1 (F := Ideal) xc m1 (k3_pay9 fb) (k3_pay10 sw sb ms) (k3_pay11 mf) (k3_pay12 fw) PM Wm bm Wout bo
      = Cert.RefStages.final xc m1 (k3_pay8 (k3_pay7 (k3_pay6 sw) sb fw fb ms mf PM) Wm bm) Wout bout := by
  funext i
  obtain ⟨r, u, rfl⟩ : ∃ (r : Fin 32) (u : Fin 1), i = ix2 r u := ⟨i 0, i 1, eq_ix2 i⟩
  obtain rfl : u = 0 := Fin.fin_one_eq_zero u
  show Ideal.logistic (_ + _)
    = Ideal.div (Ideal.ofBits .f32 0x3F800000#32) (Ideal.ofBits .f32 0x3F800000#32 + Ideal.exp (-(_ + _)))
  rw [Ideal.ofBits_one_f32]
  show Ideal.logistic (_ + _) = Ideal.logistic (_ + _)
  exact congrArg Ideal.logistic (congrArg₂ (· + ·)
    ((DenseLayer.matmul_rows_apply _ none _ _ r 0).trans (DenseLayer.dotGeneral_rows_apply _ none default _ _ r 0).symm)
    (congrFun (bias_eq bo bout (fun j => by obtain rfl := Fin.fin_one_eq_zero j; exact hb) _ _ _ _) _))

variable (V : (c : Dev nD) → (b : Ref sig .tc) → Buf (Elt Ideal) ((c : Thread nD τ).loc b))

theorem final3 (c : Dev nD)
    (b1 b2 : FVec Ideal Cert.ReferenceIdeal.S128 .f32) (bfc1 : FVec Ideal Cert.ReferenceIdeal.S256 .f32)
    (bfc2 : FVec Ideal Cert.ReferenceIdeal.S64 .f32)
    (hb1 : ∀ j : Fin 128, (V c main_v117 : Vec Ideal S1x128 .f32) (ix2 (0 : Fin 1) j) = b1 (ix1 j))
    (hb2 : ∀ j : Fin 128, (V c main_v118 : Vec Ideal S1x128 .f32) (ix2 (0 : Fin 1) j) = b2 (ix1 j))
    (hf1 : ∀ j : Fin 256, (V c main_v119 : Vec Ideal S1x256 .f32) (ix2 (0 : Fin 1) j) = bfc1 (ix1 j))
    (hf2 : ∀ j : Fin 64, (V c main_v120 : Vec Ideal S1x64 .f32) (ix2 (0 : Fin 1) j) = bfc2 (ix1 j))
    (sw1 sb1 fw1 fb1 sw2 sb2 fw2 fb2 : FVec Ideal Cert.ReferenceIdeal.S1 .f32)
    (bm1 bm2 : FVec Ideal Cert.ReferenceIdeal.S64 .f32) (bout : FVec Ideal Cert.ReferenceIdeal.S1 .f32)
    (hsw1 : ∀ j : Fin 1, (V c main_v124 : Vec Ideal S1x1 .f32) (ix2 (0 : Fin 1) j) = sw1 (ix1 j)) (hsb1 : ∀ j : Fin 1, (V c main_v125 : Vec Ideal S1x1 .f32) (ix2 (0 : Fin 1) j) = sb1 (ix1 j))
    (hfw1 : ∀ j : Fin 1, (V c main_v126 : Vec Ideal S1x1 .f32) (ix2 (0 : Fin 1) j) = fw1 (ix1 j)) (hfb1 : ∀ j : Fin 1, (V c main_v127 : Vec Ideal S1x1 .f32) (ix2 (0 : Fin 1) j) = fb1 (ix1 j))
    (hsw2 : ∀ j : Fin 1, (V c main_v128 : Vec Ideal S1x1 .f32) (ix2 (0 : Fin 1) j) = sw2 (ix1 j)) (hsb2 : ∀ j : Fin 1, (V c main_v129 : Vec Ideal S1x1 .f32) (ix2 (0 : Fin 1) j) = sb2 (ix1 j))
    (hfw2 : ∀ j : Fin 1, (V c main_v130 : Vec Ideal S1x1 .f32) (ix2 (0 : Fin 1) j) = fw2 (ix1 j)) (hfb2 : ∀ j : Fin 1, (V c main_v131 : Vec Ideal S1x1 .f32) (ix2 (0 : Fin 1) j) = fb2 (ix1 j))
    (hPM : ∀ (l : Fin 800) (a : Fin 80), (V c main_v142 : Vec Ideal S800x80 .f32) (ix2 l a)
      = if l.val / 10 = a.val then Ideal.div 1 (Ideal.ofBits .f32 0x41200000#32)
        else Ideal.div 0 (Ideal.ofBits .f32 0x41200000#32))
    (hbm1 : ∀ j : Fin 64, (V c main_v121 : Vec Ideal S1x64 .f32) (ix2 (0 : Fin 1) j) = bm1 (ix1 j))
    (hbm2 : ∀ j : Fin 64, (V c main_v122 : Vec Ideal S1x64 .f32) (ix2 (0 : Fin 1) j) = bm2 (ix1 j))
    (hbout : ∀ j : Fin 1, (V c main_v123 : Vec Ideal S1x1 .f32) (ix2 (0 : Fin 1) j) = bout (ix1 j)) :
    (dat3 V c).arrAt 31 cfg3.N
      = Cert.RefStages.final
          (Cert.RefStages.trunk (Cert.RefStages.head (pooledAt (V c main_v116_0 : Vec Ideal S2x32x1024 .f32) (V c main_v104 : Vec Ideal S32x1 .f32)) (V c main_arg14 : Vec Ideal S1024x128 .f32) b1)
            (Cert.RefStages.head (pooledAt (V c main_v116_1 : Vec Ideal S2x32x1024 .f32) (V c main_v111 : Vec Ideal S32x1 .f32)) (V c main_arg16 : Vec Ideal S1024x128 .f32) b2) (V c main_arg18 : Vec Ideal S256x256 .f32) bfc1 (V c main_arg20 : Vec Ideal S256x64 .f32) bfc2)
          (Cert.RefStages.masif (V c main_arg6 : Vec Ideal S32x16x800 .f32) (V c main_arg7 : Vec Ideal S32x16x800 .f32) sw1 sb1 fw1 fb1 (V c main_arg30 : Vec Ideal S80x64 .f32) bm1)
          (Cert.RefStages.masif (V c main_arg8 : Vec Ideal S32x16x800 .f32) (V c main_arg9 : Vec Ideal S32x16x800 .f32) sw2 sb2 fw2 fb2 (V c main_arg32 : Vec Ideal S80x64 .f32) bm2)
          (V c main_arg34 : Vec Ideal S192x1 .f32) bout := by
  have hz3 : (![0, 0, 0] : Fin 3 → Nat) = fun _ => 0 := funext fun a => by fin_cases a <;> rfl
  rw [Fin3.arr3_31]
  unfold Fin3.res3 out3_31 val3_120 val3_110 val3_72 val3_128 val3_140 val3_144 val3_145
  rw [View.canon_unit_zero zeros2, val3_70_eq _ _ _ _ _ _ _ _ _ _ _ _ b1 b2 bfc1 bfc2 hb1 hb2 hf1 hf2]
  simp only [View.ld_unit_zero (S := ⟨2, _⟩) zeros2, View.ld_unit_zero (S := ⟨3, _⟩) hz3]
  rw [final_k _ _ _ _ _ _ _ _ _ _ _ _ _ bout (hbout 0),
    masifK_eq _ _ _ _ _ _ _ _ _ sw1 sb1 fw1 fb1 bm1 hPM (hsw1 0) (hsb1 0) (hfw1 0) (hfb1 0) hbm1,
    masifK_eq _ _ _ _ _ _ _ _ _ sw2 sb2 fw2 fb2 bm2 hPM (hsw2 0) (hsb2 0) (hfw2 0) (hfb2 0) hbm2]

end Cert.KernelIdeal.Val

end
-- ==== Proof.KI_Bridge.lean ====
import proofs.«416856_j87668872446200_2_alg».proof.Proof.Gen.KernelIdeal.Regions
import proofs.«416856_j87668872446200_2_alg».proof.Proof.Gen.ReferenceIdeal
import proofs.«416856_j87668872446200_2_alg».proof.Proof.RF_Stages
import proofs.«416856_j87668872446200_2_alg».proof.Proof.RF_Result
import proofs.«416856_j87668872446200_2_alg».proof.Proof.Seams
import proofs.«416856_j87668872446200_2_alg».proof.Proof.KI_VPool
import proofs.«416856_j87668872446200_2_alg».proof.Proof.KI_V0
import proofs.«416856_j87668872446200_2_alg».proof.Proof.KI_V2
import proofs.«416856_j87668872446200_2_alg».proof.Proof.KI_VHost2
import proofs.«416856_j87668872446200_2_alg».proof.Proof.KI_V3aBlocks
import proofs.«416856_j87668872446200_2_alg».proof.Proof.KI_R3Defs
import proofs.«416856_j87668872446200_2_alg».proof.Proof.KI_VHost1
import proofs.«416856_j87668872446200_2_alg».proof.Proof.KI_VPoolMat
import proofs.«416856_j87668872446200_2_alg».proof.Proof.KI_V3cTop
import Idealize.ShloMosaic.Lib.ValueIdx

set_option maxRecDepth 16384

noncomputable section

namespace Cert.KernelIdeal.Val

open Idealize.ShloMosaic Idealize.ShloMosaic.TcCoe
open Idealize.SL.Sem
open Idealize.ShloMosaic.Pipeline (Dat)
open Idealize.ShloMosaic.ValueIdx
open Cert.KernelIdeal Cert.KernelIdeal.Gen Cert.KernelIdeal.Hand

theorem parts_congr {A A' : Fin 10000 → Fin 1024 → EReal} {B B' : Fin 1024 → EReal} {C C' : Fin 10000 → BitVec 32}
    (hA : ∀ n f, A n f = A' n f) (hB : ∀ f, B f = B' f) (hC : ∀ n, C n = C' n) :
    (fun i : S2x32x1024.Idx => Cert.Seams.part A B C (i 0) (i 1) (i 2))
      = fun i => Cert.Seams.part A' B' C' (i 0) (i 1) (i 2) := by
  obtain rfl : A = A' := funext fun n => funext (hA n)
  obtain rfl : B = B' := funext hB
  obtain rfl : C = C' := funext hC
  rfl

theorem pooledAt_parts (A : Fin 10000 → Fin 1024 → EReal) (B : Fin 1024 → EReal) (C : Fin 10000 → BitVec 32)
    (X : Vec Ideal S2x32x1024 .f32) (Cn : Vec Ideal S32x1 .f32)
    (hX : X = fun i => Cert.Seams.part A B C (i 0) (i 1) (i 2))
    (hC : ∀ b : Fin 32, Cn (ix2 b (0 : Fin 1)) = Cert.Seams.cnt C b) :
    pooledAt X Cn = fun i => Cert.Seams.pooled A B C (i 0) (i 1) := by
  subst hX
  funext i
  exact congrArg (Ideal.div _) (hC (i 0))

variable (m : (ℓ : Loc nD τ sig) → Buf (Elt Ideal) ℓ) (outs : Gen.Outs (F := Ideal))

abbrev VK0 : (c : Dev nD) → (b : Ref sig .tc) → Buf (Elt Ideal) ((c : Thread nD τ).loc b) := fun c b => Gen.V1 m c b
abbrev VK1 : (c : Dev nD) → (b : Ref sig .tc) → Buf (Elt Ideal) ((c : Thread nD τ).loc b) := fun c b => Gen.V2 m outs c b
abbrev VK2 : (c : Dev nD) → (b : Ref sig .tc) → Buf (Elt Ideal) ((c : Thread nD τ).loc b) := fun c b => Gen.V8 m outs c b
abbrev VK3 : (c : Dev nD) → (b : Ref sig .tc) → Buf (Elt Ideal) ((c : Thread nD τ).loc b) := fun c b => Gen.V12 m outs c b

set_option maxHeartbeats 1000000 in

theorem kernel_value (c : Dev nD)

    (run13 : outs 13 main_v143 c = (dat3 (VK3 m outs) c).arrAt 31 cfg3.N)
    (run9_0 : outs 9 main_v116_0 c = (dat2 (VK2 m outs) c).arrAt 6 cfg2.N)
    (run9_1 : outs 9 main_v116_1 c = (dat2 (VK2 m outs) c).arrAt 7 cfg2.N)
    (run3 : outs 3 main_v3 c = (dat1 (VK1 m outs) c).arrAt 2 cfg1.N)
    (run2 : outs 2 main_v2 c = (dat0 (VK0 m) c).arrAt 2 cfg0.N) :
    Gen.V13 m outs c main_v143 =
      Cert.RefStages.result (m (c, main_arg0)) (m (c, main_arg1)) (m (c, main_arg2)) (m (c, main_arg3)) (m (c, main_arg4)) (m (c, main_arg5)) (m (c, main_arg6)) (m (c, main_arg7)) (m (c, main_arg8)) (m (c, main_arg9)) (m (c, main_arg10)) (m (c, main_arg11)) (m (c, main_arg12)) (m (c, main_arg13)) (m (c, main_arg14)) (m (c, main_arg15)) (m (c, main_arg16)) (m (c, main_arg17)) (m (c, main_arg18)) (m (c, main_arg19)) (m (c, main_arg20)) (m (c, main_arg21)) (m (c, main_arg22)) (m (c, main_arg23)) (m (c, main_arg24)) (m (c, main_arg25)) (m (c, main_arg26)) (m (c, main_arg27)) (m (c, main_arg28)) (m (c, main_arg29)) (m (c, main_arg30)) (m (c, main_arg31)) (m (c, main_arg32)) (m (c, main_arg33)) (m (c, main_arg34)) (m (c, main_arg35)) := by

  have e2 : Gen.V3 m outs c main_v2 = (Cert.RefStages.xw (m (c, main_arg0)) (m (c, main_arg10))) := by
    refine (V3_v2 m outs c).trans (run2.trans ((final0 (VK0 m) c).trans ?_))
    have h1 : VK0 m c main_arg0 = m (c, main_arg0) := (Gen.V1_of m c main_arg0 (by decide))
    have h2 : VK0 m c main_v0 = m (c, main_arg10) := (V1_v0 m c)
    rw [h1, h2]
  have e3 : Gen.V3 m outs c main_v3 = (Cert.RefStages.xw (m (c, main_arg3)) (m (c, main_arg12))) := by
    refine (V3_v3 m outs c).trans (run3.trans ((final1 (VK1 m outs) c).trans ?_))
    have h1 : VK1 m outs c main_arg3 = m (c, main_arg3) := (V2_arg3 m outs c)
    have h2 : VK1 m outs c main_v1 = m (c, main_arg12) := (V2_v1 m outs c).trans (V1_v1 m c)
    rw [h1, h2]

  have a1 : VK2 m outs c main_v50 = (Cert.RefStages.agg (Cert.RefStages.xw (m (c, main_arg0)) (m (c, main_arg10))) (m (c, main_arg1))) := (V8_v50 m outs c).trans (by rw [e2])
  have a2 : VK2 m outs c main_v97 = (Cert.RefStages.agg (Cert.RefStages.xw (m (c, main_arg3)) (m (c, main_arg12))) (m (c, main_arg4))) := (V8_v97 m outs c).trans (by rw [e3])

  have acc1 : VK3 m outs c main_v116_0 = fun i => Cert.Seams.part (fun n f => (Cert.RefStages.agg (Cert.RefStages.xw (m (c, main_arg0)) (m (c, main_arg10))) (m (c, main_arg1))) (ix2 n f)) (fun f => (m (c, main_arg11)) (ix1 f)) (fun n => (m (c, main_arg2)) (ix1 n)) (i 0) (i 1) (i 2) :=
    (V12_v116_0 m outs c).trans (run9_0.trans ((final2_6 (VK2 m outs) c).trans
      (parts_congr (fun n f => congrFun a1 (ix2 n f)) (V8_v114 m outs c) (V8_v112 m outs c))))
  have acc2 : VK3 m outs c main_v116_1 = fun i => Cert.Seams.part (fun n f => (Cert.RefStages.agg (Cert.RefStages.xw (m (c, main_arg3)) (m (c, main_arg12))) (m (c, main_arg4))) (ix2 n f)) (fun f => (m (c, main_arg13)) (ix1 f)) (fun n => (m (c, main_arg5)) (ix1 n)) (i 0) (i 1) (i 2) :=
    (V12_v116_1 m outs c).trans (run9_1.trans ((final2_7 (VK2 m outs) c).trans
      (parts_congr (fun n f => congrFun a2 (ix2 n f)) (V8_v115 m outs c) (V8_v113 m outs c))))

  have cnt1 : ∀ b : Fin 32, (VK3 m outs c main_v104 : S32x1.Idx → EReal) (ix2 b (0 : Fin 1)) = Cert.Seams.cnt (fun n => (m (c, main_arg2)) (ix1 n)) b :=
    fun b => (congrFun (V12_v104 m outs c) _).trans ((V8_v104 m outs c) b)
  have cnt2 : ∀ b : Fin 32, (VK3 m outs c main_v111 : S32x1.Idx → EReal) (ix2 b (0 : Fin 1)) = Cert.Seams.cnt (fun n => (m (c, main_arg5)) (ix1 n)) b :=
    fun b => (congrFun (V12_v111 m outs c) _).trans ((V8_v111 m outs c) b)

  have p1 : pooledAt (VK3 m outs c main_v116_0) (VK3 m outs c main_v104)
      = Cert.RefStages.pool (Cert.RefStages.hrel (Cert.RefStages.agg (Cert.RefStages.xw (m (c, main_arg0)) (m (c, main_arg10))) (m (c, main_arg1))) (m (c, main_arg11))) (m (c, main_arg2)) :=
    (pooledAt_parts _ _ _ (VK3 m outs c main_v116_0) (VK3 m outs c main_v104) acc1 cnt1).trans (pool_eq (Cert.RefStages.agg (Cert.RefStages.xw (m (c, main_arg0)) (m (c, main_arg10))) (m (c, main_arg1))) (m (c, main_arg11)) (m (c, main_arg2))).symm
  have p2 : pooledAt (VK3 m outs c main_v116_1) (VK3 m outs c main_v111)
      = Cert.RefStages.pool (Cert.RefStages.hrel (Cert.RefStages.agg (Cert.RefStages.xw (m (c, main_arg3)) (m (c, main_arg12))) (m (c, main_arg4))) (m (c, main_arg13))) (m (c, main_arg5)) :=
    (pooledAt_parts _ _ _ (VK3 m outs c main_v116_1) (VK3 m outs c main_v111) acc2 cnt2).trans (pool_eq (Cert.RefStages.agg (Cert.RefStages.xw (m (c, main_arg3)) (m (c, main_arg12))) (m (c, main_arg4))) (m (c, main_arg13)) (m (c, main_arg5))).symm

  refine (Function.update_self _ _ _).trans (run13.trans ((final3 (VK3 m outs) c (m (c, main_arg15)) (m (c, main_arg17)) (m (c, main_arg19)) (m (c, main_arg21))
    (V12_v117 m outs c) (V12_v118 m outs c) (V12_v119 m outs c) (V12_v120 m outs c)
    (m (c, main_arg22)) (m (c, main_arg23)) (m (c, main_arg24)) (m (c, main_arg25)) (m (c, main_arg26)) (m (c, main_arg27)) (m (c, main_arg28)) (m (c, main_arg29)) (m (c, main_arg31)) (m (c, main_arg33)) (m (c, main_arg35))
    (V12_v124 m outs c) (V12_v125 m outs c) (V12_v126 m outs c) (V12_v127 m outs c) (V12_v128 m outs c) (V12_v129 m outs c) (V12_v130 m outs c) (V12_v131 m outs c)
    (V12_v142 m outs c) (V12_v121 m outs c) (V12_v122 m outs c) (V12_v123 m outs c)).trans ?_))
  have k6 : VK3 m outs c main_arg6 = m (c, main_arg6) := V12_arg6 m outs c
  have k7 : VK3 m outs c main_arg7 = m (c, main_arg7) := V12_arg7 m outs c
  have k8 : VK3 m outs c main_arg8 = m (c, main_arg8) := V12_arg8 m outs c
  have k9 : VK3 m outs c main_arg9 = m (c, main_arg9) := V12_arg9 m outs c
  have k14 : VK3 m outs c main_arg14 = m (c, main_arg14) := V12_arg14 m outs c
  have k16 : VK3 m outs c main_arg16 = m (c, main_arg16) := V12_arg16 m outs c
  have k18 : VK3 m outs c main_arg18 = m (c, main_arg18) := V12_arg18 m outs c
  have k20 : VK3 m outs c main_arg20 = m (c, main_arg20) := V12_arg20 m outs c
  have k30 : VK3 m outs c main_arg30 = m (c, main_arg30) := V12_arg30 m outs c
  have k32 : VK3 m outs c main_arg32 = m (c, main_arg32) := V12_arg32 m outs c
  have k34 : VK3 m outs c main_arg34 = m (c, main_arg34) := V12_arg34 m outs c
  rw [p1, p2, k6, k7, k8, k9, k14, k16, k18, k20, k30, k32, k34]
  rfl

end Cert.KernelIdeal.Val

end
-- ==== Proof.KI_R2RunA.lean ====
import proofs.«416856_j87668872446200_2_alg».proof.Proof.KI_R2Runs
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Reading a whole memref is a bijection, so owning it at X fixes its raw contents. -/
theorem owns_unread {S : Shape} {e : EltTy} (c : Dev nD) (M : Memref sig .tc .vmem S e) (h : M.IsWhole) (X : S.Idx → Elt F e) :
    (owns (c : Thread nD τ) M fullShare X : sProp 𝕄) = (M.view.loc (c : Thread nD τ) ↦[M.view.set]{fullShare} h.unread X) := by
  unfold owns
  refine Entails.antisymm (show (_ : sProp 𝕄) ⊢ _ from ?_) (show (_ : sProp 𝕄) ⊢ _ from ?_)
  · iintro ⟨%f, %hf, H⟩; obtain rfl := h.eq_unread hf; iexact H
  · iintro H; iexists _; isplitr; · ipureintro; exact h.read_unread X
    iexact H

/-- The six inputs at their contents: every case of the body reads them and hands them back unchanged. -/
abbrev ins2 (c : Dev nD) (a2 a3 : Memref sig .tc .vmem S1000x1024 .f32) (a4 a5 : Memref sig .tc .vmem S1000x1 .i32) (a6 a7 : Memref sig .tc .vmem S1x1024 .f32)
    (x0 x1 : Vec F S1000x1024 .f32) (x2 x3 : Vec F S1000x1 .i32) (x4 x5 : Vec F S1x1024 .f32) : sProp 𝕄 :=
  iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5)

theorem readAt_unread2 {S : Shape} {e : EltTy} (M : Memref sig .tc .vmem S e) (h : M.IsWhole) (X : S.Idx → Elt F e)
    {off : Fin S.rank → ℕ} (hoff : off = fun _ => 0) (inb : ∀ a, off a + S.size a ≤ S.size a) :
    View.readAt (Elt F) M.view (Rect.unit off S.size inb).toLoadRect (h.unread X) = X := by
  rw [View.readAt_eq_ld, h.read_unread, View.ld_unit_zero hoff]

theorem read_writes_unit_zero {S : Shape} {e : EltTy} (v : View sig .tc .vmem S e) (f : v.ty.Contents (Elt F))
    {off : Fin S.rank → ℕ} (hoff : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  have hcov : ∀ y, ∃ p ∈ ((⟨Rect.unit off S.size inb, w⟩ : View.Piece (Elt F) S e) :: L), y ∈ p.1.set :=
    fun y => ⟨⟨Rect.unit off S.size inb, w⟩, List.mem_cons_self, View.mem_set_unit_zero hoff inb y⟩
  rw [View.read_writes_eq_canon _ _ _ hcov]
  exact View.canon_cons_unit_zero hoff inb w L

set_option maxHeartbeats 4000000 in

theorem sound_kernel2_A (c : Dev nD) (E : Set ℕ) (i : grid2.Coords) (arg2 arg3 : Memref sig .tc .vmem S1000x1024 .f32) (arg4 arg5 : Memref sig .tc .vmem S1000x1 .i32) (arg6 arg7 : Memref sig .tc .vmem S1x1024 .f32) (arg8 arg9 : Memref sig .tc .vmem S1x32x1024 .f32) (arg10 arg11 : Memref sig .tc .vmem S32x1024 .f32)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole)
    (hc0 : cond2_0 i) (hc1 : ¬cond2_1 i) (x0 x1 : Vec F S1000x1024 .f32) (x2 x3 : Vec F S1000x1 .i32) (x4 x5 : Vec F S1x1024 .f32) (K : PUnit → sProp 𝕄) :
    iprop(ins2 c arg2 arg3 arg4 arg5 arg6 arg7 x0 x1 x2 x3 x4 x5
        ∗ (∃ d, owns (c : Thread nD τ) arg10 fullShare d) ∗ (∃ d, owns (c : Thread nD τ) arg11 fullShare d)
        ∗ (iprop(ins2 c arg2 arg3 arg4 arg5 arg6 arg7 x0 x1 x2 x3 x4 x5
            ∗ owns (c : Thread nD τ) arg10 fullShare (sout2_A_0 x0 x2 x4) ∗ owns (c : Thread nD τ) arg11 fullShare (sout2_A_1 x1 x3 x5)) -∗ K ⟨⟩))
      ⊢ wp frame (wpE (defs₀ (F := F)) Variants.none c none) E (cc2__reduce_kernel i arg2 harg2 arg3 harg3 arg4 harg4 arg5 harg5 arg6 harg6 arg7 harg7 arg8 harg8 arg9 harg9 arg10 harg10 arg11 harg11) K := by
  simp only [cc2__reduce_kernel_eq_skeleton]; unfold cc2__reduce_kernel_skel
  simp only [k2_part1_eq_skeleton]
  unfold ins2
  rw [owns_unread c arg2 harg2 x0, owns_unread c arg3 harg3 x1, owns_unread c arg4 harg4 x2, owns_unread c arg5 harg5 x3, owns_unread c arg6 harg6 x4, owns_unread c arg7 harg7 x5]
  unfold owns
  iintro ⟨⟨H0, H1, H2, H3, H4, H5⟩, ⟨%ds0, %fs0, -, HS0⟩, ⟨%ds1, %fs1, -, HS1⟩, Hk⟩
  sl_exec (disch := first | exact hc0 | exact hc1)
  sl_step
  iapply Hk
  iframe
  isplitl [HS0] <;>
  · iexists _; iframe; ipureintro
    refine (read_writes_unit_zero (S := S32x1024) _ _ hz2 _ _ _).trans ?_
    sl_unfold_words
    rw [readAt_unread2 (S := S1000x1024) _ _ _ hz2, readAt_unread2 (S := S1x1024) _ _ _ hz2, readAt_unread2 (S := S1000x1) _ _ _ hz2, View.readCov_unit_zero (S := S32x1024) _ hz2]
    rfl

end Cert.KernelIdeal.Hand

end
-- ==== Proof.KI_R2RunB.lean ====
import proofs.«416856_j87668872446200_2_alg».proof.Proof.KI_R2RunA

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

theorem sound_kernel2_B (c : Dev nD) (E : Set ℕ) (i : grid2.Coords) (arg2 arg3 : Memref sig .tc .vmem S1000x1024 .f32) (arg4 arg5 : Memref sig .tc .vmem S1000x1 .i32) (arg6 arg7 : Memref sig .tc .vmem S1x1024 .f32) (arg8 arg9 : Memref sig .tc .vmem S1x32x1024 .f32) (arg10 arg11 : Memref sig .tc .vmem S32x1024 .f32)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole)
    (hc0 : ¬cond2_0 i) (hc1 : ¬cond2_1 i) (x0 x1 : Vec F S1000x1024 .f32) (x2 x3 : Vec F S1000x1 .i32) (x4 x5 : Vec F S1x1024 .f32) (xs0 xs1 : Vec F S32x1024 .f32) (K : PUnit → sProp 𝕄) :
    iprop(ins2 c arg2 arg3 arg4 arg5 arg6 arg7 x0 x1 x2 x3 x4 x5
        ∗ owns (c : Thread nD τ) arg10 fullShare xs0 ∗ owns (c : Thread nD τ) arg11 fullShare xs1
        ∗ (iprop(ins2 c arg2 arg3 arg4 arg5 arg6 arg7 x0 x1 x2 x3 x4 x5
            ∗ owns (c : Thread nD τ) arg10 fullShare (sout2_B_0 x0 x2 x4 xs0) ∗ owns (c : Thread nD τ) arg11 fullShare (sout2_B_1 x1 x3 x5 xs1)) -∗ K ⟨⟩))
      ⊢ wp frame (wpE (defs₀ (F := F)) Variants.none c none) E (cc2__reduce_kernel i arg2 harg2 arg3 harg3 arg4 harg4 arg5 harg5 arg6 harg6 arg7 harg7 arg8 harg8 arg9 harg9 arg10 harg10 arg11 harg11) K := by
  simp only [cc2__reduce_kernel_eq_skeleton]; unfold cc2__reduce_kernel_skel
  simp only [k2_part1_eq_skeleton]
  unfold ins2
  rw [owns_unread c arg2 harg2 x0, owns_unread c arg3 harg3 x1, owns_unread c arg4 harg4 x2, owns_unread c arg5 harg5 x3, owns_unread c arg6 harg6 x4, owns_unread c arg7 harg7 x5, owns_unread c arg10 harg10 xs0, owns_unread c arg11 harg11 xs1]
  unfold owns
  iintro ⟨⟨H0, H1, H2, H3, H4, H5⟩, HS0, HS1, Hk⟩
  sl_exec (disch := first | exact hc0 | exact hc1)
  sl_step
  iapply Hk
  iframe
  isplitl [HS0] <;>
  · iexists _; iframe; ipureintro
    refine (read_writes_unit_zero (S := S32x1024) _ _ hz2 _ _ _).trans ?_
    sl_unfold_words
    rw [readAt_unread2 (S := S1000x1024) _ _ _ hz2, readAt_unread2 (S := S1x1024) _ _ _ hz2, readAt_unread2 (S := S1000x1) _ _ _ hz2, readAt_unread2 (S := S32x1024) _ _ _ hz2]
    rfl

end Cert.KernelIdeal.Hand

end
-- ==== Proof.KI_R2RunC.lean ====
import proofs.«416856_j87668872446200_2_alg».proof.Proof.KI_R2RunB

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in

theorem sound_kernel2_C (c : Dev nD) (E : Set ℕ) (i : grid2.Coords) (arg2 arg3 : Memref sig .tc .vmem S1000x1024 .f32) (arg4 arg5 : Memref sig .tc .vmem S1000x1 .i32) (arg6 arg7 : Memref sig .tc .vmem S1x1024 .f32) (arg8 arg9 : Memref sig .tc .vmem S1x32x1024 .f32) (arg10 arg11 : Memref sig .tc .vmem S32x1024 .f32)
    (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole)
    (hc0 : ¬cond2_0 i) (hc1 : cond2_1 i) (x0 x1 : Vec F S1000x1024 .f32) (x2 x3 : Vec F S1000x1 .i32) (x4 x5 : Vec F S1x1024 .f32) (xs0 xs1 : Vec F S32x1024 .f32) (K : PUnit → sProp 𝕄) :
    iprop(ins2 c arg2 arg3 arg4 arg5 arg6 arg7 x0 x1 x2 x3 x4 x5
        ∗ (∃ d, owns (c : Thread nD τ) arg8 fullShare d) ∗ (∃ d, owns (c : Thread nD τ) arg9 fullShare d) ∗ owns (c : Thread nD τ) arg10 fullShare xs0 ∗ owns (c : Thread nD τ) arg11 fullShare xs1
        ∗ (iprop(ins2 c arg2 arg3 arg4 arg5 arg6 arg7 x0 x1 x2 x3 x4 x5
            ∗ owns (c : Thread nD τ) arg8 fullShare (out2_C_6 x0 x2 x4 xs0) ∗ owns (c : Thread nD τ) arg9 fullShare (out2_C_7 x1 x3 x5 xs1)
            ∗ owns (c : Thread nD τ) arg10 fullShare (sout2_C_0 x0 x2 x4 xs0) ∗ owns (c : Thread nD τ) arg11 fullShare (sout2_C_1 x1 x3 x5 xs1)) -∗ K ⟨⟩))
      ⊢ wp frame (wpE (defs₀ (F := F)) Variants.none c none) E (cc2__reduce_kernel i arg2 harg2 arg3 harg3 arg4 harg4 arg5 harg5 arg6 harg6 arg7 harg7 arg8 harg8 arg9 harg9 arg10 harg10 arg11 harg11) K := by
  simp only [cc2__reduce_kernel_eq_skeleton]; unfold cc2__reduce_kernel_skel
  simp only [k2_part1_eq_skeleton]
  unfold ins2
  rw [owns_unread c arg2 harg2 x0, owns_unread c arg3 harg3 x1, owns_unread c arg4 harg4 x2, owns_unread c arg5 harg5 x3, owns_unread c arg6 harg6 x4, owns_unread c arg7 harg7 x5, owns_unread c arg10 harg10 xs0, owns_unread c arg11 harg11 xs1]
  unfold owns
  iintro ⟨⟨H0, H1, H2, H3, H4, H5⟩, ⟨%d6, %f6, -, H6⟩, ⟨%d7, %f7, -, H7⟩, HS0, HS1, Hk⟩
  sl_exec (disch := first | exact hc0 | exact hc1)
  sl_step
  iapply Hk
  iframe
  isplitl [H6]; rotate_left
  isplitl [H7]; rotate_left
  isplitl [HS0]
  all_goals
    iexists _; iframe; ipureintro
    first | refine (read_writes_unit_zero (S := S32x1024) _ _ hz2 _ _ _).trans ?_ | refine (read_writes_unit_zero (S := S1x32x1024) _ _ hz3 _ _ _).trans ?_
    sl_unfold_words
    rw [readAt_unread2 (S := S1000x1024) _ _ _ hz2, readAt_unread2 (S := S1x1024) _ _ _ hz2, readAt_unread2 (S := S1000x1) _ _ _ hz2, readAt_unread2 (S := S32x1024) _ _ _ hz2]
    try rw [View.readCov_unit_zero (S := S32x1024) _ hz2]
    rfl

end Cert.KernelIdeal.Hand

end
-- ==== Proof.KI_R2.lean ====
import proofs.«416856_j87668872446200_2_alg».proof.Proof.KI_R2RunC

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem Phi_any2 (c : Dev nD) (t : Fin cfg2.N) :
    (dat2 V c).Φ t.castSucc ⊢ iprop(iprop(iprop((∃ d, owns (c : Thread nD τ) scM2_0 fullShare d) ∗ (∃ d, owns (c : Thread nD τ) scM2_1 fullShare d)) ∗ rest2 (F := F) c) ∗ (∃ r, prngReg c r)) := by
  rw [← PhiA2_eq]
  by_cases hz : t.val = 0
  · rw [PhiS2_castSucc V c t, PhiS2_zero V c _ _ hz]
    try exact Idealize.SL.BI.Entails.refl _
  · exact Phi_out2 V c t.castSucc (by rw [Fin.coe_castSucc]; exact hz)

theorem live2 (c : Dev nD) (w : Fin cfg2.W) (t : Fin cfg2.N) (X) (h : cfg2.idle w (cfg2.grid.coords t) = false) (hX : (dat2 V c).after w t = X) :
    (dat2 V c).leavesExact w t = owns (c : Thread nD τ) ((cfg2.win w).stage (cfg2.slots t w)) fullShare X := by
  unfold Dat.leavesExact; rw [h, hX]

theorem sound_body2 (c : Dev nD) (t : Fin cfg2.N) :
    iprop((dat2 V c).Φ t.castSucc ∗ (dat2 V c).owesAt () t.castSucc
        ∗ bigSep Finset.univ fun w : Fin cfg2.W => iprop(∃ d, owns (c : Thread nD τ) ((cfg2.win w).stage (cfg2.slots t w)) fullShare ((dat2 V c).before w t d)))
      ⊢ wp frame (wpE (defs₀ (F := F)) Variants.none c none) Set.univ (bodyAt2 t) fun _ =>
        iprop((dat2 V c).Φ t.succ ∗ (dat2 V c).owesAt () t.succ ∗ bigSep Finset.univ fun w : Fin cfg2.W => (dat2 V c).leavesExact w t) := by
  rw [bigSep_W2, bigSep_W2]
  unfold bodyAt2
  simp only [before2_0, before2_1, before2_2, before2_3, before2_4, before2_5]
  rw [show (dat2 V c).owesAt () t.succ = (dat2 V c).owesAt () t.castSucc from rfl,
    show (dat2 V c).Φ t.succ = PhiS2 V c (t.val + 1) t.isLt from rfl, PhiS2_succ,
    live2 V c 0 t (iblk2 V c 0 t) rfl rfl, live2 V c 1 t (iblk2 V c 1 t) rfl rfl, live2 V c 2 t (iblk2 V c 2 t) rfl rfl,
    live2 V c 3 t (iblk2 V c 3 t) rfl rfl, live2 V c 4 t (iblk2 V c 4 t) rfl rfl, live2 V c 5 t (iblk2 V c 5 t) rfl rfl]
  by_cases h1 : t.val % 5 = 4
  · have h0 : ¬t.val % 5 = 0 := by omega
    have hc1 := (hcond2_1 t).mpr h1
    rw [PhiS2_castSucc V c t, PhiS2_pos V c _ _ (fun e => h0 (by rw [e])), live2 V c 6 t _ (liveAt2_6 t hc1) (after2_6 V c t),
      live2 V c 7 t _ (liveAt2_7 t hc1) (after2_7 V c t), outsAt2_C V c t h0 h1]
    dsimp only
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply sound_kernel2_C (hc0 := fun h => h0 ((hcond2_0 t).mp h)) (hc1 := hc1)
    dsimp only [ins2]
    iframe
    isplitl [H6]; · iexists _; iexact H6
    isplitl [H7]; · iexists _; iexact H7
    iintro ⟨⟨H0, H1, H2, H3, H4, H5⟩, H6, H7, HS0, HS1⟩
    iframe
  have hc1 : ¬cond2_1 (grid2.coords t) := fun h => h1 ((hcond2_1 t).mp h)
  rw [Dat.leavesExact_idle (dat2 V c) 6 t (idleAt2_6 t hc1) (noFlush2_6 t hc1),
    Dat.leavesExact_idle (dat2 V c) 7 t (idleAt2_7 t hc1) (noFlush2_7 t hc1)]
  by_cases h0 : t.val % 5 = 0
  · rw [outsAt2_A V c t h0]
    dsimp only
    iintro ⟨HΦ, Ho, ⟨%d0, H0⟩, ⟨%d1, H1⟩, ⟨%d2, H2⟩, ⟨%d3, H3⟩, ⟨%d4, H4⟩, ⟨%d5, H5⟩, H6, H7⟩
    ihave HΦ' := (Phi_any2 V c t) $$ HΦ
    icases HΦ' with ⟨⟨⟨HS0, HS1⟩, Hr⟩, Hg⟩
    iapply sound_kernel2_A (hc0 := (hcond2_0 t).mpr h0) (hc1 := hc1)
    dsimp only [ins2]
    iframe
    iintro ⟨⟨H0, H1, H2, H3, H4, H5⟩, HS0, HS1⟩
    iframe
  · rw [PhiS2_castSucc V c t, PhiS2_pos V c _ _ (fun e => h0 (by rw [e])), outsAt2_B V c t h0 h1]
    dsimp only
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, H6, H7⟩
    iapply sound_kernel2_B (hc0 := fun h => h0 ((hcond2_0 t).mp h)) (hc1 := hc1)
    dsimp only [ins2]
    iframe
    iintro ⟨⟨H0, H1, H2, H3, H4, H5⟩, HS0, HS1⟩
    iframe

theorem body_obligation2 (c : Dev nD) : BodyObligation (dat2 (F := F) V c) (defs₀ (F := F)) Variants.none () Set.univ := sound_body2 V c

end Cert.KernelIdeal.Hand

end
-- ==== Proof.KI_R3.lean ====
import proofs.«416856_j87668872446200_2_alg».proof.Proof.KI_R3Defs
import proofs.«416856_j87668872446200_2_alg».proof.Proof.Gen.KernelIdeal.Launch
import proofs.«416856_j87668872446200_2_alg».proof.Proof.Gen.KernelIdeal.Skeleton
import proofs.«416856_j87668872446200_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sound_kernel3 (c : Dev nD) (E : Set ℕ) {i : grid3.Coords} {a1 a2 : Memref sig .tc .vmem S2x32x1024 .f32} {a3 a4 a32 : Memref sig .tc .vmem S32x1 .f32} {a5 a7 : Memref sig .tc .vmem S1024x128 .f32} {a6 a8 : Memref sig .tc .vmem S1x128 .f32} {a9 : Memref sig .tc .vmem S256x256 .f32} {a10 : Memref sig .tc .vmem S1x256 .f32} {a11 : Memref sig .tc .vmem S256x64 .f32} {a12 a27 a29 : Memref sig .tc .vmem S1x64 .f32} {a13 a14 a15 a16 : Memref sig .tc .vmem S32x16x800 .f32} {a17 a18 a19 a20 a21 a22 a23 a24 a31 : Memref sig .tc .vmem S1x1 .f32} {a25 : Memref sig .tc .vmem S800x80 .f32} {a26 a28 : Memref sig .tc .vmem S80x64 .f32} {a30 : Memref sig .tc .vmem S192x1 .f32}
    {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {h13 : a13.IsWhole} {h14 : a14.IsWhole} {h15 : a15.IsWhole} {h16 : a16.IsWhole} {h17 : a17.IsWhole} {h18 : a18.IsWhole} {h19 : a19.IsWhole} {h20 : a20.IsWhole} {h21 : a21.IsWhole} {h22 : a22.IsWhole} {h23 : a23.IsWhole} {h24 : a24.IsWhole} {h25 : a25.IsWhole} {h26 : a26.IsWhole} {h27 : a27.IsWhole} {h28 : a28.IsWhole} {h29 : a29.IsWhole} {h30 : a30.IsWhole} {h31 : a31.IsWhole} {h32 : a32.IsWhole}
    {x0 x1 : Vec F S2x32x1024 .f32} {x2 x3 d : Vec F S32x1 .f32} {x4 x6 : Vec F S1024x128 .f32} {x5 x7 : Vec F S1x128 .f32} {x8 : Vec F S256x256 .f32} {x9 : Vec F S1x256 .f32} {x10 : Vec F S256x64 .f32} {x11 x26 x28 : Vec F S1x64 .f32} {x12 x13 x14 x15 : Vec F S32x16x800 .f32} {x16 x17 x18 x19 x20 x21 x22 x23 x30 : Vec F S1x1 .f32} {x24 : Vec F S800x80 .f32} {x25 x27 : Vec F S80x64 .f32} {x29 : Vec F S192x1 .f32} (K : PUnit → sProp 𝕄) :
    ⊢ iprop(owns c a1 fullShare x0 -∗ owns c a2 fullShare x1 -∗ owns c a3 fullShare x2 -∗ owns c a4 fullShare x3 -∗ owns c a5 fullShare x4 -∗ owns c a6 fullShare x5 -∗ owns c a7 fullShare x6 -∗ owns c a8 fullShare x7 -∗ owns c a9 fullShare x8 -∗ owns c a10 fullShare x9 -∗ owns c a11 fullShare x10 -∗ owns c a12 fullShare x11 -∗ owns c a13 fullShare x12 -∗ owns c a14 fullShare x13 -∗ owns c a15 fullShare x14 -∗ owns c a16 fullShare x15 -∗ owns c a17 fullShare x16 -∗ owns c a18 fullShare x17 -∗ owns c a19 fullShare x18 -∗ owns c a20 fullShare x19 -∗ owns c a21 fullShare x20 -∗ owns c a22 fullShare x21 -∗ owns c a23 fullShare x22 -∗ owns c a24 fullShare x23 -∗ owns c a25 fullShare x24 -∗ owns c a26 fullShare x25 -∗ owns c a27 fullShare x26 -∗ owns c a28 fullShare x27 -∗ owns c a29 fullShare x28 -∗ owns c a30 fullShare x29 -∗ owns c a31 fullShare x30 -∗ owns c a32 fullShare d
      -∗ ((owns c a1 fullShare x0 ∗ owns c a2 fullShare x1 ∗ owns c a3 fullShare x2 ∗ owns c a4 fullShare x3 ∗ owns c a5 fullShare x4 ∗ owns c a6 fullShare x5 ∗ owns c a7 fullShare x6 ∗ owns c a8 fullShare x7 ∗ owns c a9 fullShare x8 ∗ owns c a10 fullShare x9 ∗ owns c a11 fullShare x10 ∗ owns c a12 fullShare x11 ∗ owns c a13 fullShare x12 ∗ owns c a14 fullShare x13 ∗ owns c a15 fullShare x14 ∗ owns c a16 fullShare x15 ∗ owns c a17 fullShare x16 ∗ owns c a18 fullShare x17 ∗ owns c a19 fullShare x18 ∗ owns c a20 fullShare x19 ∗ owns c a21 fullShare x20 ∗ owns c a22 fullShare x21 ∗ owns c a23 fullShare x22 ∗ owns c a24 fullShare x23 ∗ owns c a25 fullShare x24 ∗ owns c a26 fullShare x25 ∗ owns c a27 fullShare x26 ∗ owns c a28 fullShare x27 ∗ owns c a29 fullShare x28 ∗ owns c a30 fullShare x29 ∗ owns c a31 fullShare x30 ∗ owns c a32 fullShare (out3_31 x0 x1 x2 x3 x4 x5 x6 x7 x8 x9 x10 x11 x12 x13 x14 x15 x16 x17 x18 x19 x20 x21 x22 x23 x24 x25 x26 x27 x28 x29 x30)) -∗ K ⟨⟩)
      -∗ wp frame (wpE (defs₀ (F := F)) Variants.none c none) E (cc3__pool_finalize_kernel i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32) K) := by
  simp only [cc3__pool_finalize_kernel_eq_skeleton]; unfold cc3__pool_finalize_kernel_skel
  simp only [k3_part1_eq_skeleton, k3_part2_eq_skeleton, k3_part3_eq_skeleton, k3_part4_eq_skeleton]
  unfold k3_part1_skel k3_part2_skel k3_part3_skel k3_part4_skel
  unfold owns
  iintro ⟨%f0, %hf0, H0⟩ ⟨%f1, %hf1, H1⟩ ⟨%f2, %hf2, H2⟩ ⟨%f3, %hf3, H3⟩ ⟨%f4, %hf4, H4⟩ ⟨%f5, %hf5, H5⟩ ⟨%f6, %hf6, H6⟩ ⟨%f7, %hf7, H7⟩ ⟨%f8, %hf8, H8⟩ ⟨%f9, %hf9, H9⟩ ⟨%f10, %hf10, H10⟩ ⟨%f11, %hf11, H11⟩ ⟨%f12, %hf12, H12⟩ ⟨%f13, %hf13, H13⟩ ⟨%f14, %hf14, H14⟩ ⟨%f15, %hf15, H15⟩ ⟨%f16, %hf16, H16⟩ ⟨%f17, %hf17, H17⟩ ⟨%f18, %hf18, H18⟩ ⟨%f19, %hf19, H19⟩ ⟨%f20, %hf20, H20⟩ ⟨%f21, %hf21, H21⟩ ⟨%f22, %hf22, H22⟩ ⟨%f23, %hf23, H23⟩ ⟨%f24, %hf24, H24⟩ ⟨%f25, %hf25, H25⟩ ⟨%f26, %hf26, H26⟩ ⟨%f27, %hf27, H27⟩ ⟨%f28, %hf28, H28⟩ ⟨%f29, %hf29, H29⟩ ⟨%f30, %hf30, H30⟩ ⟨%f31, -, H31⟩ Hk
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30
  sl_exec
  sl_step
  iapply Hk
  isplitl [H0]; · istop; exact owns_intro _ _ _ _
  isplitl [H1]; · istop; exact owns_intro _ _ _ _
  isplitl [H2]; · istop; exact owns_intro _ _ _ _
  isplitl [H3]; · istop; exact owns_intro _ _ _ _
  isplitl [H4]; · istop; exact owns_intro _ _ _ _
  isplitl [H5]; · istop; exact owns_intro _ _ _ _
  isplitl [H6]; · istop; exact owns_intro _ _ _ _
  isplitl [H7]; · istop; exact owns_intro _ _ _ _
  isplitl [H8]; · istop; exact owns_intro _ _ _ _
  isplitl [H9]; · istop; exact owns_intro _ _ _ _
  isplitl [H10]; · istop; exact owns_intro _ _ _ _
  isplitl [H11]; · istop; exact owns_intro _ _ _ _
  isplitl [H12]; · istop; exact owns_intro _ _ _ _
  isplitl [H13]; · istop; exact owns_intro _ _ _ _
  isplitl [H14]; · istop; exact owns_intro _ _ _ _
  isplitl [H15]; · istop; exact owns_intro _ _ _ _
  isplitl [H16]; · istop; exact owns_intro _ _ _ _
  isplitl [H17]; · istop; exact owns_intro _ _ _ _
  isplitl [H18]; · istop; exact owns_intro _ _ _ _
  isplitl [H19]; · istop; exact owns_intro _ _ _ _
  isplitl [H20]; · istop; exact owns_intro _ _ _ _
  isplitl [H21]; · istop; exact owns_intro _ _ _ _
  isplitl [H22]; · istop; exact owns_intro _ _ _ _
  isplitl [H23]; · istop; exact owns_intro _ _ _ _
  isplitl [H24]; · istop; exact owns_intro _ _ _ _
  isplitl [H25]; · istop; exact owns_intro _ _ _ _
  isplitl [H26]; · istop; exact owns_intro _ _ _ _
  isplitl [H27]; · istop; exact owns_intro _ _ _ _
  isplitl [H28]; · istop; exact owns_intro _ _ _ _
  isplitl [H29]; · istop; exact owns_intro _ _ _ _
  isplitl [H30]; · istop; exact owns_intro _ _ _ _
  iexists _; isplitr
  swap; · iexact H31
  ipureintro
  exact View.read_writes_eq_canon _ _ _ (cover3_31 _)

theorem body_obligation3 (c : Dev nD) : BodyObligation (dat3 (F := F) V c) (defs₀ (F := F)) Variants.none () Set.univ := fun t => by
  obtain rfl := fin_N3 t
  rw [bigSep_W3, bigSep_W3]
  show _ ⊢ wp _ _ _ (bodyAt3 t3_0) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩⟩
  iapply (sound_kernel3 c Set.univ) $$ H0 H1 H2 H3 H4 H5 H6 H7 H8 H9 H10 H11 H12 H13 H14 H15 H16 H17 H18 H19 H20 H21 H22 H23 H24 H25 H26 H27 H28 H29 H30 H31
  iintro H
  istop
  exact sep_assoc.1.trans (Entails.of_eq (by sl_kernel_rfl))

end Cert.KernelIdeal.Hand

end
-- ==== Proof.KI_Run.lean ====
import proofs.«416856_j87668872446200_2_alg».proof.Proof.KI_R0
import proofs.«416856_j87668872446200_2_alg».proof.Proof.KI_R2
import proofs.«416856_j87668872446200_2_alg».proof.Proof.KI_R3
import proofs.«416856_j87668872446200_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def o2 : Gen.Outs (F := F) := fun _ r c =>
  Pipeline.withArrays spec0 c (Gen.V1 m c) (fun w => (dat0 (fun c b => Gen.V1 m c b) c).arrAt w cfg0.N) (Proc.devRef .tc r)

def o3 : Gen.Outs (F := F) := fun J r c => if J ≤ 2 then o2 m J r c else
  Pipeline.withArrays spec1 c (Gen.V2 m (o2 m) c) (fun w => (dat1 (fun c b => Gen.V2 m (o2 m) c b) c).arrAt w cfg1.N) (Proc.devRef .tc r)

def o9 : Gen.Outs (F := F) := fun J r c => if J ≤ 3 then o3 m J r c else
  Pipeline.withArrays spec2 c (Gen.V8 m (o3 m) c) (fun w => (dat2 (fun c b => Gen.V8 m (o3 m) c b) c).arrAt w cfg2.N) (Proc.devRef .tc r)

def o13 : Gen.Outs (F := F) := fun J r c => if J ≤ 9 then o9 m J r c else
  Pipeline.withArrays spec3 c (Gen.V12 m (o9 m) c) (fun w => (dat3 (fun c b => Gen.V12 m (o9 m) c b) c).arrAt w cfg3.N) (Proc.devRef .tc r)

def outs : Gen.Outs (F := F) := o13 m

theorem outs_eq_o9 (J : ℕ) (h : J ≤ 9) : outs m J = o9 m J := by
  funext r c; exact if_pos h
theorem outs_eq_o3 (J : ℕ) (h : J ≤ 3) : outs m J = o3 m J := by
  funext r c; exact (if_pos (by omega)).trans (if_pos h)
theorem outs_eq_o2 (J : ℕ) (h : J ≤ 2) : outs m J = o2 m J := by
  funext r c; exact (if_pos (by omega)).trans ((if_pos (by omega)).trans (if_pos h))

abbrev VK0 : (c : Dev nD) → (b : Ref sig .tc) → Buf (Elt F) ((c : Thread nD τ).loc b) := fun c b => Gen.V1 m c b

abbrev VK1 : (c : Dev nD) → (b : Ref sig .tc) → Buf (Elt F) ((c : Thread nD τ).loc b) := fun c b => Gen.V2 m (outs m) c b

abbrev VK2 : (c : Dev nD) → (b : Ref sig .tc) → Buf (Elt F) ((c : Thread nD τ).loc b) := fun c b => Gen.V8 m (outs m) c b

abbrev VK3 : (c : Dev nD) → (b : Ref sig .tc) → Buf (Elt F) ((c : Thread nD τ).loc b) := fun c b => Gen.V12 m (outs m) c b

theorem outs2_arr (c : Dev nD) (w : Fin cfg0.W) : outs m 2 (Pipeline.arrRef spec0 w) c = (dat0 (VK0 m) c).arrAt w cfg0.N := by
  rw [outs_eq_o2 m 2 le_rfl]
  exact Pipeline.withArrays_arr spec0 launch0.win.arr_inj c _ _ w
theorem outs3_arr (c : Dev nD) (w : Fin cfg1.W) : outs m 3 (Pipeline.arrRef spec1 w) c = (dat1 (VK1 m) c).arrAt w cfg1.N := by
  unfold VK1 Gen.V2; rw [outs_eq_o3 m 3 le_rfl, outs_eq_o2 m 2 le_rfl]
  exact (if_neg (by decide : ¬ (3 ≤ 2))).trans (Pipeline.withArrays_arr spec1 launch1.win.arr_inj c _ _ w)
theorem outs9_arr (c : Dev nD) (w : Fin cfg2.W) : outs m 9 (Pipeline.arrRef spec2 w) c = (dat2 (VK2 m) c).arrAt w cfg2.N := by
  unfold VK2 Gen.V8 Gen.V7 Gen.V6 Gen.V5 Gen.V4 Gen.V3 Gen.V2
  rw [outs_eq_o9 m 9 le_rfl, outs_eq_o3 m 3 le_rfl, outs_eq_o3 m 2 (by omega)]
  exact (if_neg (by decide : ¬ (9 ≤ 3))).trans (Pipeline.withArrays_arr spec2 launch2.win.arr_inj c _ _ w)
theorem outs13_arr (c : Dev nD) (w : Fin cfg3.W) : outs m 13 (Pipeline.arrRef spec3 w) c = (dat3 (VK3 m) c).arrAt w cfg3.N := by
  unfold VK3 Gen.V12 Gen.V11 Gen.V10 Gen.V9 Gen.V8 Gen.V7 Gen.V6 Gen.V5 Gen.V4 Gen.V3 Gen.V2
  rw [outs_eq_o9 m 9 le_rfl, outs_eq_o9 m 3 (by omega), outs_eq_o9 m 2 (by omega)]
  show o13 m 13 (Pipeline.arrRef spec3 w) c = _
  exact (if_neg (by decide : ¬ (13 ≤ 9))).trans (Pipeline.withArrays_arr spec3 launch3.win.arr_inj c _ _ w)

def pdats : (p : Fin 4) → (c : Dev nD) → Dat τ (Elt F) Unit ℕ (UR sig nD τ) ℕ (Pipeline.pin (pcfgs (F := F)) Gen.adm p) c
  | ⟨0, _⟩ => fun c => dat0 (VK0 m) c
  | ⟨1, _⟩ => fun c => dat1 (VK1 m) c
  | ⟨2, _⟩ => fun c => dat2 (VK2 m) c
  | ⟨3, _⟩ => fun c => dat3 (VK3 m) c

abbrev runL : GSem nD τ sig → Finset Unit := fun _ => ∅
abbrev runLv : GSem nD τ sig → Unit → ℕ := fun _ _ => 0

abbrev runRest (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section
set_option backward.isDefEq.respectTransparency.types false

/-- A region's record from its launch facts: entered with the buffers at `Vi`, left with them at `Vo` (which holds `O` on `lst` and `Vi` elsewhere), owing nothing. -/
def regOf (p : Fin 4) (K : Pipeline.LaunchFacts (nD := nD) (τ := τ) cfgs p)
    (Vi Vo : Dev nD → Valuation τ sig (Elt F)) (lst : List (Ref sig .tc))
    (O : (r : Ref sig .tc) → (c : Dev nD) → Buf (Elt F) ((c : Thread nD τ).loc r))
    (hb : ∀ c, BodyObligation (pdats m p c) defs₀ Variants.none () Set.univ)
    (h0 : ∀ c t, (pdats m p c).owed t = 0) (hq : ∀ c w, (pdats m p c).q w = fullShare)
    (hA : ∀ c w, (pdats m p c).A w = Vi c (Pipeline.arrRef (cfgs p).spec w))
    (hr : ∀ c, (pdats m p c).recorded 0 = Set.univ)
    (hi : ∀ c, Pipeline.ΦA (cfgs p).spec c ⊢ (pdats m p c).Φ 0)
    (ho : ∀ c, (pdats m p c).Φ (Fin.last _) ⊢ Pipeline.ΦA (cfgs p).spec c)
    (hO : ∀ c w, O (Pipeline.arrRef (cfgs p).spec w) c = (pdats m p c).arrAt w (cfgs p).N) (hs : ∀ c, ∀ r ∈ lst, Vo c r = O r c)
    (hof : ∀ c (r : Ref sig .tc), r ∉ lst → Vo c r = Vi c r)
    (h1 : ∀ w, ((cfgs p).win w).isOut = false → Pipeline.arrRef (cfgs p).spec w ∉ lst)
    (h3 : ∀ w, ((cfgs p).win w).isOut = true → Pipeline.arrRef (cfgs p).spec w ∈ lst)
    (h2 : ∀ r ∈ lst, ∃ w, Pipeline.arrRef (cfgs p).spec w = r) :
    Pipeline.RegionSeg (pcfgs (F := F)) Gen.adm (pdats m) () defs₀ Variants.none runL runLv p where
  win := K.win.to₀
  block_pos := K.block_pos
  stage_whole := K.stage_whole
  K := PEmpty
  osem k := k.elim
  ho := Pipeline.OwnSemFacts.none _
  hbody c := (hb c).loose
  hwaits := Pipeline.hwaits_of_owed_zero _ _ _ _ runL runLv p h0
  pre c := iprop(StableHlo.held (c : Thread nD τ) (Pipeline.ucRefs τ sig) (Vi c) ∗ runRest c)
  post c := iprop(StableHlo.held (c : Thread nD τ) (Pipeline.ucRefs τ sig) (Vo c) ∗ runRest c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) Gen.adm (pdats m) K.win K.arr_whole c
      ((pdats m p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0 c 0, hr c]
      icases HO with ⟨%W, HO⟩; iexists W; isplitr; · ipureintro; exact fun _ _ => Or.inl trivial
      iexact HO
    isplitl [Hp]; · iexact Hp
    iexact Hrest
  hin c := by
    refine .trans ?_ (hi c); unfold Pipeline.ΦA
    iintro ⟨Hp, -, Hr⟩
    isplitl [Hr]; · iexact Hr
    iexact Hp
  hout c := by
    rw [Pipeline.ownSems0_none]; refine (ho c).trans ?_; unfold Pipeline.ΦA
    iintro ⟨Hr, Hp⟩
    isplitl [Hp]; · iexact Hp
    isplitr; · iempintro
    iexact Hr
  hexit c := by
    have hF w : (pdats m p c).arrAt w (cfgs p).N = Vo c (Pipeline.arrRef (cfgs p).spec w) := by
      by_cases hw : ((cfgs p).win w).isOut = true
      · exact ((hs c _ (h3 w hw)).trans (hO c w)).symm
      · have hin : ((cfgs p).win w).isOut = false := by simpa using hw
        rw [(pdats m p c).arrAt_in w hin _, hA]; exact (hof c _ (h1 w hin)).symm
    have hjoin := Pipeline.unscopedBufs_of_arrays (p := p) (pcfgs (F := F)) Gen.adm (Ix := Unit) (Name := ℕ) (U := UR sig nD τ) (Lvl := ℕ)
      K.win K.arr_whole c (pdats m) ((pdats m p c).share_full (hq c))
      (fun b => Vi c b) (fun b => Vo c b) ((pdats m p c).arrAt · (cfgs p).N) hF fun b hb => hof c b fun hm =>
        let ⟨w, e⟩ := h2 b hm; hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c (Fin.last _)]
    icases HO with ⟨%W, -, HO⟩; iexists W
    iexact HO

def reg0 := regOf m 0 launch0 (Gen.V1 m) (Gen.V2 m (outs m)) [main_v2] (outs m 2) (body_obligation0 _) (owed0 _) (q0 _) (A_eq0 _) (recorded0 _)
  (fun c => .of_eq (Phi0 _ c 0).symm) (fun c => .of_eq (Phi0 _ c _)) (outs2_arr m)
  (fun c r hr => by
    obtain rfl := List.mem_singleton.mp hr; unfold Gen.V2; exact Function.update_self _ _ _)
  (Gen.V2_of m (outs m)) (by decide) (by decide) (by decide)
def reg1 := regOf m 1 launch1 (Gen.V2 m (outs m)) (Gen.V3 m (outs m)) [main_v3] (outs m 3) (body_obligation1 _) (owed1 _) (q1 _) (A_eq1 _) (recorded1 _)
  (fun c => .of_eq (Phi1 _ c 0).symm) (fun c => .of_eq (Phi1 _ c _)) (outs3_arr m)
  (fun c r hr => by
    obtain rfl := List.mem_singleton.mp hr; unfold Gen.V3; exact Function.update_self _ _ _)
  (Gen.V3_of m (outs m)) (by decide) (by decide) (by decide)
def reg2 := regOf m 2 launch2 (Gen.V8 m (outs m)) (Gen.V9 m (outs m)) [main_v116_0, main_v116_1] (outs m 9) (body_obligation2 _) (owed2 _) (q2 _) (A_eq2 _) (recorded2 _)
  (hin2 _) (hout2 _) (outs9_arr m)
  (fun c r hr => by
    unfold Gen.V9; rcases List.mem_cons.mp hr with rfl | hr
    · exact (Function.update_of_ne (StableHlo.devRef_ne_of_ne (by decide)) _ _).trans (Function.update_self _ _ _)
    · obtain rfl := List.mem_singleton.mp hr; exact Function.update_self _ _ _)
  (Gen.V9_of m (outs m)) (by decide) (by decide) (by decide)
def reg3 := regOf m 3 launch3 (Gen.V12 m (outs m)) (Gen.V13 m (outs m)) [main_v143] (outs m 13) (body_obligation3 _) (owed3 _) (q3 _) (A_eq3 _) (recorded3 _)
  (fun c => .of_eq (Phi3 _ c 0).symm) (fun c => .of_eq (Phi3 _ c _)) (outs13_arr m)
  (fun c r hr => by
    obtain rfl := List.mem_singleton.mp hr; unfold Gen.V13; exact Function.update_self _ _ _)
  (Gen.V13_of m (outs m)) (by decide) (by decide) (by decide)

theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V13 m (outs m) c b) :=
  Pipeline.θ_run_regions_kit_dev (pcfgs (F := F)) Gen.adm (pdats m) () cellOf_inj emb₁ defs₀ Variants.none runL runLv m ρ main
    (Gen.segs m (outs m) Variants.none runL runLv (fun _ c => runRest c) () (pdats m) (reg0 m) (reg1 m) (reg2 m) (reg3 m))
    (fun c Q => by
      rewrite [main_chain c, Pipeline.Seg.run_eq_chain,
        show ((Gen.segs m (outs m) Variants.none runL runLv (fun _ c => runRest c) () (pdats m) (reg0 m) (reg1 m) (reg2 m) (reg3 m)) c).map Pipeline.Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ runRest c))
    (Tₙ := fun c => iprop(StableHlo.held (c : Thread nD τ) (Pipeline.ucRefs τ sig) (Gen.V13 m (outs m) c) ∗ ∃ r, prngReg c r))
    (hch := fun c => ⟨.rfl, .rfl, .rfl, .rfl, .rfl, .rfl, .rfl, .rfl, .rfl, .rfl, .rfl, .rfl, .rfl, sep_assoc.2⟩)
    (hinit := by
      refine Pipeline.initEach runL runLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V13 m (outs m) c b)
    (hfin := fun c s' => by
      iintro ⟨⟨Hh, -⟩, HSI⟩
      unfold StableHlo.held
      imodintro
      iapply (pointsTo_read_all (Pipeline.ucRefs τ sig) (fun b => ((c : Thread nD τ).1, b)) (Gen.V13 m (outs m) c) s')
      isplitl [Hh] <;> iassumption)
    (hQ := fun s h => h)

end

theorem run_value (ρ : Dev nD → PrngReg) : θ_run defs (onTc (τ := τ) (main (F := F))) ⟨m, fun _ => 0, ρ⟩ (fun r => ∀ c : Dev nD,
      r.2.mem ((c.tc : Thread nD τ).loc main_v143) = Gen.V13 m (outs m) c main_v143
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
by
  refine (θ_run defs _ _).mono (fun r h c => ?_) (run_all m ρ)
  have a {b : Ref sig .tc} (e : ∀ (m : (ℓ : Loc nD τ sig) → Buf (Elt F) ℓ) o (c : Dev nD), Gen.V13 m o c b = m ((c.tc : Thread nD τ).loc b))
      (hb : ¬ (Proc.devRef .tc b : DevRef τ sig).isScoped := by decide) :
      r.2.mem ((c.tc : Thread nD τ).loc b) = m ((c.tc : Thread nD τ).loc b) := (h c _ (mem_uc b hb)).trans (e m (outs m) c)
  exact ⟨h c _ (mem_uc main_v143 (by decide)),
    a Gen.V13_main_arg0, a Gen.V13_main_arg1, a Gen.V13_main_arg2, a Gen.V13_main_arg3, a Gen.V13_main_arg4, a Gen.V13_main_arg5,
    a Gen.V13_main_arg6, a Gen.V13_main_arg7, a Gen.V13_main_arg8, a Gen.V13_main_arg9, a Gen.V13_main_arg10, a Gen.V13_main_arg11,
    a Gen.V13_main_arg12, a Gen.V13_main_arg13, a Gen.V13_main_arg14, a Gen.V13_main_arg15, a Gen.V13_main_arg16, a Gen.V13_main_arg17,
    a Gen.V13_main_arg18, a Gen.V13_main_arg19, a Gen.V13_main_arg20, a Gen.V13_main_arg21, a Gen.V13_main_arg22, a Gen.V13_main_arg23,
    a Gen.V13_main_arg24, a Gen.V13_main_arg25, a Gen.V13_main_arg26, a Gen.V13_main_arg27, a Gen.V13_main_arg28, a Gen.V13_main_arg29,
    a Gen.V13_main_arg30, a Gen.V13_main_arg31, a Gen.V13_main_arg32, a Gen.V13_main_arg33, a Gen.V13_main_arg34, a Gen.V13_main_arg35⟩

end Cert.KernelIdeal.Hand

end
-- ==== Proof.KI_Value.lean ====
import proofs.«416856_j87668872446200_2_alg».proof.Proof.KI_Bridge
import proofs.«416856_j87668872446200_2_alg».proof.Proof.KI_Run

set_option maxRecDepth 16384

noncomputable section

namespace Cert.KernelIdeal.Val

open Idealize.ShloMosaic Idealize.ShloMosaic.TcCoe
open Idealize.SL.Sem
open Cert.KernelIdeal Cert.KernelIdeal.Gen

theorem kernel_result (m : (ℓ : Loc nD τ sig) → Buf (Elt Ideal) ℓ) (c : Dev nD) :
    Gen.V13 m (Cert.KernelIdeal.Hand.outs m) c main_v143 =
      Cert.RefStages.result
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16)) (m ((c.tc : Thread nD τ).loc main_arg17))
        (m ((c.tc : Thread nD τ).loc main_arg18)) (m ((c.tc : Thread nD τ).loc main_arg19)) (m ((c.tc : Thread nD τ).loc main_arg20))
        (m ((c.tc : Thread nD τ).loc main_arg21)) (m ((c.tc : Thread nD τ).loc main_arg22)) (m ((c.tc : Thread nD τ).loc main_arg23))
        (m ((c.tc : Thread nD τ).loc main_arg24)) (m ((c.tc : Thread nD τ).loc main_arg25)) (m ((c.tc : Thread nD τ).loc main_arg26))
        (m ((c.tc : Thread nD τ).loc main_arg27)) (m ((c.tc : Thread nD τ).loc main_arg28)) (m ((c.tc : Thread nD τ).loc main_arg29))
        (m ((c.tc : Thread nD τ).loc main_arg30)) (m ((c.tc : Thread nD τ).loc main_arg31)) (m ((c.tc : Thread nD τ).loc main_arg32))
        (m ((c.tc : Thread nD τ).loc main_arg33)) (m ((c.tc : Thread nD τ).loc main_arg34)) (m ((c.tc : Thread nD τ).loc main_arg35)) :=
  kernel_value m (Cert.KernelIdeal.Hand.outs m) c
    (Cert.KernelIdeal.Hand.outs13_arr m c 31) (Cert.KernelIdeal.Hand.outs9_arr m c 6) (Cert.KernelIdeal.Hand.outs9_arr m c 7)
    (Cert.KernelIdeal.Hand.outs3_arr m c 2) (Cert.KernelIdeal.Hand.outs2_arr m c 2)

end Cert.KernelIdeal.Val

end
-- ==== Proof.RF_Ops.lean ====
/- The reference's @main as one list of operations, each call replaced at its site by the callee's operations over the call's own buffers. -/
import proofs.«416856_j87668872446200_2_alg».proof.ReferenceIdeal
import proofs.«416856_j87668872446200_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.nullary main_v0 (iotaInDim S10000 32 0),
    StableHlo.unary main_arg1 main_v1 ((extractStridedSlice S1x80000 ![0, 0] · slices_S2x80000_S1x80000_0_0)),
    StableHlo.reshape main_v1 main_v2 rfl shapeCasts_S1x80000_S80000,
    StableHlo.binary main_v2 main_v0 main_v3 ((fun a b => concatenate S90000 0 [⟨S80000, a⟩, ⟨S10000, b⟩] concatenates_S80000_S10000_S90000_d0)),
    StableHlo.unary main_arg1 main_v4 ((extractStridedSlice S1x80000 ![1, 0] · slices_S2x80000_S1x80000_1_0)),
    StableHlo.reshape main_v4 main_v5 rfl shapeCasts_S1x80000_S80000,
    StableHlo.binary main_v5 main_v0 main_v6 ((fun a b => concatenate S90000 0 [⟨S80000, a⟩, ⟨S10000, b⟩] concatenates_S80000_S10000_S90000_d0)),
    StableHlo.nullary main_cst (constant S_ .f32 0x3F800000#32),
    StableHlo.unary main_cst main_v7 (broadcastInDim S90000 ![] bcast_S_S90000),
    StableHlo.nullary main_cst_0 (constant S_ .f32 0x00000000#32),
    StableHlo.unary main_cst_0 main_v8 (broadcastInDim S10000 ![] bcast_S_S10000),
    StableHlo.unary main_v6 main_v9 (broadcastInDim S90000x1 ![0] bcast_S90000_S90000x1_0),
    StableHlo.ternary main_v8 main_v9 main_v7 main_v10 ((fun x i u => Host.scatterAdd scatter_S10000_S90000x1_S90000_n_0_0_1 x i u)),
    StableHlo.nullary main_cst_1 (constant S_ .f32 0x00000000#32),
    StableHlo.unary main_cst_1 main_v11 (broadcastInDim S10000 ![] bcast_S_S10000),
    StableHlo.binary main_v10 main_v11 main_v12 (cmpf .ogt),
    StableHlo.nullary main_cst_2 (constant S_ .f32 0x2B8CBCCC#32),
    StableHlo.unary main_cst_2 main_v13 (broadcastInDim S10000 ![] bcast_S_S10000),
    StableHlo.binary main_v10 main_v13 main_v14 (maximumf),
    StableHlo.unary main_v14 main_v15 (Host.sqrt),
    StableHlo.nullary main_cst_3 (constant S_ .f32 0x3F800000#32),
    StableHlo.unary main_cst_3 main_v16 (broadcastInDim S10000 ![] bcast_S_S10000),
    StableHlo.binary main_v16 main_v15 main_v17 (Host.divf),
    StableHlo.nullary main_cst_4 (constant S_ .f32 0x00000000#32),
    StableHlo.TRef.unary (.of main_cst_4) main_call0.v0 id,
    StableHlo.TRef.unary main_call0.v0 main_call0.v1 (broadcastInDim S10000 ![] bcast_S_S10000),
    StableHlo.TRef.ternary (.of main_v12) (.of main_v17) main_call0.v1 main_call0.v2 select,
    StableHlo.nullary main_c (constantI S_ 32 0#32),
    StableHlo.unary main_c main_v19 (broadcastInDim S90000 ![] bcast_S_S90000),
    StableHlo.binary main_v3 main_v19 main_v20 (cmpi .slt),
    StableHlo.nullary main_c_5 (constantI S_ 32 10000#32),
    StableHlo.unary main_c_5 main_v21 (broadcastInDim S90000 ![] bcast_S_S90000),
    StableHlo.binary main_v3 main_v21 main_v22 (addi),
    StableHlo.ternary main_v20 main_v22 main_v3 main_v23 (select),
    StableHlo.unary main_v23 main_v24 (broadcastInDim S90000x1 ![0] bcast_S90000_S90000x1_0),
    StableHlo.binary main_v18 main_v24 main_v25 ((fun x i => Host.gather gather_S10000_S90000x1_S90000_n_0_n_n_0_1_1 x i)),
    StableHlo.nullary main_c_6 (constantI S_ 32 0#32),
    StableHlo.unary main_c_6 main_v26 (broadcastInDim S90000 ![] bcast_S_S90000),
    StableHlo.binary main_v6 main_v26 main_v27 (cmpi .slt),
    StableHlo.nullary main_c_7 (constantI S_ 32 10000#32),
    StableHlo.unary main_c_7 main_v28 (broadcastInDim S90000 ![] bcast_S_S90000),
    StableHlo.binary main_v6 main_v28 main_v29 (addi),
    StableHlo.ternary main_v27 main_v29 main_v6 main_v30 (select),
    StableHlo.unary main_v30 main_v31 (broadcastInDim S90000x1 ![0] bcast_S90000_S90000x1_0),
    StableHlo.binary main_v18 main_v31 main_v32 ((fun x i => Host.gather gather_S10000_S90000x1_S90000_n_0_n_n_0_1_1 x i)),
    StableHlo.binary main_v25 main_v32 main_v33 (mulf),
    StableHlo.binary main_arg0 main_arg10 main_v34 ((fun l r => Host.dotGeneral dot_S10000x1024_S1024x1024_S10000x1024_1_0_0_1_n_n none l r)),
    StableHlo.nullary main_c_8 (constantI S_ 32 0#32),
    StableHlo.unary main_c_8 main_v35 (broadcastInDim S90000 ![] bcast_S_S90000),
    StableHlo.binary main_v3 main_v35 main_v36 (cmpi .slt),
    StableHlo.nullary main_c_9 (constantI S_ 32 10000#32),
    StableHlo.unary main_c_9 main_v37 (broadcastInDim S90000 ![] bcast_S_S90000),
    StableHlo.binary main_v3 main_v37 main_v38 (addi),
    StableHlo.ternary main_v36 main_v38 main_v3 main_v39 (select),
    StableHlo.unary main_v39 main_v40 (broadcastInDim S90000x1 ![0] bcast_S90000_S90000x1_0),
    StableHlo.binary main_v34 main_v40 main_v41 ((fun x i => Host.gather gather_S10000x1024_S90000x1_S90000x1024_1_0_n_n_0_1_11024 x i)),
    StableHlo.unary main_v33 main_v42 (broadcastInDim S90000x1 ![0] bcast_S90000_S90000x1_0),
    StableHlo.unary main_v42 main_v43 (broadcastInDim S90000x1024 ![0, 1] bcast_S90000x1_S90000x1024_0_1),
    StableHlo.binary main_v41 main_v43 main_v44 (mulf),
    StableHlo.nullary main_cst_10 (constant S_ .f32 0x00000000#32),
    StableHlo.unary main_cst_10 main_v45 (broadcastInDim S10000x1024 ![] bcast_S_S10000x1024),
    StableHlo.unary main_v6 main_v46 (broadcastInDim S90000x1 ![0] bcast_S90000_S90000x1_0) ]

abbrev ops1 : List (HloOp τ sig (Elt F)) :=
  [ StableHlo.ternary main_v45 main_v46 main_v44 main_v47 ((fun x i u => Host.scatterAdd scatter_S10000x1024_S90000x1_S90000x1024_1_0_0_1 x i u)),
    StableHlo.unary main_arg11 main_v48 (broadcastInDim S1x1024 ![1] bcast_S1024_S1x1024_1),
    StableHlo.unary main_v48 main_v49 (broadcastInDim S10000x1024 ![0, 1] bcast_S1x1024_S10000x1024_0_1),
    StableHlo.binary main_v47 main_v49 main_v50 (addf),
    StableHlo.nullary main_cst_11 (constant S_ .f32 0x3C23D70A#32),
    StableHlo.TRef.nullary main_call1.cst (constant S_ .f32 0x00000000#32),
    StableHlo.TRef.unary main_call1.cst main_call1.v0 (broadcastInDim S10000x1024 ![] bcast_S_S10000x1024),
    StableHlo.TRef.binary (.of main_v50) main_call1.v0 main_call1.v1 (cmpf .oge),
    StableHlo.TRef.unary (.of main_cst_11) main_call1.v2 id,
    StableHlo.TRef.unary main_call1.v2 main_call1.v3 (broadcastInDim S10000x1024 ![] bcast_S_S10000x1024),
    StableHlo.TRef.binary main_call1.v3 (.of main_v50) main_call1.v4 mulf,
    StableHlo.TRef.ternary main_call1.v1 (.of main_v50) main_call1.v4 main_call1.call0.v0 select,
    StableHlo.nullary main_cst_12 (constant S_ .f32 0x00000000#32),
    StableHlo.unary main_cst_12 main_v52 (broadcastInDim S32x1024 ![] bcast_S_S32x1024),
    StableHlo.unary main_arg2 main_v53 (broadcastInDim S10000x1 ![0] bcast_S10000_S10000x1_0),
    StableHlo.ternary main_v52 main_v53 main_v51 main_v54 ((fun x i u => Host.scatterAdd scatter_S32x1024_S10000x1_S10000x1024_1_0_0_1 x i u)),
    StableHlo.nullary main_cst_13 (constant S_ .f32 0x3F800000#32),
    StableHlo.unary main_cst_13 main_v55 (broadcastInDim S10000 ![] bcast_S_S10000),
    StableHlo.nullary main_cst_14 (constant S_ .f32 0x00000000#32),
    StableHlo.unary main_cst_14 main_v56 (broadcastInDim S32 ![] bcast_S_S32),
    StableHlo.unary main_arg2 main_v57 (broadcastInDim S10000x1 ![0] bcast_S10000_S10000x1_0),
    StableHlo.ternary main_v56 main_v57 main_v55 main_v58 ((fun x i u => Host.scatterAdd scatter_S32_S10000x1_S10000_n_0_0_1 x i u)),
    StableHlo.nullary main_cst_15 (constant S_ .f32 0x3F800000#32),
    StableHlo.unary main_cst_15 main_v59 (broadcastInDim S32 ![] bcast_S_S32),
    StableHlo.binary main_v58 main_v59 main_v60 (maximumf),
    StableHlo.unary main_v60 main_v61 (broadcastInDim S32x1 ![0] bcast_S32_S32x1_0),
    StableHlo.unary main_v61 main_v62 (broadcastInDim S32x1024 ![0, 1] bcast_S32x1_S32x1024_0_1),
    StableHlo.binary main_v54 main_v62 main_v63 (Host.divf),
    StableHlo.binary main_v63 main_arg14 main_v64 ((fun l r => Host.dotGeneral dot_S32x1024_S1024x128_S32x128_1_0_0_1_n_n none l r)),
    StableHlo.unary main_arg15 main_v65 (broadcastInDim S1x128 ![1] bcast_S128_S1x128_1),
    StableHlo.unary main_v65 main_v66 (broadcastInDim S32x128 ![0, 1] bcast_S1x128_S32x128_0_1),
    StableHlo.binary main_v64 main_v66 main_v67 (addf),
    StableHlo.nullary main_cst_16 (constant S_ .f32 0x3C23D70A#32),
    StableHlo.TRef.nullary main_call2.cst (constant S_ .f32 0x00000000#32),
    StableHlo.TRef.unary main_call2.cst main_call2.v0 (broadcastInDim S32x128 ![] bcast_S_S32x128),
    StableHlo.TRef.binary (.of main_v67) main_call2.v0 main_call2.v1 (cmpf .oge),
    StableHlo.TRef.unary (.of main_cst_16) main_call2.v2 id,
    StableHlo.TRef.unary main_call2.v2 main_call2.v3 (broadcastInDim S32x128 ![] bcast_S_S32x128),
    StableHlo.TRef.binary main_call2.v3 (.of main_v67) main_call2.v4 mulf,
    StableHlo.TRef.ternary main_call2.v1 (.of main_v67) main_call2.v4 main_call2.call0.v0 select,
    StableHlo.nullary main_v69 (iotaInDim S10000 32 0),
    StableHlo.unary main_arg4 main_v70 ((extractStridedSlice S1x80000 ![0, 0] · slices_S2x80000_S1x80000_0_0)),
    StableHlo.reshape main_v70 main_v71 rfl shapeCasts_S1x80000_S80000,
    StableHlo.binary main_v71 main_v69 main_v72 ((fun a b => concatenate S90000 0 [⟨S80000, a⟩, ⟨S10000, b⟩] concatenates_S80000_S10000_S90000_d0)),
    StableHlo.unary main_arg4 main_v73 ((extractStridedSlice S1x80000 ![1, 0] · slices_S2x80000_S1x80000_1_0)),
    StableHlo.reshape main_v73 main_v74 rfl shapeCasts_S1x80000_S80000,
    StableHlo.binary main_v74 main_v69 main_v75 ((fun a b => concatenate S90000 0 [⟨S80000, a⟩, ⟨S10000, b⟩] concatenates_S80000_S10000_S90000_d0)),
    StableHlo.nullary main_cst_17 (constant S_ .f32 0x3F800000#32),
    StableHlo.unary main_cst_17 main_v76 (broadcastInDim S90000 ![] bcast_S_S90000),
    StableHlo.nullary main_cst_18 (constant S_ .f32 0x00000000#32),
    StableHlo.unary main_cst_18 main_v77 (broadcastInDim S10000 ![] bcast_S_S10000),
    StableHlo.unary main_v75 main_v78 (broadcastInDim S90000x1 ![0] bcast_S90000_S90000x1_0),
    StableHlo.ternary main_v77 main_v78 main_v76 main_v79 ((fun x i u => Host.scatterAdd scatter_S10000_S90000x1_S90000_n_0_0_1 x i u)),
    StableHlo.nullary main_cst_19 (constant S_ .f32 0x00000000#32),
    StableHlo.unary main_cst_19 main_v80 (broadcastInDim S10000 ![] bcast_S_S10000),
    StableHlo.binary main_v79 main_v80 main_v81 (cmpf .ogt),
    StableHlo.nullary main_cst_20 (constant S_ .f32 0x2B8CBCCC#32),
    StableHlo.unary main_cst_20 main_v82 (broadcastInDim S10000 ![] bcast_S_S10000),
    StableHlo.binary main_v79 main_v82 main_v83 (maximumf),
    StableHlo.unary main_v83 main_v84 (Host.sqrt),
    StableHlo.nullary main_cst_21 (constant S_ .f32 0x3F800000#32),
    StableHlo.unary main_cst_21 main_v85 (broadcastInDim S10000 ![] bcast_S_S10000),
    StableHlo.binary main_v85 main_v84 main_v86 (Host.divf),
    StableHlo.nullary main_cst_22 (constant S_ .f32 0x00000000#32),
    StableHlo.TRef.unary (.of main_cst_22) main_call3.v0 id,
    StableHlo.TRef.unary main_call3.v0 main_call3.v1 (broadcastInDim S10000 ![] bcast_S_S10000),
    StableHlo.TRef.ternary (.of main_v81) (.of main_v86) main_call3.v1 main_call3.v2 select,
    StableHlo.nullary main_c_23 (constantI S_ 32 0#32),
    StableHlo.unary main_c_23 main_v88 (broadcastInDim S90000 ![] bcast_S_S90000),
    StableHlo.binary main_v72 main_v88 main_v89 (cmpi .slt),
    StableHlo.nullary main_c_24 (constantI S_ 32 10000#32),
    StableHlo.unary main_c_24 main_v90 (broadcastInDim S90000 ![] bcast_S_S90000),
    StableHlo.binary main_v72 main_v90 main_v91 (addi),
    StableHlo.ternary main_v89 main_v91 main_v72 main_v92 (select) ]

abbrev ops2 : List (HloOp τ sig (Elt F)) :=
  [ StableHlo.unary main_v92 main_v93 (broadcastInDim S90000x1 ![0] bcast_S90000_S90000x1_0),
    StableHlo.binary main_v87 main_v93 main_v94 ((fun x i => Host.gather gather_S10000_S90000x1_S90000_n_0_n_n_0_1_1 x i)),
    StableHlo.nullary main_c_25 (constantI S_ 32 0#32),
    StableHlo.unary main_c_25 main_v95 (broadcastInDim S90000 ![] bcast_S_S90000),
    StableHlo.binary main_v75 main_v95 main_v96 (cmpi .slt),
    StableHlo.nullary main_c_26 (constantI S_ 32 10000#32),
    StableHlo.unary main_c_26 main_v97 (broadcastInDim S90000 ![] bcast_S_S90000),
    StableHlo.binary main_v75 main_v97 main_v98 (addi),
    StableHlo.ternary main_v96 main_v98 main_v75 main_v99 (select),
    StableHlo.unary main_v99 main_v100 (broadcastInDim S90000x1 ![0] bcast_S90000_S90000x1_0),
    StableHlo.binary main_v87 main_v100 main_v101 ((fun x i => Host.gather gather_S10000_S90000x1_S90000_n_0_n_n_0_1_1 x i)),
    StableHlo.binary main_v94 main_v101 main_v102 (mulf),
    StableHlo.binary main_arg3 main_arg12 main_v103 ((fun l r => Host.dotGeneral dot_S10000x1024_S1024x1024_S10000x1024_1_0_0_1_n_n none l r)),
    StableHlo.nullary main_c_27 (constantI S_ 32 0#32),
    StableHlo.unary main_c_27 main_v104 (broadcastInDim S90000 ![] bcast_S_S90000),
    StableHlo.binary main_v72 main_v104 main_v105 (cmpi .slt),
    StableHlo.nullary main_c_28 (constantI S_ 32 10000#32),
    StableHlo.unary main_c_28 main_v106 (broadcastInDim S90000 ![] bcast_S_S90000),
    StableHlo.binary main_v72 main_v106 main_v107 (addi),
    StableHlo.ternary main_v105 main_v107 main_v72 main_v108 (select),
    StableHlo.unary main_v108 main_v109 (broadcastInDim S90000x1 ![0] bcast_S90000_S90000x1_0),
    StableHlo.binary main_v103 main_v109 main_v110 ((fun x i => Host.gather gather_S10000x1024_S90000x1_S90000x1024_1_0_n_n_0_1_11024 x i)),
    StableHlo.unary main_v102 main_v111 (broadcastInDim S90000x1 ![0] bcast_S90000_S90000x1_0),
    StableHlo.unary main_v111 main_v112 (broadcastInDim S90000x1024 ![0, 1] bcast_S90000x1_S90000x1024_0_1),
    StableHlo.binary main_v110 main_v112 main_v113 (mulf),
    StableHlo.nullary main_cst_29 (constant S_ .f32 0x00000000#32),
    StableHlo.unary main_cst_29 main_v114 (broadcastInDim S10000x1024 ![] bcast_S_S10000x1024),
    StableHlo.unary main_v75 main_v115 (broadcastInDim S90000x1 ![0] bcast_S90000_S90000x1_0),
    StableHlo.ternary main_v114 main_v115 main_v113 main_v116 ((fun x i u => Host.scatterAdd scatter_S10000x1024_S90000x1_S90000x1024_1_0_0_1 x i u)),
    StableHlo.unary main_arg13 main_v117 (broadcastInDim S1x1024 ![1] bcast_S1024_S1x1024_1),
    StableHlo.unary main_v117 main_v118 (broadcastInDim S10000x1024 ![0, 1] bcast_S1x1024_S10000x1024_0_1),
    StableHlo.binary main_v116 main_v118 main_v119 (addf),
    StableHlo.nullary main_cst_30 (constant S_ .f32 0x3C23D70A#32),
    StableHlo.TRef.nullary main_call4.cst (constant S_ .f32 0x00000000#32),
    StableHlo.TRef.unary main_call4.cst main_call4.v0 (broadcastInDim S10000x1024 ![] bcast_S_S10000x1024),
    StableHlo.TRef.binary (.of main_v119) main_call4.v0 main_call4.v1 (cmpf .oge),
    StableHlo.TRef.unary (.of main_cst_30) main_call4.v2 id,
    StableHlo.TRef.unary main_call4.v2 main_call4.v3 (broadcastInDim S10000x1024 ![] bcast_S_S10000x1024),
    StableHlo.TRef.binary main_call4.v3 (.of main_v119) main_call4.v4 mulf,
    StableHlo.TRef.ternary main_call4.v1 (.of main_v119) main_call4.v4 main_call4.call0.v0 select,
    StableHlo.nullary main_cst_31 (constant S_ .f32 0x00000000#32),
    StableHlo.unary main_cst_31 main_v121 (broadcastInDim S32x1024 ![] bcast_S_S32x1024),
    StableHlo.unary main_arg5 main_v122 (broadcastInDim S10000x1 ![0] bcast_S10000_S10000x1_0),
    StableHlo.ternary main_v121 main_v122 main_v120 main_v123 ((fun x i u => Host.scatterAdd scatter_S32x1024_S10000x1_S10000x1024_1_0_0_1 x i u)),
    StableHlo.nullary main_cst_32 (constant S_ .f32 0x3F800000#32),
    StableHlo.unary main_cst_32 main_v124 (broadcastInDim S10000 ![] bcast_S_S10000),
    StableHlo.nullary main_cst_33 (constant S_ .f32 0x00000000#32),
    StableHlo.unary main_cst_33 main_v125 (broadcastInDim S32 ![] bcast_S_S32),
    StableHlo.unary main_arg5 main_v126 (broadcastInDim S10000x1 ![0] bcast_S10000_S10000x1_0),
    StableHlo.ternary main_v125 main_v126 main_v124 main_v127 ((fun x i u => Host.scatterAdd scatter_S32_S10000x1_S10000_n_0_0_1 x i u)),
    StableHlo.nullary main_cst_34 (constant S_ .f32 0x3F800000#32),
    StableHlo.unary main_cst_34 main_v128 (broadcastInDim S32 ![] bcast_S_S32),
    StableHlo.binary main_v127 main_v128 main_v129 (maximumf),
    StableHlo.unary main_v129 main_v130 (broadcastInDim S32x1 ![0] bcast_S32_S32x1_0),
    StableHlo.unary main_v130 main_v131 (broadcastInDim S32x1024 ![0, 1] bcast_S32x1_S32x1024_0_1),
    StableHlo.binary main_v123 main_v131 main_v132 (Host.divf),
    StableHlo.binary main_v132 main_arg16 main_v133 ((fun l r => Host.dotGeneral dot_S32x1024_S1024x128_S32x128_1_0_0_1_n_n none l r)),
    StableHlo.unary main_arg17 main_v134 (broadcastInDim S1x128 ![1] bcast_S128_S1x128_1),
    StableHlo.unary main_v134 main_v135 (broadcastInDim S32x128 ![0, 1] bcast_S1x128_S32x128_0_1),
    StableHlo.binary main_v133 main_v135 main_v136 (addf),
    StableHlo.nullary main_cst_35 (constant S_ .f32 0x3C23D70A#32),
    StableHlo.TRef.nullary main_call5.cst (constant S_ .f32 0x00000000#32),
    StableHlo.TRef.unary main_call5.cst main_call5.v0 (broadcastInDim S32x128 ![] bcast_S_S32x128),
    StableHlo.TRef.binary (.of main_v136) main_call5.v0 main_call5.v1 (cmpf .oge),
    StableHlo.TRef.unary (.of main_cst_35) main_call5.v2 id,
    StableHlo.TRef.unary main_call5.v2 main_call5.v3 (broadcastInDim S32x128 ![] bcast_S_S32x128),
    StableHlo.TRef.binary main_call5.v3 (.of main_v136) main_call5.v4 mulf,
    StableHlo.TRef.ternary main_call5.v1 (.of main_v136) main_call5.v4 main_call5.call0.v0 select,
    StableHlo.binary main_v68 main_v137 main_v138 ((fun a b => concatenate S32x256 1 [⟨S32x128, a⟩, ⟨S32x128, b⟩] concatenates_S32x128_S32x128_S32x256_d1)),
    StableHlo.binary main_v138 main_arg18 main_v139 ((fun l r => Host.dotGeneral dot_S32x256_S256x256_S32x256_1_0_0_1_n_n none l r)),
    StableHlo.unary main_arg19 main_v140 (broadcastInDim S1x256 ![1] bcast_S256_S1x256_1),
    StableHlo.unary main_v140 main_v141 (broadcastInDim S32x256 ![0, 1] bcast_S1x256_S32x256_0_1) ]

abbrev ops3 : List (HloOp τ sig (Elt F)) :=
  [ StableHlo.binary main_v139 main_v141 main_v142 (addf),
    StableHlo.nullary main_cst_36 (constant S_ .f32 0x3C23D70A#32),
    StableHlo.TRef.nullary main_call6.cst (constant S_ .f32 0x00000000#32),
    StableHlo.TRef.unary main_call6.cst main_call6.v0 (broadcastInDim S32x256 ![] bcast_S_S32x256),
    StableHlo.TRef.binary (.of main_v142) main_call6.v0 main_call6.v1 (cmpf .oge),
    StableHlo.TRef.unary (.of main_cst_36) main_call6.v2 id,
    StableHlo.TRef.unary main_call6.v2 main_call6.v3 (broadcastInDim S32x256 ![] bcast_S_S32x256),
    StableHlo.TRef.binary main_call6.v3 (.of main_v142) main_call6.v4 mulf,
    StableHlo.TRef.ternary main_call6.v1 (.of main_v142) main_call6.v4 main_call6.call0.v0 select,
    StableHlo.binary main_v143 main_arg20 main_v144 ((fun l r => Host.dotGeneral dot_S32x256_S256x64_S32x64_1_0_0_1_n_n none l r)),
    StableHlo.unary main_arg21 main_v145 (broadcastInDim S1x64 ![1] bcast_S64_S1x64_1),
    StableHlo.unary main_v145 main_v146 (broadcastInDim S32x64 ![0, 1] bcast_S1x64_S32x64_0_1),
    StableHlo.binary main_v144 main_v146 main_v147 (addf),
    StableHlo.nullary main_cst_37 (constant S_ .f32 0x3C23D70A#32),
    StableHlo.TRef.nullary main_call7.cst (constant S_ .f32 0x00000000#32),
    StableHlo.TRef.unary main_call7.cst main_call7.v0 (broadcastInDim S32x64 ![] bcast_S_S32x64),
    StableHlo.TRef.binary (.of main_v147) main_call7.v0 main_call7.v1 (cmpf .oge),
    StableHlo.TRef.unary (.of main_cst_37) main_call7.v2 id,
    StableHlo.TRef.unary main_call7.v2 main_call7.v3 (broadcastInDim S32x64 ![] bcast_S_S32x64),
    StableHlo.TRef.binary main_call7.v3 (.of main_v147) main_call7.v4 mulf,
    StableHlo.TRef.ternary main_call7.v1 (.of main_v147) main_call7.v4 main_call7.call0.v0 select,
    StableHlo.nullary main_cst_38 (constant S_ .f32 0x00000000#32),
    StableHlo.binary main_arg6 main_cst_38 main_v149 ((fun x v => Host.reduceAdd x v reducesTo_S32x16x800_S32x800_d1 h_S_)),
    StableHlo.nullary main_cst_39 (constant S_ .f32 0x41800000#32),
    StableHlo.unary main_cst_39 main_v150 (broadcastInDim S32x800 ![] bcast_S_S32x800),
    StableHlo.binary main_v149 main_v150 main_v151 (Host.divf),
    StableHlo.reshape main_arg22 main_v152 rfl shapeCasts_S1_S_,
    StableHlo.unary main_v152 main_v153 (broadcastInDim S32x800 ![] bcast_S_S32x800),
    StableHlo.binary main_v151 main_v153 main_v154 (mulf),
    StableHlo.reshape main_arg23 main_v155 rfl shapeCasts_S1_S_,
    StableHlo.unary main_v155 main_v156 (broadcastInDim S32x800 ![] bcast_S_S32x800),
    StableHlo.binary main_v154 main_v156 main_v157 (addf),
    StableHlo.TRef.nullary main_call8.cst (constant S_ .f32 0x00000000#32),
    StableHlo.TRef.unary main_call8.cst main_call8.v0 (broadcastInDim S32x800 ![] bcast_S_S32x800),
    StableHlo.TRef.binary (.of main_v157) main_call8.v0 main_call8.v1 maximumf,
    StableHlo.nullary main_cst_40 (constant S_ .f32 0x00000000#32),
    StableHlo.binary main_arg7 main_cst_40 main_v159 ((fun x v => Host.reduceAdd x v reducesTo_S32x16x800_S32x800_d1 h_S_)),
    StableHlo.nullary main_cst_41 (constant S_ .f32 0x41800000#32),
    StableHlo.unary main_cst_41 main_v160 (broadcastInDim S32x800 ![] bcast_S_S32x800),
    StableHlo.binary main_v159 main_v160 main_v161 (Host.divf),
    StableHlo.reshape main_arg24 main_v162 rfl shapeCasts_S1_S_,
    StableHlo.unary main_v162 main_v163 (broadcastInDim S32x800 ![] bcast_S_S32x800),
    StableHlo.binary main_v161 main_v163 main_v164 (mulf),
    StableHlo.reshape main_arg25 main_v165 rfl shapeCasts_S1_S_,
    StableHlo.unary main_v165 main_v166 (broadcastInDim S32x800 ![] bcast_S_S32x800),
    StableHlo.binary main_v164 main_v166 main_v167 (addf),
    StableHlo.TRef.nullary main_call9.cst (constant S_ .f32 0x00000000#32),
    StableHlo.TRef.unary main_call9.cst main_call9.v0 (broadcastInDim S32x800 ![] bcast_S_S32x800),
    StableHlo.TRef.binary (.of main_v167) main_call9.v0 main_call9.v1 maximumf,
    StableHlo.unary main_v158 main_v169 (broadcastInDim S32x1x800 ![0, 2] bcast_S32x800_S32x1x800_0_2),
    StableHlo.unary main_v168 main_v170 (broadcastInDim S32x1x800 ![0, 2] bcast_S32x800_S32x1x800_0_2),
    StableHlo.binary main_v169 main_v170 main_v171 ((fun a b => concatenate S32x2x800 1 [⟨S32x1x800, a⟩, ⟨S32x1x800, b⟩] concatenates_S32x1x800_S32x1x800_S32x2x800_d1)),
    StableHlo.reshape main_v171 main_v172 rfl shapeCasts_S32x2x800_S32x2x80x10,
    StableHlo.nullary main_cst_42 (constant S_ .f32 0x00000000#32),
    StableHlo.binary main_v172 main_cst_42 main_v173 ((fun x v => Host.reduceAdd x v reducesTo_S32x2x80x10_S32x2x80_d3 h_S_)),
    StableHlo.nullary main_cst_43 (constant S_ .f32 0x41200000#32),
    StableHlo.unary main_cst_43 main_v174 (broadcastInDim S32x2x80 ![] bcast_S_S32x2x80),
    StableHlo.binary main_v173 main_v174 main_v175 (Host.divf),
    StableHlo.nullary main_cst_44 (constant S_ .f32 0x00000000#32),
    StableHlo.binary main_v175 main_cst_44 main_v176 ((fun x v => Host.reduceAdd x v reducesTo_S32x2x80_S32x80_d1 h_S_)),
    StableHlo.nullary main_cst_45 (constant S_ .f32 0x40000000#32),
    StableHlo.unary main_cst_45 main_v177 (broadcastInDim S32x80 ![] bcast_S_S32x80),
    StableHlo.binary main_v176 main_v177 main_v178 (Host.divf),
    StableHlo.binary main_v178 main_arg30 main_v179 ((fun l r => Host.dotGeneral dot_S32x80_S80x64_S32x64_1_0_0_1_n_n none l r)),
    StableHlo.unary main_arg31 main_v180 (broadcastInDim S1x64 ![1] bcast_S64_S1x64_1),
    StableHlo.unary main_v180 main_v181 (broadcastInDim S32x64 ![0, 1] bcast_S1x64_S32x64_0_1),
    StableHlo.binary main_v179 main_v181 main_v182 (addf),
    StableHlo.nullary main_cst_46 (constant S_ .f32 0x00000000#32),
    StableHlo.binary main_arg8 main_cst_46 main_v183 ((fun x v => Host.reduceAdd x v reducesTo_S32x16x800_S32x800_d1 h_S_)),
    StableHlo.nullary main_cst_47 (constant S_ .f32 0x41800000#32),
    StableHlo.unary main_cst_47 main_v184 (broadcastInDim S32x800 ![] bcast_S_S32x800),
    StableHlo.binary main_v183 main_v184 main_v185 (Host.divf),
    StableHlo.reshape main_arg26 main_v186 rfl shapeCasts_S1_S_,
    StableHlo.unary main_v186 main_v187 (broadcastInDim S32x800 ![] bcast_S_S32x800),
    StableHlo.binary main_v185 main_v187 main_v188 (mulf),
    StableHlo.reshape main_arg27 main_v189 rfl shapeCasts_S1_S_ ]

abbrev ops4 : List (HloOp τ sig (Elt F)) :=
  [ StableHlo.unary main_v189 main_v190 (broadcastInDim S32x800 ![] bcast_S_S32x800),
    StableHlo.binary main_v188 main_v190 main_v191 (addf),
    StableHlo.TRef.nullary main_call10.cst (constant S_ .f32 0x00000000#32),
    StableHlo.TRef.unary main_call10.cst main_call10.v0 (broadcastInDim S32x800 ![] bcast_S_S32x800),
    StableHlo.TRef.binary (.of main_v191) main_call10.v0 main_call10.v1 maximumf,
    StableHlo.nullary main_cst_48 (constant S_ .f32 0x00000000#32),
    StableHlo.binary main_arg9 main_cst_48 main_v193 ((fun x v => Host.reduceAdd x v reducesTo_S32x16x800_S32x800_d1 h_S_)),
    StableHlo.nullary main_cst_49 (constant S_ .f32 0x41800000#32),
    StableHlo.unary main_cst_49 main_v194 (broadcastInDim S32x800 ![] bcast_S_S32x800),
    StableHlo.binary main_v193 main_v194 main_v195 (Host.divf),
    StableHlo.reshape main_arg28 main_v196 rfl shapeCasts_S1_S_,
    StableHlo.unary main_v196 main_v197 (broadcastInDim S32x800 ![] bcast_S_S32x800),
    StableHlo.binary main_v195 main_v197 main_v198 (mulf),
    StableHlo.reshape main_arg29 main_v199 rfl shapeCasts_S1_S_,
    StableHlo.unary main_v199 main_v200 (broadcastInDim S32x800 ![] bcast_S_S32x800),
    StableHlo.binary main_v198 main_v200 main_v201 (addf),
    StableHlo.TRef.nullary main_call11.cst (constant S_ .f32 0x00000000#32),
    StableHlo.TRef.unary main_call11.cst main_call11.v0 (broadcastInDim S32x800 ![] bcast_S_S32x800),
    StableHlo.TRef.binary (.of main_v201) main_call11.v0 main_call11.v1 maximumf,
    StableHlo.unary main_v192 main_v203 (broadcastInDim S32x1x800 ![0, 2] bcast_S32x800_S32x1x800_0_2),
    StableHlo.unary main_v202 main_v204 (broadcastInDim S32x1x800 ![0, 2] bcast_S32x800_S32x1x800_0_2),
    StableHlo.binary main_v203 main_v204 main_v205 ((fun a b => concatenate S32x2x800 1 [⟨S32x1x800, a⟩, ⟨S32x1x800, b⟩] concatenates_S32x1x800_S32x1x800_S32x2x800_d1)),
    StableHlo.reshape main_v205 main_v206 rfl shapeCasts_S32x2x800_S32x2x80x10,
    StableHlo.nullary main_cst_50 (constant S_ .f32 0x00000000#32),
    StableHlo.binary main_v206 main_cst_50 main_v207 ((fun x v => Host.reduceAdd x v reducesTo_S32x2x80x10_S32x2x80_d3 h_S_)),
    StableHlo.nullary main_cst_51 (constant S_ .f32 0x41200000#32),
    StableHlo.unary main_cst_51 main_v208 (broadcastInDim S32x2x80 ![] bcast_S_S32x2x80),
    StableHlo.binary main_v207 main_v208 main_v209 (Host.divf),
    StableHlo.nullary main_cst_52 (constant S_ .f32 0x00000000#32),
    StableHlo.binary main_v209 main_cst_52 main_v210 ((fun x v => Host.reduceAdd x v reducesTo_S32x2x80_S32x80_d1 h_S_)),
    StableHlo.nullary main_cst_53 (constant S_ .f32 0x40000000#32),
    StableHlo.unary main_cst_53 main_v211 (broadcastInDim S32x80 ![] bcast_S_S32x80),
    StableHlo.binary main_v210 main_v211 main_v212 (Host.divf),
    StableHlo.binary main_v212 main_arg32 main_v213 ((fun l r => Host.dotGeneral dot_S32x80_S80x64_S32x64_1_0_0_1_n_n none l r)),
    StableHlo.unary main_arg33 main_v214 (broadcastInDim S1x64 ![1] bcast_S64_S1x64_1),
    StableHlo.unary main_v214 main_v215 (broadcastInDim S32x64 ![0, 1] bcast_S1x64_S32x64_0_1),
    StableHlo.binary main_v213 main_v215 main_v216 (addf),
    StableHlo.nary ![main_v148, main_v182, main_v216] main_v217 (fun u => concatenate S32x192 1 [⟨S32x64, u 0⟩, ⟨S32x64, u 1⟩, ⟨S32x64, u 2⟩] concatenates_S32x64_S32x64_S32x64_S32x192_d1),
    StableHlo.binary main_v217 main_arg34 main_v218 ((fun l r => Host.dotGeneral dot_S32x192_S192x1_S32x1_1_0_0_1_n_n none l r)),
    StableHlo.unary main_arg35 main_v219 (broadcastInDim S1x1 ![1] bcast_S1_S1x1_1),
    StableHlo.unary main_v219 main_v220 (broadcastInDim S32x1 ![0, 1] bcast_S1x1_S32x1_0_1),
    StableHlo.binary main_v218 main_v220 main_v221 (addf),
    StableHlo.unary main_v221 main_v222 (Host.negf),
    StableHlo.unary main_v222 main_v223 (Host.exp),
    StableHlo.nullary main_cst_54 (constant S_ .f32 0x3F800000#32),
    StableHlo.unary main_cst_54 main_v224 (broadcastInDim S32x1 ![] bcast_S_S32x1),
    StableHlo.binary main_v224 main_v223 main_v225 (addf),
    StableHlo.nullary main_cst_55 (constant S_ .f32 0x3F800000#32),
    StableHlo.unary main_cst_55 main_v226 (broadcastInDim S32x1 ![] bcast_S_S32x1),
    StableHlo.binary main_v226 main_v225 main_v227 (Host.divf) ]

abbrev ops : List (HloOp τ sig (Elt F)) :=
  ops0 ++ (ops1 ++ (ops2 ++ (ops3 ++ ops4)))

def res (m : (ℓ : Loc nD τ sig) → Buf (Elt F) ℓ) (c : Dev nD) :=
  StableHlo.after ops (fun b => m (c, b)) (Proc.devRef .tc main_v227)

end Cert.ReferenceIdeal.Hand

end
-- ==== Proof.RF_Run.lean ====
import proofs.«416856_j87668872446200_2_alg».proof.Proof.RF_Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem main_part0_eq (c : Dev nD) : main_part0 (F := F) c = seq ops0 := rfl
theorem main_part1_eq (c : Dev nD) : main_part1 (F := F) c = seq ops1 := rfl
theorem main_part2_eq (c : Dev nD) : main_part2 (F := F) c = seq ops2 := rfl
theorem main_part3_eq (c : Dev nD) : main_part3 (F := F) c = seq ops3 := rfl
theorem main_part4_eq (c : Dev nD) : main_part4 (F := F) c = seq ops4 := rfl

theorem main_eq (c : Dev nD) : main (F := F) c = seq ops := by
  have h : main (F := F) c
      = (main_part0 c >>= fun _ => main_part1 c >>= fun _ => main_part2 c >>= fun _ => main_part3 c >>= fun _ => main_part4 c) := rfl
  rw [h, main_part0_eq, main_part1_eq, main_part2_eq, main_part3_eq, main_part4_eq]
  simp only [ops, seq_append]

abbrev args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31, main_arg32, main_arg33, main_arg34, main_arg35]

structure Plain (op : HloOp τ sig (Elt F)) : Prop where
  sub : op.bufs ⊆ tcRefs τ sig
  fresh : op.fresh = ∅
  writes : ∃ y : Ref sig .tc, op.writes = {Proc.devRef .tc y} ∧ y ∉ args

section Builders

variable (x a b c y : Ref sig .tc)

theorem plain_nullary (v : y.ty.Contents (Elt F)) (hy) (h : y ∉ args) : Plain (nullary (τ := τ) y v hy) :=
  ⟨nullary_bufs_sub .., rfl, ⟨y, rfl, h⟩⟩
theorem plain_unary (f : x.ty.Contents (Elt F) → y.ty.Contents (Elt F)) (hx hy) (h : y ∉ args) :
    Plain (unary (τ := τ) x y f hx hy) :=
  ⟨unary_bufs_sub .., rfl, ⟨y, rfl, h⟩⟩
theorem plain_binary (f : a.ty.Contents (Elt F) → b.ty.Contents (Elt F) → y.ty.Contents (Elt F)) (ha hb hy) (h : y ∉ args) :
    Plain (binary (τ := τ) a b y f ha hb hy) :=
  ⟨binary_bufs_sub .., rfl, ⟨y, rfl, h⟩⟩
theorem plain_ternary (f : c.ty.Contents (Elt F) → a.ty.Contents (Elt F) → b.ty.Contents (Elt F) → y.ty.Contents (Elt F))
    (hc ha hb hy) (h : y ∉ args) : Plain (ternary (τ := τ) c a b y f hc ha hb hy) :=
  ⟨ternary_bufs_sub .., rfl, ⟨y, rfl, h⟩⟩
theorem plain_reshape (he hn hx hy) (h : y ∉ args) : Plain (reshape (τ := τ) (Val := Elt F) x y he hn hx hy) :=
  ⟨reshape_bufs_sub .., rfl, ⟨y, rfl, h⟩⟩
theorem plain_nary {n : Nat} (xs : Fin n → Ref sig .tc) (f : ((k : Fin n) → (xs k).ty.Contents (Elt F)) → y.ty.Contents (Elt F))
    (hxs hy) (h : y ∉ args) : Plain (nary (τ := τ) xs y f hxs hy) :=
  ⟨nary_bufs_sub .., rfl, ⟨y, rfl, h⟩⟩

end Builders

local macro "plain_op" : tactic =>
  `(tactic| with_reducible first
      | exact plain_nullary _ _ _ (by decide) | exact plain_unary _ _ _ _ _ (by decide)
      | exact plain_binary _ _ _ _ _ _ _ (by decide) | exact plain_ternary _ _ _ _ _ _ _ _ _ (by decide)
      | exact plain_reshape _ _ _ _ _ _ (by decide) | exact plain_nary _ _ _ _ _ (by decide))

local macro "plain_ops" : tactic =>
  `(tactic| ((repeat' apply And.intro); all_goals (show Plain _; plain_op)))

theorem ops0_plain : (ops0 : List (HloOp τ sig (Elt F))).Forall Plain := by plain_ops
theorem ops1_plain : (ops1 : List (HloOp τ sig (Elt F))).Forall Plain := by plain_ops
theorem ops2_plain : (ops2 : List (HloOp τ sig (Elt F))).Forall Plain := by plain_ops
theorem ops3_plain : (ops3 : List (HloOp τ sig (Elt F))).Forall Plain := by plain_ops
theorem ops4_plain : (ops4 : List (HloOp τ sig (Elt F))).Forall Plain := by plain_ops

theorem ops_plain : (ops : List (HloOp τ sig (Elt F))).Forall Plain :=
  List.forall_append.2 ⟨ops0_plain, List.forall_append.2 ⟨ops1_plain, List.forall_append.2 ⟨ops2_plain,
    List.forall_append.2 ⟨ops3_plain, ops4_plain⟩⟩⟩⟩

theorem ops_sub : (ops : List (HloOp τ sig (Elt F))).Forall fun op => op.bufs ⊆ tcRefs τ sig :=
  ops_plain.imp fun _ h => h.sub

theorem ops_fresh : ∀ op ∈ (ops : List (HloOp τ sig (Elt F))), op.fresh = ∅ :=
  fun op h => (List.forall_iff_forall_mem.1 ops_plain op h).fresh

theorem ops_keep (V : Valuation τ sig (Elt F)) {r : Ref sig .tc} (hr : r ∈ args) :
    after ops V (Proc.devRef .tc r) = V (Proc.devRef .tc r) :=
  after_of_forall_not_mem ops V fun op hop hb => by
    obtain ⟨y, hw, hy⟩ := (List.forall_iff_forall_mem.1 ops_plain op hop).writes
    rw [hw, Finset.mem_singleton] at hb
    exact hy (Proc.devRef_injective _ hb ▸ hr)

theorem scopedRefs_eq : (Finset.univ.filter fun b : Ref sig .tc => b.isScoped) = ∅ := by decide
theorem scopedSems_eq : (Finset.univ.filter fun sm : SemLoc sig => sm.isScoped .tc) = ∅ := by decide

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v227) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  (θ_run defs _ _).mono (fun _ h c => by
      refine ⟨h c main_v227, ?_⟩
      repeat' apply And.intro
      all_goals exact (h c _).trans (ops_keep _ (by decide)))
    (run_seq scopedRefs_eq scopedSems_eq defs main (fun _ => ops) main_eq (fun _ => ops_sub) m ρ (fun _ => ops_fresh))

end Cert.ReferenceIdeal.Hand

end
-- ==== Proof.RF_Segs.lean ====
import proofs.«416856_j87668872446200_2_alg».proof.Proof.RF_Ops
import proofs.«416856_j87668872446200_2_alg».proof.Proof.RF_Stages

noncomputable section

namespace Cert.ReferenceIdeal.HandValue

open Cert.ReferenceIdeal Cert.ReferenceIdeal.Gen Cert.ReferenceIdeal.Hand Idealize.ShloMosaic Idealize.ShloMosaic.TcCoe Idealize.SL.Sem Idealize.ShloMosaic.StableHlo
open Cert.RefStages

abbrev seg (a n : Nat) : List (HloOp τ sig (Elt Ideal)) := ((ops (F := Ideal)).drop a).take n

set_option maxRecDepth 100000 in
theorem segA1 (W : Valuation τ sig (Elt Ideal)) :
    after (seg 0 63) W (Proc.devRef .tc main_v47)
      = agg (xw (W (Proc.devRef .tc main_arg0)) (W (Proc.devRef .tc main_arg10))) (W (Proc.devRef .tc main_arg1)) := by
  simp only [seg, ops, ops0, ops1, ops2, ops3, ops4, List.cons_append, List.nil_append, List.drop_succ_cons, List.drop_zero,
    List.take_succ_cons, List.take_zero]
  after_results_simp
  rfl

theorem segB1 (W : Valuation τ sig (Elt Ideal)) :
    after (seg 63 39) W (Proc.devRef .tc main_v68)
      = head (pool (hrel (W (Proc.devRef .tc main_v47)) (W (Proc.devRef .tc main_arg11))) (W (Proc.devRef .tc main_arg2))) (W (Proc.devRef .tc main_arg14)) (W (Proc.devRef .tc main_arg15)) := by
  simp only [seg, ops, ops0, ops1, ops2, ops3, ops4, List.cons_append, List.nil_append, List.drop_succ_cons, List.drop_zero,
    List.take_succ_cons, List.take_zero]
  after_results_simp
  rfl

set_option maxRecDepth 100000 in
theorem segA2 (W : Valuation τ sig (Elt Ideal)) :
    after (seg 102 63) W (Proc.devRef .tc main_v116)
      = agg (xw (W (Proc.devRef .tc main_arg3)) (W (Proc.devRef .tc main_arg12))) (W (Proc.devRef .tc main_arg4)) := by
  simp only [seg, ops, ops0, ops1, ops2, ops3, ops4, List.cons_append, List.nil_append, List.drop_succ_cons, List.drop_zero,
    List.take_succ_cons, List.take_zero]
  after_results_simp
  rfl

theorem segB2 (W : Valuation τ sig (Elt Ideal)) :
    after (seg 165 39) W (Proc.devRef .tc main_v137)
      = head (pool (hrel (W (Proc.devRef .tc main_v116)) (W (Proc.devRef .tc main_arg13))) (W (Proc.devRef .tc main_arg5))) (W (Proc.devRef .tc main_arg16)) (W (Proc.devRef .tc main_arg17)) := by
  simp only [seg, ops, ops0, ops1, ops2, ops3, ops4, List.cons_append, List.nil_append, List.drop_succ_cons, List.drop_zero,
    List.take_succ_cons, List.take_zero]
  after_results_simp
  rfl

theorem segT (W : Valuation τ sig (Elt Ideal)) :
    after (seg 204 25) W (Proc.devRef .tc main_v148)
      = trunk (W (Proc.devRef .tc main_v68)) (W (Proc.devRef .tc main_v137)) (W (Proc.devRef .tc main_arg18)) (W (Proc.devRef .tc main_arg19)) (W (Proc.devRef .tc main_arg20)) (W (Proc.devRef .tc main_arg21)) := by
  simp only [seg, ops, ops0, ops1, ops2, ops3, ops4, List.cons_append, List.nil_append, List.drop_succ_cons, List.drop_zero,
    List.take_succ_cons, List.take_zero]
  after_results_simp
  rfl

theorem segM1 (W : Valuation τ sig (Elt Ideal)) :
    after (seg 229 46) W (Proc.devRef .tc main_v182)
      = masif (W (Proc.devRef .tc main_arg6)) (W (Proc.devRef .tc main_arg7)) (W (Proc.devRef .tc main_arg22)) (W (Proc.devRef .tc main_arg23)) (W (Proc.devRef .tc main_arg24)) (W (Proc.devRef .tc main_arg25)) (W (Proc.devRef .tc main_arg30)) (W (Proc.devRef .tc main_arg31)) := by
  simp only [seg, ops, ops0, ops1, ops2, ops3, ops4, List.cons_append, List.nil_append, List.drop_succ_cons, List.drop_zero,
    List.take_succ_cons, List.take_zero]
  after_results_simp
  rfl

theorem segM2 (W : Valuation τ sig (Elt Ideal)) :
    after (seg 275 46) W (Proc.devRef .tc main_v216)
      = masif (W (Proc.devRef .tc main_arg8)) (W (Proc.devRef .tc main_arg9)) (W (Proc.devRef .tc main_arg26)) (W (Proc.devRef .tc main_arg27)) (W (Proc.devRef .tc main_arg28)) (W (Proc.devRef .tc main_arg29)) (W (Proc.devRef .tc main_arg32)) (W (Proc.devRef .tc main_arg33)) := by
  simp only [seg, ops, ops0, ops1, ops2, ops3, ops4, List.cons_append, List.nil_append, List.drop_succ_cons, List.drop_zero,
    List.take_succ_cons, List.take_zero]
  after_results_simp
  rfl

theorem segFn (W : Valuation τ sig (Elt Ideal)) :
    after ((ops (F := Ideal)).drop 321) W (Proc.devRef .tc main_v227)
      = final (W (Proc.devRef .tc main_v148)) (W (Proc.devRef .tc main_v182)) (W (Proc.devRef .tc main_v216)) (W (Proc.devRef .tc main_arg34)) (W (Proc.devRef .tc main_arg35)) := by
  simp only [seg, ops, ops0, ops1, ops2, ops3, ops4, List.cons_append, List.nil_append, List.drop_succ_cons, List.drop_zero,
    List.take_succ_cons, List.take_zero]
  after_results_simp
  rfl

theorem keepA2_v68 (W : Valuation τ sig (Elt Ideal)) :
    after (seg 102 63) W (Proc.devRef .tc main_v68) = (W (Proc.devRef .tc main_v68)) := by
  simp only [seg, ops, ops0, ops1, ops2, ops3, ops4, List.cons_append, List.nil_append, List.drop_succ_cons, List.drop_zero,
    List.take_succ_cons, List.take_zero]
  after_results_simp

theorem keepB2_v68 (W : Valuation τ sig (Elt Ideal)) :
    after (seg 165 39) W (Proc.devRef .tc main_v68) = (W (Proc.devRef .tc main_v68)) := by
  simp only [seg, ops, ops0, ops1, ops2, ops3, ops4, List.cons_append, List.nil_append, List.drop_succ_cons, List.drop_zero,
    List.take_succ_cons, List.take_zero]
  after_results_simp

theorem keepM1_v148 (W : Valuation τ sig (Elt Ideal)) :
    after (seg 229 46) W (Proc.devRef .tc main_v148) = (W (Proc.devRef .tc main_v148)) := by
  simp only [seg, ops, ops0, ops1, ops2, ops3, ops4, List.cons_append, List.nil_append, List.drop_succ_cons, List.drop_zero,
    List.take_succ_cons, List.take_zero]
  after_results_simp

theorem keepM2_v148 (W : Valuation τ sig (Elt Ideal)) :
    after (seg 275 46) W (Proc.devRef .tc main_v148) = (W (Proc.devRef .tc main_v148)) := by
  simp only [seg, ops, ops0, ops1, ops2, ops3, ops4, List.cons_append, List.nil_append, List.drop_succ_cons, List.drop_zero,
    List.take_succ_cons, List.take_zero]
  after_results_simp

theorem keepM2_v182 (W : Valuation τ sig (Elt Ideal)) :
    after (seg 275 46) W (Proc.devRef .tc main_v182) = (W (Proc.devRef .tc main_v182)) := by
  simp only [seg, ops, ops0, ops1, ops2, ops3, ops4, List.cons_append, List.nil_append, List.drop_succ_cons, List.drop_zero,
    List.take_succ_cons, List.take_zero]
  after_results_simp

theorem writes_ge : ∀ op ∈ (ops (F := Ideal)), ∀ b ∈ op.writes, 36 ≤ b.idx.val := by
  simp only [ops, ops0, ops1, ops2, ops3, ops4, List.cons_append, List.nil_append, List.forall_mem_cons, List.not_mem_nil,
    IsEmpty.forall_iff, implies_true, and_true, nullary_writes, unary_writes, binary_writes, ternary_writes, reshape_writes,
    nary_writes, Finset.mem_singleton, forall_eq]
  repeat' apply And.intro
  all_goals decide

end Cert.ReferenceIdeal.HandValue

end
-- ==== Proof.RF_Value.lean ====
import proofs.«416856_j87668872446200_2_alg».proof.Proof.RF_Segs

noncomputable section

namespace Cert.ReferenceIdeal.HandValue

open Cert.ReferenceIdeal Cert.ReferenceIdeal.Gen Cert.ReferenceIdeal.Hand Idealize.ShloMosaic Idealize.ShloMosaic.TcCoe Idealize.SL.Sem Idealize.ShloMosaic.StableHlo
open Cert.RefStages

theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih _

theorem take_step (l : List (HloOp τ sig (Elt Ideal))) (a n b : Nat) (h : a + n = b) (V : Valuation τ sig (Elt Ideal)) :
    after (l.take b) V = after ((l.drop a).take n) (after (l.take a) V) := by
  subst h; rw [List.take_add, after_app]

theorem drop_step (l : List (HloOp τ sig (Elt Ideal))) (a : Nat) (V : Valuation τ sig (Elt Ideal)) :
    after l V = after (l.drop a) (after (l.take a) V) := by
  conv_lhs => rw [← List.take_append_drop a l]
  exact after_app _ _ _

theorem take_arg (a : Nat) (V : Valuation τ sig (Elt Ideal)) (b : DevRef τ sig) (hb : b.idx.val < 36) :
    after ((ops (F := Ideal)).take a) V b = V b :=
  after_of_forall_not_mem _ V fun op hop hmem =>
    absurd (writes_ge op (List.mem_of_mem_take hop) b hmem) (Nat.not_le.mpr hb)

theorem res_eq (m : (ℓ : Loc nD τ sig) → Buf (Elt Ideal) ℓ) (c : Dev nD) :
    Cert.ReferenceIdeal.Hand.res (F := Ideal) m c
      = final
        (trunk
          (head (pool (hrel (agg (xw (m ((c.tc : Thread nD τ).loc main_arg0)) (m ((c.tc : Thread nD τ).loc main_arg10))) (m ((c.tc : Thread nD τ).loc main_arg1))) (m ((c.tc : Thread nD τ).loc main_arg11))) (m ((c.tc : Thread nD τ).loc main_arg2))) (m ((c.tc : Thread nD τ).loc main_arg14)) (m ((c.tc : Thread nD τ).loc main_arg15)))
          (head (pool (hrel (agg (xw (m ((c.tc : Thread nD τ).loc main_arg3)) (m ((c.tc : Thread nD τ).loc main_arg12))) (m ((c.tc : Thread nD τ).loc main_arg4))) (m ((c.tc : Thread nD τ).loc main_arg13))) (m ((c.tc : Thread nD τ).loc main_arg5))) (m ((c.tc : Thread nD τ).loc main_arg16)) (m ((c.tc : Thread nD τ).loc main_arg17)))
          (m ((c.tc : Thread nD τ).loc main_arg18)) (m ((c.tc : Thread nD τ).loc main_arg19)) (m ((c.tc : Thread nD τ).loc main_arg20)) (m ((c.tc : Thread nD τ).loc main_arg21)))
        (masif (m ((c.tc : Thread nD τ).loc main_arg6)) (m ((c.tc : Thread nD τ).loc main_arg7)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg30)) (m ((c.tc : Thread nD τ).loc main_arg31)))
        (masif (m ((c.tc : Thread nD τ).loc main_arg8)) (m ((c.tc : Thread nD τ).loc main_arg9)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg32)) (m ((c.tc : Thread nD τ).loc main_arg33)))
        (m ((c.tc : Thread nD τ).loc main_arg34)) (m ((c.tc : Thread nD τ).loc main_arg35)) := by
  let V0 : Valuation τ sig (Elt Ideal) := fun b => m (c, b)
  have A (a : Nat) (r : Ref sig .tc) (hr : (Proc.devRef (τ := τ) .tc r).idx.val < 36 := by decide) :
      after ((ops (F := Ideal)).take a) V0 (Proc.devRef .tc r) = V0 (Proc.devRef .tc r) := take_arg a V0 _ hr
  show after (ops (F := Ideal)) V0 (Proc.devRef .tc main_v227) = _
  rw [drop_step _ 321, segFn, A 321 main_arg34, A 321 main_arg35,
    take_step _ 275 46 321 rfl, keepM2_v148, keepM2_v182, segM2, A 275 main_arg8, A 275 main_arg9, A 275 main_arg26, A 275 main_arg27,
    A 275 main_arg28, A 275 main_arg29, A 275 main_arg32, A 275 main_arg33,
    take_step _ 229 46 275 rfl, keepM1_v148, segM1, A 229 main_arg6, A 229 main_arg7, A 229 main_arg22, A 229 main_arg23,
    A 229 main_arg24, A 229 main_arg25, A 229 main_arg30, A 229 main_arg31,
    take_step _ 204 25 229 rfl, segT, A 204 main_arg18, A 204 main_arg19, A 204 main_arg20, A 204 main_arg21,
    take_step _ 165 39 204 rfl, keepB2_v68, segB2, A 165 main_arg13, A 165 main_arg5, A 165 main_arg16, A 165 main_arg17,
    take_step _ 102 63 165 rfl, keepA2_v68, segA2, A 102 main_arg3, A 102 main_arg12, A 102 main_arg4,
    take_step _ 63 39 102 rfl, segB1, A 63 main_arg11, A 63 main_arg2, A 63 main_arg14, A 63 main_arg15,
    take_step _ 0 63 63 rfl, List.take_zero, after_nil, segA1]

end Cert.ReferenceIdeal.HandValue

end
-- ==== Proof.lean ====
/-
  The network. Two graph branches: X · W, the neighbourhood sum with one self loop per node weighted by
  1 / sqrt(degree) at both ends, a bias row, the leaky rectifier, the mean of each of 32 segments' rows, a dense
  layer. A trunk of two dense layers over the two branches side by side. Two surface branches: the mean over 16
  samples, a scalar weight and bias, the rectifier, means over blocks of ten positions and over the pair, a dense
  layer. The three parts side by side, a last product with a bias, and the logistic function.
  At the extended reals the kernel program and the reference both end at one function of their thirty-six
  arguments (RefStages.result): products taken block by block and products with one-hot matrices are the
  reference's sums regrouped, and no step needs a finite input. Every run leaves the argument arrays unchanged.
-/
import proofs.«416856_j87668872446200_2_alg».proof.Defs
import proofs.«416856_j87668872446200_2_alg».proof.Proof.Gen.Kernel
import proofs.«416856_j87668872446200_2_alg».proof.Proof.Gen.KernelIdeal
import proofs.«416856_j87668872446200_2_alg».proof.Proof.Gen.ReferenceIdeal
import proofs.«416856_j87668872446200_2_alg».proof.Proof.Gen.Pre_finite_inputs
import proofs.«416856_j87668872446200_2_alg».proof.Proof.K_Run
import proofs.«416856_j87668872446200_2_alg».proof.Proof.KI_Value
import proofs.«416856_j87668872446200_2_alg».proof.Proof.RF_Run
import proofs.«416856_j87668872446200_2_alg».proof.Proof.RF_Value

noncomputable section

namespace Cert.Proof

open Idealize.ShloMosaic Idealize.SL.Sem

/-- Both runs end at RefStages.result of their own arguments; the memories agree on the arguments. -/
theorem algebraic : Cert.algebraic_KernelIdeal_ReferenceIdeal := by
  intro m g m' g' _ hagree
  refine ⟨_, Cert.KernelIdeal.Hand.run_value m g, ?_⟩
  refine (θ_run (Cert.ReferenceIdeal.defs (F := Ideal)) _ _).mono (fun r h c => ⟨(h c).1.trans ?_, (h c).2⟩)
    (Cert.ReferenceIdeal.Hand.run m' g')
  obtain ⟨h0, h1, h2, h3, h4, h5, h6, h7, h8, h9, h10, h11, h12, h13, h14, h15, h16, h17, h18, h19, h20, h21, h22, h23, h24, h25, h26, h27, h28, h29, h30, h31, h32, h33, h34, h35⟩ := hagree c
  rw [Cert.ReferenceIdeal.HandValue.res_eq m' c, Cert.KernelIdeal.Val.kernel_result m c]
  unfold Cert.RefStages.result Cert.RefStages.branch
  rw [h0, h1, h2, h3, h4, h5, h6, h7, h8, h9, h10, h11, h12, h13, h14, h15, h16, h17, h18, h19, h20, h21, h22, h23, h24, h25, h26, h27, h28, h29, h30, h31, h32, h33, h34, h35]

theorem claim : Cert.Claim :=
  ⟨Cert.Kernel.Gen.facts, Cert.KernelIdeal.Gen.facts, Cert.ReferenceIdeal.Gen.facts, Cert.Pre_finite_inputs.Gen.facts,
    fun m ρ _ => (θ_run Cert.Kernel.defs _ _).mono (fun _ h c => (h c).2) (Cert.Kernel.Hand.run_value m ρ),
    fun m ρ _ => (θ_run Cert.KernelIdeal.defs _ _).mono (fun _ h c => (h c).2) (Cert.KernelIdeal.Hand.run_value m ρ),
    fun m ρ _ => (θ_run Cert.ReferenceIdeal.defs _ _).mono (fun _ h c => (h c).2) (Cert.ReferenceIdeal.Hand.run m ρ),
    trivial, algebraic⟩

end Cert.Proof

end
